-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_1000000000000000000000000000000" .f32 0x0DA24260#32 ((1 / 1000000000000000000000000000000 : ℝ) : EReal)
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "inv_1000000000000000000000000000000" .f32 0x0DA24260#32 ((1 / 1000000000000000000000000000000 : ℝ) : EReal)
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S2002x1024 : Shape := ⟨2, ![2002, 1024]⟩
abbrev S8000x256 : Shape := ⟨2, ![8000, 256]⟩
abbrev S1024x256 : Shape := ⟨2, ![1024, 256]⟩
abbrev S40257x64 : Shape := ⟨2, ![40257, 64]⟩
abbrev S1024x64 : Shape := ⟨2, ![1024, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2002x1024 : S_.BroadcastsInDim S2002x1024 (![] : Fin 0 → Fin S2002x1024.rank)
  reducesTo_S2002x1024_S_d0_1 : S2002x1024.ReducesTo [0, 1] S_
  bcast_S_S8000x256 : S_.BroadcastsInDim S8000x256 (![] : Fin 0 → Fin S8000x256.rank)
  reducesTo_S8000x256_S_d0_1 : S8000x256.ReducesTo [0, 1] S_
  bcast_S_S1024x256 : S_.BroadcastsInDim S1024x256 (![] : Fin 0 → Fin S1024x256.rank)
  reducesTo_S1024x256_S_d0_1 : S1024x256.ReducesTo [0, 1] S_
  bcast_S_S40257x64 : S_.BroadcastsInDim S40257x64 (![] : Fin 0 → Fin S40257x64.rank)
  reducesTo_S40257x64_S_d0_1 : S40257x64.ReducesTo [0, 1] S_
  bcast_S_S1024x64 : S_.BroadcastsInDim S1024x64 (![] : Fin 0 → Fin S1024x64.rank)
  reducesTo_S1024x64_S_d0_1 : S1024x64.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg1 : IVec S4096 32) (main_v32 : IVec S_ 1) (main_c_12 : IVec S_ 32) : IVec S_ 1 :=
  let main_v33 : IVec S4096 32 := broadcastInDim S4096 ![] bcast_S_S4096 main_c_12
  let main_v34 : IVec S4096 1 := cmpi .slt main_arg1 main_v33
  let main_c_13 : IVec S_ 1 := constantI S_ 1 1#1
  let main_v35 : IVec S_ 1 := (fun x v => Host.reduce IntOp.andi x v reducesTo_S4096_S_d0 h_S_) main_v34 main_c_13
  let main_v36 : IVec S_ 1 := andi main_v32 main_v35
  main_v36

def fn_part1 {F : FTy → Type} [FloatOps F] (main_arg1 : IVec S4096 32) (main_arg5 : FVec F S40257x64 .f32) (main_arg6 : FVec F S1024x64 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S40257x64 .f32 := Host.absf main_arg5
  let main_cst_6 : FVec F S_ .f32 := constant S_ .f32 0x7F800000#32
  let main_v20 : FVec F S40257x64 .f32 := broadcastInDim S40257x64 ![] bcast_S_S40257x64 main_cst_6
  let main_v21 : IVec S40257x64 1 := cmpf .olt main_v19 main_v20
  let main_c_7 : IVec S_ 1 := constantI S_ 1 1#1
  let main_v22 : IVec S_ 1 := (fun x v => Host.reduce IntOp.andi x v reducesTo_S40257x64_S_d0_1 h_S_) main_v21 main_c_7
  let main_v23 : IVec S_ 1 := andi main_v18 main_v22
  let main_v24 : FVec F S1024x64 .f32 := Host.absf main_arg6
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_c_10 : IVec S_ 32 := constantI S_ 32 0#32
  let main_v29 : IVec S4096 32 := broadcastInDim S4096 ![] bcast_S_S4096 main_c_10
  let main_v30 : IVec S4096 1 := cmpi .sge main_arg1 main_v29
  let main_c_11 : IVec S_ 1 := constantI S_ 1 1#1
  let main_v31 : IVec S_ 1 := (fun x v => Host.reduce IntOp.andi x v reducesTo_S4096_S_d0 h_S_) main_v30 main_c_11
  let main_v32 : IVec S_ 1 := andi main_v28 main_v31
  let main_c_12 : IVec S_ 32 := constantI S_ 32 50257#32
  fn_part2 (F := F) main_arg1 main_v32 main_c_12

def fn {F : FTy → Type} [FloatOps F] (main_arg0 : FVec F S4096x1024 .f32) (main_arg1 : IVec S4096 32) (main_arg2 : FVec F S2002x1024 .f32) (main_arg3 : FVec F S8000x256 .f32) (main_arg4 : FVec F S1024x256 .f32) (main_arg5 : FVec F S40257x64 .f32) (main_arg6 : FVec F S1024x64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2002x1024 .f32 := Host.absf main_arg2
  let main_cst_0 : FVec F S_ .f32 := constant S_ .f32 0x7F800000#32
  let main_v5 : FVec F S2002x1024 .f32 := broadcastInDim S2002x1024 ![] bcast_S_S2002x1024 main_cst_0
  let main_v6 : IVec S2002x1024 1 := cmpf .olt main_v4 main_v5
  let main_c_1 : IVec S_ 1 := constantI S_ 1 1#1
  let main_v7 : IVec S_ 1 := (fun x v => Host.reduce IntOp.andi x v reducesTo_S2002x1024_S_d0_1 h_S_) main_v6 main_c_1
  let main_v8 : IVec S_ 1 := andi main_v3 main_v7
  let main_v9 : FVec F S8000x256 .f32 := Host.absf main_arg3
  let main_cst_2 : FVec F S_ .f32 := constant S_ .f32 0x7F800000#32
  let main_v10 : FVec F S8000x256 .f32 := broadcastInDim S8000x256 ![] bcast_S_S8000x256 main_cst_2
  let main_v11 : IVec S8000x256 1 := cmpf .olt main_v9 main_v10
  let main_c_3 : IVec S_ 1 := constantI S_ 1 1#1
  let main_v12 : IVec S_ 1 := (fun x v => Host.reduce IntOp.andi x v reducesTo_S8000x256_S_d0_1 h_S_) main_v11 main_c_3
  let main_v13 : IVec S_ 1 := andi main_v8 main_v12
  let main_v14 : FVec F S1024x256 .f32 := Host.absf main_arg4
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg1 main_arg5 main_arg6 main_v13 main_v16
-- ==== Kernel.lean ====
abbrev S4096x1024 : Shape := ⟨2, ![4096, 1024]⟩
abbrev S4096 : Shape := ⟨1, ![4096]⟩
abbrev S2002x1024 : Shape := ⟨2, ![2002, 1024]⟩
abbrev S8000x256 : Shape := ⟨2, ![8000, 256]⟩
abbrev S1024x256 : Shape := ⟨2, ![1024, 256]⟩
abbrev S40257x64 : Shape := ⟨2, ![40257, 64]⟩
abbrev S1024x64 : Shape := ⟨2, ![1024, 64]⟩
abbrev S4096x1 : Shape := ⟨2, ![4096, 1]⟩
abbrev S_ : Shape := ⟨0, ![]⟩
abbrev S8192x256 : Shape := ⟨2, ![8192, 256]⟩
abbrev S40960x64 : Shape := ⟨2, ![40960, 64]⟩
abbrev S64x40960 : Shape := ⟨2, ![64, 40960]⟩
abbrev S4096x256 : Shape := ⟨2, ![4096, 256]⟩
abbrev S4096x64 : Shape := ⟨2, ![4096, 64]⟩
abbrev S512x1024 : Shape := ⟨2, ![512, 1024]⟩
abbrev S512x1 : Shape := ⟨2, ![512, 1]⟩
abbrev S512x256 : Shape := ⟨2, ![512, 256]⟩
abbrev S512x64 : Shape := ⟨2, ![512, 64]⟩
abbrev S512x2002 : Shape := ⟨2, ![512, 2002]⟩
abbrev S512 : Shape := ⟨1, ![512]⟩
abbrev S512x4096 : Shape := ⟨2, ![512, 4096]⟩
abbrev S64x4096 : Shape := ⟨2, ![64, 4096]⟩

abbrev nBuf : Space → Nat
  | .hbm => 33
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S2002x1024, .f32⟩
  | .hbm, ⟨3, _⟩ => ⟨S8000x256, .f32⟩
  | .hbm, ⟨4, _⟩ => ⟨S1024x256, .f32⟩
  | .hbm, ⟨5, _⟩ => ⟨S40257x64, .f32⟩
  | .hbm, ⟨6, _⟩ => ⟨S1024x64, .f32⟩
  | .hbm, ⟨7, _⟩ => ⟨S4096x1, .i32⟩
  | .hbm, ⟨8, _⟩ => ⟨S2002x1024, .bf16⟩
  | .hbm, ⟨9, _⟩ => ⟨S1024x256, .bf16⟩
  | .hbm, ⟨10, _⟩ => ⟨S1024x64, .bf16⟩
  | .hbm, ⟨11, _⟩ => ⟨S_, .i32⟩
  | .hbm, ⟨12, _⟩ => ⟨S_, .f32⟩
  | .hbm, ⟨13, _⟩ => ⟨S8192x256, .f32⟩
  | .hbm, ⟨14, _⟩ => ⟨S8192x256, .bf16⟩
  | .hbm, ⟨15, _⟩ => ⟨S_, .i32⟩
  | .hbm, ⟨16, _⟩ => ⟨S_, .f32⟩
  | .hbm, ⟨17, _⟩ => ⟨S40960x64, .f32⟩
  | .hbm, ⟨18, _⟩ => ⟨S64x40960, .f32⟩
  | .hbm, ⟨19, _⟩ => ⟨S64x40960, .bf16⟩
  | .hbm, ⟨20, _⟩ => ⟨S4096x1, .f32⟩
  | .hbm, ⟨21, _⟩ => ⟨S4096x256, .bf16⟩
  | .hbm, ⟨22, _⟩ => ⟨S4096x64, .bf16⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S2002x1024, .bf16⟩
  | .local _ .vmem, ⟨3, _⟩ => ⟨S1024x256, .bf16⟩
  | .local _ .vmem, ⟨4, _⟩ => ⟨S1024x64, .bf16⟩
  | .local _ .vmem, ⟨5, _⟩ => ⟨S512x1, .i32⟩
  | .local _ .vmem, ⟨6, _⟩ => ⟨S512x1, .i32⟩
  | .local _ .vmem, ⟨7, _⟩ => ⟨S512x1, .f32⟩
  | .local _ .vmem, ⟨8, _⟩ => ⟨S512x1, .f32⟩
  | .local _ .vmem, ⟨9, _⟩ => ⟨S512x256, .bf16⟩
  | .local _ .vmem, ⟨10, _⟩ => ⟨S512x256, .bf16⟩
  | .local _ .vmem, ⟨11, _⟩ => ⟨S512x64, .bf16⟩
  | .local _ .vmem, ⟨12, _⟩ => ⟨S512x64, .bf16⟩
  | .local _ .vmem, ⟨13, _⟩ => ⟨S512x256, .bf16⟩
  | .local _ .vmem, ⟨14, _⟩ => ⟨S512x256, .bf16⟩
  | .local _ .vmem, ⟨15, _⟩ => ⟨S8192x256, .bf16⟩
  | .local _ .vmem, ⟨16, _⟩ => ⟨S512x1, .i32⟩
  | .local _ .vmem, ⟨17, _⟩ => ⟨S512x1, .i32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x64, .bf16⟩
  | .local _ .vmem, ⟨24, _⟩ => ⟨S512x64, .bf16⟩
  | .local _ .vmem, ⟨25, _⟩ => ⟨S64x40960, .bf16⟩
  | .local _ .vmem, ⟨26, _⟩ => ⟨S512x1, .i32⟩
  | .local _ .vmem, ⟨27, _⟩ => ⟨S512x1, .i32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_scratch0 : Ref sig .tc := ⟨.vmem, 30, rfl⟩
abbrev cc2_scratch1 : Ref sig .tc := ⟨.vmem, 31, rfl⟩
abbrev cc2_scratch2 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2002x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 2], ![false, false]⟩

def k1_mult1 (i : grid1.Coords) : BitVec 32 :=
  let arg1 : BitVec 32 := BitVec.ofNat 32 (i 1).val
  let c4096_i32 : BitVec 32 := 4096#32
  let v16 : BitVec 32 := Scalar.muli arg1 c4096_i32
  v16
def k1_off1 (i : grid1.Coords) : Fin 2 → Nat :=
  let arg1 : BitVec 32 := BitVec.ofNat 32 (i 1).val
  let c4096_i32 : BitVec 32 := 4096#32
  let v16 : BitVec 32 := Scalar.muli arg1 c4096_i32
  let v17 : BitVec 32 := v16
  let v20 : Index := Scalar.indexCast v17
  let c0_6 : Index := 0#32
  ![v20.toNat, 0]
def k1_cond2 (i : grid1.Coords) : BitVec 1 :=
  let arg1 : BitVec 32 := BitVec.ofNat 32 (i 1).val
  let c1_i32 : BitVec 32 := 1#32
  let v66 : BitVec 1 := Scalar.cmpi .eq arg1 c1_i32
  let v67 : BitVec 32 := Scalar.extui v66
  let c0_i32_27 : BitVec 32 := 0#32
  let v68 : BitVec 1 := Scalar.cmpi .ne v67 c0_i32_27
  v68

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 10], ![false, false]⟩

def k2_mult1 (i : grid2.Coords) : BitVec 32 :=
  let arg1 : BitVec 32 := BitVec.ofNat 32 (i 1).val
  let c4096_i32 : BitVec 32 := 4096#32
  let v16 : BitVec 32 := Scalar.muli arg1 c4096_i32
  v16
def k2_off1 (i : grid2.Coords) : Fin 2 → Nat :=
  let c0_6 : Index := 0#32
  let arg1 : BitVec 32 := BitVec.ofNat 32 (i 1).val
  let c4096_i32 : BitVec 32 := 4096#32
  let v16 : BitVec 32 := Scalar.muli arg1 c4096_i32
  let v17 : BitVec 32 := v16
  let v20 : Index := Scalar.indexCast v17
  ![0, v20.toNat]
def k2_cond2 (i : grid2.Coords) : BitVec 1 :=
  let arg1 : BitVec 32 := BitVec.ofNat 32 (i 1).val
  let c9_i32 : BitVec 32 := 9#32
  let v66 : BitVec 1 := Scalar.cmpi .eq arg1 c9_i32
  let v67 : BitVec 32 := Scalar.extui v66
  let c0_i32_27 : BitVec 32 := 0#32
  let v68 : BitVec 1 := Scalar.cmpi .ne v67 c0_i32_27
  v68

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S64x40960 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S4096_S4096x1 : S4096.ShapeCasts S4096x1
  bitsLt_bf16_f32 : FTy.bits .bf16 < FTy.bits .f32
  pads_S8000x256_S8192x256_01920_000 : S8000x256.Pads (![0, 0] : Fin 2 → Nat) ![192, 0] ![0, 0] S8192x256
  h_S_ : 0 < S_.numel
  pads_S40257x64_S40960x64_07030_000 : S40257x64.Pads (![0, 0] : Fin 2 → Nat) ![703, 0] ![0, 0] S40960x64
  transposes_S40960x64_S64x40960_1_0 : S40960x64.Transposes [1, 0] S64x40960
  inb_S512x1024_S512x1024_0_0 : ∀ a, (![0, 0] : Fin 2 → Nat) a + S512x1024.size a ≤ S512x1024.size a
  h_S512x1024 : 0 < S512x1024.numel
  inb_S2002x1024_S2002x1024_0_0 : ∀ a, (![0, 0] : Fin 2 → Nat) a + S2002x1024.size a ≤ S2002x1024.size a
  h_S2002x1024 : 0 < S2002x1024.numel
  shapeCasts_S2002x1024_S2002x1024 : S2002x1024.ShapeCasts S2002x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x2002_d1_w32 : S512x2002.Iotas .tc 32 [1]
  reduces_S512x2002_S512 : S512x2002.Reduces [1] S512
  shapeCasts_S512_S512x1 : S512.ShapeCasts S512x1
  broadcasts_S512x1_S512x2002 : S512x1.Broadcasts S512x2002
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S512x64_S512x64_0_0 : ∀ a, (![0, 0] : Fin 2 → Nat) a + S512x64.size a ≤ S512x64.size a
  h_S512x64 : 0 < S512x64.numel
  packedbf16_S512x64_S512x64_0_0 : (Rect.unit (s := S512x64) ![0, 0] S512x64.size inb_S512x64_S512x64_0_0).PackedRows (EltTy.packing .bf16)
  shapeCasts_S512x256_S512x256 : S512x256.ShapeCasts S512x256
  h_S4096x256 : 0 < S4096x256.numel
  shapeCasts_S4096x256_S4096x256 : S4096x256.ShapeCasts S4096x256
  iota_S512x4096_d1_w32 : S512x4096.Iotas .tc 32 [1]
  reduces_S512x4096_S512 : S512x4096.Reduces [1] S512
  broadcasts_S512x1_S512x4096 : S512x1.Broadcasts S512x4096
  shapeCasts_S512x64_S512x64 : S512x64.ShapeCasts S512x64
  h_S64x4096 : 0 < S64x4096.numel
  shapeCasts_S64x4096_S64x4096 : S64x4096.ShapeCasts S64x4096
  shapeCasts_S4096x1_S4096 : S4096x1.ShapeCasts S4096
  reducesTo_S4096_S_d0 : S4096.ReducesTo [0] S_
  dot_S512x1024_S2002x1024_S512x2002_1_1_0_0_n_n_wf : DotDims.WF S512x1024 S2002x1024 S512x2002 [1] [1] [0] [0] [] []
  dot_S512x1024_S1024x256_S512x256_1_0_0_1_n_n_wf : DotDims.WF S512x1024 S1024x256 S512x256 [1] [0] [0] [1] [] []
  dot_S512x1024_S1024x64_S512x64_1_0_0_1_n_n_wf : DotDims.WF S512x1024 S1024x64 S512x64 [1] [0] [0] [1] [] []
  dot_S512x256_S4096x256_S512x4096_1_1_0_0_n_n_wf : DotDims.WF S512x256 S4096x256 S512x4096 [1] [1] [0] [0] [] []
  dot_S512x64_S64x4096_S512x4096_1_0_0_1_n_n_wf : DotDims.WF S512x64 S64x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2002x1024.size a ≤ S2002x1024.size a
  hwx0_1 : ∀ i : grid0.Coords, EltTy.bits .bf16 = 32 ∨ (Rect.block (s := S2002x1024) S2002x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .bf16 = 32 ∨ (Rect.block (s := S1024x64) S1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .i32 = 32 ∨ (Rect.block (s := S4096x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x256.size a
  hwx0_6 : ∀ i : grid0.Coords, EltTy.bits .bf16 = 32 ∨ (Rect.block (s := S4096x256) S512x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S4096x64.size a
  hwx0_7 : ∀ i : grid0.Coords, EltTy.bits .bf16 = 32 ∨ (Rect.block (s := S4096x64) S512x64.size (cc0_transform_7 i) (hinb0_7 i)).WholeWords (EltTy.packing .bf16)
  hrank1 : 0 < grid1.rank
  k1_mult1_dvd : ∀ i : grid1.Coords, 4096 ∣ (k1_mult1 i).toNat
  k1_off1_inb : ∀ i : grid1.Coords, ∀ a, (k1_off1 i) a + S4096x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .bf16 = 32 ∨ (Rect.block (s := S4096x256) S512x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .i32 = 32 ∨ (Rect.block (s := S4096x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S4096x1.size a
  hwx1_3 : ∀ i : grid1.Coords, EltTy.bits .f32 = 32 ∨ (Rect.block (s := S4096x1) S512x1.size (cc1_transform_3 i) (hinb1_3 i)).WholeWords (EltTy.packing .f32)
  hrank2 : 0 < grid2.rank
  k2_mult1_dvd : ∀ i : grid2.Coords, 4096 ∣ (k2_mult1 i).toNat
  k2_off1_inb : ∀ i : grid2.Coords, ∀ a, (k2_off1 i) a + S64x4096.size a ≤ S64x40960.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S4096x64.size a
  hwx2_0 : ∀ i : grid2.Coords, EltTy.bits .bf16 = 32 ∨ (Rect.block (s := S4096x64) S512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40960.size a ≤ S64x40960.size a
  hwx2_1 : ∀ i : grid2.Coords, EltTy.bits .bf16 = 32 ∨ (Rect.block (s := S64x40960) S64x40960.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S4096x1.size a
  hwx2_2 : ∀ i : grid2.Coords, EltTy.bits .i32 = 32 ∨ (Rect.block (s := S4096x1) S512x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S4096x1.size a
  hwx2_3 : ∀ i : grid2.Coords, EltTy.bits .f32 = 32 ∨ (Rect.block (s := S4096x1) S512x1.size (cc2_transform_3 i) (hinb2_3 i)).WholeWords (EltTy.packing .f32)

variable [Facts₀]

def dot_S512x1024_S2002x1024_S512x2002_1_1_0_0_n_n : DotDims S512x1024 S2002x1024 S512x2002 where
  lhsContracting := [1]
  rhsContracting := [1]
  lhsNonContracting := [0]
  rhsNonContracting := [0]
  lhsBatch := []
  rhsBatch := []
  wf := dot_S512x1024_S2002x1024_S512x2002_1_1_0_0_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2002x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_2) S512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v9_1) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S512x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v9_2) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S64x40960.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S2002x1024 : Shape := ⟨2, ![2002, 1024]⟩
abbrev S8000x256 : Shape := ⟨2, ![8000, 256]⟩
abbrev S1024x256 : Shape := ⟨2, ![1024, 256]⟩
abbrev S40257x64 : Shape := ⟨2, ![40257, 64]⟩
abbrev S1024x64 : Shape := ⟨2, ![1024, 64]⟩
abbrev S_ : Shape := ⟨0, ![]⟩
abbrev S1024x2002 : Shape := ⟨2, ![1024, 2002]⟩
abbrev S4096x2002 : Shape := ⟨2, ![4096, 2002]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S4096x256 : Shape := ⟨2, ![4096, 256]⟩
abbrev S256x8000 : Shape := ⟨2, ![256, 8000]⟩
abbrev S4096x8000 : Shape := ⟨2, ![4096, 8000]⟩
abbrev S4096x64 : Shape := ⟨2, ![4096, 64]⟩
abbrev S64x40257 : Shape := ⟨2, ![64, 40257]⟩
abbrev S4096x40257 : Shape := ⟨2, ![4096, 40257]⟩

abbrev nBuf : Space → Nat
  | .hbm => 191
  | .vmem => 0
  | .smem => 0
  | _ => 0

abbrev hbmTy0_0 (i : Nat) : BufTy := match i % 128 with
  | 0 => ⟨S4096x1024, .f32⟩
  | 1 => ⟨S4096, .i32⟩
  | 2 => ⟨S2002x1024, .f32⟩
  | 3 => ⟨S8000x256, .f32⟩
  | 4 => ⟨S1024x256, .f32⟩
  | 5 => ⟨S40257x64, .f32⟩
  | 6 => ⟨S1024x64, .f32⟩
  | 7 => ⟨S_, .i32⟩
  | 8 => ⟨S4096, .i32⟩
  | 9 => ⟨S4096, .i1⟩
  | 10 => ⟨S_, .i32⟩
  | 11 => ⟨S4096, .i32⟩
  | 12 => ⟨S4096, .i1⟩
  | 13 => ⟨S4096, .i1⟩
  | 14 => ⟨S_, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i1⟩
  | 24 => ⟨S4096, .i1⟩
  | 25 => ⟨S_, .i32⟩
  | 26 => ⟨S_, .i32⟩
  | 27 => ⟨S4096, .i32⟩
  | 28 => ⟨S4096, .i32⟩
  | 29 => ⟨S1024x2002, .f32⟩
  | 30 => ⟨S4096x2002, .f32⟩
  | 31 => ⟨S_, .f32⟩
  | 32 => ⟨S4096, .f32⟩
  | 33 => ⟨S_, .f32⟩
  | 34 => ⟨S4096, .f32⟩
  | 35 => ⟨S4096, .f32⟩
  | 36 => ⟨S4096x1, .f32⟩
  | 37 => ⟨S4096x2002, .f32⟩
  | 38 => ⟨S4096x2002, .f32⟩
  | 39 => ⟨S4096x2002, .f32⟩
  | 40 => ⟨S_, .f32⟩
  | 41 => ⟨S4096, .f32⟩
  | 42 => ⟨S4096x1, .f32⟩
  | 43 => ⟨S4096x1, .f32⟩
  | 44 => ⟨S4096x2002, .f32⟩
  | 45 => ⟨S4096x2002, .f32⟩
  | 46 => ⟨S4096x1, .i32⟩
  | 47 => ⟨S_, .i32⟩
  | 48 => ⟨S4096x1, .i32⟩
  | 49 => ⟨S4096x1, .i1⟩
  | 50 => ⟨S_, .i32⟩
  | 51 => ⟨S4096x1, .i32⟩
  | 52 => ⟨S4096x1, .i32⟩
  | 53 => ⟨S4096x1, .i32⟩
  | 54 => ⟨S4096x1x1, .i32⟩
  | 55 => ⟨S1, .i32⟩
  | 56 => ⟨S_, .i32⟩
  | 57 => ⟨S4096x1x1, .i32⟩
  | 58 => ⟨S4096x1x1, .i1⟩
  | 59 => ⟨S1x1x1, .i32⟩
  | 60 => ⟨S4096x1x1, .i32⟩
  | 61 => ⟨S4096x1x1, .i1⟩
  | 62 => ⟨S4096x1x1, .i1⟩
  | 63 => ⟨S_, .i1⟩
  | 64 => ⟨S4096x1, .i1⟩
  | 65 => ⟨S4096x1, .f32⟩
  | 66 => ⟨S_, .f32⟩
  | 67 => ⟨S4096x1, .f32⟩
  | 68 => ⟨S4096x1, .f32⟩
  | 69 => ⟨S4096, .f32⟩
  | 70 => ⟨S4096x256, .f32⟩
  | 71 => ⟨S256x8000, .f32⟩
  | 72 => ⟨S4096x8000, .f32⟩
  | 73 => ⟨S_, .f32⟩
  | 74 => ⟨S4096, .f32⟩
  | 75 => ⟨S_, .f32⟩
  | 76 => ⟨S4096, .f32⟩
  | 77 => ⟨S4096, .f32⟩
  | 78 => ⟨S4096x1, .f32⟩
  | 79 => ⟨S4096x8000, .f32⟩
  | 80 => ⟨S4096x8000, .f32⟩
  | 81 => ⟨S4096x8000, .f32⟩
  | 82 => ⟨S_, .f32⟩
  | 83 => ⟨S4096, .f32⟩
  | 84 => ⟨S4096x1, .f32⟩
  | 85 => ⟨S4096x1, .f32⟩
  | 86 => ⟨S4096x8000, .f32⟩
  | 87 => ⟨S4096x8000, .f32⟩
  | 88 => ⟨S_, .i32⟩
  | 89 => ⟨S4096, .i32⟩
  | 90 => ⟨S4096, .i32⟩
  | 91 => ⟨S_, .i32⟩
  | 92 => ⟨S_, .i32⟩
  | 93 => ⟨S_, .i32⟩
  | 94 => ⟨S4096, .i32⟩
  | 95 => ⟨S4096, .i32⟩
  | 96 => ⟨S_, .i32⟩
  | 97 => ⟨S4096, .i32⟩
  | 98 => ⟨S4096, .i32⟩
  | 99 => ⟨S4096x1, .i32⟩
  | 100 => ⟨S_, .i32⟩
  | 101 => ⟨S4096x1, .i32⟩
  | 102 => ⟨S4096x1, .i1⟩
  | 103 => ⟨S_, .i32⟩
  | 104 => ⟨S4096x1, .i32⟩
  | 105 => ⟨S4096x1, .i32⟩
  | 106 => ⟨S4096x1, .i32⟩
  | 107 => ⟨S4096x1x1, .i32⟩
  | 108 => ⟨S1, .i32⟩
  | 109 => ⟨S_, .i32⟩
  | 110 => ⟨S4096x1x1, .i32⟩
  | 111 => ⟨S4096x1x1, .i1⟩
  | 112 => ⟨S1x1x1, .i32⟩
  | 113 => ⟨S4096x1x1, .i32⟩
  | 114 => ⟨S4096x1x1, .i1⟩
  | 115 => ⟨S4096x1x1, .i1⟩
  | 116 => ⟨S_, .i1⟩
  | 117 => ⟨S4096x1, .i1⟩
  | 118 => ⟨S4096x1, .f32⟩
  | 119 => ⟨S_, .f32⟩
  | 120 => ⟨S4096x1, .f32⟩
  | 121 => ⟨S4096x1, .f32⟩
  | 122 => ⟨S4096, .f32⟩
  | 123 => ⟨S_, .f32⟩
  | 124 => ⟨S_, .f32⟩
  | 125 => ⟨S4096, .f32⟩
  | 126 => ⟨S4096, .f32⟩
  | 127 => ⟨S4096, .f32⟩
  | _ => ⟨S4096x1024, .f32⟩

abbrev hbmTy0_1 (i : Nat) : BufTy := match i % 128 with
  | 0 => ⟨S4096x64, .f32⟩
  | 1 => ⟨S64x40257, .f32⟩
  | 2 => ⟨S4096x40257, .f32⟩
  | 3 => ⟨S_, .f32⟩
  | 4 => ⟨S4096, .f32⟩
  | 5 => ⟨S_, .f32⟩
  | 6 => ⟨S4096, .f32⟩
  | 7 => ⟨S4096, .f32⟩
  | 8 => ⟨S4096x1, .f32⟩
  | 9 => ⟨S4096x40257, .f32⟩
  | 10 => ⟨S4096x40257, .f32⟩
  | 11 => ⟨S4096x40257, .f32⟩
  | 12 => ⟨S_, .f32⟩
  | 13 => ⟨S4096, .f32⟩
  | 14 => ⟨S4096x1, .f32⟩
  | 15 => ⟨S4096x1, .f32⟩
  | 16 => ⟨S4096x40257, .f32⟩
  | 17 => ⟨S4096x40257, .f32⟩
  | 18 => ⟨S_, .i32⟩
  | 19 => ⟨S4096, .i32⟩
  | 20 => ⟨S4096, .i32⟩
  | 21 => ⟨S_, .i32⟩
  | 22 => ⟨S_, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S4096x1, .i32⟩
  | 30 => ⟨S_, .i32⟩
  | 31 => ⟨S4096x1, .i32⟩
  | 32 => ⟨S4096x1, .i1⟩
  | 33 => ⟨S_, .i32⟩
  | 34 => ⟨S4096x1, .i32⟩
  | 35 => ⟨S4096x1, .i32⟩
  | 36 => ⟨S4096x1, .i32⟩
  | 37 => ⟨S4096x1x1, .i32⟩
  | 38 => ⟨S1, .i32⟩
  | 39 => ⟨S_, .i32⟩
  | 40 => ⟨S4096x1x1, .i32⟩
  | 41 => ⟨S4096x1x1, .i1⟩
  | 42 => ⟨S1x1x1, .i32⟩
  | 43 => ⟨S4096x1x1, .i32⟩
  | 44 => ⟨S4096x1x1, .i1⟩
  | 45 => ⟨S4096x1x1, .i1⟩
  | 46 => ⟨S_, .i1⟩
  | 47 => ⟨S4096x1, .i1⟩
  | 48 => ⟨S4096x1, .f32⟩
  | 49 => ⟨S_, .f32⟩
  | 50 => ⟨S4096x1, .f32⟩
  | 51 => ⟨S4096x1, .f32⟩
  | 52 => ⟨S4096, .f32⟩
  | 53 => ⟨S_, .f32⟩
  | 54 => ⟨S_, .f32⟩
  | 55 => ⟨S4096, .f32⟩
  | 56 => ⟨S4096, .f32⟩
  | 57 => ⟨S4096, .f32⟩
  | 58 => ⟨S4096, .f32⟩
  | 59 => ⟨S_, .f32⟩
  | 60 => ⟨S_, .f32⟩
  | 61 => ⟨S_, .f32⟩
  | 62 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_call1_v0 : Ref sig .tc := ⟨.hbm, 26, rfl⟩
abbrev main_call1_v1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_call2_cst_0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_cst_1 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_v14 : Ref sig .tc := ⟨.hbm, 45, rfl⟩
abbrev main_v15 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_c_1 : Ref sig .tc := ⟨.hbm, 55, rfl⟩
abbrev main_call3_c_2 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_3 : Ref sig .tc := ⟨.hbm, 63, rfl⟩
abbrev main_call3_v12 : Ref sig .tc := ⟨.hbm, 64, rfl⟩
abbrev main_call3_v13 : Ref sig .tc := ⟨.hbm, 65, rfl⟩
abbrev main_call3_cst : Ref sig .tc := ⟨.hbm, 66, rfl⟩
abbrev main_call3_v14 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_call4_cst : Ref sig .tc := ⟨.hbm, 73, rfl⟩
abbrev main_call4_v0 : Ref sig .tc := ⟨.hbm, 74, rfl⟩
abbrev main_call4_cst_0 : Ref sig .tc := ⟨.hbm, 75, rfl⟩
abbrev main_call4_v1 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_v6 : Ref sig .tc := ⟨.hbm, 81, rfl⟩
abbrev main_call4_cst_1 : Ref sig .tc := ⟨.hbm, 82, rfl⟩
abbrev main_call4_v7 : Ref sig .tc := ⟨.hbm, 83, rfl⟩
abbrev main_call4_v8 : Ref sig .tc := ⟨.hbm, 84, rfl⟩
abbrev main_call4_v9 : Ref sig .tc := ⟨.hbm, 85, rfl⟩
abbrev main_call4_v10 : Ref sig .tc := ⟨.hbm, 86, rfl⟩
abbrev main_v21 : Ref sig .tc := ⟨.hbm, 87, rfl⟩
abbrev main_c_5 : Ref sig .tc := ⟨.hbm, 88, rfl⟩
abbrev main_v22 : Ref sig .tc := ⟨.hbm, 89, rfl⟩
abbrev main_v23 : Ref sig .tc := ⟨.hbm, 90, rfl⟩
abbrev main_c_6 : Ref sig .tc := ⟨.hbm, 91, rfl⟩
abbrev main_c_7 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_v24 : Ref sig .tc := ⟨.hbm, 98, rfl⟩
abbrev main_v25 : Ref sig .tc := ⟨.hbm, 99, rfl⟩
abbrev main_call6_c : Ref sig .tc := ⟨.hbm, 100, rfl⟩
abbrev main_call6_v0 : Ref sig .tc := ⟨.hbm, 101, rfl⟩
abbrev main_call6_v1 : Ref sig .tc := ⟨.hbm, 102, rfl⟩
abbrev main_call6_c_0 : Ref sig .tc := ⟨.hbm, 103, rfl⟩
abbrev main_call6_v2 : Ref sig .tc := ⟨.hbm, 104, rfl⟩
abbrev main_call6_v3 : Ref sig .tc := ⟨.hbm, 105, rfl⟩
abbrev main_call6_v4 : Ref sig .tc := ⟨.hbm, 106, rfl⟩
abbrev main_call6_v5 : Ref sig .tc := ⟨.hbm, 107, rfl⟩
abbrev main_call6_c_1 : Ref sig .tc := ⟨.hbm, 108, rfl⟩
abbrev main_call6_c_2 : Ref sig .tc := ⟨.hbm, 109, rfl⟩
abbrev main_call6_v6 : Ref sig .tc := ⟨.hbm, 110, rfl⟩
abbrev main_call6_v7 : Ref sig .tc := ⟨.hbm, 111, rfl⟩
abbrev main_call6_v8 : Ref sig .tc := ⟨.hbm, 112, rfl⟩
abbrev main_call6_v9 : Ref sig .tc := ⟨.hbm, 113, rfl⟩
abbrev main_call6_v10 : Ref sig .tc := ⟨.hbm, 114, rfl⟩
abbrev main_call6_v11 : Ref sig .tc := ⟨.hbm, 115, rfl⟩
abbrev main_call6_c_3 : Ref sig .tc := ⟨.hbm, 116, rfl⟩
abbrev main_call6_v12 : Ref sig .tc := ⟨.hbm, 117, rfl⟩
abbrev main_call6_v13 : Ref sig .tc := ⟨.hbm, 118, rfl⟩
abbrev main_call6_cst : Ref sig .tc := ⟨.hbm, 119, rfl⟩
abbrev main_call6_v14 : Ref sig .tc := ⟨.hbm, 120, rfl⟩
abbrev main_v26 : Ref sig .tc := ⟨.hbm, 121, rfl⟩
abbrev main_v27 : Ref sig .tc := ⟨.hbm, 122, rfl⟩
abbrev main_cst : Ref sig .tc := ⟨.hbm, 123, rfl⟩
abbrev main_call7_v0 : Ref sig .tc := ⟨.hbm, 124, rfl⟩
abbrev main_call7_v1 : Ref sig .tc := ⟨.hbm, 125, rfl⟩
abbrev main_v28 : Ref sig .tc := ⟨.hbm, 126, rfl⟩
abbrev main_v29 : Ref sig .tc := ⟨.hbm, 127, rfl⟩
abbrev main_v30 : Ref sig .tc := ⟨.hbm, 128, rfl⟩
abbrev main_v31 : Ref sig .tc := ⟨.hbm, 129, rfl⟩
abbrev main_v32 : Ref sig .tc := ⟨.hbm, 130, rfl⟩
abbrev main_call8_cst : Ref sig .tc := ⟨.hbm, 131, rfl⟩
abbrev main_call8_v0 : Ref sig .tc := ⟨.hbm, 132, rfl⟩
abbrev main_call8_cst_0 : Ref sig .tc := ⟨.hbm, 133, rfl⟩
abbrev main_call8_v1 : Ref sig .tc := ⟨.hbm, 134, rfl⟩
abbrev main_call8_v2 : Ref sig .tc := ⟨.hbm, 135, rfl⟩
abbrev main_call8_v3 : Ref sig .tc := ⟨.hbm, 136, rfl⟩
abbrev main_call8_v4 : Ref sig .tc := ⟨.hbm, 137, rfl⟩
abbrev main_call8_v5 : Ref sig .tc := ⟨.hbm, 138, rfl⟩
abbrev main_call8_v6 : Ref sig .tc := ⟨.hbm, 139, rfl⟩
abbrev main_call8_cst_1 : Ref sig .tc := ⟨.hbm, 140, rfl⟩
abbrev main_call8_v7 : Ref sig .tc := ⟨.hbm, 141, rfl⟩
abbrev main_call8_v8 : Ref sig .tc := ⟨.hbm, 142, rfl⟩
abbrev main_call8_v9 : Ref sig .tc := ⟨.hbm, 143, rfl⟩
abbrev main_call8_v10 : Ref sig .tc := ⟨.hbm, 144, rfl⟩
abbrev main_v33 : Ref sig .tc := ⟨.hbm, 145, rfl⟩
abbrev main_c_8 : Ref sig .tc := ⟨.hbm, 146, rfl⟩
abbrev main_v34 : Ref sig .tc := ⟨.hbm, 147, rfl⟩
abbrev main_v35 : Ref sig .tc := ⟨.hbm, 148, rfl⟩
abbrev main_c_9 : Ref sig .tc := ⟨.hbm, 149, rfl⟩
abbrev main_c_10 : Ref sig .tc := ⟨.hbm, 150, rfl⟩
abbrev main_call9_v0 : Ref sig .tc := ⟨.hbm, 151, rfl⟩
abbrev main_call9_v1 : Ref sig .tc := ⟨.hbm, 152, rfl⟩
abbrev main_call9_v2 : Ref sig .tc := ⟨.hbm, 153, rfl⟩
abbrev main_call9_v3 : Ref sig .tc := ⟨.hbm, 154, rfl⟩
abbrev main_call9_v4 : Ref sig .tc := ⟨.hbm, 155, rfl⟩
abbrev main_v36 : Ref sig .tc := ⟨.hbm, 156, rfl⟩
abbrev main_v37 : Ref sig .tc := ⟨.hbm, 157, rfl⟩
abbrev main_call10_c : Ref sig .tc := ⟨.hbm, 158, rfl⟩
abbrev main_call10_v0 : Ref sig .tc := ⟨.hbm, 159, rfl⟩
abbrev main_call10_v1 : Ref sig .tc := ⟨.hbm, 160, rfl⟩
abbrev main_call10_c_0 : Ref sig .tc := ⟨.hbm, 161, rfl⟩
abbrev main_call10_v2 : Ref sig .tc := ⟨.hbm, 162, rfl⟩
abbrev main_call10_v3 : Ref sig .tc := ⟨.hbm, 163, rfl⟩
abbrev main_call10_v4 : Ref sig .tc := ⟨.hbm, 164, rfl⟩
abbrev main_call10_v5 : Ref sig .tc := ⟨.hbm, 165, rfl⟩
abbrev main_call10_c_1 : Ref sig .tc := ⟨.hbm, 166, rfl⟩
abbrev main_call10_c_2 : Ref sig .tc := ⟨.hbm, 167, rfl⟩
abbrev main_call10_v6 : Ref sig .tc := ⟨.hbm, 168, rfl⟩
abbrev main_call10_v7 : Ref sig .tc := ⟨.hbm, 169, rfl⟩
abbrev main_call10_v8 : Ref sig .tc := ⟨.hbm, 170, rfl⟩
abbrev main_call10_v9 : Ref sig .tc := ⟨.hbm, 171, rfl⟩
abbrev main_call10_v10 : Ref sig .tc := ⟨.hbm, 172, rfl⟩
abbrev main_call10_v11 : Ref sig .tc := ⟨.hbm, 173, rfl⟩
abbrev main_call10_c_3 : Ref sig .tc := ⟨.hbm, 174, rfl⟩
abbrev main_call10_v12 : Ref sig .tc := ⟨.hbm, 175, rfl⟩
abbrev main_call10_v13 : Ref sig .tc := ⟨.hbm, 176, rfl⟩
abbrev main_call10_cst : Ref sig .tc := ⟨.hbm, 177, rfl⟩
abbrev main_call10_v14 : Ref sig .tc := ⟨.hbm, 178, rfl⟩
abbrev main_v38 : Ref sig .tc := ⟨.hbm, 179, rfl⟩
abbrev main_v39 : Ref sig .tc := ⟨.hbm, 180, rfl⟩
abbrev main_cst_11 : Ref sig .tc := ⟨.hbm, 181, rfl⟩
abbrev main_call11_v0 : Ref sig .tc := ⟨.hbm, 182, rfl⟩
abbrev main_call11_v1 : Ref sig .tc := ⟨.hbm, 183, rfl⟩
abbrev main_v40 : Ref sig .tc := ⟨.hbm, 184, rfl⟩
abbrev main_v41 : Ref sig .tc := ⟨.hbm, 185, rfl⟩
abbrev main_v42 : Ref sig .tc := ⟨.hbm, 186, rfl⟩
abbrev main_cst_12 : Ref sig .tc := ⟨.hbm, 187, rfl⟩
abbrev main_v43 : Ref sig .tc := ⟨.hbm, 188, rfl⟩
abbrev main_cst_13 : Ref sig .tc := ⟨.hbm, 189, rfl⟩
abbrev main_v44 : Ref sig .tc := ⟨.hbm, 190, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  transposes_S2002x1024_S1024x2002_1_0 : S2002x1024.Transposes [1, 0] S1024x2002
  reducesTo_S4096x2002_S4096_d1 : S4096x2002.ReducesTo [1] S4096
  h_S_ : 0 < S_.numel
  bcast_S4096_S4096x1_0 : S4096.BroadcastsInDim S4096x1 (![0] : Fin 1 → Fin S4096x1.rank)
  bcast_S4096x1_S4096x2002_0_1 : S4096x1.BroadcastsInDim S4096x2002 (![0, 1] : Fin 2 → Fin S4096x2002.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  transposes_S8000x256_S256x8000_1_0 : S8000x256.Transposes [1, 0] S256x8000
  reducesTo_S4096x8000_S4096_d1 : S4096x8000.ReducesTo [1] S4096
  bcast_S4096x1_S4096x8000_0_1 : S4096x1.BroadcastsInDim S4096x8000 (![0, 1] : Fin 2 → Fin S4096x8000.rank)
  transposes_S40257x64_S64x40257_1_0 : S40257x64.Transposes [1, 0] S64x40257
  reducesTo_S4096x40257_S4096_d1 : S4096x40257.ReducesTo [1] S4096
  bcast_S4096x1_S4096x40257_0_1 : S4096x1.BroadcastsInDim S4096x40257 (![0, 1] : Fin 2 → Fin S4096x40257.rank)
  reducesTo_S4096_S_d0 : S4096.ReducesTo [0] S_
  dot_S4096x1024_S1024x2002_S4096x2002_1_0_0_1_n_n_wf : DotDims.WF S4096x1024 S1024x2002 S4096x2002 [1] [0] [0] [1] [] []
  gather_S4096x2002_S4096x1x1_S4096x1_n_1_0_0_1_2_11_wf : GatherDims.WF S4096x2002 S4096x1x1 S4096x1 [] [1] [0] [1] [0] 2 ![1, 1]
  dot_S4096x1024_S1024x256_S4096x256_1_0_0_1_n_n_wf : DotDims.WF S4096x1024 S1024x256 S4096x256 [1] [0] [0] [1] [] []
  dot_S4096x256_S256x8000_S4096x8000_1_0_0_1_n_n_wf : DotDims.WF S4096x256 S256x8000 S4096x8000 [1] [0] [0] [1] [] []
  gather_S4096x8000_S4096x1x1_S4096x1_n_1_0_0_1_2_11_wf : GatherDims.WF S4096x8000 S4096x1x1 S4096x1 [] [1] [0] [1] [0] 2 ![1, 1]
  dot_S4096x1024_S1024x64_S4096x64_1_0_0_1_n_n_wf : DotDims.WF S4096x1024 S1024x64 S4096x64 [1] [0] [0] [1] [] []
  dot_S4096x64_S64x40257_S4096x40257_1_0_0_1_n_n_wf : DotDims.WF S4096x64 S64x40257 S4096x40257 [1] [0] [0] [1] [] []
  gather_S4096x40257_S4096x1x1_S4096x1_n_1_0_0_1_2_11_wf : GatherDims.WF S4096x40257 S4096x1x1 S4096x1 [] [1] [0] [1] [0] 2 ![1, 1]

variable [Facts₀]

def dot_S4096x1024_S1024x2002_S4096x2002_1_0_0_1_n_n : DotDims S4096x1024 S1024x2002 S4096x2002 where
  lhsContracting := [1]
  rhsContracting := [0]
  lhsNonContracting := [0]
  rhsNonContracting := [1]
  lhsBatch := []
  rhsBatch := []
  wf := dot_S4096x1024_S1024x2002_S4096x2002_1_0_0_1_n_n_wf
def gather_S4096x2002_S4096x1x1_S4096x1_n_1_0_0_1_2_11 : GatherDims S4096x2002 S4096x1x1 S4096x1 where
  offsetDims := []
  collapsedSliceDims := [1]
  operandBatchingDims := [0]
  startIndicesBatchingDims := [0]
  startIndexMap := [1]
  indexVectorDim := 2
  sliceSizes := ![1, 1]
  wf := gather_S4096x2002_S4096x1x1_S4096x1_n_1_0_0_1_2_11_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x8000_S4096x8000_1_0_0_1_n_n : DotDims S4096x256 S256x8000 S4096x8000 where
  lhsContracting := [1]
  rhsContracting := [0]
  lhsNonContracting := [0]
  rhsNonContracting := [1]
  lhsBatch := []
  rhsBatch := []
  wf := dot_S4096x256_S256x8000_S4096x8000_1_0_0_1_n_n_wf
def gather_S4096x8000_S4096x1x1_S4096x1_n_1_0_0_1_2_11 : GatherDims S4096x8000 S4096x1x1 S4096x1 where
  offsetDims := []
  collapsedSliceDims := [1]
  operandBatchingDims := [0]
  startIndicesBatchingDims := [0]
  startIndexMap := [1]
  indexVectorDim := 2
  sliceSizes := ![1, 1]
  wf := gather_S4096x8000_S4096x1x1_S4096x1_n_1_0_0_1_2_11_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S4096x64_S64x40257_S4096x40257_1_0_0_1_n_n : DotDims S4096x64 S64x40257 S4096x40257 where
  lhsContracting := [1]
  rhsContracting := [0]
  lhsNonContracting := [0]
  rhsNonContracting := [1]
  lhsBatch := []
  rhsBatch := []
  wf := dot_S4096x64_S64x40257_S4096x40257_1_0_0_1_n_n_wf
def gather_S4096x40257_S4096x1x1_S4096x1_n_1_0_0_1_2_11 : GatherDims S4096x40257 S4096x1x1 S4096x1 where
  offsetDims := []
  collapsedSliceDims := [1]
  operandBatchingDims := [0]
  startIndicesBatchingDims := [0]
  startIndexMap := [1]
  indexVectorDim := 2
  sliceSizes := ![1, 1]
  wf := gather_S4096x40257_S4096x1x1_S4096x1_n_1_0_0_1_2_11_wf

class Facts : Prop extends Facts₀ where

variable [Facts]
-- ==== Proof.Bits.R0Defs.lean ====
import proofs.«419215_j38122129719724_3_alg».proof.Proof.Gen.Kernel.Launch
import proofs.«419215_j38122129719724_3_alg».proof.Proof.Gen.Kernel.Skeleton
import proofs.«419215_j38122129719724_3_alg».proof.Proof.Gen.Kernel.Points
import Idealize.ShloMosaic.Lib.Pipeline.FrameBody
import Idealize.ShloMosaic.Lib.Pipeline.Frame

noncomputable section

namespace Cert.Kernel.R0

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay4 (iblk V c 0 t) (iblk V c 1 t) (iblk V c 4 t)
    | ⟨6, _⟩ => k0_pay1 (k0_pay3 (iblk V c 0 t)) (iblk V c 2 t)
    | ⟨7, _⟩ => k0_pay2 (k0_pay3 (iblk V c 0 t)) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after5 (c : Dev nD) (t : Fin cfg0.N) : (dat V c).after 5 t = k0_pay4 (iblk V c 0 t) (iblk V c 1 t) (iblk V c 4 t) := by dsimp only [dat]
theorem after6 (c : Dev nD) (t : Fin cfg0.N) : (dat V c).after 6 t = k0_pay1 (k0_pay3 (iblk V c 0 t)) (iblk V c 2 t) := by dsimp only [dat]
theorem after7 (c : Dev nD) (t : Fin cfg0.N) : (dat V c).after 7 t = k0_pay2 (k0_pay3 (iblk V c 0 t)) (iblk V c 3 t) := by dsimp only [dat]

end Cert.Kernel.R0

end
-- ==== Proof.Bits.R1Defs.lean ====
import proofs.«419215_j38122129719724_3_alg».proof.Proof.Gen.Kernel.Launch
import proofs.«419215_j38122129719724_3_alg».proof.Proof.Gen.Kernel.Skeleton
import proofs.«419215_j38122129719724_3_alg».proof.Proof.Gen.Kernel.Points
import Idealize.ShloMosaic.Lib.Pipeline.FrameBody
import Idealize.ShloMosaic.Lib.Pipeline.Frame

noncomputable section

namespace Cert.Kernel.R1

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation)

variable {F : FTy → Type} [FloatOps F]

local notation "𝕄" => MT nD τ sig Unit (Elt F) ℕ (Pipeline.UD sig nD τ) ℕ

abbrev St (F : FTy → Type) : Type := Vec F S512x1 .f32 × Vec F S512x1 .f32 × Vec F S512x1 .f32

def tile (i : grid1.Coords) (E : Vec F S8192x256 .bf16) : Vec F S4096x256 .bf16 :=
  View.ld E (Rect.unit (s := S8192x256) (k1_off1 i) S4096x256.size (Gen.k1_off1_inb i))

def reset : St F := (k1_pay5, k1_pay6, k1_pay7)

def step (i : grid1.Coords) (x : Vec F S512x256 .bf16) (E : Vec F S8192x256 .bf16) (tg : Vec F S512x1 .i32) (st : St F) : St F :=
  (k1_pay2 (k1_pay15 i x (tile i E) st.1),
   k1_pay1 (k1_pay13 i) (k1_pay14 i x (tile i E)) (k1_pay15 i x (tile i E) st.1) st.1 st.2.1,
   k1_pay3 (k1_pay10 tg) (k1_pay11 x (tile i E)) (k1_pay12 i) (k1_pay13 i) st.2.2)

def fin (tg : Vec F S512x1 .i32) (st : St F) : Vec F S512x1 .f32 := k1_pay4 (k1_pay9 tg) st.1 st.2.1 st.2.2

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def stAt (c : Dev nD) : (n : ℕ) → n < cfg1.N → St F
  | 0, h => step (grid1.coords ⟨0, h⟩) (iblk V c 0 ⟨0, h⟩) (iblk V c 1 ⟨0, h⟩) (iblk V c 2 ⟨0, h⟩) reset
  | n + 1, h => step (grid1.coords ⟨n + 1, h⟩) (iblk V c 0 ⟨n + 1, h⟩) (iblk V c 1 ⟨n + 1, h⟩) (iblk V c 2 ⟨n + 1, h⟩)
      (if (n + 1) % 2 = 0 then reset else stAt c n (Nat.lt_of_succ_lt h))

theorem stAt_first (c : Dev nD) (t : Fin cfg1.N) (h : t.val % 2 = 0) :
    stAt V c t.val t.isLt = step (grid1.coords t) (iblk V c 0 t) (iblk V c 1 t) (iblk V c 2 t) reset := by
  obtain ⟨n, hn⟩ := t
  cases n with
  | zero => rfl
  | succ n => exact congrArg _ (if_pos h)

theorem stAt_next (c : Dev nD) (t : Fin cfg1.N) (h : ¬ t.val % 2 = 0) :
    stAt V c t.val t.isLt = step (grid1.coords t) (iblk V c 0 t) (iblk V c 1 t) (iblk V c 2 t)
      (stAt V c (t.val - 1) (Nat.lt_of_le_of_lt (Nat.sub_le _ _) t.isLt)) := by
  obtain ⟨n, hn⟩ := t
  cases n with
  | zero => exact absurd (Nat.zero_mod _) h
  | succ n => exact congrArg _ (if_neg h)

def outsAt (c : Dev nD) (n : ℕ) (h : n < cfg1.N) : Vec F S512x1 .f32 × Vec F S512x1 .f32 × Vec F S512x1 .f32 × Vec F S512x1 .f32 :=
  (fin (iblk V c 2 ⟨n, h⟩) (stAt V c n h), (stAt V c n h).1, (stAt V c n h).2.1, (stAt V c n h).2.2)

abbrev scM0 : Memref sig .tc .vmem S512x1 .f32 := Memref.whole cc1_scratch0
abbrev scM1 : Memref sig .tc .vmem S512x1 .f32 := Memref.whole cc1_scratch1
abbrev scM2 : Memref sig .tc .vmem S512x1 .f32 := Memref.whole cc1_scratch2

def Phi (c : Dev nD) : (n : ℕ) → n ≤ cfg1.N → sProp 𝕄
  | 0, _ => Pipeline.ΦA spec1 c
  | n + 1, hn => iprop(iprop(owns (c : Thread nD τ) scM0 fullShare (stAt V c n hn).1 ∗ owns (c : Thread nD τ) scM1 fullShare (stAt V c n hn).2.1 ∗ owns (c : Thread nD τ) scM2 fullShare (stAt V c n hn).2.2)
      ∗ Pipeline.scopedRestBut (Ix := Unit) (Name := ℕ) (U := Pipeline.UD sig nD τ) (Lvl := ℕ) (Val := Elt F) spec1 c [cc1_scratch0, cc1_scratch1, cc1_scratch2] ∗ (∃ r, prngReg c r))

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop(iprop(owns (c : Thread nD τ) scM0 fullShare (stAt V c n hn).1 ∗ owns (c : Thread nD τ) scM1 fullShare (stAt V c n hn).2.1 ∗ owns (c : Thread nD τ) scM2 fullShare (stAt V c n hn).2.2)
      ∗ Pipeline.scopedRestBut (Ix := Unit) (Name := ℕ) (U := Pipeline.UD sig nD τ) (Lvl := ℕ) (Val := Elt F) spec1 c [cc1_scratch0, cc1_scratch1, cc1_scratch2] ∗ (∃ r, prngReg c r)) := rfl

theorem Phi_pos (c : Dev nD) (n : ℕ) (h : n ≤ cfg1.N) (hz : n ≠ 0) :
    Phi V c n h = iprop(iprop(owns (c : Thread nD τ) scM0 fullShare (stAt V c (n - 1) (by omega)).1 ∗ owns (c : Thread nD τ) scM1 fullShare (stAt V c (n - 1) (by omega)).2.1 ∗ owns (c : Thread nD τ) scM2 fullShare (stAt V c (n - 1) (by omega)).2.2)
      ∗ Pipeline.scopedRestBut (Ix := Unit) (Name := ℕ) (U := Pipeline.UD sig nD τ) (Lvl := ℕ) (Val := Elt F) spec1 c [cc1_scratch0, cc1_scratch1, cc1_scratch2] ∗ (∃ r, prngReg c r)) := by
  cases n with
  | zero => exact absurd rfl hz
  | succ n => rfl

def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = fin (iblk V c 2 t) (stAt V c t.val t.isLt) := by
  dsimp only [dat, outsAt]

theorem Phi_castSucc (c : Dev nD) (t : Fin cfg1.N) : (dat V c).Φ t.castSucc = Phi V c t.val (Nat.le_of_lt t.isLt) := by
  dsimp only [dat]; simp only [Fin.coe_castSucc]

theorem Phi_first (c : Dev nD) : (dat V c).Φ 0 = Pipeline.ΦA spec1 c := by
  dsimp only [dat]; rfl

theorem Phi_last (c : Dev nD) : (dat V c).Φ (Fin.last cfg1.N) = Phi V c cfg1.N (Nat.le_refl _) := by
  dsimp only [dat]; rfl

end Cert.Kernel.R1

end
-- ==== Proof.Bits.R2Defs.lean ====
import proofs.«419215_j38122129719724_3_alg».proof.Proof.Gen.Kernel.Launch
import proofs.«419215_j38122129719724_3_alg».proof.Proof.Gen.Kernel.Skeleton
import proofs.«419215_j38122129719724_3_alg».proof.Proof.Gen.Kernel.Points
import Idealize.ShloMosaic.Lib.Pipeline.FrameBody
import Idealize.ShloMosaic.Lib.Pipeline.Frame

noncomputable section

namespace Cert.Kernel.R2

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation)

variable {F : FTy → Type} [FloatOps F]

local notation "𝕄" => MT nD τ sig Unit (Elt F) ℕ (Pipeline.UD sig nD τ) ℕ

abbrev St (F : FTy → Type) : Type := Vec F S512x1 .f32 × Vec F S512x1 .f32 × Vec F S512x1 .f32

def tile (i : grid2.Coords) (E : Vec F S64x40960 .bf16) : Vec F S64x4096 .bf16 :=
  View.ld E (Rect.unit (s := S64x40960) (k2_off1 i) S64x4096.size (Gen.k2_off1_inb i))

def reset : St F := (k2_pay5, k2_pay6, k2_pay7)

def step (i : grid2.Coords) (x : Vec F S512x64 .bf16) (E : Vec F S64x40960 .bf16) (tg : Vec F S512x1 .i32) (st : St F) : St F :=
  (k2_pay2 (k2_pay15 i x (tile i E) st.1),
   k2_pay1 (k2_pay13 i) (k2_pay14 i x (tile i E)) (k2_pay15 i x (tile i E) st.1) st.1 st.2.1,
   k2_pay3 (k2_pay10 tg) (k2_pay11 x (tile i E)) (k2_pay12 i) (k2_pay13 i) st.2.2)

def fin (tg : Vec F S512x1 .i32) (st : St F) : Vec F S512x1 .f32 := k2_pay4 (k2_pay9 tg) st.1 st.2.1 st.2.2

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def stAt (c : Dev nD) : (n : ℕ) → n < cfg2.N → St F
  | 0, h => step (grid2.coords ⟨0, h⟩) (iblk V c 0 ⟨0, h⟩) (iblk V c 1 ⟨0, h⟩) (iblk V c 2 ⟨0, h⟩) reset
  | n + 1, h => step (grid2.coords ⟨n + 1, h⟩) (iblk V c 0 ⟨n + 1, h⟩) (iblk V c 1 ⟨n + 1, h⟩) (iblk V c 2 ⟨n + 1, h⟩)
      (if (n + 1) % 10 = 0 then reset else stAt c n (Nat.lt_of_succ_lt h))

theorem stAt_first (c : Dev nD) (t : Fin cfg2.N) (h : t.val % 10 = 0) :
    stAt V c t.val t.isLt = step (grid2.coords t) (iblk V c 0 t) (iblk V c 1 t) (iblk V c 2 t) reset := by
  obtain ⟨n, hn⟩ := t
  cases n with
  | zero => rfl
  | succ n => exact congrArg _ (if_pos h)

theorem stAt_next (c : Dev nD) (t : Fin cfg2.N) (h : ¬ t.val % 10 = 0) :
    stAt V c t.val t.isLt = step (grid2.coords t) (iblk V c 0 t) (iblk V c 1 t) (iblk V c 2 t)
      (stAt V c (t.val - 1) (Nat.lt_of_le_of_lt (Nat.sub_le _ _) t.isLt)) := by
  obtain ⟨n, hn⟩ := t
  cases n with
  | zero => exact absurd (Nat.zero_mod _) h
  | succ n => exact congrArg _ (if_neg h)

def outsAt (c : Dev nD) (n : ℕ) (h : n < cfg2.N) : Vec F S512x1 .f32 × Vec F S512x1 .f32 × Vec F S512x1 .f32 × Vec F S512x1 .f32 :=
  (fin (iblk V c 2 ⟨n, h⟩) (stAt V c n h), (stAt V c n h).1, (stAt V c n h).2.1, (stAt V c n h).2.2)

abbrev scM0 : Memref sig .tc .vmem S512x1 .f32 := Memref.whole cc2_scratch0
abbrev scM1 : Memref sig .tc .vmem S512x1 .f32 := Memref.whole cc2_scratch1
abbrev scM2 : Memref sig .tc .vmem S512x1 .f32 := Memref.whole cc2_scratch2

def Phi (c : Dev nD) : (n : ℕ) → n ≤ cfg2.N → sProp 𝕄
  | 0, _ => Pipeline.ΦA spec2 c
  | n + 1, hn => iprop(iprop(owns (c : Thread nD τ) scM0 fullShare (stAt V c n hn).1 ∗ owns (c : Thread nD τ) scM1 fullShare (stAt V c n hn).2.1 ∗ owns (c : Thread nD τ) scM2 fullShare (stAt V c n hn).2.2)
      ∗ Pipeline.scopedRestBut (Ix := Unit) (Name := ℕ) (U := Pipeline.UD sig nD τ) (Lvl := ℕ) (Val := Elt F) spec2 c [cc2_scratch0, cc2_scratch1, cc2_scratch2] ∗ (∃ r, prngReg c r))

theorem Phi_zero (c : Dev nD) (n : ℕ) (h : n ≤ cfg2.N) (hz : n = 0) : Phi V c n h = Pipeline.ΦA spec2 c := by
  subst hz; rfl

theorem Phi_succ (c : Dev nD) (n : ℕ) (hn : n < cfg2.N) :
    Phi V c (n + 1) hn = iprop(iprop(owns (c : Thread nD τ) scM0 fullShare (stAt V c n hn).1 ∗ owns (c : Thread nD τ) scM1 fullShare (stAt V c n hn).2.1 ∗ owns (c : Thread nD τ) scM2 fullShare (stAt V c n hn).2.2)
      ∗ Pipeline.scopedRestBut (Ix := Unit) (Name := ℕ) (U := Pipeline.UD sig nD τ) (Lvl := ℕ) (Val := Elt F) spec2 c [cc2_scratch0, cc2_scratch1, cc2_scratch2] ∗ (∃ r, prngReg c r)) := rfl

theorem Phi_pos (c : Dev nD) (n : ℕ) (h : n ≤ cfg2.N) (hz : n ≠ 0) :
    Phi V c n h = iprop(iprop(owns (c : Thread nD τ) scM0 fullShare (stAt V c (n - 1) (by omega)).1 ∗ owns (c : Thread nD τ) scM1 fullShare (stAt V c (n - 1) (by omega)).2.1 ∗ owns (c : Thread nD τ) scM2 fullShare (stAt V c (n - 1) (by omega)).2.2)
      ∗ Pipeline.scopedRestBut (Ix := Unit) (Name := ℕ) (U := Pipeline.UD sig nD τ) (Lvl := ℕ) (Val := Elt F) spec2 c [cc2_scratch0, cc2_scratch1, cc2_scratch2] ∗ (∃ r, prngReg c r)) := by
  cases n with
  | zero => exact absurd rfl hz
  | succ n => rfl

def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = fin (iblk V c 2 t) (stAt V c t.val t.isLt) := by
  dsimp only [dat, outsAt]

theorem Phi_castSucc (c : Dev nD) (t : Fin cfg2.N) : (dat V c).Φ t.castSucc = Phi V c t.val (Nat.le_of_lt t.isLt) := by
  dsimp only [dat]; simp only [Fin.coe_castSucc]

theorem Phi_first (c : Dev nD) : (dat V c).Φ 0 = Pipeline.ΦA spec2 c := by
  dsimp only [dat]; rfl

theorem Phi_last (c : Dev nD) : (dat V c).Φ (Fin.last cfg2.N) = Phi V c cfg2.N (Nat.le_refl _) := by
  dsimp only [dat]; rfl

end Cert.Kernel.R2

end
-- ==== Proof.Bits.KBounds.lean ====
import proofs.«419215_j38122129719724_3_alg».proof.Proof.Bits.R0Defs
import proofs.«419215_j38122129719724_3_alg».proof.Proof.Bits.R1Defs
import proofs.«419215_j38122129719724_3_alg».proof.Proof.Bits.R2Defs
import proofs.«419215_j38122129719724_3_alg».proof.Proof.Gen.Kernel.Regions
import Idealize.ShloMosaic.Lib.Pipeline.RegionsLoop
import Idealize.ShloMosaic.Lib.Pipeline.FrameSuffix

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev atRefs (W : Dev nD → Valuation τ sig (Elt F)) : (c : Dev nD) → (b : Ref sig .tc) → Buf (Elt F) ((c : Thread nD τ).loc b) :=
  fun c b => W c (Proc.devRef .tc b)

abbrev W5 : Dev nD → Valuation τ sig (Elt F) := fun c => V5 m c

def W6 (c : Dev nD) : Valuation τ sig (Elt F) :=
  Pipeline.withArrays spec0 c (W5 m c) fun w => (R0.dat (atRefs (W5 m)) c).arrAt w cfg0.N

def W7 (c : Dev nD) : Valuation τ sig (Elt F) :=
  Pipeline.withArrays spec1 c (W6 m c) fun w => (R1.dat (atRefs (W6 m)) c).arrAt w cfg1.N

def W8 (c : Dev nD) : Valuation τ sig (Elt F) :=
  Pipeline.withArrays spec2 c (W7 m c) fun w => (R2.dat (atRefs (W7 m)) c).arrAt w cfg2.N

abbrev W9 (c : Dev nD) : Valuation τ sig (Elt F) := StableHlo.after hostOps3 (W8 m c)

theorem W6_arr (c : Dev nD) (w : Fin cfg0.W) :
    W6 m c (Proc.devRef .tc (Pipeline.arrRef spec0 w)) = (R0.dat (atRefs (W5 m)) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W7_arr (c : Dev nD) (w : Fin cfg1.W) :
    W7 m c (Proc.devRef .tc (Pipeline.arrRef spec1 w)) = (R1.dat (atRefs (W6 m)) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem W8_arr (c : Dev nD) (w : Fin cfg2.W) :
    W8 m c (Proc.devRef .tc (Pipeline.arrRef spec2 w)) = (R2.dat (atRefs (W7 m)) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

theorem hF0 (c : Dev nD) (w : Fin cfg0.W) : (R0.dat (atRefs (W5 m)) c).arrAt w cfg0.N = atRefs (W6 m) c (Pipeline.arrRef spec0 w) :=
  (W6_arr m c w).symm
theorem hrest0 (c : Dev nD) : ∀ b, b ∉ Finset.univ.image (Pipeline.arrRef spec0) → atRefs (W6 m) c b = atRefs (W5 m) c b :=
  fun b hb => W6_of_ne m c b fun w e => hb (Finset.mem_image.mpr ⟨w, Finset.mem_univ _, e⟩)
theorem hF1 (c : Dev nD) (w : Fin cfg1.W) : (R1.dat (atRefs (W6 m)) c).arrAt w cfg1.N = atRefs (W7 m) c (Pipeline.arrRef spec1 w) :=
  (W7_arr m c w).symm
theorem hrest1 (c : Dev nD) : ∀ b, b ∉ Finset.univ.image (Pipeline.arrRef spec1) → atRefs (W7 m) c b = atRefs (W6 m) c b :=
  fun b hb => W7_of_ne m c b fun w e => hb (Finset.mem_image.mpr ⟨w, Finset.mem_univ _, e⟩)
theorem hF2 (c : Dev nD) (w : Fin cfg2.W) : (R2.dat (atRefs (W7 m)) c).arrAt w cfg2.N = atRefs (W8 m) c (Pipeline.arrRef spec2 w) :=
  (W8_arr m c w).symm
theorem hrest2 (c : Dev nD) : ∀ b, b ∉ Finset.univ.image (Pipeline.arrRef spec2) → atRefs (W8 m) c b = atRefs (W7 m) c b :=
  fun b hb => W8_of_ne m c b fun w e => hb (Finset.mem_image.mpr ⟨w, Finset.mem_univ _, e⟩)

def pdats : (p : Fin 3) → (c : Dev nD) → Dat τ (Elt F) Unit ℕ (Pipeline.UD sig nD τ) ℕ (Pipeline.pin (pcfgs (F := F)) adm p) c
  | ⟨0, _⟩ => fun c => R0.dat (atRefs (W5 m)) c
  | ⟨1, _⟩ => fun c => R1.dat (atRefs (W6 m)) c
  | ⟨2, _⟩ => fun c => R2.dat (atRefs (W7 m)) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.Kernel.KRun

end
-- ==== Proof.Bits.R0Body.lean ====
import proofs.«419215_j38122129719724_3_alg».proof.Proof.Bits.R0Defs
import Idealize.ShloMosaic.Lib.Pipeline.Value
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]

theorem before0 (c : Dev nD) (t : Fin cfg0.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

theorem before1 (c : Dev nD) (t : Fin cfg0.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

theorem before2 (c : Dev nD) (t : Fin cfg0.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

theorem before3 (c : Dev nD) (t : Fin cfg0.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

theorem before4 (c : Dev nD) (t : Fin cfg0.N) (d) : (dat V c).before 4 t d = iblk V c 4 t :=
  ((dat V c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

theorem off0 : (![0, 0] : Fin 2 → Nat) = fun _ => 0 := by
  funext a; fin_cases a <;> rfl

theorem read_store_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

theorem readAt_whole {sp : Space} {S : Shape} {e : EltTy} (v : View sig .tc sp S e) (f : v.ty.Contents (Elt F))
    {off : Fin S.rank → Nat} (h : off = fun _ => 0) (inb : ∀ a, off a + S.size a ≤ S.size a) :
    v.readAt (Elt F) (Rect.unit off S.size inb) f = v.read (Elt F) f :=
  View.ld_unit_zero h inb _

set_option maxHeartbeats 1000000 in

theorem sound_kernel (c : Dev nD) (E : Set ℕ) (i : grid0.Coords)
    (arg1 : Memref sig .tc .vmem S512x1024 .f32) (harg1 : arg1.IsWhole) (arg2 : Memref sig .tc .vmem S2002x1024 .bf16) (harg2 : arg2.IsWhole)
    (arg3 : Memref sig .tc .vmem S1024x256 .bf16) (harg3 : arg3.IsWhole) (arg4 : Memref sig .tc .vmem S1024x64 .bf16) (harg4 : arg4.IsWhole)
    (arg5 : Memref sig .tc .vmem S512x1 .i32) (harg5 : arg5.IsWhole) (arg6 : Memref sig .tc .vmem S512x1 .f32) (harg6 : arg6.IsWhole)
    (arg7 : Memref sig .tc .vmem S512x256 .bf16) (harg7 : arg7.IsWhole) (arg8 : Memref sig .tc .vmem S512x64 .bf16) (harg8 : arg8.IsWhole)
    (x0 : Vec F S512x1024 .f32) (x1 : Vec F S2002x1024 .bf16) (x2 : Vec F S1024x256 .bf16) (x3 : Vec F S1024x64 .bf16) (x4 : Vec F S512x1 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay4 x0 x1 x4)
            ∗ owns (c : Thread nD τ) arg7 fullShare (k0_pay1 (k0_pay3 x0) x2)
            ∗ owns (c : Thread nD τ) arg8 fullShare (k0_pay2 (k0_pay3 x0) x3)) -∗ K ⟨⟩))
      ⊢ wp frame (wpE (defs₀ (F := F)) Variants.none c none) E (cc0__head_kernel i arg1 harg1 arg2 harg2 arg3 harg3 arg4 harg4 arg5 harg5 arg6 harg6 arg7 harg7 arg8 harg8) K := by
  simp only [cc0__head_kernel_eq_skeleton]; unfold cc0__head_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    dsimp only
    refine (read_store_whole _ _ off0 _ _).trans ?_
    simp only [readAt_whole (S := S512x1024) _ _ off0, readAt_whole (S := S2002x1024) _ _ off0,
      readAt_whole (S := S1024x256) _ _ off0, readAt_whole (S := S1024x64) _ _ off0, readAt_whole (S := S512x1) _ _ off0]
  isplitl [H6]
  · iexists _; isplitr
    swap; · iexact H6
    ipureintro
    dsimp only
    refine (read_store_whole _ _ off0 _ _).trans ?_
    simp only [readAt_whole (S := S512x1024) _ _ off0, readAt_whole (S := S2002x1024) _ _ off0,
      readAt_whole (S := S1024x256) _ _ off0, readAt_whole (S := S1024x64) _ _ off0, readAt_whole (S := S512x1) _ _ off0]
  iexists _; isplitr
  swap; · iexact H7
  ipureintro
  dsimp only
  refine (read_store_whole _ _ off0 _ _).trans ?_
  simp only [readAt_whole (S := S512x1024) _ _ off0, readAt_whole (S := S2002x1024) _ _ off0,
    readAt_whole (S := S1024x256) _ _ off0, readAt_whole (S := S1024x64) _ _ off0, readAt_whole (S := S512x1) _ _ off0]

def pre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

def post (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

theorem sound_body (c : Dev nD) (t : Fin cfg0.N) :
    pre V c t ⊢ wp frame (wpE (defs₀ (F := F)) Variants.none c none) Set.univ (bodyAt0 t) (fun _ => post V c t) := by
  unfold pre post bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W0, bigSep_W0]
  exact sound_body V c t

end Cert.Kernel.R0

end
-- ==== Proof.Bits.R1Runs.lean ====
import proofs.«419215_j38122129719724_3_alg».proof.Proof.Gen.Kernel.Launch
import proofs.«419215_j38122129719724_3_alg».proof.Proof.Gen.Kernel.Skeleton
import proofs.«419215_j38122129719724_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev condReset (i : grid1.Coords) : Prop :=
  (Scalar.cmpi .ne (Scalar.extui (Scalar.cmpi .eq (BitVec.ofNat 32 (i 1).val) 0#32)) 0#32) = 1#1

theorem hcondReset : ∀ t : Fin cfg1.N, condReset (grid1.coords t) ↔ t.val % 2 = 0 :=
  (by decide +kernel : ∀ t : Fin grid1.N, condReset (grid1.coords t) ↔ t.val % 2 = 0)

abbrev condFin (i : grid1.Coords) : Prop := k1_cond2 i = 1#1

theorem hcondFin : ∀ t : Fin cfg1.N, condFin (grid1.coords t) ↔ t.val % 2 = 1 :=
  (by decide +kernel : ∀ t : Fin grid1.N, condFin (grid1.coords t) ↔ t.val % 2 = 1)

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel

theorem idle3 : ∀ t : Fin cfg1.N, ¬condFin (grid1.coords t) → cfg1.idle 3 (grid1.coords t) = true := by decide +kernel
theorem noFlush3 : ∀ t : Fin cfg1.N, ¬condFin (grid1.coords t) → (cfg1.win 3).flush t = false := by decide +kernel
theorem live3 : ∀ t : Fin cfg1.N, condFin (grid1.coords t) → cfg1.idle 3 (grid1.coords t) = false := by decide +kernel

variable (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)

set_option maxHeartbeats 1000000 in

noncomputable def runA
    (hc0 : condReset i) (hc1 : ¬condFin i)
    (x0 : Vec F S512x256 .bf16) (x1 : Vec F S8192x256 .bf16) (x2 : Vec F S512x1 .i32) :
    Σ' (LS0 : List (View.Piece (Elt F) S512x1 .f32)) (LS1 : List (View.Piece (Elt F) S512x1 .f32)), { LS2 : List (View.Piece (Elt F) S512x1 .f32) //
      ∀ (xi3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 1000000 in

noncomputable def runB
    (hc0 : ¬condReset i) (hc1 : condFin i)
    (x0 : Vec F S512x256 .bf16) (x1 : Vec F S8192x256 .bf16) (x2 : Vec F S512x1 .i32)
    (xs0 xs1 xs2 : Vec F S512x1 .f32) :
    Σ' (L3 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

theorem hz : (![0, 0] : Fin 2 → Nat) = fun _ => 0 := funext fun a => by fin_cases a <;> rfl

theorem read_last_store {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  refine (View.read_writes_eq_canon v f _ ?_).trans (View.canon_cons_unit_zero h inb w L)
  intro y
  exact ⟨_, List.Mem.head _, View.mem_set_unit_zero h inb y⟩

abbrev tl (i : grid1.Coords) (x1 : Vec F S8192x256 .bf16) : Vec F S4096x256 .bf16 :=
  View.ld x1 (Rect.unit (s := S8192x256) (k1_off1 i) S4096x256.size (k1_off1_inb i))

theorem runA_s0 (hc0 : condReset i) (hc1 : ¬condFin i)
    (x0 : Vec F S512x256 .bf16) (x1 : Vec F S8192x256 .bf16) (x2 : Vec F S512x1 .i32) (f : arg6.view.ty.Contents (Elt F)) :
    arg6.view.read (Elt F) (arg6.view.writes (Elt F) f (runA c i arg2 harg2 arg3 harg3 arg4 harg4 arg5 harg5 arg6 harg6 arg7 harg7 arg8 harg8 hc0 hc1 x0 x1 x2).1)
      = k1_pay2 (k1_pay15 i x0 (tl i x1) k1_pay5) := by
  unfold runA; dsimp only; sl_unfold_run_names
  refine (read_last_store (S := S512x1) _ _ hz _ _ _).trans ?_
  simp only [View.readAt_eq_ld, harg2.read_unread, harg3.read_unread, View.ld_unit_zero (S := S512x256) hz, View.readCov_unit_zero (S := S512x1) _ hz]

theorem runA_s1 (hc0 : condReset i) (hc1 : ¬condFin i)
    (x0 : Vec F S512x256 .bf16) (x1 : Vec F S8192x256 .bf16) (x2 : Vec F S512x1 .i32) (f : arg7.view.ty.Contents (Elt F)) :
    arg7.view.read (Elt F) (arg7.view.writes (Elt F) f (runA c i arg2 harg2 arg3 harg3 arg4 harg4 arg5 harg5 arg6 harg6 arg7 harg7 arg8 harg8 hc0 hc1 x0 x1 x2).2.1)
      = k1_pay1 (k1_pay13 i) (k1_pay14 i x0 (tl i x1)) (k1_pay15 i x0 (tl i x1) k1_pay5) k1_pay5 k1_pay6 := by
  unfold runA; dsimp only; sl_unfold_run_names
  refine (read_last_store (S := S512x1) _ _ hz _ _ _).trans ?_
  simp only [View.readAt_eq_ld, harg2.read_unread, harg3.read_unread, View.ld_unit_zero (S := S512x256) hz, View.readCov_unit_zero (S := S512x1) _ hz]

theorem runA_s2 (hc0 : condReset i) (hc1 : ¬condFin i)
    (x0 : Vec F S512x256 .bf16) (x1 : Vec F S8192x256 .bf16) (x2 : Vec F S512x1 .i32) (f : arg8.view.ty.Contents (Elt F)) :
    arg8.view.read (Elt F) (arg8.view.writes (Elt F) f (runA c i arg2 harg2 arg3 harg3 arg4 harg4 arg5 harg5 arg6 harg6 arg7 harg7 arg8 harg8 hc0 hc1 x0 x1 x2).2.2.1)
      = k1_pay3 (k1_pay10 x2) (k1_pay11 x0 (tl i x1)) (k1_pay12 i) (k1_pay13 i) k1_pay7 := by
  unfold runA; dsimp only; sl_unfold_run_names
  refine (read_last_store (S := S512x1) _ _ hz _ _ _).trans ?_
  simp only [View.readAt_eq_ld, harg2.read_unread, harg3.read_unread, harg4.read_unread, View.ld_unit_zero (S := S512x256) hz, View.ld_unit_zero (S := S512x1) hz, View.readCov_unit_zero (S := S512x1) _ hz]

theorem runB_s0 (hc0 : ¬condReset i) (hc1 : condFin i)
    (x0 : Vec F S512x256 .bf16) (x1 : Vec F S8192x256 .bf16) (x2 : Vec F S512x1 .i32) (xs0 xs1 xs2 : Vec F S512x1 .f32)
    (f : arg6.view.ty.Contents (Elt F)) :
    arg6.view.read (Elt F) (arg6.view.writes (Elt F) f (runB c i arg2 harg2 arg3 harg3 arg4 harg4 arg5 harg5 arg6 harg6 arg7 harg7 arg8 harg8 hc0 hc1 x0 x1 x2 xs0 xs1 xs2).2.1)
      = k1_pay2 (k1_pay15 i x0 (tl i x1) xs0) := by
  unfold runB; dsimp only; sl_unfold_run_names
  refine (read_last_store (S := S512x1) _ _ hz _ _ _).trans ?_
  simp only [View.readAt_eq_ld, harg2.read_unread, harg3.read_unread, harg6.read_unread, View.ld_unit_zero (S := S512x256) hz, View.ld_unit_zero (S := S512x1) hz]

theorem runB_s1 (hc0 : ¬condReset i) (hc1 : condFin i)
    (x0 : Vec F S512x256 .bf16) (x1 : Vec F S8192x256 .bf16) (x2 : Vec F S512x1 .i32) (xs0 xs1 xs2 : Vec F S512x1 .f32)
    (f : arg7.view.ty.Contents (Elt F)) :
    arg7.view.read (Elt F) (arg7.view.writes (Elt F) f (runB c i arg2 harg2 arg3 harg3 arg4 harg4 arg5 harg5 arg6 harg6 arg7 harg7 arg8 harg8 hc0 hc1 x0 x1 x2 xs0 xs1 xs2).2.2.1)
      = k1_pay1 (k1_pay13 i) (k1_pay14 i x0 (tl i x1)) (k1_pay15 i x0 (tl i x1) xs0) xs0 xs1 := by
  unfold runB; dsimp only; sl_unfold_run_names
  refine (read_last_store (S := S512x1) _ _ hz _ _ _).trans ?_
  simp only [View.readAt_eq_ld, harg2.read_unread, harg3.read_unread, harg6.read_unread, harg7.read_unread, View.ld_unit_zero (S := S512x256) hz, View.ld_unit_zero (S := S512x1) hz]

theorem runB_s2 (hc0 : ¬condReset i) (hc1 : condFin i)
    (x0 : Vec F S512x256 .bf16) (x1 : Vec F S8192x256 .bf16) (x2 : Vec F S512x1 .i32) (xs0 xs1 xs2 : Vec F S512x1 .f32)
    (f : arg8.view.ty.Contents (Elt F)) :
    arg8.view.read (Elt F) (arg8.view.writes (Elt F) f (runB c i arg2 harg2 arg3 harg3 arg4 harg4 arg5 harg5 arg6 harg6 arg7 harg7 arg8 harg8 hc0 hc1 x0 x1 x2 xs0 xs1 xs2).2.2.2.1)
      = k1_pay3 (k1_pay10 x2) (k1_pay11 x0 (tl i x1)) (k1_pay12 i) (k1_pay13 i) xs2 := by
  unfold runB; dsimp only; sl_unfold_run_names
  refine (read_last_store (S := S512x1) _ _ hz _ _ _).trans ?_
  simp only [View.readAt_eq_ld, harg2.read_unread, harg3.read_unread, harg4.read_unread, harg8.read_unread, View.ld_unit_zero (S := S512x256) hz, View.ld_unit_zero (S := S512x1) hz]

theorem runB_o3 (hc0 : ¬condReset i) (hc1 : condFin i)
    (x0 : Vec F S512x256 .bf16) (x1 : Vec F S8192x256 .bf16) (x2 : Vec F S512x1 .i32) (xs0 xs1 xs2 : Vec F S512x1 .f32)
    (f : arg5.view.ty.Contents (Elt F)) :
    arg5.view.read (Elt F) (arg5.view.writes (Elt F) f (runB c i arg2 harg2 arg3 harg3 arg4 harg4 arg5 harg5 arg6 harg6 arg7 harg7 arg8 harg8 hc0 hc1 x0 x1 x2 xs0 xs1 xs2).1)
      = k1_pay4 (k1_pay9 x2) (k1_pay2 (k1_pay15 i x0 (tl i x1) xs0))
          (k1_pay1 (k1_pay13 i) (k1_pay14 i x0 (tl i x1)) (k1_pay15 i x0 (tl i x1) xs0) xs0 xs1)
          (k1_pay3 (k1_pay10 x2) (k1_pay11 x0 (tl i x1)) (k1_pay12 i) (k1_pay13 i) xs2) := by
  unfold runB; dsimp only; sl_unfold_run_names
  refine (read_last_store (S := S512x1) _ _ hz _ _ _).trans ?_
  simp only [View.readAt_eq_ld, harg2.read_unread, harg3.read_unread, harg4.read_unread, harg6.read_unread, harg7.read_unread, harg8.read_unread, View.ld_unit_zero (S := S512x256) hz, View.ld_unit_zero (S := S512x1) hz, View.readCov_unit_zero (S := S512x1) _ hz]

end Cert.Kernel.R1

end
-- ==== Proof.Bits.R1Body.lean ====
import proofs.«419215_j38122129719724_3_alg».proof.Proof.Bits.R1Defs
import proofs.«419215_j38122129719724_3_alg».proof.Proof.Bits.R1Runs
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

abbrev ms0 (t : Fin cfg1.N) : Memref sig .tc .vmem S512x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x1 .f32 := win1_3.stage (cfg1.slots t 3)
abbrev hs3 (t : Fin cfg1.N) : (ms3 t).IsWhole := hstage1_3 ((cfg1.slots t 3).cast nbuf1_3)

theorem before0 (c : Dev nD) (t : Fin cfg1.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

theorem before1 (c : Dev nD) (t : Fin cfg1.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

theorem before2 (c : Dev nD) (t : Fin cfg1.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

theorem PhiA_eq (c : Dev nD) :
    (Pipeline.ΦA spec1 c : sProp 𝕄)
      = iprop(iprop(iprop((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := Pipeline.UD sig nD τ) (Lvl := ℕ) (Val := Elt F) spec1 c [cc1_scratch0, cc1_scratch1, cc1_scratch2])
          ∗ (∃ r, prngReg c r)) := by
  unfold Pipeline.ΦA; rw [scopedRest1_split]; simp only [scM0, scM1, scM2, owns_whole]; try rfl

theorem Phi_any (c : Dev nD) (t : Fin cfg1.N) :
    (dat V c).Φ t.castSucc ⊢ iprop(iprop((∃ d, owns (c : Thread nD τ) scM0 fullShare d) ∗ (∃ d, owns (c : Thread nD τ) scM1 fullShare d) ∗ (∃ d, owns (c : Thread nD τ) scM2 fullShare d))
        ∗ Pipeline.scopedRestBut (Ix := Unit) (Name := ℕ) (U := Pipeline.UD sig nD τ) (Lvl := ℕ) (Val := Elt F) spec1 c [cc1_scratch0, cc1_scratch1, cc1_scratch2] ∗ (∃ r, prngReg c r)) := by
  rw [Phi_castSucc V c t]
  by_cases hz0 : t.val = 0
  · rw [Phi_zero V c _ _ hz0, PhiA_eq]
    iintro ⟨⟨⟨HS0, HS1, HS2⟩, Hrest⟩, Hg⟩
    isplitl [HS0 HS1 HS2]
    · isplitl [HS0]; · iexact HS0
      isplitl [HS1]; · iexact HS1
      iexact HS2
    isplitl [Hrest]; · iexact Hrest
    iexact Hg
  · rw [Phi_pos V c _ _ hz0]
    iintro ⟨⟨HS0, HS1, HS2⟩, Hrest, Hg⟩
    isplitl [HS0 HS1 HS2]
    · isplitl [HS0]; · iexists _; iexact HS0
      isplitl [HS1]; · iexists _; iexact HS1
      iexists _; iexact HS2
    isplitl [Hrest]; · iexact Hrest
    iexact Hg

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms0 t) fullShare ((dat V c).after 0 t) from by
        unfold Dat.leavesExact; rw [live0 t], after0]
  rw [show (dat V c).leavesExact 1 t = owns (c : Thread nD τ) (ms1 t) fullShare ((dat V c).after 1 t) from by
        unfold Dat.leavesExact; rw [live1 t], after1]
  rw [show (dat V c).leavesExact 2 t = owns (c : Thread nD τ) (ms2 t) fullShare ((dat V c).after 2 t) from by
        unfold Dat.leavesExact; rw [live2 t], after2]
  have hN : t.val < 16 := lt_of_lt_of_eq t.isLt (show cfg1.N = 16 from N_1)
  by_cases h0 : t.val % 2 = 0
  · have hcR : condReset (grid1.coords t) := (hcondReset t).mpr h0
    have hcF : ¬condFin (grid1.coords t) := fun h => by have := (hcondFin t).mp h; omega
    rw [Dat.leavesExact_idle (dat V c) 3 t (idle3 t hcF) (noFlush3 t hcF)]
    rw [stAt_first V c t h0]
    iintro ⟨HΦ, Ho, ⟨%d0, H0⟩, ⟨%d1, H1⟩, ⟨%d2, H2⟩, ⟨%d3, H3⟩⟩
    ihave HΦ' := (Phi_any V c t) $$ HΦ
    icases HΦ' with ⟨⟨HS0, HS1, HS2⟩, Hrest, Hg⟩
    iapply ((runA c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    isplitl [HS0 HS1 HS2 Hrest Hg]
    · isplitl [HS0 HS1 HS2]
      · isplitl [HS0]
        · unfold owns; iexists _; isplitr
          swap; · iexact HS0
          ipureintro; exact runA_s0 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) e0
        isplitl [HS1]
        · unfold owns; iexists _; isplitr
          swap; · iexact HS1
          ipureintro; exact runA_s1 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) e1
        unfold owns; iexists _; isplitr
        swap; · iexact HS2
        ipureintro; exact runA_s2 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) e2
      isplitl [Hrest]; · iexact Hrest
      iexact Hg
    isplitl [Ho]; · iexact Ho
    isplitl [H0]; · iexact H0
    isplitl [H1]; · iexact H1
    isplitl [H2]; · iexact H2
    iexists _; iexact H3
  · have h1 : t.val % 2 = 1 := by omega
    have hcR : ¬condReset (grid1.coords t) := fun h => h0 ((hcondReset t).mp h)
    have hcF : condFin (grid1.coords t) := (hcondFin t).mpr h1
    have hz0 : t.val ≠ 0 := fun h => h0 (by rw [h])
    have hp : t.val - 1 < cfg1.N := Nat.lt_of_le_of_lt (Nat.sub_le _ _) t.isLt
    rw [show (dat V c).leavesExact 3 t = owns (c : Thread nD τ) (ms3 t) fullShare ((dat V c).after 3 t) from by
          unfold Dat.leavesExact; rw [live3 t hcF], after3]
    rw [stAt_next V c t h0]
    rw [Phi_castSucc V c t, Phi_pos V c _ _ hz0]
    iintro ⟨⟨⟨HS0, HS1, HS2⟩, Hrest, Hg⟩, Ho, ⟨%d0, H0⟩, ⟨%d1, H1⟩, ⟨%d2, H2⟩, ⟨%d3, H3⟩⟩
    iapply ((runB c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) (stAt V c (t.val - 1) hp).1 (stAt V c (t.val - 1) hp).2.1 (stAt V c (t.val - 1) hp).2.2).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%e0, HS0⟩, ⟨%e1, HS1⟩, ⟨%e2, HS2⟩⟩
    isplitl [HS0 HS1 HS2 Hrest Hg]
    · isplitl [HS0 HS1 HS2]
      · isplitl [HS0]
        · unfold owns; iexists _; isplitr
          swap; · iexact HS0
          ipureintro; exact runB_s0 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) (stAt V c (t.val - 1) hp).1 (stAt V c (t.val - 1) hp).2.1 (stAt V c (t.val - 1) hp).2.2 e0
        isplitl [HS1]
        · unfold owns; iexists _; isplitr
          swap; · iexact HS1
          ipureintro; exact runB_s1 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) (stAt V c (t.val - 1) hp).1 (stAt V c (t.val - 1) hp).2.1 (stAt V c (t.val - 1) hp).2.2 e1
        unfold owns; iexists _; isplitr
        swap; · iexact HS2
        ipureintro; exact runB_s2 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) (stAt V c (t.val - 1) hp).1 (stAt V c (t.val - 1) hp).2.1 (stAt V c (t.val - 1) hp).2.2 e2
      isplitl [Hrest]; · iexact Hrest
      iexact Hg
    isplitl [Ho]; · iexact Ho
    isplitl [H0]; · iexact H0
    isplitl [H1]; · iexact H1
    isplitl [H2]; · iexact H2
    unfold owns; iexists _; isplitr
    swap; · iexact H3
    ipureintro; exact runB_o3 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) (stAt V c (t.val - 1) hp).1 (stAt V c (t.val - 1) hp).2.1 (stAt V c (t.val - 1) hp).2.2 e3

theorem body_obligation (c : Dev nD) : BodyObligation (dat (F := F) V c) (defs₀ (F := F)) Variants.none () Set.univ := fun t => by
  rw [bigSep_W1, bigSep_W1]
  exact sound_body V c t

end Cert.Kernel.R1

end
-- ==== Proof.Bits.R2Runs.lean ====
import proofs.«419215_j38122129719724_3_alg».proof.Proof.Bits.R2Defs
import Idealize.ShloMosaic.Lib.Pipeline.Value
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev condFirst (i : grid2.Coords) : Prop :=
  (Scalar.cmpi .ne (Scalar.extui (Scalar.cmpi .eq (BitVec.ofNat 32 (i 1).val) 0#32)) 0#32) = 1#1

abbrev condLast (i : grid2.Coords) : Prop := k2_cond2 i = 1#1

theorem condFirst_iff : ∀ t : Fin cfg2.N, condFirst (grid2.coords t) ↔ t.val % 10 = 0 :=
  (by decide +kernel : ∀ t : Fin grid2.N, condFirst (grid2.coords t) ↔ t.val % 10 = 0)

theorem condLast_iff : ∀ t : Fin cfg2.N, condLast (grid2.coords t) ↔ t.val % 10 = 9 :=
  (by decide +kernel : ∀ t : Fin grid2.N, condLast (grid2.coords t) ↔ t.val % 10 = 9)

theorem hz2 : (![0, 0] : Fin 2 → Nat) = fun _ => 0 := funext fun a => by fin_cases a <;> rfl

theorem read_last_store {S : Shape} {e : EltTy} (m : Memref sig .tc .vmem S e) (f : m.view.ty.Contents (Elt F))
    {off : Fin S.rank → Nat} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w :=
  (View.read_writes_eq_canon _ _ _ (fun y => ⟨_, List.mem_cons_self, View.mem_set_unit_zero h inb y⟩)).trans
    (View.canon_cons_unit_zero h inb w L)

variable (c : Dev nD) (i : grid2.Coords) (arg2 : Memref sig .tc .vmem S512x64 .bf16) (harg2 : arg2.IsWhole) (arg3 : Memref sig .tc .vmem S64x40960 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)

set_option maxHeartbeats 1000000 in

theorem runMid
    (hc0 : ¬ condFirst i) (hc1 : ¬ condLast i) (x0 : Vec F S512x64 .bf16) (x1 : Vec F S64x40960 .bf16) (x2 : Vec F S512x1 .i32) (xi3 : Vec F S512x1 .f32) (st : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ owns (c : Thread nD τ) arg6 fullShare st.1 ∗ owns (c : Thread nD τ) arg7 fullShare st.2.1 ∗ owns (c : Thread nD τ) arg8 fullShare st.2.2
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (step i x0 x1 x2 st).1 ∗ owns (c : Thread nD τ) arg7 fullShare (step i x0 x1 x2 st).2.1
            ∗ owns (c : Thread nD τ) arg8 fullShare (step i x0 x1 x2 st).2.2) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_last_store arg6 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  isplitl [H7]
  · iexists _; isplitr
    swap; · iexact H7
    ipureintro
    refine (read_last_store arg7 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  · iexists _; isplitr
    swap; · iexact H8
    ipureintro
    refine (read_last_store arg8 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl

set_option maxHeartbeats 1000000 in

theorem runFirst
    (hc0 : condFirst i) (hc1 : ¬ condLast i) (x0 : Vec F S512x64 .bf16) (x1 : Vec F S64x40960 .bf16) (x2 : Vec F S512x1 .i32) (xi3 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (step i x0 x1 x2 reset).1 ∗ owns (c : Thread nD τ) arg7 fullShare (step i x0 x1 x2 reset).2.1
            ∗ owns (c : Thread nD τ) arg8 fullShare (step i x0 x1 x2 reset).2.2) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_last_store arg6 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  isplitl [H7]
  · iexists _; isplitr
    swap; · iexact H7
    ipureintro
    refine (read_last_store arg7 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  · iexists _; isplitr
    swap; · iexact H8
    ipureintro
    refine (read_last_store arg8 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl

set_option maxHeartbeats 1000000 in

theorem runLast
    (hc0 : ¬ condFirst i) (hc1 : condLast i) (x0 : Vec F S512x64 .bf16) (x1 : Vec F S64x40960 .bf16) (x2 : Vec F S512x1 .i32) (st : St F)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare st.1 ∗ owns (c : Thread nD τ) arg7 fullShare st.2.1 ∗ owns (c : Thread nD τ) arg8 fullShare st.2.2
        ∗ (iprop(owns (c : Thread nD τ) arg2 fullShare x0 ∗ owns (c : Thread nD τ) arg3 fullShare x1 ∗ owns (c : Thread nD τ) arg4 fullShare x2 ∗ owns (c : Thread nD τ) arg5 fullShare (fin x2 (step i x0 x1 x2 st))
            ∗ owns (c : Thread nD τ) arg6 fullShare (step i x0 x1 x2 st).1 ∗ owns (c : Thread nD τ) arg7 fullShare (step i x0 x1 x2 st).2.1
            ∗ owns (c : Thread nD τ) arg8 fullShare (step i x0 x1 x2 st).2.2) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg6.eq_unread hf6; obtain rfl := harg7.eq_unread hf7; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_last_store arg5 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  isplitl [H6]
  · iexists _; isplitr
    swap; · iexact H6
    ipureintro
    refine (read_last_store arg6 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  isplitl [H7]
  · iexists _; isplitr
    swap; · iexact H7
    ipureintro
    refine (read_last_store arg7 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  · iexists _; isplitr
    swap; · iexact H8
    ipureintro
    refine (read_last_store arg8 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl

end Cert.Kernel.R2

end
-- ==== Proof.Bits.R2Body.lean ====
import proofs.«419215_j38122129719724_3_alg».proof.Proof.Bits.R2Runs
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

abbrev buf0 (t : Fin cfg2.N) : Memref sig .tc .vmem S512x64 .bf16 := win2_0.stage (cfg2.slots t 0)
abbrev buf1 (t : Fin cfg2.N) : Memref sig .tc .vmem S64x40960 .bf16 := win2_1.stage (cfg2.slots t 1)
abbrev buf2 (t : Fin cfg2.N) : Memref sig .tc .vmem S512x1 .i32 := win2_2.stage (cfg2.slots t 2)
abbrev buf3 (t : Fin cfg2.N) : Memref sig .tc .vmem S512x1 .f32 := win2_3.stage (cfg2.slots t 3)
abbrev whole0 (t : Fin cfg2.N) : (buf0 t).IsWhole := hstage2_0 ((cfg2.slots t 0).cast nbuf2_0)
abbrev whole1 (t : Fin cfg2.N) : (buf1 t).IsWhole := hstage2_1 ((cfg2.slots t 1).cast nbuf2_1)
abbrev whole2 (t : Fin cfg2.N) : (buf2 t).IsWhole := hstage2_2 ((cfg2.slots t 2).cast nbuf2_2)
abbrev whole3 (t : Fin cfg2.N) : (buf3 t).IsWhole := hstage2_3 ((cfg2.slots t 3).cast nbuf2_3)

theorem found0 (c : Dev nD) (t : Fin cfg2.N) (d) : (dat V c).before 0 t d = iblk V c 0 t := by
  have keep : ∀ u, (cfg2.win 0).cut (cfg2.grid.coords u) ((dat V c).after 0 u) = (dat V c).blockOf 0 u := fun u => by
    rw [after0]; unfold Dat.blockOf iblk; rw [A_eq]; try rfl
  rw [(dat V c).before_in_eq_fetched 0 rfl (fun _ => rfl) (fun _ _ _ => rfl) keep t d]
  unfold Dat.fetched Dat.blockOf iblk; rw [A_eq]; try rfl

theorem found1 (c : Dev nD) (t : Fin cfg2.N) (d) : (dat V c).before 1 t d = iblk V c 1 t := by
  have keep : ∀ u, (cfg2.win 1).cut (cfg2.grid.coords u) ((dat V c).after 1 u) = (dat V c).blockOf 1 u := fun u => by
    rw [after1]; unfold Dat.blockOf iblk; rw [A_eq]; try rfl
  rw [(dat V c).before_in_eq_fetched 1 rfl (fun _ => rfl) (fun _ _ _ => rfl) keep t d]
  unfold Dat.fetched Dat.blockOf iblk; rw [A_eq]; try rfl

theorem found2 (c : Dev nD) (t : Fin cfg2.N) (d) : (dat V c).before 2 t d = iblk V c 2 t := by
  have keep : ∀ u, (cfg2.win 2).cut (cfg2.grid.coords u) ((dat V c).after 2 u) = (dat V c).blockOf 2 u := fun u => by
    rw [after2]; unfold Dat.blockOf iblk; rw [A_eq]; try rfl
  rw [(dat V c).before_in_eq_fetched 2 rfl (fun _ => rfl) (fun _ _ _ => rfl) keep t d]
  unfold Dat.fetched Dat.blockOf iblk; rw [A_eq]; try rfl

theorem left0 (c : Dev nD) (t : Fin cfg2.N) : (dat V c).leavesExact 0 t = owns (c : Thread nD τ) (buf0 t) fullShare (iblk V c 0 t) := by
  unfold Dat.leavesExact; rw [after0]
theorem left1 (c : Dev nD) (t : Fin cfg2.N) : (dat V c).leavesExact 1 t = owns (c : Thread nD τ) (buf1 t) fullShare (iblk V c 1 t) := by
  unfold Dat.leavesExact; rw [after1]
theorem left2 (c : Dev nD) (t : Fin cfg2.N) : (dat V c).leavesExact 2 t = owns (c : Thread nD τ) (buf2 t) fullShare (iblk V c 2 t) := by
  unfold Dat.leavesExact; rw [after2]

theorem out_idle : ∀ t : Fin cfg2.N, t.val % 10 ≠ 9 → cfg2.idle 3 (grid2.coords t) = true :=
  (by decide +kernel : ∀ t : Fin grid2.N, t.val % 10 ≠ 9 → cfg2.idle 3 (grid2.coords t) = true)
theorem out_live : ∀ t : Fin cfg2.N, t.val % 10 = 9 → cfg2.idle 3 (grid2.coords t) = false :=
  (by decide +kernel : ∀ t : Fin grid2.N, t.val % 10 = 9 → cfg2.idle 3 (grid2.coords t) = false)

theorem out_kept (t : Fin cfg2.N) (h : t.val % 10 ≠ 9) : (cfg2.win 3).flush t = false := by
  cases hf : (cfg2.win 3).flush t with
  | false => rfl
  | true => exact absurd ((flush2_3 t).mp hf) h

theorem left3 (c : Dev nD) (t : Fin cfg2.N) (h : t.val % 10 = 9) :
    (dat V c).leavesExact 3 t = owns (c : Thread nD τ) (buf3 t) fullShare (fin (iblk V c 2 t) (stAt V c t.val t.isLt)) := by
  unfold Dat.leavesExact; rw [out_live t h, after3]

theorem PhiA_open (c : Dev nD) :
    (Pipeline.ΦA spec2 c : sProp 𝕄)
      = iprop(iprop(iprop((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := Pipeline.UD sig nD τ) (Lvl := ℕ) (Val := Elt F) spec2 c [cc2_scratch0, cc2_scratch1, cc2_scratch2]) ∗ (∃ r, prngReg c r)) := by
  unfold Pipeline.ΦA; rw [scopedRest2_split]; simp only [scM0, scM1, scM2, owns_whole]; try rfl

def pointPre (c : Dev nD) (t : Fin cfg2.N) : sProp 𝕄 :=
  iprop((dat V c).Φ t.castSucc ∗ (dat V c).owesAt () t.castSucc
    ∗ (∃ d, owns (c : Thread nD τ) (buf0 t) fullShare ((dat V c).before 0 t d))
    ∗ (∃ d, owns (c : Thread nD τ) (buf1 t) fullShare ((dat V c).before 1 t d))
    ∗ (∃ d, owns (c : Thread nD τ) (buf2 t) fullShare ((dat V c).before 2 t d))
    ∗ (∃ d, owns (c : Thread nD τ) (buf3 t) fullShare ((dat V c).before 3 t d)))

def pointPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in

theorem body_point (c : Dev nD) (t : Fin cfg2.N) :
    pointPre V c t ⊢ wp frame (wpE (defs₀ (F := F)) Variants.none c none) Set.univ (bodyAt2 t) (fun _ => pointPost V c t) := by
  unfold pointPre pointPost bodyAt2
  simp only [found0, found1, found2]
  rw [show (dat V c).owesAt () t.succ = (dat V c).owesAt () t.castSucc from rfl]
  rw [show (dat V c).Φ t.succ = Phi V c (t.val + 1) t.isLt from rfl, Phi_succ, Phi_castSucc, left0, left1, left2]
  have hN : t.val < 80 := lt_of_lt_of_eq t.isLt (show cfg2.N = 80 from N_2)
  by_cases h0 : t.val % 10 = 0
  ·
    have hc0 : condFirst (grid2.coords t) := (condFirst_iff t).mpr h0
    have hc1 : ¬ condLast (grid2.coords t) := fun h => by have := (condLast_iff t).mp h; omega
    have h9 : t.val % 10 ≠ 9 := by omega
    rw [Dat.leavesExact_idle (dat V c) 3 t (out_idle t h9) (out_kept t h9), stAt_first V c t h0]
    have run := runFirst c (grid2.coords t) (buf0 t) (whole0 t) (buf1 t) (whole1 t) (buf2 t) (whole2 t) (buf3 t) (whole3 t)
      scM0 (Memref.isWhole_whole _) scM1 (Memref.isWhole_whole _) scM2 (Memref.isWhole_whole _) hc0 hc1
      (iblk V c 0 t) (iblk V c 1 t) (iblk V c 2 t)
    by_cases hz : t.val = 0
    · rw [Phi_zero V c _ _ hz, PhiA_open]
      iintro ⟨⟨⟨⟨S0, S1, S2⟩, HR⟩, Hg⟩, Ho, ⟨%d0, H0⟩, ⟨%d1, H1⟩, ⟨%d2, H2⟩, ⟨%d3, H3⟩⟩
      iapply (run _ Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 HR Hg]
      · isplitl [S0 S1 S2]
        · isplitl [S0]; · iexact S0
          isplitl [S1]; · iexact S1
          iexact S2
        isplitl [HR]; · iexact HR
        iexact Hg
      isplitl [Ho]; · iexact Ho
      isplitl [H0]; · iexact H0
      isplitl [H1]; · iexact H1
      isplitl [H2]; · iexact H2
      iexists _; iexact H3
    · rw [Phi_pos V c _ _ hz]
      iintro ⟨⟨⟨S0, S1, S2⟩, HR, Hg⟩, Ho, ⟨%d0, H0⟩, ⟨%d1, H1⟩, ⟨%d2, H2⟩, ⟨%d3, H3⟩⟩
      iapply (run _ Set.univ _)
      isplitl [H0]; · iexact H0
      isplitl [H1]; · iexact H1
      isplitl [H2]; · iexact H2
      isplitl [H3]; · iexact H3
      isplitl [S0]; · iexists _; iexact S0
      isplitl [S1]; · iexists _; iexact S1
      isplitl [S2]; · iexists _; iexact S2
      iintro ⟨H0, H1, H2, H3, S0, S1, S2⟩
      isplitl [S0 S1 S2 HR Hg]
      · isplitl [S0 S1 S2]
        · isplitl [S0]; · iexact S0
          isplitl [S1]; · iexact S1
          iexact S2
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬ condFirst (grid2.coords t) := fun h => h0 ((condFirst_iff t).mp h)
    rw [Phi_pos V c _ _ hz, stAt_next V c t h0]
    by_cases h9 : t.val % 10 = 9
    ·
      have hc1 : condLast (grid2.coords t) := (condLast_iff t).mpr h9
      rw [left3 V c t h9, stAt_next V c t h0]
      iintro ⟨⟨⟨S0, S1, S2⟩, HR, Hg⟩, Ho, ⟨%d0, H0⟩, ⟨%d1, H1⟩, ⟨%d2, H2⟩, ⟨%d3, H3⟩⟩
      iapply (runLast c (grid2.coords t) (buf0 t) (whole0 t) (buf1 t) (whole1 t) (buf2 t) (whole2 t) (buf3 t) (whole3 t)
        scM0 (Memref.isWhole_whole _) scM1 (Memref.isWhole_whole _) scM2 (Memref.isWhole_whole _) hc0 hc1
        (iblk V c 0 t) (iblk V c 1 t) (iblk V c 2 t) _ Set.univ _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [S0 S1 S2 HR Hg]
      · isplitl [S0 S1 S2]
        · isplitl [S0]; · iexact S0
          isplitl [S1]; · iexact S1
          iexact S2
        isplitl [HR]; · iexact HR
        iexact Hg
      isplitl [Ho]; · iexact Ho
      isplitl [H0]; · iexact H0
      isplitl [H1]; · iexact H1
      isplitl [H2]; · iexact H2
      iexact H3
    ·
      have hc1 : ¬ condLast (grid2.coords t) := fun h => h9 ((condLast_iff t).mp h)
      rw [Dat.leavesExact_idle (dat V c) 3 t (out_idle t h9) (out_kept t h9)]
      iintro ⟨⟨⟨S0, S1, S2⟩, HR, Hg⟩, Ho, ⟨%d0, H0⟩, ⟨%d1, H1⟩, ⟨%d2, H2⟩, ⟨%d3, H3⟩⟩
      iapply (runMid c (grid2.coords t) (buf0 t) (whole0 t) (buf1 t) (whole1 t) (buf2 t) (whole2 t) (buf3 t) (whole3 t)
        scM0 (Memref.isWhole_whole _) scM1 (Memref.isWhole_whole _) scM2 (Memref.isWhole_whole _) hc0 hc1
        (iblk V c 0 t) (iblk V c 1 t) (iblk V c 2 t) _ _ Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 HR Hg]
      · isplitl [S0 S1 S2]
        · isplitl [S0]; · iexact S0
          isplitl [S1]; · iexact S1
          iexact S2
        isplitl [HR]; · iexact HR
        iexact Hg
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W2, bigSep_W2]
  exact body_point V c t

end Cert.Kernel.R2

end
-- ==== Proof.Bits.KFrame.lean ====
import proofs.«419215_j38122129719724_3_alg».proof.Proof.Bits.KRun

set_option maxRecDepth 16384

noncomputable section

namespace Cert.Kernel.KRun

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps3 _ hostOps3_writes (by decide : main_arg0 ∉ hostOps3_W)
    _ = W7 m c (Proc.devRef .tc main_arg0) := W8_of_ne m c main_arg0 (by decide)
    _ = W6 m c (Proc.devRef .tc main_arg0) := W7_of_ne m c main_arg0 (by decide)
    _ = W5 m c (Proc.devRef .tc main_arg0) := (W6_arr m c 0).trans (((R0.dat (atRefs (W5 m)) c).arrAt_in 0 rfl _).trans (R0.A_eq (atRefs (W5 m)) c 0))
    _ = m ((c : Thread nD τ).loc main_arg0) :=
      (V5_of m c main_arg0 (by decide)).trans <| (V4_of m c main_arg0 (by decide)).trans <| (V3_of m c main_arg0 (by decide)).trans <|
        (V2_of m c main_arg0 (by decide)).trans <| (V1_of m c main_arg0 (by decide))

/-- A buffer that no host stretch writes and no region has as a window's array is, at the last boundary, as launched. -/
theorem W9_keep (c : Dev nD) (b : Ref sig .tc)
    (h : b ∉ hostOps3_W ∧ (∀ w, Pipeline.arrRef spec2 w ≠ b) ∧ (∀ w, Pipeline.arrRef spec1 w ≠ b) ∧ (∀ w, Pipeline.arrRef spec0 w ≠ b)
      ∧ b ∉ hostOps0_4_W ∧ b ∉ hostOps0_3_W ∧ b ∉ hostOps0_2_W ∧ b ∉ hostOps0_1_W ∧ b ∉ hostOps0_W) :
    W9 m c (Proc.devRef .tc b) = m ((c : Thread nD τ).loc b) :=
  calc W9 m c (Proc.devRef .tc b)
    _ = W8 m c (Proc.devRef .tc b) := StableHlo.after_of_writes_sub hostOps3 _ hostOps3_writes h.1
    _ = W7 m c (Proc.devRef .tc b) := W8_of_ne m c b h.2.1
    _ = W6 m c (Proc.devRef .tc b) := W7_of_ne m c b h.2.2.1
    _ = W5 m c (Proc.devRef .tc b) := W6_of_ne m c b h.2.2.2.1
    _ = m ((c : Thread nD τ).loc b) :=
      (V5_of m c b h.2.2.2.2.1).trans <| (V4_of m c b h.2.2.2.2.2.1).trans <| (V3_of m c b h.2.2.2.2.2.2.1).trans <|
        (V2_of m c b h.2.2.2.2.2.2.2.1).trans <| (V1_of m c b h.2.2.2.2.2.2.2.2)

theorem W9_main_arg1 (c : Dev nD) : W9 m c (Proc.devRef .tc main_arg1) = m ((c : Thread nD τ).loc main_arg1) :=
  W9_keep m c main_arg1 (by decide)
theorem W9_main_arg2 (c : Dev nD) : W9 m c (Proc.devRef .tc main_arg2) = m ((c : Thread nD τ).loc main_arg2) :=
  W9_keep m c main_arg2 (by decide)
theorem W9_main_arg3 (c : Dev nD) : W9 m c (Proc.devRef .tc main_arg3) = m ((c : Thread nD τ).loc main_arg3) :=
  W9_keep m c main_arg3 (by decide)
theorem W9_main_arg4 (c : Dev nD) : W9 m c (Proc.devRef .tc main_arg4) = m ((c : Thread nD τ).loc main_arg4) :=
  W9_keep m c main_arg4 (by decide)
theorem W9_main_arg5 (c : Dev nD) : W9 m c (Proc.devRef .tc main_arg5) = m ((c : Thread nD τ).loc main_arg5) :=
  W9_keep m c main_arg5 (by decide)
theorem W9_main_arg6 (c : Dev nD) : W9 m c (Proc.devRef .tc main_arg6) = m ((c : Thread nD τ).loc main_arg6) :=
  W9_keep m c main_arg6 (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c)⟩) (run_all m ρ)

end Cert.Kernel.KRun

end
-- ==== Proof.R0Defs.lean ====
import proofs.«419215_j38122129719724_3_alg».proof.Proof.Gen.KernelIdeal.Launch
import proofs.«419215_j38122129719724_3_alg».proof.Proof.Gen.KernelIdeal.Skeleton
import proofs.«419215_j38122129719724_3_alg».proof.Proof.Gen.KernelIdeal.Points
import Idealize.ShloMosaic.Lib.Pipeline.FrameBody
import Idealize.ShloMosaic.Lib.Pipeline.Frame

noncomputable section

namespace Cert.KernelIdeal.R0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay4 (iblk V c 0 t) (iblk V c 1 t) (iblk V c 4 t)
    | ⟨6, _⟩ => k0_pay1 (k0_pay3 (iblk V c 0 t)) (iblk V c 2 t)
    | ⟨7, _⟩ => k0_pay2 (k0_pay3 (iblk V c 0 t)) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after5 (c : Dev nD) (t : Fin cfg0.N) : (dat V c).after 5 t = k0_pay4 (iblk V c 0 t) (iblk V c 1 t) (iblk V c 4 t) := by dsimp only [dat]
theorem after6 (c : Dev nD) (t : Fin cfg0.N) : (dat V c).after 6 t = k0_pay1 (k0_pay3 (iblk V c 0 t)) (iblk V c 2 t) := by dsimp only [dat]
theorem after7 (c : Dev nD) (t : Fin cfg0.N) : (dat V c).after 7 t = k0_pay2 (k0_pay3 (iblk V c 0 t)) (iblk V c 3 t) := by dsimp only [dat]

end Cert.KernelIdeal.R0

end
-- ==== Proof.R1Defs.lean ====
import proofs.«419215_j38122129719724_3_alg».proof.Proof.Gen.KernelIdeal.Launch
import proofs.«419215_j38122129719724_3_alg».proof.Proof.Gen.KernelIdeal.Skeleton
import proofs.«419215_j38122129719724_3_alg».proof.Proof.Gen.KernelIdeal.Points
import Idealize.ShloMosaic.Lib.Pipeline.FrameBody
import Idealize.ShloMosaic.Lib.Pipeline.Frame

noncomputable section

namespace Cert.KernelIdeal.R1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation)

variable {F : FTy → Type} [FloatOps F] [Named F]

local notation "𝕄" => MT nD τ sig Unit (Elt F) ℕ (Pipeline.UD sig nD τ) ℕ

abbrev St (F : FTy → Type) : Type := Vec F S512x1 .f32 × Vec F S512x1 .f32 × Vec F S512x1 .f32

def tile (i : grid1.Coords) (E : Vec F S8192x256 .bf16) : Vec F S4096x256 .bf16 :=
  View.ld E (Rect.unit (s := S8192x256) (k1_off1 i) S4096x256.size (Gen.k1_off1_inb i))

def reset : St F := (k1_pay5, k1_pay6, k1_pay7)

def step (i : grid1.Coords) (x : Vec F S512x256 .bf16) (E : Vec F S8192x256 .bf16) (tg : Vec F S512x1 .i32) (st : St F) : St F :=
  (k1_pay2 (k1_pay15 i x (tile i E) st.1),
   k1_pay1 (k1_pay13 i) (k1_pay14 i x (tile i E)) (k1_pay15 i x (tile i E) st.1) st.1 st.2.1,
   k1_pay3 (k1_pay10 tg) (k1_pay11 x (tile i E)) (k1_pay12 i) (k1_pay13 i) st.2.2)

def fin (tg : Vec F S512x1 .i32) (st : St F) : Vec F S512x1 .f32 := k1_pay4 (k1_pay9 tg) st.1 st.2.1 st.2.2

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def stAt (c : Dev nD) : (n : ℕ) → n < cfg1.N → St F
  | 0, h => step (grid1.coords ⟨0, h⟩) (iblk V c 0 ⟨0, h⟩) (iblk V c 1 ⟨0, h⟩) (iblk V c 2 ⟨0, h⟩) reset
  | n + 1, h => step (grid1.coords ⟨n + 1, h⟩) (iblk V c 0 ⟨n + 1, h⟩) (iblk V c 1 ⟨n + 1, h⟩) (iblk V c 2 ⟨n + 1, h⟩)
      (if (n + 1) % 2 = 0 then reset else stAt c n (Nat.lt_of_succ_lt h))

theorem stAt_first (c : Dev nD) (t : Fin cfg1.N) (h : t.val % 2 = 0) :
    stAt V c t.val t.isLt = step (grid1.coords t) (iblk V c 0 t) (iblk V c 1 t) (iblk V c 2 t) reset := by
  obtain ⟨n, hn⟩ := t
  cases n with
  | zero => rfl
  | succ n => exact congrArg _ (if_pos h)

theorem stAt_next (c : Dev nD) (t : Fin cfg1.N) (h : ¬ t.val % 2 = 0) :
    stAt V c t.val t.isLt = step (grid1.coords t) (iblk V c 0 t) (iblk V c 1 t) (iblk V c 2 t)
      (stAt V c (t.val - 1) (Nat.lt_of_le_of_lt (Nat.sub_le _ _) t.isLt)) := by
  obtain ⟨n, hn⟩ := t
  cases n with
  | zero => exact absurd (Nat.zero_mod _) h
  | succ n => exact congrArg _ (if_neg h)

def outsAt (c : Dev nD) (n : ℕ) (h : n < cfg1.N) : Vec F S512x1 .f32 × Vec F S512x1 .f32 × Vec F S512x1 .f32 × Vec F S512x1 .f32 :=
  (fin (iblk V c 2 ⟨n, h⟩) (stAt V c n h), (stAt V c n h).1, (stAt V c n h).2.1, (stAt V c n h).2.2)

abbrev scM0 : Memref sig .tc .vmem S512x1 .f32 := Memref.whole cc1_scratch0
abbrev scM1 : Memref sig .tc .vmem S512x1 .f32 := Memref.whole cc1_scratch1
abbrev scM2 : Memref sig .tc .vmem S512x1 .f32 := Memref.whole cc1_scratch2

def Phi (c : Dev nD) : (n : ℕ) → n ≤ cfg1.N → sProp 𝕄
  | 0, _ => Pipeline.ΦA spec1 c
  | n + 1, hn => iprop(iprop(owns (c : Thread nD τ) scM0 fullShare (stAt V c n hn).1 ∗ owns (c : Thread nD τ) scM1 fullShare (stAt V c n hn).2.1 ∗ owns (c : Thread nD τ) scM2 fullShare (stAt V c n hn).2.2)
      ∗ Pipeline.scopedRestBut (Ix := Unit) (Name := ℕ) (U := Pipeline.UD sig nD τ) (Lvl := ℕ) (Val := Elt F) spec1 c [cc1_scratch0, cc1_scratch1, cc1_scratch2] ∗ (∃ r, prngReg c r))

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop(iprop(owns (c : Thread nD τ) scM0 fullShare (stAt V c n hn).1 ∗ owns (c : Thread nD τ) scM1 fullShare (stAt V c n hn).2.1 ∗ owns (c : Thread nD τ) scM2 fullShare (stAt V c n hn).2.2)
      ∗ Pipeline.scopedRestBut (Ix := Unit) (Name := ℕ) (U := Pipeline.UD sig nD τ) (Lvl := ℕ) (Val := Elt F) spec1 c [cc1_scratch0, cc1_scratch1, cc1_scratch2] ∗ (∃ r, prngReg c r)) := rfl

theorem Phi_pos (c : Dev nD) (n : ℕ) (h : n ≤ cfg1.N) (hz : n ≠ 0) :
    Phi V c n h = iprop(iprop(owns (c : Thread nD τ) scM0 fullShare (stAt V c (n - 1) (by omega)).1 ∗ owns (c : Thread nD τ) scM1 fullShare (stAt V c (n - 1) (by omega)).2.1 ∗ owns (c : Thread nD τ) scM2 fullShare (stAt V c (n - 1) (by omega)).2.2)
      ∗ Pipeline.scopedRestBut (Ix := Unit) (Name := ℕ) (U := Pipeline.UD sig nD τ) (Lvl := ℕ) (Val := Elt F) spec1 c [cc1_scratch0, cc1_scratch1, cc1_scratch2] ∗ (∃ r, prngReg c r)) := by
  cases n with
  | zero => exact absurd rfl hz
  | succ n => rfl

def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = fin (iblk V c 2 t) (stAt V c t.val t.isLt) := by
  dsimp only [dat, outsAt]

theorem Phi_castSucc (c : Dev nD) (t : Fin cfg1.N) : (dat V c).Φ t.castSucc = Phi V c t.val (Nat.le_of_lt t.isLt) := by
  dsimp only [dat]; simp only [Fin.coe_castSucc]

theorem Phi_first (c : Dev nD) : (dat V c).Φ 0 = Pipeline.ΦA spec1 c := by
  dsimp only [dat]; rfl

theorem Phi_last (c : Dev nD) : (dat V c).Φ (Fin.last cfg1.N) = Phi V c cfg1.N (Nat.le_refl _) := by
  dsimp only [dat]; rfl

end Cert.KernelIdeal.R1

end
-- ==== Proof.R2Defs.lean ====
import proofs.«419215_j38122129719724_3_alg».proof.Proof.Gen.KernelIdeal.Launch
import proofs.«419215_j38122129719724_3_alg».proof.Proof.Gen.KernelIdeal.Skeleton
import proofs.«419215_j38122129719724_3_alg».proof.Proof.Gen.KernelIdeal.Points
import Idealize.ShloMosaic.Lib.Pipeline.FrameBody
import Idealize.ShloMosaic.Lib.Pipeline.Frame

noncomputable section

namespace Cert.KernelIdeal.R2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation)

variable {F : FTy → Type} [FloatOps F] [Named F]

local notation "𝕄" => MT nD τ sig Unit (Elt F) ℕ (Pipeline.UD sig nD τ) ℕ

abbrev St (F : FTy → Type) : Type := Vec F S512x1 .f32 × Vec F S512x1 .f32 × Vec F S512x1 .f32

def tile (i : grid2.Coords) (E : Vec F S64x40960 .bf16) : Vec F S64x4096 .bf16 :=
  View.ld E (Rect.unit (s := S64x40960) (k2_off1 i) S64x4096.size (Gen.k2_off1_inb i))

def reset : St F := (k2_pay5, k2_pay6, k2_pay7)

def step (i : grid2.Coords) (x : Vec F S512x64 .bf16) (E : Vec F S64x40960 .bf16) (tg : Vec F S512x1 .i32) (st : St F) : St F :=
  (k2_pay2 (k2_pay15 i x (tile i E) st.1),
   k2_pay1 (k2_pay13 i) (k2_pay14 i x (tile i E)) (k2_pay15 i x (tile i E) st.1) st.1 st.2.1,
   k2_pay3 (k2_pay10 tg) (k2_pay11 x (tile i E)) (k2_pay12 i) (k2_pay13 i) st.2.2)

def fin (tg : Vec F S512x1 .i32) (st : St F) : Vec F S512x1 .f32 := k2_pay4 (k2_pay9 tg) st.1 st.2.1 st.2.2

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def stAt (c : Dev nD) : (n : ℕ) → n < cfg2.N → St F
  | 0, h => step (grid2.coords ⟨0, h⟩) (iblk V c 0 ⟨0, h⟩) (iblk V c 1 ⟨0, h⟩) (iblk V c 2 ⟨0, h⟩) reset
  | n + 1, h => step (grid2.coords ⟨n + 1, h⟩) (iblk V c 0 ⟨n + 1, h⟩) (iblk V c 1 ⟨n + 1, h⟩) (iblk V c 2 ⟨n + 1, h⟩)
      (if (n + 1) % 10 = 0 then reset else stAt c n (Nat.lt_of_succ_lt h))

theorem stAt_first (c : Dev nD) (t : Fin cfg2.N) (h : t.val % 10 = 0) :
    stAt V c t.val t.isLt = step (grid2.coords t) (iblk V c 0 t) (iblk V c 1 t) (iblk V c 2 t) reset := by
  obtain ⟨n, hn⟩ := t
  cases n with
  | zero => rfl
  | succ n => exact congrArg _ (if_pos h)

theorem stAt_next (c : Dev nD) (t : Fin cfg2.N) (h : ¬ t.val % 10 = 0) :
    stAt V c t.val t.isLt = step (grid2.coords t) (iblk V c 0 t) (iblk V c 1 t) (iblk V c 2 t)
      (stAt V c (t.val - 1) (Nat.lt_of_le_of_lt (Nat.sub_le _ _) t.isLt)) := by
  obtain ⟨n, hn⟩ := t
  cases n with
  | zero => exact absurd (Nat.zero_mod _) h
  | succ n => exact congrArg _ (if_neg h)

def outsAt (c : Dev nD) (n : ℕ) (h : n < cfg2.N) : Vec F S512x1 .f32 × Vec F S512x1 .f32 × Vec F S512x1 .f32 × Vec F S512x1 .f32 :=
  (fin (iblk V c 2 ⟨n, h⟩) (stAt V c n h), (stAt V c n h).1, (stAt V c n h).2.1, (stAt V c n h).2.2)

abbrev scM0 : Memref sig .tc .vmem S512x1 .f32 := Memref.whole cc2_scratch0
abbrev scM1 : Memref sig .tc .vmem S512x1 .f32 := Memref.whole cc2_scratch1
abbrev scM2 : Memref sig .tc .vmem S512x1 .f32 := Memref.whole cc2_scratch2

def Phi (c : Dev nD) : (n : ℕ) → n ≤ cfg2.N → sProp 𝕄
  | 0, _ => Pipeline.ΦA spec2 c
  | n + 1, hn => iprop(iprop(owns (c : Thread nD τ) scM0 fullShare (stAt V c n hn).1 ∗ owns (c : Thread nD τ) scM1 fullShare (stAt V c n hn).2.1 ∗ owns (c : Thread nD τ) scM2 fullShare (stAt V c n hn).2.2)
      ∗ Pipeline.scopedRestBut (Ix := Unit) (Name := ℕ) (U := Pipeline.UD sig nD τ) (Lvl := ℕ) (Val := Elt F) spec2 c [cc2_scratch0, cc2_scratch1, cc2_scratch2] ∗ (∃ r, prngReg c r))

theorem Phi_zero (c : Dev nD) (n : ℕ) (h : n ≤ cfg2.N) (hz : n = 0) : Phi V c n h = Pipeline.ΦA spec2 c := by
  subst hz; rfl

theorem Phi_succ (c : Dev nD) (n : ℕ) (hn : n < cfg2.N) :
    Phi V c (n + 1) hn = iprop(iprop(owns (c : Thread nD τ) scM0 fullShare (stAt V c n hn).1 ∗ owns (c : Thread nD τ) scM1 fullShare (stAt V c n hn).2.1 ∗ owns (c : Thread nD τ) scM2 fullShare (stAt V c n hn).2.2)
      ∗ Pipeline.scopedRestBut (Ix := Unit) (Name := ℕ) (U := Pipeline.UD sig nD τ) (Lvl := ℕ) (Val := Elt F) spec2 c [cc2_scratch0, cc2_scratch1, cc2_scratch2] ∗ (∃ r, prngReg c r)) := rfl

theorem Phi_pos (c : Dev nD) (n : ℕ) (h : n ≤ cfg2.N) (hz : n ≠ 0) :
    Phi V c n h = iprop(iprop(owns (c : Thread nD τ) scM0 fullShare (stAt V c (n - 1) (by omega)).1 ∗ owns (c : Thread nD τ) scM1 fullShare (stAt V c (n - 1) (by omega)).2.1 ∗ owns (c : Thread nD τ) scM2 fullShare (stAt V c (n - 1) (by omega)).2.2)
      ∗ Pipeline.scopedRestBut (Ix := Unit) (Name := ℕ) (U := Pipeline.UD sig nD τ) (Lvl := ℕ) (Val := Elt F) spec2 c [cc2_scratch0, cc2_scratch1, cc2_scratch2] ∗ (∃ r, prngReg c r)) := by
  cases n with
  | zero => exact absurd rfl hz
  | succ n => rfl

def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = fin (iblk V c 2 t) (stAt V c t.val t.isLt) := by
  dsimp only [dat, outsAt]

theorem Phi_castSucc (c : Dev nD) (t : Fin cfg2.N) : (dat V c).Φ t.castSucc = Phi V c t.val (Nat.le_of_lt t.isLt) := by
  dsimp only [dat]; simp only [Fin.coe_castSucc]

theorem Phi_first (c : Dev nD) : (dat V c).Φ 0 = Pipeline.ΦA spec2 c := by
  dsimp only [dat]; rfl

theorem Phi_last (c : Dev nD) : (dat V c).Φ (Fin.last cfg2.N) = Phi V c cfg2.N (Nat.le_refl _) := by
  dsimp only [dat]; rfl

end Cert.KernelIdeal.R2

end
-- ==== Proof.KBounds.lean ====
import proofs.«419215_j38122129719724_3_alg».proof.Proof.R0Defs
import proofs.«419215_j38122129719724_3_alg».proof.Proof.R1Defs
import proofs.«419215_j38122129719724_3_alg».proof.Proof.R2Defs
import proofs.«419215_j38122129719724_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

abbrev atRefs (W : Dev nD → Valuation τ sig (Elt F)) : (c : Dev nD) → (b : Ref sig .tc) → Buf (Elt F) ((c : Thread nD τ).loc b) :=
  fun c b => W c (Proc.devRef .tc b)

abbrev W5 : Dev nD → Valuation τ sig (Elt F) := fun c => V5 m c

def W6 (c : Dev nD) : Valuation τ sig (Elt F) :=
  Pipeline.withArrays spec0 c (W5 m c) fun w => (R0.dat (atRefs (W5 m)) c).arrAt w cfg0.N

def W7 (c : Dev nD) : Valuation τ sig (Elt F) :=
  Pipeline.withArrays spec1 c (W6 m c) fun w => (R1.dat (atRefs (W6 m)) c).arrAt w cfg1.N

def W8 (c : Dev nD) : Valuation τ sig (Elt F) :=
  Pipeline.withArrays spec2 c (W7 m c) fun w => (R2.dat (atRefs (W7 m)) c).arrAt w cfg2.N

abbrev W9 (c : Dev nD) : Valuation τ sig (Elt F) := StableHlo.after hostOps3 (W8 m c)

theorem W6_arr (c : Dev nD) (w : Fin cfg0.W) :
    W6 m c (Proc.devRef .tc (Pipeline.arrRef spec0 w)) = (R0.dat (atRefs (W5 m)) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W7_arr (c : Dev nD) (w : Fin cfg1.W) :
    W7 m c (Proc.devRef .tc (Pipeline.arrRef spec1 w)) = (R1.dat (atRefs (W6 m)) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem W8_arr (c : Dev nD) (w : Fin cfg2.W) :
    W8 m c (Proc.devRef .tc (Pipeline.arrRef spec2 w)) = (R2.dat (atRefs (W7 m)) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

theorem hF0 (c : Dev nD) (w : Fin cfg0.W) : (R0.dat (atRefs (W5 m)) c).arrAt w cfg0.N = atRefs (W6 m) c (Pipeline.arrRef spec0 w) :=
  (W6_arr m c w).symm
theorem hrest0 (c : Dev nD) : ∀ b, b ∉ Finset.univ.image (Pipeline.arrRef spec0) → atRefs (W6 m) c b = atRefs (W5 m) c b :=
  fun b hb => W6_of_ne m c b fun w e => hb (Finset.mem_image.mpr ⟨w, Finset.mem_univ _, e⟩)
theorem hF1 (c : Dev nD) (w : Fin cfg1.W) : (R1.dat (atRefs (W6 m)) c).arrAt w cfg1.N = atRefs (W7 m) c (Pipeline.arrRef spec1 w) :=
  (W7_arr m c w).symm
theorem hrest1 (c : Dev nD) : ∀ b, b ∉ Finset.univ.image (Pipeline.arrRef spec1) → atRefs (W7 m) c b = atRefs (W6 m) c b :=
  fun b hb => W7_of_ne m c b fun w e => hb (Finset.mem_image.mpr ⟨w, Finset.mem_univ _, e⟩)
theorem hF2 (c : Dev nD) (w : Fin cfg2.W) : (R2.dat (atRefs (W7 m)) c).arrAt w cfg2.N = atRefs (W8 m) c (Pipeline.arrRef spec2 w) :=
  (W8_arr m c w).symm
theorem hrest2 (c : Dev nD) : ∀ b, b ∉ Finset.univ.image (Pipeline.arrRef spec2) → atRefs (W8 m) c b = atRefs (W7 m) c b :=
  fun b hb => W8_of_ne m c b fun w e => hb (Finset.mem_image.mpr ⟨w, Finset.mem_univ _, e⟩)

def pdats : (p : Fin 3) → (c : Dev nD) → Dat τ (Elt F) Unit ℕ (Pipeline.UD sig nD τ) ℕ (Pipeline.pin (pcfgs (F := F)) adm p) c
  | ⟨0, _⟩ => fun c => R0.dat (atRefs (W5 m)) c
  | ⟨1, _⟩ => fun c => R1.dat (atRefs (W6 m)) c
  | ⟨2, _⟩ => fun c => R2.dat (atRefs (W7 m)) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.KernelIdeal.KRun

end
-- ==== Proof.R0Body.lean ====
import proofs.«419215_j38122129719724_3_alg».proof.Proof.R0Defs
import Idealize.ShloMosaic.Lib.Pipeline.Value
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]

theorem before0 (c : Dev nD) (t : Fin cfg0.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

theorem before1 (c : Dev nD) (t : Fin cfg0.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

theorem before2 (c : Dev nD) (t : Fin cfg0.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

theorem before3 (c : Dev nD) (t : Fin cfg0.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

theorem before4 (c : Dev nD) (t : Fin cfg0.N) (d) : (dat V c).before 4 t d = iblk V c 4 t :=
  ((dat V c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

theorem off0 : (![0, 0] : Fin 2 → Nat) = fun _ => 0 := by
  funext a; fin_cases a <;> rfl

theorem read_store_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

theorem readAt_whole {sp : Space} {S : Shape} {e : EltTy} (v : View sig .tc sp S e) (f : v.ty.Contents (Elt F))
    {off : Fin S.rank → Nat} (h : off = fun _ => 0) (inb : ∀ a, off a + S.size a ≤ S.size a) :
    v.readAt (Elt F) (Rect.unit off S.size inb) f = v.read (Elt F) f :=
  View.ld_unit_zero h inb _

set_option maxHeartbeats 1000000 in

theorem sound_kernel (c : Dev nD) (E : Set ℕ) (i : grid0.Coords)
    (arg1 : Memref sig .tc .vmem S512x1024 .f32) (harg1 : arg1.IsWhole) (arg2 : Memref sig .tc .vmem S2002x1024 .bf16) (harg2 : arg2.IsWhole)
    (arg3 : Memref sig .tc .vmem S1024x256 .bf16) (harg3 : arg3.IsWhole) (arg4 : Memref sig .tc .vmem S1024x64 .bf16) (harg4 : arg4.IsWhole)
    (arg5 : Memref sig .tc .vmem S512x1 .i32) (harg5 : arg5.IsWhole) (arg6 : Memref sig .tc .vmem S512x1 .f32) (harg6 : arg6.IsWhole)
    (arg7 : Memref sig .tc .vmem S512x256 .bf16) (harg7 : arg7.IsWhole) (arg8 : Memref sig .tc .vmem S512x64 .bf16) (harg8 : arg8.IsWhole)
    (x0 : Vec F S512x1024 .f32) (x1 : Vec F S2002x1024 .bf16) (x2 : Vec F S1024x256 .bf16) (x3 : Vec F S1024x64 .bf16) (x4 : Vec F S512x1 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay4 x0 x1 x4)
            ∗ owns (c : Thread nD τ) arg7 fullShare (k0_pay1 (k0_pay3 x0) x2)
            ∗ owns (c : Thread nD τ) arg8 fullShare (k0_pay2 (k0_pay3 x0) x3)) -∗ K ⟨⟩))
      ⊢ wp frame (wpE (defs₀ (F := F)) Variants.none c none) E (cc0__head_kernel i arg1 harg1 arg2 harg2 arg3 harg3 arg4 harg4 arg5 harg5 arg6 harg6 arg7 harg7 arg8 harg8) K := by
  simp only [cc0__head_kernel_eq_skeleton]; unfold cc0__head_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    dsimp only
    refine (read_store_whole _ _ off0 _ _).trans ?_
    simp only [readAt_whole (S := S512x1024) _ _ off0, readAt_whole (S := S2002x1024) _ _ off0,
      readAt_whole (S := S1024x256) _ _ off0, readAt_whole (S := S1024x64) _ _ off0, readAt_whole (S := S512x1) _ _ off0]
  isplitl [H6]
  · iexists _; isplitr
    swap; · iexact H6
    ipureintro
    dsimp only
    refine (read_store_whole _ _ off0 _ _).trans ?_
    simp only [readAt_whole (S := S512x1024) _ _ off0, readAt_whole (S := S2002x1024) _ _ off0,
      readAt_whole (S := S1024x256) _ _ off0, readAt_whole (S := S1024x64) _ _ off0, readAt_whole (S := S512x1) _ _ off0]
  iexists _; isplitr
  swap; · iexact H7
  ipureintro
  dsimp only
  refine (read_store_whole _ _ off0 _ _).trans ?_
  simp only [readAt_whole (S := S512x1024) _ _ off0, readAt_whole (S := S2002x1024) _ _ off0,
    readAt_whole (S := S1024x256) _ _ off0, readAt_whole (S := S1024x64) _ _ off0, readAt_whole (S := S512x1) _ _ off0]

def pre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

def post (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

theorem sound_body (c : Dev nD) (t : Fin cfg0.N) :
    pre V c t ⊢ wp frame (wpE (defs₀ (F := F)) Variants.none c none) Set.univ (bodyAt0 t) (fun _ => post V c t) := by
  unfold pre post bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W0, bigSep_W0]
  exact sound_body V c t

end Cert.KernelIdeal.R0

end
-- ==== Proof.R1Runs.lean ====
import proofs.«419215_j38122129719724_3_alg».proof.Proof.Gen.KernelIdeal.Launch
import proofs.«419215_j38122129719724_3_alg».proof.Proof.Gen.KernelIdeal.Skeleton
import proofs.«419215_j38122129719724_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

abbrev condReset (i : grid1.Coords) : Prop :=
  (Scalar.cmpi .ne (Scalar.extui (Scalar.cmpi .eq (BitVec.ofNat 32 (i 1).val) 0#32)) 0#32) = 1#1

theorem hcondReset : ∀ t : Fin cfg1.N, condReset (grid1.coords t) ↔ t.val % 2 = 0 :=
  (by decide +kernel : ∀ t : Fin grid1.N, condReset (grid1.coords t) ↔ t.val % 2 = 0)

abbrev condFin (i : grid1.Coords) : Prop := k1_cond2 i = 1#1

theorem hcondFin : ∀ t : Fin cfg1.N, condFin (grid1.coords t) ↔ t.val % 2 = 1 :=
  (by decide +kernel : ∀ t : Fin grid1.N, condFin (grid1.coords t) ↔ t.val % 2 = 1)

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel

theorem idle3 : ∀ t : Fin cfg1.N, ¬condFin (grid1.coords t) → cfg1.idle 3 (grid1.coords t) = true := by decide +kernel
theorem noFlush3 : ∀ t : Fin cfg1.N, ¬condFin (grid1.coords t) → (cfg1.win 3).flush t = false := by decide +kernel
theorem live3 : ∀ t : Fin cfg1.N, condFin (grid1.coords t) → cfg1.idle 3 (grid1.coords t) = false := by decide +kernel

variable (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)

set_option maxHeartbeats 1000000 in

noncomputable def runA
    (hc0 : condReset i) (hc1 : ¬condFin i)
    (x0 : Vec F S512x256 .bf16) (x1 : Vec F S8192x256 .bf16) (x2 : Vec F S512x1 .i32) :
    Σ' (LS0 : List (View.Piece (Elt F) S512x1 .f32)) (LS1 : List (View.Piece (Elt F) S512x1 .f32)), { LS2 : List (View.Piece (Elt F) S512x1 .f32) //
      ∀ (xi3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 1000000 in

noncomputable def runB
    (hc0 : ¬condReset i) (hc1 : condFin i)
    (x0 : Vec F S512x256 .bf16) (x1 : Vec F S8192x256 .bf16) (x2 : Vec F S512x1 .i32)
    (xs0 xs1 xs2 : Vec F S512x1 .f32) :
    Σ' (L3 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

theorem hz : (![0, 0] : Fin 2 → Nat) = fun _ => 0 := funext fun a => by fin_cases a <;> rfl

theorem read_last_store {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  refine (View.read_writes_eq_canon v f _ ?_).trans (View.canon_cons_unit_zero h inb w L)
  intro y
  exact ⟨_, List.Mem.head _, View.mem_set_unit_zero h inb y⟩

abbrev tl (i : grid1.Coords) (x1 : Vec F S8192x256 .bf16) : Vec F S4096x256 .bf16 :=
  View.ld x1 (Rect.unit (s := S8192x256) (k1_off1 i) S4096x256.size (k1_off1_inb i))

theorem runA_s0 (hc0 : condReset i) (hc1 : ¬condFin i)
    (x0 : Vec F S512x256 .bf16) (x1 : Vec F S8192x256 .bf16) (x2 : Vec F S512x1 .i32) (f : arg6.view.ty.Contents (Elt F)) :
    arg6.view.read (Elt F) (arg6.view.writes (Elt F) f (runA c i arg2 harg2 arg3 harg3 arg4 harg4 arg5 harg5 arg6 harg6 arg7 harg7 arg8 harg8 hc0 hc1 x0 x1 x2).1)
      = k1_pay2 (k1_pay15 i x0 (tl i x1) k1_pay5) := by
  unfold runA; dsimp only; sl_unfold_run_names
  refine (read_last_store (S := S512x1) _ _ hz _ _ _).trans ?_
  simp only [View.readAt_eq_ld, harg2.read_unread, harg3.read_unread, View.ld_unit_zero (S := S512x256) hz, View.readCov_unit_zero (S := S512x1) _ hz]

theorem runA_s1 (hc0 : condReset i) (hc1 : ¬condFin i)
    (x0 : Vec F S512x256 .bf16) (x1 : Vec F S8192x256 .bf16) (x2 : Vec F S512x1 .i32) (f : arg7.view.ty.Contents (Elt F)) :
    arg7.view.read (Elt F) (arg7.view.writes (Elt F) f (runA c i arg2 harg2 arg3 harg3 arg4 harg4 arg5 harg5 arg6 harg6 arg7 harg7 arg8 harg8 hc0 hc1 x0 x1 x2).2.1)
      = k1_pay1 (k1_pay13 i) (k1_pay14 i x0 (tl i x1)) (k1_pay15 i x0 (tl i x1) k1_pay5) k1_pay5 k1_pay6 := by
  unfold runA; dsimp only; sl_unfold_run_names
  refine (read_last_store (S := S512x1) _ _ hz _ _ _).trans ?_
  simp only [View.readAt_eq_ld, harg2.read_unread, harg3.read_unread, View.ld_unit_zero (S := S512x256) hz, View.readCov_unit_zero (S := S512x1) _ hz]

theorem runA_s2 (hc0 : condReset i) (hc1 : ¬condFin i)
    (x0 : Vec F S512x256 .bf16) (x1 : Vec F S8192x256 .bf16) (x2 : Vec F S512x1 .i32) (f : arg8.view.ty.Contents (Elt F)) :
    arg8.view.read (Elt F) (arg8.view.writes (Elt F) f (runA c i arg2 harg2 arg3 harg3 arg4 harg4 arg5 harg5 arg6 harg6 arg7 harg7 arg8 harg8 hc0 hc1 x0 x1 x2).2.2.1)
      = k1_pay3 (k1_pay10 x2) (k1_pay11 x0 (tl i x1)) (k1_pay12 i) (k1_pay13 i) k1_pay7 := by
  unfold runA; dsimp only; sl_unfold_run_names
  refine (read_last_store (S := S512x1) _ _ hz _ _ _).trans ?_
  simp only [View.readAt_eq_ld, harg2.read_unread, harg3.read_unread, harg4.read_unread, View.ld_unit_zero (S := S512x256) hz, View.ld_unit_zero (S := S512x1) hz, View.readCov_unit_zero (S := S512x1) _ hz]

theorem runB_s0 (hc0 : ¬condReset i) (hc1 : condFin i)
    (x0 : Vec F S512x256 .bf16) (x1 : Vec F S8192x256 .bf16) (x2 : Vec F S512x1 .i32) (xs0 xs1 xs2 : Vec F S512x1 .f32)
    (f : arg6.view.ty.Contents (Elt F)) :
    arg6.view.read (Elt F) (arg6.view.writes (Elt F) f (runB c i arg2 harg2 arg3 harg3 arg4 harg4 arg5 harg5 arg6 harg6 arg7 harg7 arg8 harg8 hc0 hc1 x0 x1 x2 xs0 xs1 xs2).2.1)
      = k1_pay2 (k1_pay15 i x0 (tl i x1) xs0) := by
  unfold runB; dsimp only; sl_unfold_run_names
  refine (read_last_store (S := S512x1) _ _ hz _ _ _).trans ?_
  simp only [View.readAt_eq_ld, harg2.read_unread, harg3.read_unread, harg6.read_unread, View.ld_unit_zero (S := S512x256) hz, View.ld_unit_zero (S := S512x1) hz]

theorem runB_s1 (hc0 : ¬condReset i) (hc1 : condFin i)
    (x0 : Vec F S512x256 .bf16) (x1 : Vec F S8192x256 .bf16) (x2 : Vec F S512x1 .i32) (xs0 xs1 xs2 : Vec F S512x1 .f32)
    (f : arg7.view.ty.Contents (Elt F)) :
    arg7.view.read (Elt F) (arg7.view.writes (Elt F) f (runB c i arg2 harg2 arg3 harg3 arg4 harg4 arg5 harg5 arg6 harg6 arg7 harg7 arg8 harg8 hc0 hc1 x0 x1 x2 xs0 xs1 xs2).2.2.1)
      = k1_pay1 (k1_pay13 i) (k1_pay14 i x0 (tl i x1)) (k1_pay15 i x0 (tl i x1) xs0) xs0 xs1 := by
  unfold runB; dsimp only; sl_unfold_run_names
  refine (read_last_store (S := S512x1) _ _ hz _ _ _).trans ?_
  simp only [View.readAt_eq_ld, harg2.read_unread, harg3.read_unread, harg6.read_unread, harg7.read_unread, View.ld_unit_zero (S := S512x256) hz, View.ld_unit_zero (S := S512x1) hz]

theorem runB_s2 (hc0 : ¬condReset i) (hc1 : condFin i)
    (x0 : Vec F S512x256 .bf16) (x1 : Vec F S8192x256 .bf16) (x2 : Vec F S512x1 .i32) (xs0 xs1 xs2 : Vec F S512x1 .f32)
    (f : arg8.view.ty.Contents (Elt F)) :
    arg8.view.read (Elt F) (arg8.view.writes (Elt F) f (runB c i arg2 harg2 arg3 harg3 arg4 harg4 arg5 harg5 arg6 harg6 arg7 harg7 arg8 harg8 hc0 hc1 x0 x1 x2 xs0 xs1 xs2).2.2.2.1)
      = k1_pay3 (k1_pay10 x2) (k1_pay11 x0 (tl i x1)) (k1_pay12 i) (k1_pay13 i) xs2 := by
  unfold runB; dsimp only; sl_unfold_run_names
  refine (read_last_store (S := S512x1) _ _ hz _ _ _).trans ?_
  simp only [View.readAt_eq_ld, harg2.read_unread, harg3.read_unread, harg4.read_unread, harg8.read_unread, View.ld_unit_zero (S := S512x256) hz, View.ld_unit_zero (S := S512x1) hz]

theorem runB_o3 (hc0 : ¬condReset i) (hc1 : condFin i)
    (x0 : Vec F S512x256 .bf16) (x1 : Vec F S8192x256 .bf16) (x2 : Vec F S512x1 .i32) (xs0 xs1 xs2 : Vec F S512x1 .f32)
    (f : arg5.view.ty.Contents (Elt F)) :
    arg5.view.read (Elt F) (arg5.view.writes (Elt F) f (runB c i arg2 harg2 arg3 harg3 arg4 harg4 arg5 harg5 arg6 harg6 arg7 harg7 arg8 harg8 hc0 hc1 x0 x1 x2 xs0 xs1 xs2).1)
      = k1_pay4 (k1_pay9 x2) (k1_pay2 (k1_pay15 i x0 (tl i x1) xs0))
          (k1_pay1 (k1_pay13 i) (k1_pay14 i x0 (tl i x1)) (k1_pay15 i x0 (tl i x1) xs0) xs0 xs1)
          (k1_pay3 (k1_pay10 x2) (k1_pay11 x0 (tl i x1)) (k1_pay12 i) (k1_pay13 i) xs2) := by
  unfold runB; dsimp only; sl_unfold_run_names
  refine (read_last_store (S := S512x1) _ _ hz _ _ _).trans ?_
  simp only [View.readAt_eq_ld, harg2.read_unread, harg3.read_unread, harg4.read_unread, harg6.read_unread, harg7.read_unread, harg8.read_unread, View.ld_unit_zero (S := S512x256) hz, View.ld_unit_zero (S := S512x1) hz, View.readCov_unit_zero (S := S512x1) _ hz]

end Cert.KernelIdeal.R1

end
-- ==== Proof.R1Body.lean ====
import proofs.«419215_j38122129719724_3_alg».proof.Proof.R1Defs
import proofs.«419215_j38122129719724_3_alg».proof.Proof.R1Runs
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

abbrev ms0 (t : Fin cfg1.N) : Memref sig .tc .vmem S512x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x1 .f32 := win1_3.stage (cfg1.slots t 3)
abbrev hs3 (t : Fin cfg1.N) : (ms3 t).IsWhole := hstage1_3 ((cfg1.slots t 3).cast nbuf1_3)

theorem before0 (c : Dev nD) (t : Fin cfg1.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

theorem before1 (c : Dev nD) (t : Fin cfg1.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

theorem before2 (c : Dev nD) (t : Fin cfg1.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

theorem PhiA_eq (c : Dev nD) :
    (Pipeline.ΦA spec1 c : sProp 𝕄)
      = iprop(iprop(iprop((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := Pipeline.UD sig nD τ) (Lvl := ℕ) (Val := Elt F) spec1 c [cc1_scratch0, cc1_scratch1, cc1_scratch2])
          ∗ (∃ r, prngReg c r)) := by
  unfold Pipeline.ΦA; rw [scopedRest1_split]; simp only [scM0, scM1, scM2, owns_whole]; try rfl

theorem Phi_any (c : Dev nD) (t : Fin cfg1.N) :
    (dat V c).Φ t.castSucc ⊢ iprop(iprop((∃ d, owns (c : Thread nD τ) scM0 fullShare d) ∗ (∃ d, owns (c : Thread nD τ) scM1 fullShare d) ∗ (∃ d, owns (c : Thread nD τ) scM2 fullShare d))
        ∗ Pipeline.scopedRestBut (Ix := Unit) (Name := ℕ) (U := Pipeline.UD sig nD τ) (Lvl := ℕ) (Val := Elt F) spec1 c [cc1_scratch0, cc1_scratch1, cc1_scratch2] ∗ (∃ r, prngReg c r)) := by
  rw [Phi_castSucc V c t]
  by_cases hz0 : t.val = 0
  · rw [Phi_zero V c _ _ hz0, PhiA_eq]
    iintro ⟨⟨⟨HS0, HS1, HS2⟩, Hrest⟩, Hg⟩
    isplitl [HS0 HS1 HS2]
    · isplitl [HS0]; · iexact HS0
      isplitl [HS1]; · iexact HS1
      iexact HS2
    isplitl [Hrest]; · iexact Hrest
    iexact Hg
  · rw [Phi_pos V c _ _ hz0]
    iintro ⟨⟨HS0, HS1, HS2⟩, Hrest, Hg⟩
    isplitl [HS0 HS1 HS2]
    · isplitl [HS0]; · iexists _; iexact HS0
      isplitl [HS1]; · iexists _; iexact HS1
      iexists _; iexact HS2
    isplitl [Hrest]; · iexact Hrest
    iexact Hg

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms0 t) fullShare ((dat V c).after 0 t) from by
        unfold Dat.leavesExact; rw [live0 t], after0]
  rw [show (dat V c).leavesExact 1 t = owns (c : Thread nD τ) (ms1 t) fullShare ((dat V c).after 1 t) from by
        unfold Dat.leavesExact; rw [live1 t], after1]
  rw [show (dat V c).leavesExact 2 t = owns (c : Thread nD τ) (ms2 t) fullShare ((dat V c).after 2 t) from by
        unfold Dat.leavesExact; rw [live2 t], after2]
  have hN : t.val < 16 := lt_of_lt_of_eq t.isLt (show cfg1.N = 16 from N_1)
  by_cases h0 : t.val % 2 = 0
  · have hcR : condReset (grid1.coords t) := (hcondReset t).mpr h0
    have hcF : ¬condFin (grid1.coords t) := fun h => by have := (hcondFin t).mp h; omega
    rw [Dat.leavesExact_idle (dat V c) 3 t (idle3 t hcF) (noFlush3 t hcF)]
    rw [stAt_first V c t h0]
    iintro ⟨HΦ, Ho, ⟨%d0, H0⟩, ⟨%d1, H1⟩, ⟨%d2, H2⟩, ⟨%d3, H3⟩⟩
    ihave HΦ' := (Phi_any V c t) $$ HΦ
    icases HΦ' with ⟨⟨HS0, HS1, HS2⟩, Hrest, Hg⟩
    iapply ((runA c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    isplitl [HS0 HS1 HS2 Hrest Hg]
    · isplitl [HS0 HS1 HS2]
      · isplitl [HS0]
        · unfold owns; iexists _; isplitr
          swap; · iexact HS0
          ipureintro; exact runA_s0 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) e0
        isplitl [HS1]
        · unfold owns; iexists _; isplitr
          swap; · iexact HS1
          ipureintro; exact runA_s1 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) e1
        unfold owns; iexists _; isplitr
        swap; · iexact HS2
        ipureintro; exact runA_s2 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) e2
      isplitl [Hrest]; · iexact Hrest
      iexact Hg
    isplitl [Ho]; · iexact Ho
    isplitl [H0]; · iexact H0
    isplitl [H1]; · iexact H1
    isplitl [H2]; · iexact H2
    iexists _; iexact H3
  · have h1 : t.val % 2 = 1 := by omega
    have hcR : ¬condReset (grid1.coords t) := fun h => h0 ((hcondReset t).mp h)
    have hcF : condFin (grid1.coords t) := (hcondFin t).mpr h1
    have hz0 : t.val ≠ 0 := fun h => h0 (by rw [h])
    have hp : t.val - 1 < cfg1.N := Nat.lt_of_le_of_lt (Nat.sub_le _ _) t.isLt
    rw [show (dat V c).leavesExact 3 t = owns (c : Thread nD τ) (ms3 t) fullShare ((dat V c).after 3 t) from by
          unfold Dat.leavesExact; rw [live3 t hcF], after3]
    rw [stAt_next V c t h0]
    rw [Phi_castSucc V c t, Phi_pos V c _ _ hz0]
    iintro ⟨⟨⟨HS0, HS1, HS2⟩, Hrest, Hg⟩, Ho, ⟨%d0, H0⟩, ⟨%d1, H1⟩, ⟨%d2, H2⟩, ⟨%d3, H3⟩⟩
    iapply ((runB c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) (stAt V c (t.val - 1) hp).1 (stAt V c (t.val - 1) hp).2.1 (stAt V c (t.val - 1) hp).2.2).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%e0, HS0⟩, ⟨%e1, HS1⟩, ⟨%e2, HS2⟩⟩
    isplitl [HS0 HS1 HS2 Hrest Hg]
    · isplitl [HS0 HS1 HS2]
      · isplitl [HS0]
        · unfold owns; iexists _; isplitr
          swap; · iexact HS0
          ipureintro; exact runB_s0 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) (stAt V c (t.val - 1) hp).1 (stAt V c (t.val - 1) hp).2.1 (stAt V c (t.val - 1) hp).2.2 e0
        isplitl [HS1]
        · unfold owns; iexists _; isplitr
          swap; · iexact HS1
          ipureintro; exact runB_s1 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) (stAt V c (t.val - 1) hp).1 (stAt V c (t.val - 1) hp).2.1 (stAt V c (t.val - 1) hp).2.2 e1
        unfold owns; iexists _; isplitr
        swap; · iexact HS2
        ipureintro; exact runB_s2 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) (stAt V c (t.val - 1) hp).1 (stAt V c (t.val - 1) hp).2.1 (stAt V c (t.val - 1) hp).2.2 e2
      isplitl [Hrest]; · iexact Hrest
      iexact Hg
    isplitl [Ho]; · iexact Ho
    isplitl [H0]; · iexact H0
    isplitl [H1]; · iexact H1
    isplitl [H2]; · iexact H2
    unfold owns; iexists _; isplitr
    swap; · iexact H3
    ipureintro; exact runB_o3 c (grid1.coords t) (ms0 t) (hs0 t) (ms1 t) (hs1 t) (ms2 t) (hs2 t) (ms3 t) (hs3 t) scM0 (Memref.isWhole_whole _) scM1 (Memref.isWhole_whole _) scM2 (Memref.isWhole_whole _) hcR hcF (iblk V c 0 t) (iblk V c 1 t) (iblk V c 2 t) (stAt V c (t.val - 1) hp).1 (stAt V c (t.val - 1) hp).2.1 (stAt V c (t.val - 1) hp).2.2 e3

theorem body_obligation (c : Dev nD) : BodyObligation (dat (F := F) V c) (defs₀ (F := F)) Variants.none () Set.univ := fun t => by
  rw [bigSep_W1, bigSep_W1]
  exact sound_body V c t

end Cert.KernelIdeal.R1

end
-- ==== Proof.R2Runs.lean ====
import proofs.«419215_j38122129719724_3_alg».proof.Proof.R2Defs
import Idealize.ShloMosaic.Lib.Pipeline.Value
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

abbrev condFirst (i : grid2.Coords) : Prop :=
  (Scalar.cmpi .ne (Scalar.extui (Scalar.cmpi .eq (BitVec.ofNat 32 (i 1).val) 0#32)) 0#32) = 1#1

abbrev condLast (i : grid2.Coords) : Prop := k2_cond2 i = 1#1

theorem condFirst_iff : ∀ t : Fin cfg2.N, condFirst (grid2.coords t) ↔ t.val % 10 = 0 :=
  (by decide +kernel : ∀ t : Fin grid2.N, condFirst (grid2.coords t) ↔ t.val % 10 = 0)

theorem condLast_iff : ∀ t : Fin cfg2.N, condLast (grid2.coords t) ↔ t.val % 10 = 9 :=
  (by decide +kernel : ∀ t : Fin grid2.N, condLast (grid2.coords t) ↔ t.val % 10 = 9)

theorem hz2 : (![0, 0] : Fin 2 → Nat) = fun _ => 0 := funext fun a => by fin_cases a <;> rfl

theorem read_last_store {S : Shape} {e : EltTy} (m : Memref sig .tc .vmem S e) (f : m.view.ty.Contents (Elt F))
    {off : Fin S.rank → Nat} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w :=
  (View.read_writes_eq_canon _ _ _ (fun y => ⟨_, List.mem_cons_self, View.mem_set_unit_zero h inb y⟩)).trans
    (View.canon_cons_unit_zero h inb w L)

variable (c : Dev nD) (i : grid2.Coords) (arg2 : Memref sig .tc .vmem S512x64 .bf16) (harg2 : arg2.IsWhole) (arg3 : Memref sig .tc .vmem S64x40960 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)

set_option maxHeartbeats 1000000 in

theorem runMid
    (hc0 : ¬ condFirst i) (hc1 : ¬ condLast i) (x0 : Vec F S512x64 .bf16) (x1 : Vec F S64x40960 .bf16) (x2 : Vec F S512x1 .i32) (xi3 : Vec F S512x1 .f32) (st : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ owns (c : Thread nD τ) arg6 fullShare st.1 ∗ owns (c : Thread nD τ) arg7 fullShare st.2.1 ∗ owns (c : Thread nD τ) arg8 fullShare st.2.2
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (step i x0 x1 x2 st).1 ∗ owns (c : Thread nD τ) arg7 fullShare (step i x0 x1 x2 st).2.1
            ∗ owns (c : Thread nD τ) arg8 fullShare (step i x0 x1 x2 st).2.2) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_last_store arg6 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  isplitl [H7]
  · iexists _; isplitr
    swap; · iexact H7
    ipureintro
    refine (read_last_store arg7 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  · iexists _; isplitr
    swap; · iexact H8
    ipureintro
    refine (read_last_store arg8 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl

set_option maxHeartbeats 1000000 in

theorem runFirst
    (hc0 : condFirst i) (hc1 : ¬ condLast i) (x0 : Vec F S512x64 .bf16) (x1 : Vec F S64x40960 .bf16) (x2 : Vec F S512x1 .i32) (xi3 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (step i x0 x1 x2 reset).1 ∗ owns (c : Thread nD τ) arg7 fullShare (step i x0 x1 x2 reset).2.1
            ∗ owns (c : Thread nD τ) arg8 fullShare (step i x0 x1 x2 reset).2.2) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_last_store arg6 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  isplitl [H7]
  · iexists _; isplitr
    swap; · iexact H7
    ipureintro
    refine (read_last_store arg7 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  · iexists _; isplitr
    swap; · iexact H8
    ipureintro
    refine (read_last_store arg8 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl

set_option maxHeartbeats 1000000 in

theorem runLast
    (hc0 : ¬ condFirst i) (hc1 : condLast i) (x0 : Vec F S512x64 .bf16) (x1 : Vec F S64x40960 .bf16) (x2 : Vec F S512x1 .i32) (st : St F)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare st.1 ∗ owns (c : Thread nD τ) arg7 fullShare st.2.1 ∗ owns (c : Thread nD τ) arg8 fullShare st.2.2
        ∗ (iprop(owns (c : Thread nD τ) arg2 fullShare x0 ∗ owns (c : Thread nD τ) arg3 fullShare x1 ∗ owns (c : Thread nD τ) arg4 fullShare x2 ∗ owns (c : Thread nD τ) arg5 fullShare (fin x2 (step i x0 x1 x2 st))
            ∗ owns (c : Thread nD τ) arg6 fullShare (step i x0 x1 x2 st).1 ∗ owns (c : Thread nD τ) arg7 fullShare (step i x0 x1 x2 st).2.1
            ∗ owns (c : Thread nD τ) arg8 fullShare (step i x0 x1 x2 st).2.2) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg6.eq_unread hf6; obtain rfl := harg7.eq_unread hf7; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_last_store arg5 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  isplitl [H6]
  · iexists _; isplitr
    swap; · iexact H6
    ipureintro
    refine (read_last_store arg6 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  isplitl [H7]
  · iexists _; isplitr
    swap; · iexact H7
    ipureintro
    refine (read_last_store arg7 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl
  · iexists _; isplitr
    swap; · iexact H8
    ipureintro
    refine (read_last_store arg8 _ hz2 _ _ _).trans ?_
    dsimp only
    sl_unfold_run_names
    simp only [View.readAt_eq_ld, Memref.IsWhole.read_unread, View.ld_unit_zero (S := S512x1) hz2, View.ld_unit_zero (S := S512x64) hz2, View.readCov_unit_zero (S := S512x1) _ hz2]
    rfl

end Cert.KernelIdeal.R2

end
-- ==== Proof.R2Body.lean ====
import proofs.«419215_j38122129719724_3_alg».proof.Proof.R2Runs
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

abbrev buf0 (t : Fin cfg2.N) : Memref sig .tc .vmem S512x64 .bf16 := win2_0.stage (cfg2.slots t 0)
abbrev buf1 (t : Fin cfg2.N) : Memref sig .tc .vmem S64x40960 .bf16 := win2_1.stage (cfg2.slots t 1)
abbrev buf2 (t : Fin cfg2.N) : Memref sig .tc .vmem S512x1 .i32 := win2_2.stage (cfg2.slots t 2)
abbrev buf3 (t : Fin cfg2.N) : Memref sig .tc .vmem S512x1 .f32 := win2_3.stage (cfg2.slots t 3)
abbrev whole0 (t : Fin cfg2.N) : (buf0 t).IsWhole := hstage2_0 ((cfg2.slots t 0).cast nbuf2_0)
abbrev whole1 (t : Fin cfg2.N) : (buf1 t).IsWhole := hstage2_1 ((cfg2.slots t 1).cast nbuf2_1)
abbrev whole2 (t : Fin cfg2.N) : (buf2 t).IsWhole := hstage2_2 ((cfg2.slots t 2).cast nbuf2_2)
abbrev whole3 (t : Fin cfg2.N) : (buf3 t).IsWhole := hstage2_3 ((cfg2.slots t 3).cast nbuf2_3)

theorem found0 (c : Dev nD) (t : Fin cfg2.N) (d) : (dat V c).before 0 t d = iblk V c 0 t := by
  have keep : ∀ u, (cfg2.win 0).cut (cfg2.grid.coords u) ((dat V c).after 0 u) = (dat V c).blockOf 0 u := fun u => by
    rw [after0]; unfold Dat.blockOf iblk; rw [A_eq]; try rfl
  rw [(dat V c).before_in_eq_fetched 0 rfl (fun _ => rfl) (fun _ _ _ => rfl) keep t d]
  unfold Dat.fetched Dat.blockOf iblk; rw [A_eq]; try rfl

theorem found1 (c : Dev nD) (t : Fin cfg2.N) (d) : (dat V c).before 1 t d = iblk V c 1 t := by
  have keep : ∀ u, (cfg2.win 1).cut (cfg2.grid.coords u) ((dat V c).after 1 u) = (dat V c).blockOf 1 u := fun u => by
    rw [after1]; unfold Dat.blockOf iblk; rw [A_eq]; try rfl
  rw [(dat V c).before_in_eq_fetched 1 rfl (fun _ => rfl) (fun _ _ _ => rfl) keep t d]
  unfold Dat.fetched Dat.blockOf iblk; rw [A_eq]; try rfl

theorem found2 (c : Dev nD) (t : Fin cfg2.N) (d) : (dat V c).before 2 t d = iblk V c 2 t := by
  have keep : ∀ u, (cfg2.win 2).cut (cfg2.grid.coords u) ((dat V c).after 2 u) = (dat V c).blockOf 2 u := fun u => by
    rw [after2]; unfold Dat.blockOf iblk; rw [A_eq]; try rfl
  rw [(dat V c).before_in_eq_fetched 2 rfl (fun _ => rfl) (fun _ _ _ => rfl) keep t d]
  unfold Dat.fetched Dat.blockOf iblk; rw [A_eq]; try rfl

theorem left0 (c : Dev nD) (t : Fin cfg2.N) : (dat V c).leavesExact 0 t = owns (c : Thread nD τ) (buf0 t) fullShare (iblk V c 0 t) := by
  unfold Dat.leavesExact; rw [after0]
theorem left1 (c : Dev nD) (t : Fin cfg2.N) : (dat V c).leavesExact 1 t = owns (c : Thread nD τ) (buf1 t) fullShare (iblk V c 1 t) := by
  unfold Dat.leavesExact; rw [after1]
theorem left2 (c : Dev nD) (t : Fin cfg2.N) : (dat V c).leavesExact 2 t = owns (c : Thread nD τ) (buf2 t) fullShare (iblk V c 2 t) := by
  unfold Dat.leavesExact; rw [after2]

theorem out_idle : ∀ t : Fin cfg2.N, t.val % 10 ≠ 9 → cfg2.idle 3 (grid2.coords t) = true :=
  (by decide +kernel : ∀ t : Fin grid2.N, t.val % 10 ≠ 9 → cfg2.idle 3 (grid2.coords t) = true)
theorem out_live : ∀ t : Fin cfg2.N, t.val % 10 = 9 → cfg2.idle 3 (grid2.coords t) = false :=
  (by decide +kernel : ∀ t : Fin grid2.N, t.val % 10 = 9 → cfg2.idle 3 (grid2.coords t) = false)

theorem out_kept (t : Fin cfg2.N) (h : t.val % 10 ≠ 9) : (cfg2.win 3).flush t = false := by
  cases hf : (cfg2.win 3).flush t with
  | false => rfl
  | true => exact absurd ((flush2_3 t).mp hf) h

theorem left3 (c : Dev nD) (t : Fin cfg2.N) (h : t.val % 10 = 9) :
    (dat V c).leavesExact 3 t = owns (c : Thread nD τ) (buf3 t) fullShare (fin (iblk V c 2 t) (stAt V c t.val t.isLt)) := by
  unfold Dat.leavesExact; rw [out_live t h, after3]

theorem PhiA_open (c : Dev nD) :
    (Pipeline.ΦA spec2 c : sProp 𝕄)
      = iprop(iprop(iprop((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := Pipeline.UD sig nD τ) (Lvl := ℕ) (Val := Elt F) spec2 c [cc2_scratch0, cc2_scratch1, cc2_scratch2]) ∗ (∃ r, prngReg c r)) := by
  unfold Pipeline.ΦA; rw [scopedRest2_split]; simp only [scM0, scM1, scM2, owns_whole]; try rfl

def pointPre (c : Dev nD) (t : Fin cfg2.N) : sProp 𝕄 :=
  iprop((dat V c).Φ t.castSucc ∗ (dat V c).owesAt () t.castSucc
    ∗ (∃ d, owns (c : Thread nD τ) (buf0 t) fullShare ((dat V c).before 0 t d))
    ∗ (∃ d, owns (c : Thread nD τ) (buf1 t) fullShare ((dat V c).before 1 t d))
    ∗ (∃ d, owns (c : Thread nD τ) (buf2 t) fullShare ((dat V c).before 2 t d))
    ∗ (∃ d, owns (c : Thread nD τ) (buf3 t) fullShare ((dat V c).before 3 t d)))

def pointPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in

theorem body_point (c : Dev nD) (t : Fin cfg2.N) :
    pointPre V c t ⊢ wp frame (wpE (defs₀ (F := F)) Variants.none c none) Set.univ (bodyAt2 t) (fun _ => pointPost V c t) := by
  unfold pointPre pointPost bodyAt2
  simp only [found0, found1, found2]
  rw [show (dat V c).owesAt () t.succ = (dat V c).owesAt () t.castSucc from rfl]
  rw [show (dat V c).Φ t.succ = Phi V c (t.val + 1) t.isLt from rfl, Phi_succ, Phi_castSucc, left0, left1, left2]
  have hN : t.val < 80 := lt_of_lt_of_eq t.isLt (show cfg2.N = 80 from N_2)
  by_cases h0 : t.val % 10 = 0
  ·
    have hc0 : condFirst (grid2.coords t) := (condFirst_iff t).mpr h0
    have hc1 : ¬ condLast (grid2.coords t) := fun h => by have := (condLast_iff t).mp h; omega
    have h9 : t.val % 10 ≠ 9 := by omega
    rw [Dat.leavesExact_idle (dat V c) 3 t (out_idle t h9) (out_kept t h9), stAt_first V c t h0]
    have run := runFirst c (grid2.coords t) (buf0 t) (whole0 t) (buf1 t) (whole1 t) (buf2 t) (whole2 t) (buf3 t) (whole3 t)
      scM0 (Memref.isWhole_whole _) scM1 (Memref.isWhole_whole _) scM2 (Memref.isWhole_whole _) hc0 hc1
      (iblk V c 0 t) (iblk V c 1 t) (iblk V c 2 t)
    by_cases hz : t.val = 0
    · rw [Phi_zero V c _ _ hz, PhiA_open]
      iintro ⟨⟨⟨⟨S0, S1, S2⟩, HR⟩, Hg⟩, Ho, ⟨%d0, H0⟩, ⟨%d1, H1⟩, ⟨%d2, H2⟩, ⟨%d3, H3⟩⟩
      iapply (run _ Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 HR Hg]
      · isplitl [S0 S1 S2]
        · isplitl [S0]; · iexact S0
          isplitl [S1]; · iexact S1
          iexact S2
        isplitl [HR]; · iexact HR
        iexact Hg
      isplitl [Ho]; · iexact Ho
      isplitl [H0]; · iexact H0
      isplitl [H1]; · iexact H1
      isplitl [H2]; · iexact H2
      iexists _; iexact H3
    · rw [Phi_pos V c _ _ hz]
      iintro ⟨⟨⟨S0, S1, S2⟩, HR, Hg⟩, Ho, ⟨%d0, H0⟩, ⟨%d1, H1⟩, ⟨%d2, H2⟩, ⟨%d3, H3⟩⟩
      iapply (run _ Set.univ _)
      isplitl [H0]; · iexact H0
      isplitl [H1]; · iexact H1
      isplitl [H2]; · iexact H2
      isplitl [H3]; · iexact H3
      isplitl [S0]; · iexists _; iexact S0
      isplitl [S1]; · iexists _; iexact S1
      isplitl [S2]; · iexists _; iexact S2
      iintro ⟨H0, H1, H2, H3, S0, S1, S2⟩
      isplitl [S0 S1 S2 HR Hg]
      · isplitl [S0 S1 S2]
        · isplitl [S0]; · iexact S0
          isplitl [S1]; · iexact S1
          iexact S2
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬ condFirst (grid2.coords t) := fun h => h0 ((condFirst_iff t).mp h)
    rw [Phi_pos V c _ _ hz, stAt_next V c t h0]
    by_cases h9 : t.val % 10 = 9
    ·
      have hc1 : condLast (grid2.coords t) := (condLast_iff t).mpr h9
      rw [left3 V c t h9, stAt_next V c t h0]
      iintro ⟨⟨⟨S0, S1, S2⟩, HR, Hg⟩, Ho, ⟨%d0, H0⟩, ⟨%d1, H1⟩, ⟨%d2, H2⟩, ⟨%d3, H3⟩⟩
      iapply (runLast c (grid2.coords t) (buf0 t) (whole0 t) (buf1 t) (whole1 t) (buf2 t) (whole2 t) (buf3 t) (whole3 t)
        scM0 (Memref.isWhole_whole _) scM1 (Memref.isWhole_whole _) scM2 (Memref.isWhole_whole _) hc0 hc1
        (iblk V c 0 t) (iblk V c 1 t) (iblk V c 2 t) _ Set.univ _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [S0 S1 S2 HR Hg]
      · isplitl [S0 S1 S2]
        · isplitl [S0]; · iexact S0
          isplitl [S1]; · iexact S1
          iexact S2
        isplitl [HR]; · iexact HR
        iexact Hg
      isplitl [Ho]; · iexact Ho
      isplitl [H0]; · iexact H0
      isplitl [H1]; · iexact H1
      isplitl [H2]; · iexact H2
      iexact H3
    ·
      have hc1 : ¬ condLast (grid2.coords t) := fun h => h9 ((condLast_iff t).mp h)
      rw [Dat.leavesExact_idle (dat V c) 3 t (out_idle t h9) (out_kept t h9)]
      iintro ⟨⟨⟨S0, S1, S2⟩, HR, Hg⟩, Ho, ⟨%d0, H0⟩, ⟨%d1, H1⟩, ⟨%d2, H2⟩, ⟨%d3, H3⟩⟩
      iapply (runMid c (grid2.coords t) (buf0 t) (whole0 t) (buf1 t) (whole1 t) (buf2 t) (whole2 t) (buf3 t) (whole3 t)
        scM0 (Memref.isWhole_whole _) scM1 (Memref.isWhole_whole _) scM2 (Memref.isWhole_whole _) hc0 hc1
        (iblk V c 0 t) (iblk V c 1 t) (iblk V c 2 t) _ _ Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 HR Hg]
      · isplitl [S0 S1 S2]
        · isplitl [S0]; · iexact S0
          isplitl [S1]; · iexact S1
          iexact S2
        isplitl [HR]; · iexact HR
        iexact Hg
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W2, bigSep_W2]
  exact body_point V c t

end Cert.KernelIdeal.R2

end
-- ==== Proof.KFrame.lean ====
import proofs.«419215_j38122129719724_3_alg».proof.Proof.KRun

set_option maxRecDepth 16384

noncomputable section

namespace Cert.KernelIdeal.KRun

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F] [Named F]

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps3 _ hostOps3_writes (by decide : main_arg0 ∉ hostOps3_W)
    _ = W7 m c (Proc.devRef .tc main_arg0) := W8_of_ne m c main_arg0 (by decide)
    _ = W6 m c (Proc.devRef .tc main_arg0) := W7_of_ne m c main_arg0 (by decide)
    _ = W5 m c (Proc.devRef .tc main_arg0) := (W6_arr m c 0).trans (((R0.dat (atRefs (W5 m)) c).arrAt_in 0 rfl _).trans (R0.A_eq (atRefs (W5 m)) c 0))
    _ = m ((c : Thread nD τ).loc main_arg0) :=
      (V5_of m c main_arg0 (by decide)).trans <| (V4_of m c main_arg0 (by decide)).trans <| (V3_of m c main_arg0 (by decide)).trans <|
        (V2_of m c main_arg0 (by decide)).trans <| (V1_of m c main_arg0 (by decide))

/-- A buffer that no host stretch writes and no region has as a window's array is, at the last boundary, as launched. -/
theorem W9_keep (c : Dev nD) (b : Ref sig .tc)
    (h : b ∉ hostOps3_W ∧ (∀ w, Pipeline.arrRef spec2 w ≠ b) ∧ (∀ w, Pipeline.arrRef spec1 w ≠ b) ∧ (∀ w, Pipeline.arrRef spec0 w ≠ b)
      ∧ b ∉ hostOps0_4_W ∧ b ∉ hostOps0_3_W ∧ b ∉ hostOps0_2_W ∧ b ∉ hostOps0_1_W ∧ b ∉ hostOps0_W) :
    W9 m c (Proc.devRef .tc b) = m ((c : Thread nD τ).loc b) :=
  calc W9 m c (Proc.devRef .tc b)
    _ = W8 m c (Proc.devRef .tc b) := StableHlo.after_of_writes_sub hostOps3 _ hostOps3_writes h.1
    _ = W7 m c (Proc.devRef .tc b) := W8_of_ne m c b h.2.1
    _ = W6 m c (Proc.devRef .tc b) := W7_of_ne m c b h.2.2.1
    _ = W5 m c (Proc.devRef .tc b) := W6_of_ne m c b h.2.2.2.1
    _ = m ((c : Thread nD τ).loc b) :=
      (V5_of m c b h.2.2.2.2.1).trans <| (V4_of m c b h.2.2.2.2.2.1).trans <| (V3_of m c b h.2.2.2.2.2.2.1).trans <|
        (V2_of m c b h.2.2.2.2.2.2.2.1).trans <| (V1_of m c b h.2.2.2.2.2.2.2.2)

theorem W9_main_arg1 (c : Dev nD) : W9 m c (Proc.devRef .tc main_arg1) = m ((c : Thread nD τ).loc main_arg1) :=
  W9_keep m c main_arg1 (by decide)
theorem W9_main_arg2 (c : Dev nD) : W9 m c (Proc.devRef .tc main_arg2) = m ((c : Thread nD τ).loc main_arg2) :=
  W9_keep m c main_arg2 (by decide)
theorem W9_main_arg3 (c : Dev nD) : W9 m c (Proc.devRef .tc main_arg3) = m ((c : Thread nD τ).loc main_arg3) :=
  W9_keep m c main_arg3 (by decide)
theorem W9_main_arg4 (c : Dev nD) : W9 m c (Proc.devRef .tc main_arg4) = m ((c : Thread nD τ).loc main_arg4) :=
  W9_keep m c main_arg4 (by decide)
theorem W9_main_arg5 (c : Dev nD) : W9 m c (Proc.devRef .tc main_arg5) = m ((c : Thread nD τ).loc main_arg5) :=
  W9_keep m c main_arg5 (by decide)
theorem W9_main_arg6 (c : Dev nD) : W9 m c (Proc.devRef .tc main_arg6) = m ((c : Thread nD τ).loc main_arg6) :=
  W9_keep m c main_arg6 (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c)⟩) (run_all m ρ)

end Cert.KernelIdeal.KRun

end
-- ==== Proof.KTail.lean ====
import proofs.«419215_j38122129719724_3_alg».proof.Proof.KBounds
import Idealize.ShloMosaic.Lib.StableHlo.Run

noncomputable section
namespace Cert.KernelIdeal.KRun
open Cert.KernelIdeal Cert.KernelIdeal.Gen
open Idealize.ShloMosaic Idealize.ShloMosaic.TcCoe Idealize.SL.Sem Idealize.ShloMosaic.StableHlo

variable {F : FTy → Type} [FloatOps F] [Named F]
variable (m : (ℓ : Loc nD τ sig) → Buf (Elt F) ℓ)

theorem W9_v14 (c : Dev nD) :
    W9 m c (Proc.devRef .tc main_v14)
      = shapeCast S4096 (addf (addf (W8 m c (Proc.devRef .tc main_v9_0)) (W8 m c (Proc.devRef .tc main_v10))) (W8 m c (Proc.devRef .tc main_v11))) shapeCasts_S4096x1_S4096 := by
  show StableHlo.after hostOps3 (W8 m c) (Proc.devRef .tc main_v14) = _
  after_results
  rfl

theorem W9_v17 (c : Dev nD) :
    W9 m c (Proc.devRef .tc main_v17)
      = Host.divf (Host.reduceAdd (Host.negf (W9 m c (Proc.devRef .tc main_v14))) (constant S_ .f32 0x00000000#32) reducesTo_S4096_S_d0 h_S_) (constant S_ .f32 0x45800000#32) := by
  rw [W9_v14]
  show StableHlo.after hostOps3 (W8 m c) (Proc.devRef .tc main_v17) = _
  after_results
  rfl

end Cert.KernelIdeal.KRun
end
-- ==== Proof.KEntry.lean ====
import proofs.«419215_j38122129719724_3_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal

set_option maxRecDepth 16384

noncomputable section

namespace Cert.KernelIdeal.KEntry

open Cert.KernelIdeal Cert.KernelIdeal.Gen
open Idealize.ShloMosaic Idealize.ShloMosaic.TcCoe
open Idealize.ShloMosaic.ValueIdx
open Idealize.SL Idealize.SL.Sem

theorem idx0_eq (i j : S_.Idx) : i = j := funext fun a => a.elim0

theorem pad_rows_apply {n p w : ℕ} (x : (⟨2, ![n, w]⟩ : Shape).Idx → EReal) (v : S_.Idx → EReal)
    (h : (⟨2, ![n, w]⟩ : Shape).Pads (![0, 0] : Fin 2 → Nat) ![p, 0] ![0, 0] ⟨2, ![n + p, w]⟩) (hu : 0 < S_.numel)
    (j : Fin (n + p)) (d : Fin w) :
    pad ⟨2, ![n + p, w]⟩ (![0, 0] : Fin 2 → Nat) ![p, 0] ![0, 0] x v h hu (ix2 j d)
      = if hj : j.val < n then x (ix2 ⟨j.val, hj⟩ d) else v ix0 := by
  by_cases hj : j.val < n
  · rw [dif_pos hj]
    refine pad_apply_of_inside _ _ _ x v h hu _ (ix2 ⟨j.val, hj⟩ d) fun a => ?_
    match a with
    | ⟨0, _⟩ => show j.val = 0 + j.val * (0 + 1); omega
    | ⟨1, _⟩ => show d.val = 0 + d.val * (0 + 1); omega
  · rw [dif_neg hj]
    refine (pad_apply_of_not_inside _ _ _ x v h hu _ (0 : Fin 2) fun hin => hj ?_).trans (congrArg v (idx0_eq _ _))
    have h3 : (j.val - 0) / (0 + 1) < n := hin.2.2
    omega

theorem column_apply {α : Type} {n : ℕ} (x : (⟨1, ![n]⟩ : Shape).Idx → α) (h : (⟨1, ![n]⟩ : Shape).ShapeCasts ⟨2, ![n, 1]⟩)
    (r : Fin n) : shapeCast ⟨2, ![n, 1]⟩ x h (ix2 r (0 : Fin 1)) = x (ix1 r) :=
  shapeCast_apply x h _ _ (by
    rw [Shape.rowMajor_val_two, Shape.rowMajor_val_one]
    show r.val = r.val * 1 + 0
    omega)

variable (m : (ℓ : Loc nD τ sig) → Buf (Elt Ideal) ℓ) (c : Dev nD)

theorem arg0_eq : V5 m c (Proc.devRef .tc main_arg0) = m ((c : Thread nD τ).loc main_arg0) :=
  (V5_of m c main_arg0 (by decide)).trans <| (V4_of m c main_arg0 (by decide)).trans <| (V3_of m c main_arg0 (by decide)).trans <|
    (V2_of m c main_arg0 (by decide)).trans <| (V1_of m c main_arg0 (by decide))

theorem v0_term :
    (V5 m c (Proc.devRef .tc main_v0) : S4096x1.Idx → BitVec 32)
      = shapeCast S4096x1 (m ((c : Thread nD τ).loc main_arg1) : S4096.Idx → BitVec 32) shapeCasts_S4096_S4096x1 := by
  rw [V5_of m c main_v0 (by decide), V4_of m c main_v0 (by decide), V3_of m c main_v0 (by decide), V2_of m c main_v0 (by decide)]
  dsimp only [V1, V0, hostOps0]
  after_results
  rfl

theorem v0_apply (r : Fin 4096) :
    (V5 m c (Proc.devRef .tc main_v0) : S4096x1.Idx → BitVec 32) (ix2 r (0 : Fin 1))
      = (m ((c : Thread nD τ).loc main_arg1) : S4096.Idx → BitVec 32) (ix1 r) := by
  rw [v0_term]
  exact column_apply _ shapeCasts_S4096_S4096x1 r

theorem v1_eq :
    (V5 m c (Proc.devRef .tc main_v1) : S2002x1024.Idx → EReal) = (m ((c : Thread nD τ).loc main_arg2) : S2002x1024.Idx → EReal) := by
  rw [V5_of m c main_v1 (by decide), V4_of m c main_v1 (by decide), V3_of m c main_v1 (by decide), V2_of m c main_v1 (by decide)]
  dsimp only [V1, V0, hostOps0]
  after_results
  rfl

theorem v2_eq :
    (V5 m c (Proc.devRef .tc main_v2) : S1024x256.Idx → EReal) = (m ((c : Thread nD τ).loc main_arg4) : S1024x256.Idx → EReal) := by
  rw [V5_of m c main_v2 (by decide), V4_of m c main_v2 (by decide), V3_of m c main_v2 (by decide), V2_of m c main_v2 (by decide)]
  dsimp only [V1, V0, hostOps0]
  after_results
  rfl

theorem v3_eq :
    (V5 m c (Proc.devRef .tc main_v3) : S1024x64.Idx → EReal) = (m ((c : Thread nD τ).loc main_arg6) : S1024x64.Idx → EReal) := by
  rw [V5_of m c main_v3 (by decide), V4_of m c main_v3 (by decide), V3_of m c main_v3 (by decide), V2_of m c main_v3 (by decide)]
  dsimp only [V1, V0, hostOps0]
  after_results
  rfl

theorem v5_term :
    (V5 m c (Proc.devRef .tc main_v5) : S8192x256.Idx → EReal)
      = pad S8192x256 (![0, 0] : Fin 2 → Nat) ![192, 0] ![0, 0] (m ((c : Thread nD τ).loc main_arg3) : S8000x256.Idx → EReal)
          (sitofp (F := Ideal) .f32 (constantI S_ 32 0#32)) pads_S8000x256_S8192x256_01920_000 h_S_ := by
  rw [V5_of m c main_v5 (by decide), V4_of m c main_v5 (by decide)]
  dsimp only [V3, V2, V1, V0, hostOps0_2, hostOps0_1, hostOps0]
  after_results
  rfl

theorem v5_apply (j : Fin 8192) (d : Fin 256) :
    (V5 m c (Proc.devRef .tc main_v5) : S8192x256.Idx → EReal) (ix2 j d)
      = if hj : j.val < 8000 then (m ((c : Thread nD τ).loc main_arg3) : S8000x256.Idx → EReal) (ix2 ⟨j.val, hj⟩ d) else (0 : EReal) := by
  rw [v5_term]
  refine (pad_rows_apply (n := 8000) (p := 192) (w := 256) _ _ pads_S8000x256_S8192x256_01920_000 h_S_ j d).trans ?_
  by_cases hj : j.val < 8000
  · rw [dif_pos hj, dif_pos hj]
  · rw [dif_neg hj, dif_neg hj]
    exact sitofp_zero (φ := .f32)

theorem v8_term :
    (V5 m c (Proc.devRef .tc main_v8) : S64x40960.Idx → EReal)
      = transpose S64x40960 [1, 0]
          (pad S40960x64 (![0, 0] : Fin 2 → Nat) ![703, 0] ![0, 0] (m ((c : Thread nD τ).loc main_arg5) : S40257x64.Idx → EReal)
            (sitofp (F := Ideal) .f32 (constantI S_ 32 0#32)) pads_S40257x64_S40960x64_07030_000 h_S_)
          transposes_S40960x64_S64x40960_1_0 := by
  dsimp only [V5, V4, V3, V2, V1, V0, hostOps0_4, hostOps0_3, hostOps0_2, hostOps0_1, hostOps0]
  after_results
  rfl

theorem v8_apply (d : Fin 64) (j : Fin 40960) :
    (V5 m c (Proc.devRef .tc main_v8) : S64x40960.Idx → EReal) (ix2 d j)
      = if hj : j.val < 40257 then (m ((c : Thread nD τ).loc main_arg5) : S40257x64.Idx → EReal) (ix2 ⟨j.val, hj⟩ d) else (0 : EReal) := by
  rw [v8_term]
  refine (transpose_ix2_apply _ transposes_S40960x64_S64x40960_1_0 d j).trans ?_
  refine (pad_rows_apply (n := 40257) (p := 703) (w := 64) _ _ pads_S40257x64_S40960x64_07030_000 h_S_ j d).trans ?_
  by_cases hj : j.val < 40257
  · rw [dif_pos hj, dif_pos hj]
  · rw [dif_neg hj, dif_neg hj]
    exact sitofp_zero (φ := .f32)

end Cert.KernelIdeal.KEntry
-- ==== Proof.Spec.lean ====
import Idealize.ShloMosaic.PureOps.Ideal
import Mathlib.Algebra.BigOperators.Group.Finset.Basic
import Mathlib.Data.EReal.Operations

noncomputable section

namespace Cert.Spec

open Idealize.ShloMosaic

def rowMax {n : ℕ} (s : Fin n → EReal) : EReal := (Finset.univ : Finset (Fin n)).fold max ⊥ s

def expSum {n : ℕ} (s : Fin n → EReal) : EReal := ∑ k : Fin n, Ideal.exp (s k - rowMax s)

/-- The log-softmax of a family of scores at one class: the score less the maximum, less the logarithm of the sum of the shifted exponentials. -/
def logProb {n : ℕ} (s : Fin n → EReal) (j : Fin n) : EReal := (s j - rowMax s) - Ideal.log (expSum s)

def pick {n : ℕ} (f : Fin n → EReal) (k : ℕ) : EReal := if h : k < n then f ⟨k, h⟩ else 0

structure Args where
  X : Fin 4096 → Fin 1024 → EReal
  T : Fin 4096 → BitVec 32
  HW : Fin 2002 → Fin 1024 → EReal
  E0 : Fin 8000 → Fin 256 → EReal
  L0 : Fin 1024 → Fin 256 → EReal
  E1 : Fin 40257 → Fin 64 → EReal
  L1 : Fin 1024 → Fin 64 → EReal

namespace Args

variable (a : Args)

def tgt (r : Fin 4096) : ℤ := (a.T r).toInt

def logitsH (r : Fin 4096) (c : Fin 2002) : EReal := ∑ k : Fin 1024, a.X r k * a.HW c k

def xw0 (r : Fin 4096) (d : Fin 256) : EReal := ∑ k : Fin 1024, a.X r k * a.L0 k d
def s0 (r : Fin 4096) (j : Fin 8000) : EReal := ∑ d : Fin 256, a.xw0 r d * a.E0 j d

def xw1 (r : Fin 4096) (d : Fin 64) : EReal := ∑ k : Fin 1024, a.X r k * a.L1 k d
def s1 (r : Fin 4096) (j : Fin 40257) : EReal := ∑ d : Fin 64, a.xw1 r d * a.E1 j d

def in0 (r : Fin 4096) : Prop := 2000 ≤ a.tgt r ∧ a.tgt r < 10000
def in1 (r : Fin 4096) : Prop := 10000 ≤ a.tgt r ∧ a.tgt r < 50257
instance (r : Fin 4096) : Decidable (a.in0 r) := by unfold in0; infer_instance
instance (r : Fin 4096) : Decidable (a.in1 r) := by unfold in1; infer_instance

def headClass (r : Fin 4096) : ℕ := if a.in1 r then 2001 else if a.in0 r then 2000 else (a.tgt r).toNat

def rel0 (r : Fin 4096) : ℕ := (min 7999 (max 0 (a.tgt r - 2000))).toNat
def rel1 (r : Fin 4096) : ℕ := (min 40256 (max 0 (a.tgt r - 10000))).toNat

def headTerm (r : Fin 4096) : EReal := pick (logProb (a.logitsH r)) (a.headClass r)
def tail0Term (r : Fin 4096) : EReal := if a.in0 r then pick (logProb (a.s0 r)) (a.rel0 r) else 0
def tail1Term (r : Fin 4096) : EReal := if a.in1 r then pick (logProb (a.s1 r)) (a.rel1 r) else 0

/-- A row's log-probability: the head's term plus each tail's, a tail counting only when the row's target lies in it. -/
def out (r : Fin 4096) : EReal := (a.headTerm r + a.tail0Term r) + a.tail1Term r

structure Ok : Prop where
  X : ∀ r k, ∃ x : ℝ, a.X r k = x
  HW : ∀ c k, ∃ x : ℝ, a.HW c k = x
  E0 : ∀ j d, ∃ x : ℝ, a.E0 j d = x
  L0 : ∀ k d, ∃ x : ℝ, a.L0 k d = x
  E1 : ∀ j d, ∃ x : ℝ, a.E1 j d = x
  L1 : ∀ k d, ∃ x : ℝ, a.L1 k d = x
  T : ∀ r, 0 ≤ a.tgt r ∧ a.tgt r < 50257

end Args

end Cert.Spec

end
-- ==== Proof.SpecArgs.lean ====
import proofs.«419215_j38122129719724_3_alg».proof.Proof.Spec
import Idealize.ShloMosaic.Lib.ValueIdx

noncomputable section

namespace Cert.Spec

open Idealize.ShloMosaic Idealize.ShloMosaic.ValueIdx

def argsOf (x : Vec Ideal ⟨2, ![4096, 1024]⟩ .f32) (t : Vec Ideal ⟨1, ![4096]⟩ .i32) (hw : Vec Ideal ⟨2, ![2002, 1024]⟩ .f32)
    (e0 : Vec Ideal ⟨2, ![8000, 256]⟩ .f32) (l0 : Vec Ideal ⟨2, ![1024, 256]⟩ .f32)
    (e1 : Vec Ideal ⟨2, ![40257, 64]⟩ .f32) (l1 : Vec Ideal ⟨2, ![1024, 64]⟩ .f32) : Args where
  X r k := x (ix2 r k)
  T r := t (ix1 r)
  HW c k := hw (ix2 c k)
  E0 j d := e0 (ix2 j d)
  L0 k d := l0 (ix2 k d)
  E1 j d := e1 (ix2 j d)
  L1 k d := l1 (ix2 k d)

def tailTerm {n : ℕ} (s : Fin n → EReal) (t lo hi : ℤ) : EReal :=
  if lo ≤ t ∧ t < hi then pick (logProb s) (min ((n : ℤ) - 1) (max 0 (t - lo))).toNat else 0

theorem Args.tail0Term_eq (a : Args) (r : Fin 4096) : a.tail0Term r = tailTerm (a.s0 r) (a.tgt r) 2000 10000 := by
  unfold Args.tail0Term tailTerm Args.in0 Args.rel0; rfl

theorem Args.tail1Term_eq (a : Args) (r : Fin 4096) : a.tail1Term r = tailTerm (a.s1 r) (a.tgt r) 10000 50257 := by
  unfold Args.tail1Term tailTerm Args.in1 Args.rel1; rfl

def headTermOf (s : Fin 2002 → EReal) (t : ℤ) : EReal :=
  pick (logProb s) (if 10000 ≤ t ∧ t < 50257 then 2001 else if 2000 ≤ t ∧ t < 10000 then 2000 else t.toNat)

theorem Args.headTerm_eq (a : Args) (r : Fin 4096) : a.headTerm r = headTermOf (a.logitsH r) (a.tgt r) := by
  unfold Args.headTerm headTermOf Args.headClass Args.in0 Args.in1; rfl

end Cert.Spec

end
-- ==== Proof.Softmax.lean ====
import proofs.«419215_j38122129719724_3_alg».proof.Proof.Spec
import Mathlib.Data.Finset.Fold
import Mathlib.Data.Finset.Max
import Mathlib.Algebra.Order.BigOperators.Group.Finset
import Mathlib.Algebra.BigOperators.Ring.Finset
import Mathlib.Analysis.SpecialFunctions.Exp
import Mathlib.Analysis.SpecialFunctions.Log.Basic
import Mathlib.Data.EReal.Basic
import Mathlib.Data.EReal.Operations

noncomputable section

namespace Cert.Spec

open Idealize.ShloMosaic

theorem sm_coe_finsum {ι : Type*} (S : Finset ι) (f : ι → ℝ) :
    ((∑ k ∈ S, f k : ℝ) : EReal) = ∑ k ∈ S, (f k : EReal) := by
  classical
  refine Finset.induction_on S (by simp) ?_
  intro a S ha ih
  rw [Finset.sum_insert ha, Finset.sum_insert ha, EReal.coe_add, ih]

theorem sm_real_family {n : ℕ} (s : Fin n → EReal) (hs : ∀ k, ∃ x : ℝ, s k = x) :
    ∃ x : Fin n → ℝ, s = fun k => (x k : EReal) := by
  choose x hx using hs
  exact ⟨x, funext hx⟩

theorem sm_foldMax_real {n : ℕ} (x : Fin n → ℝ) (S : Finset (Fin n)) (hS : S.Nonempty) :
    ∃ M : ℝ, S.fold max ⊥ (fun k => (x k : EReal)) = M ∧ (∀ k ∈ S, x k ≤ M) ∧ ∃ k ∈ S, x k = M := by
  obtain ⟨k0, hk0, hmax⟩ := S.exists_max_image x hS
  refine ⟨x k0, ?_, hmax, k0, hk0, rfl⟩
  apply le_antisymm
  · rw [Finset.fold_max_le]
    exact ⟨bot_le, fun k hk => EReal.coe_le_coe_iff.mpr (hmax k hk)⟩
  · rw [Finset.le_fold_max]
    exact Or.inr ⟨k0, hk0, le_rfl⟩

theorem sm_sum_exp {n : ℕ} (x : Fin n → ℝ) (S : Finset (Fin n)) (c : ℝ) :
    ∑ k ∈ S, Ideal.exp ((x k : EReal) - (c : EReal)) = ((∑ k ∈ S, Real.exp (x k - c) : ℝ) : EReal) := by
  rw [sm_coe_finsum]
  refine Finset.sum_congr rfl fun k _ => ?_
  rw [← EReal.coe_sub, Ideal.exp_coe]

theorem rowMax_real {n : ℕ} (hn : 0 < n) (s : Fin n → EReal) (hs : ∀ k, ∃ x : ℝ, s k = x) :
    ∃ M : ℝ, rowMax s = M ∧ (∀ k, s k ≤ M) ∧ ∃ k, s k = M := by
  obtain ⟨x, rfl⟩ := sm_real_family s hs
  have hne : (Finset.univ : Finset (Fin n)).Nonempty := ⟨⟨0, hn⟩, Finset.mem_univ _⟩
  obtain ⟨M, hM, hle, k0, -, hk0⟩ := sm_foldMax_real x Finset.univ hne
  refine ⟨M, hM, fun k => EReal.coe_le_coe_iff.mpr (hle k (Finset.mem_univ k)), k0, ?_⟩
  show (x k0 : EReal) = M
  rw [hk0]

theorem expSum_real {n : ℕ} (hn : 0 < n) (s : Fin n → EReal) (hs : ∀ k, ∃ x : ℝ, s k = x) :
    ∃ L : ℝ, expSum s = L ∧ 1 ≤ L := by
  obtain ⟨x, rfl⟩ := sm_real_family s hs
  have hne : (Finset.univ : Finset (Fin n)).Nonempty := ⟨⟨0, hn⟩, Finset.mem_univ _⟩
  obtain ⟨M, hM, -, k0, -, hk0⟩ := sm_foldMax_real x Finset.univ hne
  refine ⟨∑ k, Real.exp (x k - M), ?_, ?_⟩
  · unfold expSum
    rw [show rowMax (fun k => (x k : EReal)) = (M : EReal) from hM]
    exact sm_sum_exp x Finset.univ M
  · calc (1 : ℝ) = Real.exp (x k0 - M) := by rw [hk0, sub_self, Real.exp_zero]
      _ ≤ ∑ k, Real.exp (x k - M) :=
        Finset.single_le_sum (f := fun k => Real.exp (x k - M)) (fun k _ => (Real.exp_pos _).le)
          (Finset.mem_univ k0)

theorem logProb_of_clamped {n : ℕ} (hn : 0 < n) (s : Fin n → EReal) (hs : ∀ k, ∃ x : ℝ, s k = x)
    (κ : EReal) (hκ : κ ≤ 1) (v : EReal) (hv : ∃ x : ℝ, v = x) :
    v - (rowMax s + Ideal.log (max (expSum s) κ)) = (v - rowMax s) - Ideal.log (expSum s) := by
  obtain ⟨M, hM, -, -⟩ := rowMax_real hn s hs
  obtain ⟨L, hL, hL1⟩ := expSum_real hn s hs
  obtain ⟨a, rfl⟩ := hv
  have hκL : κ ≤ (L : EReal) :=
    hκ.trans (by rw [← EReal.coe_one]; exact EReal.coe_le_coe_iff.mpr hL1)
  rw [hM, hL, max_eq_left hκL, Ideal.log_coe, if_neg (not_le.mpr (lt_of_lt_of_le zero_lt_one hL1))]
  rw [← EReal.coe_add, ← EReal.coe_sub, ← EReal.coe_sub, ← EReal.coe_sub]
  congr 1
  ring

theorem pick_onehot {n : ℕ} (f : Fin n → EReal) (k : ℕ) :
    (∑ j : Fin n, if j.val = k then f j else 0) = pick f k := by
  unfold pick
  by_cases h : k < n
  · rw [dif_pos h, Finset.sum_eq_single (⟨k, h⟩ : Fin n)]
    · rw [if_pos rfl]
    · intro j _ hj
      exact if_neg fun hjk => hj (Fin.ext hjk)
    · intro h'
      exact absurd (Finset.mem_univ _) h'
  · rw [dif_neg h]
    refine Finset.sum_eq_zero fun j _ => if_neg ?_
    intro hjk
    exact h (hjk ▸ j.isLt)

end Cert.Spec

end
-- ==== Proof.HeadValue.lean ====
import proofs.«419215_j38122129719724_3_alg».proof.Proof.Gen.KernelIdeal.Skeleton
import proofs.«419215_j38122129719724_3_alg».proof.Proof.Spec
import proofs.«419215_j38122129719724_3_alg».proof.Proof.SpecArgs
import proofs.«419215_j38122129719724_3_alg».proof.Proof.Softmax
import Idealize.ShloMosaic.PureOps.Ideal.Laws
import Idealize.ShloMosaic.Lib.ValueIdx
import Idealize.ShloMosaic.Lib.Pipeline.Value
import Idealize.ShloMosaic.Lib.WordArith

noncomputable section

namespace Cert.KernelIdeal.HeadValue

open Cert.KernelIdeal Cert.KernelIdeal.Gen
open Idealize.ShloMosaic Idealize.ShloMosaic.ValueIdx

theorem projA_lhs_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem projA_lhs_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem projA_rhs_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem projA_rhs_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

theorem projA_apply (x : Vec Ideal S512x1024 .f32) (l0 : Vec Ideal S1024x256 .bf16) (p : Fin 512) (d : Fin 256) :
    k0_pay1 (k0_pay3 x) l0 (ix2 p d) = ∑ k : Fin 1024, x (ix2 p k) * l0 (ix2 k d) := by
  unfold k0_pay1 k0_pay3
  refine (Ideal.matmul_constant_zero_apply dot_S512x1024_S1024x256_S512x256_1_0_0_1_n_n none _ _ (ix2 p d)).trans ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p d) ((contrEquiv1 dot_S512x1024_S1024x256_S512x256_1_0_0_1_n_n 1024 rfl rfl).symm k) = ix2 p k := funext fun a => Fin.ext (by
    match a with
    | ⟨0, _⟩ => exact projA_lhs_0 _ _
    | ⟨1, _⟩ => exact (projA_lhs_1 _ _).trans hk)
  have er : dot_S512x1024_S1024x256_S512x256_1_0_0_1_n_n.rhsIdx (ix2 p d) ((contrEquiv1 dot_S512x1024_S1024x256_S512x256_1_0_0_1_n_n 1024 rfl rfl).symm k) = ix2 k d := funext fun a => Fin.ext (by
    match a with
    | ⟨0, _⟩ => exact (projA_rhs_0 _ _).trans hk
    | ⟨1, _⟩ => exact projA_rhs_1 _ _)
  rw [el, er, shapeCast_self]
  rfl

theorem projB_lhs_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem projB_lhs_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem projB_rhs_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem projB_rhs_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

theorem projB_apply (x : Vec Ideal S512x1024 .f32) (l1 : Vec Ideal S1024x64 .bf16) (p : Fin 512) (d : Fin 64) :
    k0_pay2 (k0_pay3 x) l1 (ix2 p d) = ∑ k : Fin 1024, x (ix2 p k) * l1 (ix2 k d) := by
  unfold k0_pay2 k0_pay3
  refine (Ideal.matmul_constant_zero_apply dot_S512x1024_S1024x64_S512x64_1_0_0_1_n_n none _ _ (ix2 p d)).trans ?_
  rw [← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 p d) ((contrEquiv1 dot_S512x1024_S1024x64_S512x64_1_0_0_1_n_n 1024 rfl rfl).symm k) = ix2 p k := funext fun a => Fin.ext (by
    match a with
    | ⟨0, _⟩ => exact projB_lhs_0 _ _
    | ⟨1, _⟩ => exact (projB_lhs_1 _ _).trans hk)
  have er : dot_S512x1024_S1024x64_S512x64_1_0_0_1_n_n.rhsIdx (ix2 p d) ((contrEquiv1 dot_S512x1024_S1024x64_S512x64_1_0_0_1_n_n 1024 rfl rfl).symm k) = ix2 k d := funext fun a => Fin.ext (by
    match a with
    | ⟨0, _⟩ => exact (projB_rhs_0 _ _).trans hk
    | ⟨1, _⟩ => exact projB_rhs_1 _ _)
  rw [el, er, shapeCast_self]
  rfl

variable {α : Type}

theorem col_cast_apply (v : S512.Idx → α) (h : S512.ShapeCasts S512x1) (p : Fin 512) (z : Fin 1) :
    shapeCast S512x1 v h (ix2 p z) = v (ix1 p) :=
  shapeCast_apply v h _ _ (by
    have hz : z.val = 0 := by omega
    rw [Shape.rowMajor_val_two, Shape.rowMajor_val_one]
    show p.val = p.val * 1 + z.val
    rw [hz, Nat.mul_one, Nat.add_zero])

theorem col_bcast_apply (v : S512x1.Idx → α) (h : S512x1.Broadcasts S512x2002) (p : Fin 512) (c : Fin 2002) :
    broadcastTo S512x2002 v h (ix2 p c) = v (ix2 p (0 : Fin 1)) := by
  refine broadcastTo_apply v h (ix2 p c) (ix2 p (0 : Fin 1)) fun ax => ?_
  match ax with
  | ⟨0, _⟩ => rfl
  | ⟨1, _⟩ => rfl

theorem row_sum_apply (v : FVec Ideal S512x2002 .f32) (p : Fin 512) :
    multiReduction .add [1] S512 v 0x00000000#32 reduces_S512x2002_S512 (.inl rfl) rfl (ix1 p) = ∑ c : Fin 2002, v (ix2 p c) := by
  refine (Ideal.multiReduction_add_single v 0x00000000#32 reduces_S512x2002_S512 (.inl rfl) rfl (ix1 p)).trans ?_
  refine Finset.sum_congr rfl fun c _ => congrArg v ?_
  funext a
  match a with
  | ⟨0, _⟩ => rfl
  | ⟨1, _⟩ => rfl

theorem row_max_apply (v : FVec Ideal S512x2002 .f32) (p : Fin 512) :
    multiReduction .maximumf [1] S512 v 0xFF800000#32 reduces_S512x2002_S512 (.inl rfl) rfl (ix1 p)
      = Cert.Spec.rowMax (fun c : Fin 2002 => v (ix2 p c)) := by
  refine (Ideal.multiReduction_maximumf_single v 0xFF800000#32 reduces_S512x2002_S512 (.inl rfl) rfl (ix1 p)).trans ?_
  have hb : FloatOps.ofBits (F := Ideal) .f32 0xFF800000#32 = (⊥ : EReal) := by
    show Ideal.ofBits .f32 0xFF800000#32 = ⊥
    simp [Ideal.ofBits, Ideal.ieee]
  rw [hb]
  unfold Cert.Spec.rowMax
  refine congrArg (Finset.fold max ⊥ · Finset.univ) ?_
  funext c
  refine congrArg v ?_
  funext a
  match a with
  | ⟨0, _⟩ => rfl
  | ⟨1, _⟩ => rfl

def headClass (z : ℤ) : ℕ := if 10000 ≤ z ∧ z < 50257 then 2001 else if 2000 ≤ z ∧ z < 10000 then 2000 else z.toNat

theorem headTermOf_eq (s : Fin 2002 → EReal) (z : ℤ) :
    Cert.Spec.headTermOf s z = Cert.Spec.pick (Cert.Spec.logProb s) (headClass z) := rfl

theorem headClass_lt (z : ℤ) (h1 : z < 50257) : headClass z < 2002 := by
  unfold headClass
  split_ifs <;> omega

theorem class_word (t : BitVec 32) (h0 : 0 ≤ t.toInt) (h1 : t.toInt < 50257) :
    Scalar.select (IntOp.andi (IntOp.cmpi .sge t 10000#32) (IntOp.cmpi .slt t 50257#32)) 2001#32
      (Scalar.select (IntOp.andi (IntOp.cmpi .sge t 2000#32) (IntOp.cmpi .slt t 10000#32)) 2000#32 t)
      = BitVec.ofNat 32 (headClass t.toInt) := by
  have e10000 : (10000#32 : BitVec 32).toInt = 10000 := by decide
  have e50257 : (50257#32 : BitVec 32).toInt = 50257 := by decide
  have e2000 : (2000#32 : BitVec 32).toInt = 2000 := by decide
  have hn : t.toInt.toNat = t.toNat := by
    rw [BitVec.toInt_eq_toNat_cond] at h0 ⊢
    split at h0 <;> omega
  simp only [IntOp.cmpi, WordArith.andi_ofBool, Scalar.select, WordArith.ofBool_eq_numeral_one_iff, Bool.and_eq_true, BitVec.sle, BitVec.slt,
    decide_eq_true_eq, e10000, e50257, e2000]
  unfold headClass
  split_ifs <;> first | rfl | (exfalso; omega) | skip
  rw [hn]
  exact BitVec.eq_of_toNat_eq (by rw [BitVec.toNat_ofNat, Nat.mod_eq_of_lt t.isLt])

theorem select_eq_word {β : Type} (c k : ℕ) (hc : c < 2 ^ 32) (hk : k < 2 ^ 32) (a b : β) :
    Scalar.select (IntOp.cmpi .eq (BitVec.ofNat 32 c) (BitVec.ofNat 32 k)) a b = if c = k then a else b := by
  have hiff : (BitVec.ofNat 32 c = BitVec.ofNat 32 k) ↔ c = k :=
    ⟨fun h => by
      have := congrArg BitVec.toNat h
      rwa [WordArith.toNat_ofNat_of_lt _ hc, WordArith.toNat_ofNat_of_lt _ hk] at this, fun h => by rw [h]⟩
  unfold IntOp.cmpi Scalar.select
  simp only [WordArith.ofBool_eq_numeral_one_iff, beq_iff_eq, hiff]

theorem score_lhs_0 (i : S512x2002.Idx) (q : dot_S512x1024_S2002x1024_S512x2002_1_1_0_0_n_n.contr.Idx) :
    (dot_S512x1024_S2002x1024_S512x2002_1_1_0_0_n_n.lhsIdx i q 0).val = (i 0).val := by
  unfold DotDims.lhsIdx
  rw [dif_neg (show ¬(0 : Fin S512x1024.rank) ∈ dot_S512x1024_S2002x1024_S512x2002_1_1_0_0_n_n.lhsBatch by decide), dif_pos (show (0 : Fin S512x1024.rank) ∈ dot_S512x1024_S2002x1024_S512x2002_1_1_0_0_n_n.lhsNonContracting by decide)]
  rfl
theorem score_lhs_1 (i : S512x2002.Idx) (q : dot_S512x1024_S2002x1024_S512x2002_1_1_0_0_n_n.contr.Idx) :
    (dot_S512x1024_S2002x1024_S512x2002_1_1_0_0_n_n.lhsIdx i q 1).val = (q ⟨0, by decide⟩).val :=
  dot_S512x1024_S2002x1024_S512x2002_1_1_0_0_n_n.lhsIdx_val_of_single rfl i q
theorem score_rhs_0 (i : S512x2002.Idx) (q : dot_S512x1024_S2002x1024_S512x2002_1_1_0_0_n_n.contr.Idx) :
    (dot_S512x1024_S2002x1024_S512x2002_1_1_0_0_n_n.rhsIdx i q 0).val = (i 1).val := by
  unfold DotDims.rhsIdx
  rw [dif_neg (show ¬(0 : Fin S2002x1024.rank) ∈ dot_S512x1024_S2002x1024_S512x2002_1_1_0_0_n_n.rhsBatch by decide), dif_pos (show (0 : Fin S2002x1024.rank) ∈ dot_S512x1024_S2002x1024_S512x2002_1_1_0_0_n_n.rhsNonContracting by decide)]
  rfl
theorem score_rhs_1 (i : S512x2002.Idx) (q : dot_S512x1024_S2002x1024_S512x2002_1_1_0_0_n_n.contr.Idx) :
    (dot_S512x1024_S2002x1024_S512x2002_1_1_0_0_n_n.rhsIdx i q 1).val = (q ⟨0, by decide⟩).val :=
  dot_S512x1024_S2002x1024_S512x2002_1_1_0_0_n_n.rhsIdx_val_of_single rfl i q

abbrev scoreBlk (x : Vec Ideal S512x1024 .f32) (w : Vec Ideal S2002x1024 .bf16) : FVec Ideal S512x2002 .f32 :=
  matmul dot_S512x1024_S2002x1024_S512x2002_1_1_0_0_n_n none (k0_pay3 x) (shapeCast S2002x1024 w shapeCasts_S2002x1024_S2002x1024 : FVec Ideal S2002x1024 .bf16)
    (constant S512x2002 .f32 0x00000000#32)

theorem scoreBlk_apply (x : Vec Ideal S512x1024 .f32) (w : Vec Ideal S2002x1024 .bf16) (p : Fin 512) (c : Fin 2002) :
    scoreBlk x w (ix2 p c) = ∑ k : Fin 1024, x (ix2 p k) * w (ix2 c k) := by
  unfold scoreBlk k0_pay3
  refine (Ideal.matmul_constant_zero_apply dot_S512x1024_S2002x1024_S512x2002_1_1_0_0_n_n none _ _ (ix2 p c)).trans ?_
  rw [← Equiv.sum_comp (contrEquiv1 dot_S512x1024_S2002x1024_S512x2002_1_1_0_0_n_n 1024 rfl rfl).symm]
  refine Finset.sum_congr rfl fun k _ => ?_
  have hk := contrEquiv1_symm_val dot_S512x1024_S2002x1024_S512x2002_1_1_0_0_n_n 1024 rfl rfl k
  have el : dot_S512x1024_S2002x1024_S512x2002_1_1_0_0_n_n.lhsIdx (ix2 p c) ((contrEquiv1 dot_S512x1024_S2002x1024_S512x2002_1_1_0_0_n_n 1024 rfl rfl).symm k) = ix2 p k := funext fun a => Fin.ext (by
    match a with
    | ⟨0, _⟩ => exact score_lhs_0 _ _
    | ⟨1, _⟩ => exact (score_lhs_1 _ _).trans hk)
  have er : dot_S512x1024_S2002x1024_S512x2002_1_1_0_0_n_n.rhsIdx (ix2 p c) ((contrEquiv1 dot_S512x1024_S2002x1024_S512x2002_1_1_0_0_n_n 1024 rfl rfl).symm k) = ix2 c k := funext fun a => Fin.ext (by
    match a with
    | ⟨0, _⟩ => exact score_rhs_0 _ _
    | ⟨1, _⟩ => exact (score_rhs_1 _ _).trans hk)
  rw [el, er, shapeCast_self]
  rfl

theorem clamp_val : Named.named (F := Ideal) κ "inv_1000000000000000000000000000000" (φ := .f32) 0x0DA24260#32
    = ((1 / 1000000000000000000000000000000 : ℝ) : EReal) :=
  IdealRules.named_const.ideal_named_scalar _ _ _ _ rfl

theorem clamp_le_one : ((1 / 1000000000000000000000000000000 : ℝ) : EReal) ≤ 1 := by
  rw [← EReal.coe_one]
  exact EReal.coe_le_coe_iff.mpr (by norm_num)

abbrev classCol (tg : Vec Ideal S512x1 .i32) : IVec S512x1 32 :=
  select (andi (cmpi .sge (shapeCast S512x1 tg shapeCasts_S512x1_S512x1) (broadcast S512x1 10000#32))
      (cmpi .slt (shapeCast S512x1 tg shapeCasts_S512x1_S512x1) (broadcast S512x1 50257#32))) (broadcast S512x1 2001#32)
    (select (andi (cmpi .sge (shapeCast S512x1 tg shapeCasts_S512x1_S512x1) (broadcast S512x1 2000#32))
        (cmpi .slt (shapeCast S512x1 tg shapeCasts_S512x1_S512x1) (broadcast S512x1 10000#32))) (broadcast S512x1 2000#32)
      (shapeCast S512x1 tg shapeCasts_S512x1_S512x1))

theorem classCol_apply (tg : Vec Ideal S512x1 .i32) (p : Fin 512)
    (h0 : 0 ≤ (tg (ix2 p 0)).toInt) (h1 : (tg (ix2 p 0)).toInt < 50257) :
    classCol tg (ix2 p 0) = BitVec.ofNat 32 (headClass (tg (ix2 p 0)).toInt) := by
  unfold classCol
  rw [shapeCast_self]
  exact class_word _ h0 h1

abbrev maxCol (sc : FVec Ideal S512x2002 .f32) : FVec Ideal S512x1 .f32 :=
  shapeCast S512x1 (multiReduction .maximumf [1] S512 sc 0xFF800000#32 reduces_S512x2002_S512 (.inl rfl) rfl) shapeCasts_S512_S512x1

theorem maxCol_apply (sc : FVec Ideal S512x2002 .f32) (p : Fin 512) (s : Fin 2002 → EReal) (hs : ∀ c, sc (ix2 p c) = s c) :
    maxCol sc (ix2 p 0) = Cert.Spec.rowMax s := by
  refine (col_cast_apply _ _ p 0).trans ?_
  rw [row_max_apply, show (fun c : Fin 2002 => sc (ix2 p c)) = s from funext hs]

theorem onehot_half (sc : FVec Ideal S512x2002 .f32) (cw : IVec S512x1 32) (p : Fin 512) (s : Fin 2002 → EReal)
    (hs : ∀ c, sc (ix2 p c) = s c) (k : ℕ) (hk : k < 2 ^ 32) (hcw : cw (ix2 p 0) = BitVec.ofNat 32 k) :
    shapeCast S512x1 (multiReduction .add [1] S512
        (select (cmpi .eq (iota .tc S512x2002 32 [1] iota_S512x2002_d1_w32) (broadcastTo S512x2002 cw broadcasts_S512x1_S512x2002))
          sc (broadcast S512x2002 (Scalar.ofBits (F := Ideal) .f32 0x00000000#32)))
        0x00000000#32 reduces_S512x2002_S512 (.inl rfl) rfl) shapeCasts_S512_S512x1 (ix2 p 0)
      = Cert.Spec.pick s k := by
  refine (col_cast_apply _ _ p 0).trans ?_
  refine (row_sum_apply _ p).trans ?_
  rw [← Cert.Spec.pick_onehot]
  refine Finset.sum_congr rfl fun c _ => ?_
  have e1 : cmpi .eq (iota .tc S512x2002 32 [1] iota_S512x2002_d1_w32) (broadcastTo S512x2002 cw broadcasts_S512x1_S512x2002) (ix2 p c)
      = IntOp.cmpi .eq (BitVec.ofNat 32 c.val) (BitVec.ofNat 32 k) := by
    show IntOp.cmpi .eq (iota .tc S512x2002 32 [1] iota_S512x2002_d1_w32 (ix2 p c)) (broadcastTo S512x2002 cw broadcasts_S512x1_S512x2002 (ix2 p c)) = _
    rw [iota_single_apply, col_bcast_apply, hcw]
  refine (select_apply _ _ _ _).trans ?_
  rw [e1, select_eq_word _ _ (by have := c.isLt; omega) hk, hs c]
  show (if c.val = k then s c else Ideal.ofBits .f32 0x00000000#32) = _
  rw [Ideal.ofBits_zero_f32]

theorem lse_half (sc : FVec Ideal S512x2002 .f32) (p : Fin 512) (s : Fin 2002 → EReal) (hs : ∀ c, sc (ix2 p c) = s c) (κ₀ : Ideal .f32) :
    addf (maxCol sc)
      (log (maximumf
        (shapeCast S512x1 (multiReduction .add [1] S512 (exp (subf sc (broadcastTo S512x2002 (maxCol sc) broadcasts_S512x1_S512x2002)))
          0x00000000#32 reduces_S512x2002_S512 (.inl rfl) rfl) shapeCasts_S512_S512x1)
        (broadcast S512x1 κ₀))) (ix2 p 0)
      = Cert.Spec.rowMax s + Ideal.log (max (Cert.Spec.expSum s) κ₀) := by
  refine (addf_apply _ _ _).trans ?_
  refine congrArg₂ (· + ·) (maxCol_apply sc p s hs) ?_
  show Ideal.log (max (shapeCast S512x1 (multiReduction .add [1] S512 (exp (subf sc (broadcastTo S512x2002 (maxCol sc) broadcasts_S512x1_S512x2002)))
          0x00000000#32 reduces_S512x2002_S512 (.inl rfl) rfl) shapeCasts_S512_S512x1 (ix2 p 0)) κ₀) = _
  refine congrArg (fun z => Ideal.log (max z κ₀)) ?_
  refine (col_cast_apply _ _ p 0).trans ?_
  refine (row_sum_apply _ p).trans ?_
  unfold Cert.Spec.expSum
  refine Finset.sum_congr rfl fun c _ => ?_
  show Ideal.exp (sc (ix2 p c) - broadcastTo S512x2002 (maxCol sc) broadcasts_S512x1_S512x2002 (ix2 p c)) = _
  rw [col_bcast_apply, maxCol_apply sc p s hs, hs c]

theorem head_apply (x : Vec Ideal S512x1024 .f32) (w : Vec Ideal S2002x1024 .bf16) (tg : Vec Ideal S512x1 .i32) (p : Fin 512)
    (hx : ∀ k, ∃ r : ℝ, x (ix2 p k) = r) (hw : ∀ c k, ∃ r : ℝ, w (ix2 c k) = r)
    (h0 : 0 ≤ (tg (ix2 p 0)).toInt) (h1 : (tg (ix2 p 0)).toInt < 50257) :
    k0_pay4 x w tg (ix2 p 0)
      = Cert.Spec.headTermOf (fun c : Fin 2002 => ∑ k : Fin 1024, x (ix2 p k) * w (ix2 c k)) ((tg (ix2 p 0)).toInt) := by
  have hs : ∀ c : Fin 2002, ∃ r : ℝ, (∑ k : Fin 1024, x (ix2 p k) * w (ix2 c k)) = r := by
    intro c
    choose xr hxr using hx
    choose wr hwr using hw c
    refine ⟨∑ k : Fin 1024, xr k * wr k, ?_⟩
    rw [Cert.Spec.sm_coe_finsum]
    refine Finset.sum_congr rfl fun k _ => ?_
    rw [hxr k, hwr k, EReal.coe_mul]
  have hcl := headClass_lt _ h1
  unfold k0_pay4
  refine (subf_apply _ _ (ix2 p 0)).trans ?_
  refine (congrArg₂ (· - ·)
    (onehot_half (scoreBlk x w) (classCol tg) p _ (scoreBlk_apply x w p) (headClass (tg (ix2 p 0)).toInt) (by omega)
      (classCol_apply tg p h0 h1))
    (lse_half (scoreBlk x w) p _ (scoreBlk_apply x w p) _)).trans ?_
  rw [clamp_val, headTermOf_eq]
  unfold Cert.Spec.pick
  rw [dif_pos hcl, dif_pos hcl]
  exact Cert.Spec.logProb_of_clamped (by decide) _ hs _ clamp_le_one _ (hs _)

end Cert.KernelIdeal.HeadValue

end
-- ==== Proof.HeadArrays.lean ====
import proofs.«419215_j38122129719724_3_alg».proof.Proof.R0Defs
import proofs.«419215_j38122129719724_3_alg».proof.Proof.HeadValue
import Idealize.ShloMosaic.Lib.Pipeline.Value
import Idealize.ShloMosaic.Lib.ValueIdx

noncomputable section

namespace Cert.KernelIdeal.HeadArrays

open Cert.KernelIdeal Cert.KernelIdeal.Gen Cert.KernelIdeal.R0
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev xArr (c : Dev nD) : Vec Ideal S4096x1024 .f32 := V c main_arg0
abbrev wArr (c : Dev nD) : Vec Ideal S2002x1024 .bf16 := V c main_v1
abbrev l0Arr (c : Dev nD) : Vec Ideal S1024x256 .bf16 := V c main_v2
abbrev l1Arr (c : Dev nD) : Vec Ideal S1024x64 .bf16 := V c main_v3
abbrev tgArr (c : Dev nD) : Vec Ideal S4096x1 .i32 := V c main_v0

abbrev xBlk (c : Dev nD) (t : Fin cfg0.N) : Vec Ideal S512x1024 .f32 := iblk V c 0 t
abbrev wBlk (c : Dev nD) (t : Fin cfg0.N) : Vec Ideal S2002x1024 .bf16 := iblk V c 1 t
abbrev l0Blk (c : Dev nD) (t : Fin cfg0.N) : Vec Ideal S1024x256 .bf16 := iblk V c 2 t
abbrev l1Blk (c : Dev nD) (t : Fin cfg0.N) : Vec Ideal S1024x64 .bf16 := iblk V c 3 t
abbrev tgBlk (c : Dev nD) (t : Fin cfg0.N) : Vec Ideal S512x1 .i32 := iblk V c 4 t

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem xBlk_apply (c : Dev nD) (t : Fin cfg0.N) (p : Fin 512) (k : Fin 1024) (r : Fin 4096) (k' : Fin 1024)
    (hr : r.val = 512 * t.val + p.val) (hk : k'.val = k.val) :
    xBlk V c t (ix2 p k) = xArr V c (ix2 r k') := by
  obtain ⟨e0, e1, -⟩ := idx_facts t
  unfold xBlk iblk
  rw [View.read_apply]
  show V c main_arg0 _ = V c main_arg0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k'.val; rw [e1, hk]; omega

theorem wBlk_apply (c : Dev nD) (t : Fin cfg0.N) (q : Fin 2002) (k : Fin 1024) (k' : Fin 1024) (hk : k'.val = k.val) :
    wBlk V c t (ix2 q k) = wArr V c (ix2 q k') := by
  obtain ⟨-, -, e0, e1, -⟩ := idx_facts t
  unfold wBlk iblk
  rw [View.read_apply]
  show V c main_v1 _ = V c main_v1 _
  congr 1
  funext a
  apply Fin.ext
  match a with
  | ⟨0, _⟩ => show win0_1.index t (0 : Fin 2) * 2002 + 1 * q.val = q.val; rw [e0]; omega
  | ⟨1, _⟩ => show win0_1.index t (1 : Fin 2) * 1024 + 1 * k.val = k'.val; rw [e1, hk]; omega

theorem l0Blk_apply (c : Dev nD) (t : Fin cfg0.N) (k : Fin 1024) (d : Fin 256) (k' : Fin 1024) (d' : Fin 256)
    (hk : k'.val = k.val) (hd : d'.val = d.val) :
    l0Blk V c t (ix2 k d) = l0Arr V c (ix2 k' d') := by
  obtain ⟨-, -, -, -, e0, e1, -⟩ := idx_facts t
  unfold l0Blk iblk
  rw [View.read_apply]
  show V c main_v2 _ = V c main_v2 _
  congr 1
  funext a
  apply Fin.ext
  match a with
  | ⟨0, _⟩ => show win0_2.index t (0 : Fin 2) * 1024 + 1 * k.val = k'.val; rw [e0, hk]; omega
  | ⟨1, _⟩ => show win0_2.index t (1 : Fin 2) * 256 + 1 * d.val = d'.val; rw [e1, hd]; omega

theorem l1Blk_apply (c : Dev nD) (t : Fin cfg0.N) (k : Fin 1024) (d : Fin 64) (k' : Fin 1024) (d' : Fin 64)
    (hk : k'.val = k.val) (hd : d'.val = d.val) :
    l1Blk V c t (ix2 k d) = l1Arr V c (ix2 k' d') := by
  obtain ⟨-, -, -, -, -, -, e0, e1, -⟩ := idx_facts t
  unfold l1Blk iblk
  rw [View.read_apply]
  show V c main_v3 _ = V c main_v3 _
  congr 1
  funext a
  apply Fin.ext
  match a with
  | ⟨0, _⟩ => show win0_3.index t (0 : Fin 2) * 1024 + 1 * k.val = k'.val; rw [e0, hk]; omega
  | ⟨1, _⟩ => show win0_3.index t (1 : Fin 2) * 64 + 1 * d.val = d'.val; rw [e1, hd]; omega

theorem tgBlk_apply (c : Dev nD) (t : Fin cfg0.N) (p : Fin 512) (r : Fin 4096) (hr : r.val = 512 * t.val + p.val) :
    tgBlk V c t (ix2 p 0) = tgArr V c (ix2 r 0) := by
  obtain ⟨-, -, -, -, -, -, -, -, e0, e1, -⟩ := idx_facts t
  unfold tgBlk iblk
  rw [View.read_apply]
  show V c main_v0 _ = V c main_v0 _
  congr 1
  funext a
  apply Fin.ext
  match a with
  | ⟨0, _⟩ => show win0_4.index t (0 : Fin 2) * 512 + 1 * p.val = r.val; rw [e0, hr]; omega
  | ⟨1, _⟩ => show win0_4.index t (1 : Fin 2) * 1 + 1 * 0 = 0; rw [e1]

abbrev headScores (c : Dev nD) (r : Fin 4096) : Fin 2002 → EReal :=
  fun q => ∑ k : Fin 1024, xArr V c (ix2 r k) * wArr V c (ix2 q k)

def headArr (c : Dev nD) : Vec Ideal S4096x1 .f32 :=
  fun i => Cert.Spec.headTermOf (headScores V c (i 0)) (tgArr V c (ix2 (i 0) 0)).toInt

def proj0Arr (c : Dev nD) : Vec Ideal S4096x256 .bf16 :=
  fun i => ∑ k : Fin 1024, xArr V c (ix2 (i 0) k) * l0Arr V c (ix2 k (i 1))
def proj1Arr (c : Dev nD) : Vec Ideal S4096x64 .bf16 :=
  fun i => ∑ k : Fin 1024, xArr V c (ix2 (i 0) k) * l1Arr V c (ix2 k (i 1))

structure Ok (c : Dev nD) : Prop where
  x : ∀ r k, ∃ a : ℝ, xArr V c (ix2 r k) = a
  w : ∀ q k, ∃ a : ℝ, wArr V c (ix2 q k) = a
  t : ∀ r, 0 ≤ (tgArr V c (ix2 r 0)).toInt ∧ (tgArr V c (ix2 r 0)).toInt < 50257

theorem flushed6_eq (c : Dev nD) (t : Fin cfg0.N) :
    (dat (F := Ideal) V c).flushed 6 t = ((cfg0.win 6).blk t).view.read (Elt Ideal) (proj0Arr V c) := by
  show (cfg0.win 6).cut (grid0.coords t) ((dat (F := Ideal) V c).after 6 t) = _
  rw [after6]
  refine funext fun (j : S512x256.Idx) => ?_
  rw [View.read_apply]
  show k0_pay1 (k0_pay3 (xBlk V c t)) (l0Blk V c t) j = proj0Arr V c (((cfg0.win 6).blk t).view.emb j)
  obtain ⟨p, d, rfl⟩ : ∃ (p : Fin 512) (d : Fin 256), j = ix2 p d := ⟨j 0, j 1, eq_ix2 j⟩
  obtain ⟨-, -, -, -, -, -, -, -, -, -, -, -, e0, e1, -⟩ := idx_facts t
  refine (HeadValue.projA_apply (xBlk V c t) (l0Blk V c t) p d).trans ?_
  unfold proj0Arr
  refine Finset.sum_congr rfl fun k _ => ?_
  rw [xBlk_apply V c t p k ((((cfg0.win 6).blk t).view.emb (ix2 p d)) 0) k
      (by show win0_6.index t (0 : Fin 2) * 512 + 1 * p.val = _; rw [e0]; omega) rfl,
    l0Blk_apply V c t k d k ((((cfg0.win 6).blk t).view.emb (ix2 p d)) 1) rfl
      (by show win0_6.index t (1 : Fin 2) * 256 + 1 * d.val = _; rw [e1]; omega)]

theorem flushed7_eq (c : Dev nD) (t : Fin cfg0.N) :
    (dat (F := Ideal) V c).flushed 7 t = ((cfg0.win 7).blk t).view.read (Elt Ideal) (proj1Arr V c) := by
  show (cfg0.win 7).cut (grid0.coords t) ((dat (F := Ideal) V c).after 7 t) = _
  rw [after7]
  refine funext fun (j : S512x64.Idx) => ?_
  rw [View.read_apply]
  show k0_pay2 (k0_pay3 (xBlk V c t)) (l1Blk V c t) j = proj1Arr V c (((cfg0.win 7).blk t).view.emb j)
  obtain ⟨p, d, rfl⟩ : ∃ (p : Fin 512) (d : Fin 64), j = ix2 p d := ⟨j 0, j 1, eq_ix2 j⟩
  obtain ⟨-, -, -, -, -, -, -, -, -, -, -, -, -, -, e0, e1⟩ := idx_facts t
  refine (HeadValue.projB_apply (xBlk V c t) (l1Blk V c t) p d).trans ?_
  unfold proj1Arr
  refine Finset.sum_congr rfl fun k _ => ?_
  rw [xBlk_apply V c t p k ((((cfg0.win 7).blk t).view.emb (ix2 p d)) 0) k
      (by show win0_7.index t (0 : Fin 2) * 512 + 1 * p.val = _; rw [e0]; omega) rfl,
    l1Blk_apply V c t k d k ((((cfg0.win 7).blk t).view.emb (ix2 p d)) 1) rfl
      (by show win0_7.index t (1 : Fin 2) * 64 + 1 * d.val = _; rw [e1]; omega)]

theorem flushed5_eq (c : Dev nD) (hok : Ok V c) (t : Fin cfg0.N) :
    (dat (F := Ideal) V c).flushed 5 t = ((cfg0.win 5).blk t).view.read (Elt Ideal) (headArr V c) := by
  show (cfg0.win 5).cut (grid0.coords t) ((dat (F := Ideal) V c).after 5 t) = _
  rw [after5]
  refine funext fun (j : S512x1.Idx) => ?_
  rw [View.read_apply]
  show k0_pay4 (xBlk V c t) (wBlk V c t) (tgBlk V c t) j = headArr V c (((cfg0.win 5).blk t).view.emb j)
  obtain ⟨p, z, rfl⟩ : ∃ (p : Fin 512) (z : Fin 1), j = ix2 p z := ⟨j 0, j 1, eq_ix2 j⟩
  obtain rfl : z = 0 := Fin.ext (by omega)
  obtain ⟨-, -, -, -, -, -, -, -, -, -, e0, e1, -⟩ := idx_facts t
  have hr : ((((cfg0.win 5).blk t).view.emb (ix2 p (0 : Fin 1))) 0).val = 512 * t.val + p.val := by
    show win0_5.index t (0 : Fin 2) * 512 + 1 * p.val = _; rw [e0]; omega
  have hxb : ∀ k : Fin 1024, xBlk V c t (ix2 p k) = xArr V c (ix2 ((((cfg0.win 5).blk t).view.emb (ix2 p (0 : Fin 1))) 0) k) :=
    fun k => xBlk_apply V c t p k _ k hr rfl
  have hwb : ∀ (q : Fin 2002) (k : Fin 1024), wBlk V c t (ix2 q k) = wArr V c (ix2 q k) :=
    fun q k => wBlk_apply V c t q k k rfl
  have htb : tgBlk V c t (ix2 p 0) = tgArr V c (ix2 ((((cfg0.win 5).blk t).view.emb (ix2 p (0 : Fin 1))) 0) 0) :=
    tgBlk_apply V c t p _ hr
  refine (HeadValue.head_apply (xBlk V c t) (wBlk V c t) (tgBlk V c t) p
    (fun k => by rw [hxb k]; exact hok.x _ k) (fun q k => by rw [hwb q k]; exact hok.w q k)
    (by rw [htb]; exact (hok.t _).1) (by rw [htb]; exact (hok.t _).2)).trans ?_
  unfold headArr headScores
  rw [htb]
  refine congrArg (fun s => Cert.Spec.headTermOf s _) (funext fun q => Finset.sum_congr rfl fun k _ => ?_)
  rw [hxb k, hwb q k]

theorem mem_blk5 (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v9_0).slice (win0_5.rect t)).set ↔ _
  rw [View.set_slice_whole, Rect.mem_set_unit]
  exact Iff.rfl

theorem mem_blk6 (t : Fin cfg0.N) (i : S4096x256.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v9_1).slice (win0_6.rect t)).set ↔ _
  rw [View.set_slice_whole, Rect.mem_set_unit]
  exact Iff.rfl

theorem mem_blk7 (t : Fin cfg0.N) (i : S4096x64.Idx) :
    i ∈ ((cfg0.win 7).blk t).view.set ↔ ∀ a : Fin 2, win0_7.index t a * S512x64.size a ≤ (i a).val ∧ (i a).val < win0_7.index t a * S512x64.size a + S512x64.size a := by
  show i ∈ ((View.whole main_v9_2).slice (win0_7.rect t)).set ↔ _
  rw [View.set_slice_whole, Rect.mem_set_unit]
  exact Iff.rfl

def pointOf (r : Fin 4096) : Fin cfg0.N := ⟨r.val / 512, by rw [show cfg0.N = 8 from N_0]; omega⟩

theorem pointOf_val (r : Fin 4096) : (pointOf r).val = r.val / 512 := rfl

theorem cover5 (i : S4096x1.Idx) : ∃ t : Fin cfg0.N, (cfg0.win 5).flush t = true ∧ i ∈ ((cfg0.win 5).blk t).view.set := by
  have hi1 : (i 1).val < 1 := (i 1).isLt
  have ht := pointOf_val (i 0)
  obtain ⟨-, -, -, -, -, -, -, -, -, -, e0, e1, -⟩ := idx_facts (pointOf (i 0))
  refine ⟨pointOf (i 0), flush0_5 _, ?_⟩
  rw [mem_blk5]
  intro a
  match a with
  | ⟨0, _⟩ =>
    show win0_5.index (pointOf (i 0)) (0 : Fin 2) * 512 ≤ (i 0).val ∧ (i 0).val < win0_5.index (pointOf (i 0)) (0 : Fin 2) * 512 + 512
    rw [e0, ht]; omega
  | ⟨1, _⟩ =>
    show win0_5.index (pointOf (i 0)) (1 : Fin 2) * 1 ≤ (i 1).val ∧ (i 1).val < win0_5.index (pointOf (i 0)) (1 : Fin 2) * 1 + 1
    rw [e1]; omega

theorem cover6 (i : S4096x256.Idx) : ∃ t : Fin cfg0.N, (cfg0.win 6).flush t = true ∧ i ∈ ((cfg0.win 6).blk t).view.set := by
  have hi1 : (i 1).val < 256 := (i 1).isLt
  have ht := pointOf_val (i 0)
  obtain ⟨-, -, -, -, -, -, -, -, -, -, -, -, e0, e1, -⟩ := idx_facts (pointOf (i 0))
  refine ⟨pointOf (i 0), flush0_6 _, ?_⟩
  rw [mem_blk6]
  intro a
  match a with
  | ⟨0, _⟩ =>
    show win0_6.index (pointOf (i 0)) (0 : Fin 2) * 512 ≤ (i 0).val ∧ (i 0).val < win0_6.index (pointOf (i 0)) (0 : Fin 2) * 512 + 512
    rw [e0, ht]; omega
  | ⟨1, _⟩ =>
    show win0_6.index (pointOf (i 0)) (1 : Fin 2) * 256 ≤ (i 1).val ∧ (i 1).val < win0_6.index (pointOf (i 0)) (1 : Fin 2) * 256 + 256
    rw [e1]; omega

theorem cover7 (i : S4096x64.Idx) : ∃ t : Fin cfg0.N, (cfg0.win 7).flush t = true ∧ i ∈ ((cfg0.win 7).blk t).view.set := by
  have hi1 : (i 1).val < 64 := (i 1).isLt
  have ht := pointOf_val (i 0)
  obtain ⟨-, -, -, -, -, -, -, -, -, -, -, -, -, -, e0, e1⟩ := idx_facts (pointOf (i 0))
  refine ⟨pointOf (i 0), flush0_7 _, ?_⟩
  rw [mem_blk7]
  intro a
  match a with
  | ⟨0, _⟩ =>
    show win0_7.index (pointOf (i 0)) (0 : Fin 2) * 512 ≤ (i 0).val ∧ (i 0).val < win0_7.index (pointOf (i 0)) (0 : Fin 2) * 512 + 512
    rw [e0, ht]; omega
  | ⟨1, _⟩ =>
    show win0_7.index (pointOf (i 0)) (1 : Fin 2) * 64 ≤ (i 1).val ∧ (i 1).val < win0_7.index (pointOf (i 0)) (1 : Fin 2) * 64 + 64
    rw [e1]; omega

theorem arr5_eq (c : Dev nD) (hok : Ok V c) : (dat (F := Ideal) V c).arrAt 5 cfg0.N = headArr V c :=
  (dat (F := Ideal) V c).arrAt_eq_of_cover 5 (headArr V c) (fun t _ => flushed5_eq V c hok t) cover5

theorem arr6_eq (c : Dev nD) : (dat (F := Ideal) V c).arrAt 6 cfg0.N = proj0Arr V c :=
  (dat (F := Ideal) V c).arrAt_eq_of_cover 6 (proj0Arr V c) (fun t _ => flushed6_eq V c t) cover6

theorem arr7_eq (c : Dev nD) : (dat (F := Ideal) V c).arrAt 7 cfg0.N = proj1Arr V c :=
  (dat (F := Ideal) V c).arrAt_eq_of_cover 7 (proj1Arr V c) (fun t _ => flushed7_eq V c t) cover7

theorem arr5_apply (c : Dev nD) (hok : Ok V c) (r : Fin 4096) :
    ((dat (F := Ideal) V c).arrAt 5 cfg0.N : Vec Ideal S4096x1 .f32) (ix2 r 0)
      = Cert.Spec.headTermOf (fun q : Fin 2002 => ∑ k : Fin 1024, xArr V c (ix2 r k) * wArr V c (ix2 q k)) (tgArr V c (ix2 r 0)).toInt := by
  rw [arr5_eq V c hok]
  rfl

theorem arr6_apply (c : Dev nD) (r : Fin 4096) (d : Fin 256) :
    ((dat (F := Ideal) V c).arrAt 6 cfg0.N : Vec Ideal S4096x256 .bf16) (ix2 r d) = ∑ k : Fin 1024, xArr V c (ix2 r k) * l0Arr V c (ix2 k d) := by
  rw [arr6_eq V c]
  rfl

theorem arr7_apply (c : Dev nD) (r : Fin 4096) (d : Fin 64) :
    ((dat (F := Ideal) V c).arrAt 7 cfg0.N : Vec Ideal S4096x64 .bf16) (ix2 r d) = ∑ k : Fin 1024, xArr V c (ix2 r k) * l1Arr V c (ix2 k d) := by
  rw [arr7_eq V c]
  rfl

end Cert.KernelIdeal.HeadArrays

end
-- ==== Proof.Tail1Step.lean ====
import proofs.«419215_j38122129719724_3_alg».proof.Proof.Gen.KernelIdeal.Skeleton
import proofs.«419215_j38122129719724_3_alg».proof.Proof.R1Defs
import proofs.«419215_j38122129719724_3_alg».proof.Proof.Spec
import proofs.«419215_j38122129719724_3_alg».proof.Proof.SpecArgs
import Idealize.ShloMosaic.Lib.Pipeline.Value
import Idealize.ShloMosaic.Lib.ValueIdx
import Idealize.ShloMosaic.Lib.ValueLayout
import Idealize.ShloMosaic.Lib.WordArith
import Idealize.ShloMosaic.PureOps.Ideal.Laws

noncomputable section

namespace Cert.KernelIdeal.R1

open Cert.KernelIdeal Cert.KernelIdeal.Gen
open Idealize.ShloMosaic Idealize.ShloMosaic.ValueIdx

theorem dotL0 (j : S512x4096.Idx) (k : dot_S512x256_S4096x256_S512x4096_1_1_0_0_n_n.contr.Idx) :
    (dot_S512x256_S4096x256_S512x4096_1_1_0_0_n_n.lhsIdx j k 0).val = (j 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl

theorem dotL1 (j : S512x4096.Idx) (k : dot_S512x256_S4096x256_S512x4096_1_1_0_0_n_n.contr.Idx) :
    (dot_S512x256_S4096x256_S512x4096_1_1_0_0_n_n.lhsIdx j k 1).val = (k ⟨0, by decide⟩).val :=
  dot_S512x256_S4096x256_S512x4096_1_1_0_0_n_n.lhsIdx_val_of_single rfl j k

theorem dotR0 (j : S512x4096.Idx) (k : dot_S512x256_S4096x256_S512x4096_1_1_0_0_n_n.contr.Idx) :
    (dot_S512x256_S4096x256_S512x4096_1_1_0_0_n_n.rhsIdx j k 0).val = (j 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl

theorem dotR1 (j : S512x4096.Idx) (k : dot_S512x256_S4096x256_S512x4096_1_1_0_0_n_n.contr.Idx) :
    (dot_S512x256_S4096x256_S512x4096_1_1_0_0_n_n.rhsIdx j k 1).val = (k ⟨0, by decide⟩).val :=
  dot_S512x256_S4096x256_S512x4096_1_1_0_0_n_n.rhsIdx_val_of_single rfl j k

theorem pay11_apply (x : FVec Ideal S512x256 .bf16) (T : FVec Ideal S4096x256 .bf16) (p : Fin 512) (q : Fin 4096) :
    k1_pay11 (F := Ideal) x T (ix2 p q) = ∑ d : Fin 256, x (ix2 p d) * T (ix2 q d) := by
  unfold k1_pay11
  simp only [shapeCast_self]
  refine (Ideal.matmul_constant_zero_apply dot_S512x256_S4096x256_S512x4096_1_1_0_0_n_n none x T (ix2 p q)).trans ?_
  rw [← Equiv.sum_comp (ValueIdx.contrEquiv1 dot_S512x256_S4096x256_S512x4096_1_1_0_0_n_n 256 rfl rfl).symm]
  refine Finset.sum_congr rfl fun k _ => ?_
  have hk := ValueIdx.contrEquiv1_symm_val dot_S512x256_S4096x256_S512x4096_1_1_0_0_n_n 256 rfl rfl k
  have el : dot_S512x256_S4096x256_S512x4096_1_1_0_0_n_n.lhsIdx (ix2 p q) ((ValueIdx.contrEquiv1 dot_S512x256_S4096x256_S512x4096_1_1_0_0_n_n 256 rfl rfl).symm k) = ix2 p k := funext fun a => Fin.ext (by
    match a with
    | ⟨0, _⟩ => exact dotL0 _ _
    | ⟨1, _⟩ => exact (dotL1 _ _).trans hk)
  have er : dot_S512x256_S4096x256_S512x4096_1_1_0_0_n_n.rhsIdx (ix2 p q) ((ValueIdx.contrEquiv1 dot_S512x256_S4096x256_S512x4096_1_1_0_0_n_n 256 rfl rfl).symm k) = ix2 q k := funext fun a => Fin.ext (by
    match a with
    | ⟨0, _⟩ => exact dotR0 _ _
    | ⟨1, _⟩ => exact (dotR1 _ _).trans hk)
  rw [el, er]

theorem colOfVec_apply {α : Type} (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_two, Shape.rowMajor_val_one]
    show p.val = p.val * 1 + u.val
    omega)

theorem spreadCol_apply {α : Type} (v : S512x1.Idx → α) (h : S512x1.Broadcasts S512x4096) (p : Fin 512) (q : Fin 4096) :
    broadcastTo S512x4096 v h (ix2 p q) = v (ix2 p 0) := by
  refine broadcastTo_apply v h (ix2 p q) (ix2 p (0 : Fin 1)) fun ax => ?_
  match ax with
  | ⟨0, _⟩ => rfl
  | ⟨1, _⟩ => rfl

theorem lane_lift (p : Fin 512) (q : Fin 4096) : reduces_S512x4096_S512.lift (ix1 p) q = ix2 p q := by
  funext c
  apply Fin.ext
  show Shape.Reduces.liftVal reduces_S512x4096_S512 (ix1 p) q.val c = (ix2 p q c).val
  unfold Shape.Reduces.liftVal
  match c with
  | ⟨0, _⟩ => rfl
  | ⟨1, _⟩ => rfl

theorem negInf_f32 : FloatOps.ofBits (F := Ideal) .f32 0xFF800000#32 = (⊥ : EReal) := by
  simp [Ideal.ofBits, Ideal.ieee]

theorem laneMax_apply (src : FVec Ideal S512x4096 .f32) (hφ : FKind.Formats .f32)
    (hacc : (0xFF800000#32 : BitVec 32) = FKind.maximumf.neutral .f32 hφ) (p : Fin 512) :
    multiReduction (F := Ideal) .maximumf [1] S512 src 0xFF800000#32 reduces_S512x4096_S512 hφ hacc (ix1 p)
      = (Finset.univ : Finset (Fin 4096)).fold max ⊥ (fun q => src (ix2 p q)) := by
  refine (Ideal.multiReduction_maximumf_single src 0xFF800000#32 reduces_S512x4096_S512 hφ hacc (ix1 p)).trans ?_
  show (Finset.univ : Finset (Fin 4096)).fold max (FloatOps.ofBits (F := Ideal) .f32 0xFF800000#32) (src ∘ reduces_S512x4096_S512.lift (ix1 p)) = _
  rw [negInf_f32]
  have e : (src ∘ reduces_S512x4096_S512.lift (ix1 p) : Fin 4096 → EReal) = fun q => src (ix2 p q) :=
    funext fun q => congrArg src (lane_lift p q)
  exact congrArg (fun f : Fin 4096 → EReal => (Finset.univ : Finset (Fin 4096)).fold max ⊥ f) e

theorem laneSum_apply (src : FVec Ideal S512x4096 .f32) (hφ : FKind.Formats .f32)
    (hacc : (0x00000000#32 : BitVec 32) = FKind.add.neutral .f32 hφ) (p : Fin 512) :
    multiReduction (F := Ideal) .add [1] S512 src 0x00000000#32 reduces_S512x4096_S512 hφ hacc (ix1 p)
      = ∑ q : Fin 4096, src (ix2 p q) := by
  refine (Ideal.multiReduction_add_single src 0x00000000#32 reduces_S512x4096_S512 hφ hacc (ix1 p)).trans ?_
  show ∑ q : Fin 4096, src (reduces_S512x4096_S512.lift (ix1 p) q) = _
  exact Finset.sum_congr rfl fun q _ => congrArg src (lane_lift p q)

theorem gridFacts : ∀ i : grid1.Coords, (k1_off1 i 0 = 4096 * (i 1).val ∧ k1_off1 i 1 = 0)
    ∧ Scalar.muli (BitVec.ofNat 32 (i 1).val) 4096#32 = BitVec.ofNat 32 (4096 * (i 1).val) := by decide +kernel

def cls (i : grid1.Coords) (q : Fin 4096) : ℕ := 4096 * (i 1).val + q.val

theorem cls_lt (i : grid1.Coords) (q : Fin 4096) : cls i q < 8192 := by
  unfold cls
  have h1 : (i 1).val < 2 := (i 1).isLt
  have h2 := q.isLt
  omega

theorem tile_apply (i : grid1.Coords) (E : FVec Ideal S8192x256 .bf16) (q : Fin 4096) (d : Fin 256) :
    tile (F := Ideal) i E (ix2 q d) = E (ix2 ⟨cls i q, cls_lt i q⟩ d) := by
  unfold tile
  show E ((Rect.unit (s := S8192x256) (k1_off1 i) S4096x256.size (Gen.k1_off1_inb i)).idx (ix2 q d)) = _
  refine congrArg E (funext fun a => Fin.ext ?_)
  match a with
  | ⟨0, _⟩ =>
    show k1_off1 i 0 + 1 * q.val = 4096 * (i 1).val + q.val
    rw [(gridFacts i).1.1]; omega
  | ⟨1, _⟩ =>
    show k1_off1 i 1 + 1 * d.val = d.val
    rw [(gridFacts i).1.2]; omega

theorem select_of_iff {α : Type} (c : BitVec 1) (P : Prop) [Decidable P] (h : c = 1 ↔ P) (a b : α) :
    Scalar.select c a b = if P then a else b := by
  unfold Scalar.select
  exact if_congr h rfl rfl

theorem pay12_apply (i : grid1.Coords) (p : Fin 512) (q : Fin 4096) :
    k1_pay12 i (ix2 p q) = BitVec.ofNat 32 (cls i q) := by
  unfold k1_pay12
  show IntOp.addi (Scalar.muli (BitVec.ofNat 32 (i 1).val) 4096#32) (iota .tc S512x4096 32 [1] iota_S512x4096_d1_w32 (ix2 p q)) = _
  rw [iota_single_apply, (gridFacts i).2]
  show BitVec.ofNat 32 (4096 * (i 1).val) + BitVec.ofNat 32 q.val = BitVec.ofNat 32 (4096 * (i 1).val + q.val)
  rw [BitVec.ofNat_add]

theorem toNat_clsWord (i : grid1.Coords) (q : Fin 4096) : (BitVec.ofNat 32 (cls i q)).toNat = cls i q := by
  have := cls_lt i q
  exact WordArith.toNat_ofNat_of_lt _ (by omega)

theorem pay13_iff (i : grid1.Coords) (p : Fin 512) (q : Fin 4096) :
    k1_pay13 i (ix2 p q) = 1 ↔ cls i q < 8000 := by
  unfold k1_pay13
  show IntOp.cmpi .slt (k1_pay12 i (ix2 p q)) 8000#32 = 1 ↔ _
  rw [pay12_apply]
  show BitVec.ofBool ((BitVec.ofNat 32 (cls i q)).slt 8000#32) = 1 ↔ _
  rw [WordArith.ofBool_eq_numeral_one_iff, BitVec.slt_iff_toInt_lt, WordArith.toInt_ofNat_small _ (by have := cls_lt i q; omega)]
  have e : (8000#32 : BitVec 32).toInt = 8000 := by decide
  rw [e]
  omega

def relWord (tg : Vec Ideal S512x1 .i32) (p : Fin 512) : BitVec 32 :=
  IntOp.minsi 7999#32 (IntOp.maxsi 0#32 (IntOp.subi (tg (ix2 p 0)) 2000#32))

theorem pay10_apply (tg : Vec Ideal S512x1 .i32) (p : Fin 512) : k1_pay10 (F := Ideal) tg (ix2 p 0) = relWord tg p := by
  unfold k1_pay10 k1_pay8
  simp only [shapeCast_self]
  rfl

theorem pay9_iff (tg : Vec Ideal S512x1 .i32) (p : Fin 512) :
    k1_pay9 (F := Ideal) tg (ix2 p 0) = 1 ↔ 2000 ≤ (tg (ix2 p 0)).toInt ∧ (tg (ix2 p 0)).toInt < 10000 := by
  unfold k1_pay9 k1_pay8
  simp only [shapeCast_self]
  show IntOp.andi (IntOp.cmpi .sge (tg (ix2 p 0)) 2000#32) (IntOp.cmpi .slt (tg (ix2 p 0)) 10000#32) = 1 ↔ _
  show IntOp.andi (BitVec.ofBool ((2000#32 : BitVec 32).sle (tg (ix2 p 0)))) (BitVec.ofBool ((tg (ix2 p 0)).slt 10000#32)) = 1 ↔ _
  rw [WordArith.andi_ofBool, WordArith.ofBool_eq_numeral_one_iff, Bool.and_eq_true, BitVec.sle_iff_toInt_le, BitVec.slt_iff_toInt_lt]
  have e1 : (2000#32 : BitVec 32).toInt = 2000 := by decide
  have e2 : (10000#32 : BitVec 32).toInt = 10000 := by decide
  rw [e1, e2]

theorem negBig : Named.named (F := Ideal) Cert.KernelIdeal.κ "neg_big" (φ := .f32) 0xF149F2CA#32 = (⊥ : EReal) :=
  IdealRules.named_const.ideal_named_scalar _ _ _ _ rfl

theorem tiny : Named.named (F := Ideal) Cert.KernelIdeal.κ "inv_1000000000000000000000000000000" (φ := .f32) 0x0DA24260#32
    = ((1 / 1000000000000000000000000000000 : ℝ) : EReal) :=
  IdealRules.named_const.ideal_named_scalar _ _ _ _ rfl

theorem pay14_apply (i : grid1.Coords) (x : FVec Ideal S512x256 .bf16) (T : FVec Ideal S4096x256 .bf16) (p : Fin 512) (q : Fin 4096) :
    k1_pay14 (F := Ideal) i x T (ix2 p q) = if cls i q < 8000 then ∑ d : Fin 256, x (ix2 p d) * T (ix2 q d) else ⊥ := by
  unfold k1_pay14
  show Scalar.select (k1_pay13 i (ix2 p q)) (k1_pay11 (F := Ideal) x T (ix2 p q)) (Named.named (F := Ideal) Cert.KernelIdeal.κ "neg_big" (φ := .f32) 0xF149F2CA#32) = _
  rw [select_of_iff _ _ (pay13_iff i p q), pay11_apply, negBig]

theorem pay15_apply (i : grid1.Coords) (x : FVec Ideal S512x256 .bf16) (T : FVec Ideal S4096x256 .bf16) (m : FVec Ideal S512x1 .f32) (p : Fin 512) :
    k1_pay15 (F := Ideal) i x T m (ix2 p 0)
      = max (m (ix2 p 0)) ((Finset.univ : Finset (Fin 4096)).fold max ⊥
          (fun q => if cls i q < 8000 then ∑ d : Fin 256, x (ix2 p d) * T (ix2 q d) else ⊥)) := by
  unfold k1_pay15
  refine (maximumf_apply _ _ _).trans (congrArg (max (m (ix2 p 0))) ?_)
  refine (colOfVec_apply _ _ p 0).trans ((laneMax_apply _ _ _ p).trans ?_)
  exact congrArg (fun f : Fin 4096 → EReal => (Finset.univ : Finset (Fin 4096)).fold max ⊥ f) (funext fun q => pay14_apply i x T p q)

theorem pay2_apply (v : FVec Ideal S512x1 .f32) (j : S512x1.Idx) : k1_pay2 (F := Ideal) v j = v j := by
  unfold k1_pay2
  rw [shapeCast_self]

theorem pay1_apply (v28 : IVec S512x4096 1) (v30 : FVec Ideal S512x4096 .f32) (v34 v35 v43 : FVec Ideal S512x1 .f32) (p : Fin 512) :
    k1_pay1 (F := Ideal) v28 v30 v34 v35 v43 (ix2 p 0)
      = Ideal.exp (v35 (ix2 p 0) - v34 (ix2 p 0)) * v43 (ix2 p 0)
        + ∑ q : Fin 4096, Scalar.select (v28 (ix2 p q)) (Ideal.exp (v30 (ix2 p q) - v34 (ix2 p 0))) 0 := by
  unfold k1_pay1
  rw [shapeCast_self]
  refine (addf_apply _ _ _).trans (congrArg₂ (· + ·) rfl ?_)
  refine (colOfVec_apply _ _ p 0).trans ((laneSum_apply _ _ _ p).trans ?_)
  refine Finset.sum_congr rfl fun q _ => ?_
  show Scalar.select (v28 (ix2 p q)) (Ideal.exp (v30 (ix2 p q) - broadcastTo S512x4096 v34 broadcasts_S512x1_S512x4096 (ix2 p q))) (Ideal.ofBits .f32 0x00000000#32) = _
  rw [spreadCol_apply, Ideal.ofBits_zero_f32]

theorem pay3_apply (v15 : IVec S512x1 32) (v23 : FVec Ideal S512x4096 .f32) (v26 : IVec S512x4096 32) (v28 : IVec S512x4096 1)
    (v61 : FVec Ideal S512x1 .f32) (p : Fin 512) :
    k1_pay3 (F := Ideal) v15 v23 v26 v28 v61 (ix2 p 0)
      = v61 (ix2 p 0) + ∑ q : Fin 4096,
          Scalar.select (IntOp.andi (v28 (ix2 p q)) (IntOp.cmpi .eq (v26 (ix2 p q)) (v15 (ix2 p 0)))) (v23 (ix2 p q)) 0 := by
  unfold k1_pay3
  rw [shapeCast_self]
  refine (addf_apply _ _ _).trans (congrArg₂ (· + ·) rfl ?_)
  refine (colOfVec_apply _ _ p 0).trans ((laneSum_apply _ _ _ p).trans ?_)
  refine Finset.sum_congr rfl fun q _ => ?_
  show Scalar.select (IntOp.andi (v28 (ix2 p q)) (IntOp.cmpi .eq (v26 (ix2 p q)) (broadcastTo S512x4096 v15 broadcasts_S512x1_S512x4096 (ix2 p q)))) (v23 (ix2 p q)) (Ideal.ofBits .f32 0x00000000#32) = _
  rw [spreadCol_apply, Ideal.ofBits_zero_f32]

theorem pay4_apply (v9 : IVec S512x1 1) (v69 v70 v75 : FVec Ideal S512x1 .f32) (p : Fin 512) :
    k1_pay4 (F := Ideal) v9 v69 v70 v75 (ix2 p 0)
      = Scalar.select (v9 (ix2 p 0))
          (v75 (ix2 p 0) - (v69 (ix2 p 0) + Ideal.log (max (v70 (ix2 p 0)) ((1 / 1000000000000000000000000000000 : ℝ) : EReal)))) 0 := by
  unfold k1_pay4
  show Scalar.select (v9 (ix2 p 0)) (v75 (ix2 p 0) - (v69 (ix2 p 0) + Ideal.log (max (v70 (ix2 p 0))
    (Named.named (F := Ideal) Cert.KernelIdeal.κ "inv_1000000000000000000000000000000" (φ := .f32) 0x0DA24260#32)))) (Ideal.ofBits .f32 0x00000000#32) = _
  rw [tiny, Ideal.ofBits_zero_f32]

theorem pay5_apply (j : S512x1.Idx) : k1_pay5 (F := Ideal) j = (⊥ : EReal) := by
  unfold k1_pay5
  rw [shapeCast_self]
  exact negBig

theorem pay6_apply (j : S512x1.Idx) : k1_pay6 (F := Ideal) j = (0 : EReal) := by
  unfold k1_pay6
  rw [shapeCast_self]
  exact Ideal.ofBits_zero_f32

theorem pay7_apply (j : S512x1.Idx) : k1_pay7 (F := Ideal) j = (0 : EReal) := by
  unfold k1_pay7
  rw [shapeCast_self]
  exact Ideal.ofBits_zero_f32

def score (i : grid1.Coords) (x : FVec Ideal S512x256 .bf16) (E : FVec Ideal S8192x256 .bf16) (p : Fin 512) (q : Fin 4096) : EReal :=
  ∑ d : Fin 256, x (ix2 p d) * E (ix2 ⟨cls i q, cls_lt i q⟩ d)

theorem score_tile (i : grid1.Coords) (x : FVec Ideal S512x256 .bf16) (E : FVec Ideal S8192x256 .bf16) (p : Fin 512) (q : Fin 4096) :
    ∑ d : Fin 256, x (ix2 p d) * tile (F := Ideal) i E (ix2 q d) = score i x E p q := by
  unfold score
  exact Finset.sum_congr rfl fun d _ => by rw [tile_apply]

theorem step_max (i : grid1.Coords) (x : FVec Ideal S512x256 .bf16) (E : FVec Ideal S8192x256 .bf16) (tg : Vec Ideal S512x1 .i32)
    (st : St Ideal) (p : Fin 512) :
    (step (F := Ideal) i x E tg st).1 (ix2 p 0)
      = max (st.1 (ix2 p 0)) ((Finset.univ : Finset (Fin 4096)).fold max ⊥ (fun q => if cls i q < 8000 then score i x E p q else ⊥)) := by
  show k1_pay2 (F := Ideal) (k1_pay15 (F := Ideal) i x (tile (F := Ideal) i E) st.1) (ix2 p 0) = _
  rw [pay2_apply, pay15_apply]
  simp only [score_tile]

theorem step_sum (i : grid1.Coords) (x : FVec Ideal S512x256 .bf16) (E : FVec Ideal S8192x256 .bf16) (tg : Vec Ideal S512x1 .i32)
    (st : St Ideal) (p : Fin 512) :
    (step (F := Ideal) i x E tg st).2.1 (ix2 p 0)
      = Ideal.exp (st.1 (ix2 p 0) - (step (F := Ideal) i x E tg st).1 (ix2 p 0)) * st.2.1 (ix2 p 0)
        + ∑ q : Fin 4096, if cls i q < 8000 then Ideal.exp (score i x E p q - (step (F := Ideal) i x E tg st).1 (ix2 p 0)) else 0 := by
  have hM : (step (F := Ideal) i x E tg st).1 (ix2 p 0) = k1_pay15 (F := Ideal) i x (tile (F := Ideal) i E) st.1 (ix2 p 0) := by
    show k1_pay2 (F := Ideal) (k1_pay15 (F := Ideal) i x (tile (F := Ideal) i E) st.1) (ix2 p 0) = _
    exact pay2_apply _ _
  rw [hM]
  show k1_pay1 (F := Ideal) (k1_pay13 i) (k1_pay14 (F := Ideal) i x (tile (F := Ideal) i E)) (k1_pay15 (F := Ideal) i x (tile (F := Ideal) i E) st.1) st.1 st.2.1 (ix2 p 0) = _
  rw [pay1_apply]
  refine congrArg₂ (· + ·) rfl (Finset.sum_congr rfl fun q _ => ?_)
  rw [select_of_iff _ _ (pay13_iff i p q), pay14_apply, score_tile]
  by_cases h : cls i q < 8000
  · rw [if_pos h, if_pos h, if_pos h]
  · rw [if_neg h, if_neg h]

theorem andi_eq_one_iff (a b : BitVec 1) : IntOp.andi a b = 1 ↔ a = 1 ∧ b = 1 := by
  revert a b
  decide

theorem cmpi_eq_iff (a b : BitVec 32) : IntOp.cmpi .eq a b = 1 ↔ a = b := by
  show BitVec.ofBool (a == b) = 1 ↔ _
  rw [WordArith.ofBool_eq_numeral_one_iff, beq_iff_eq]

theorem step_sel (i : grid1.Coords) (x : FVec Ideal S512x256 .bf16) (E : FVec Ideal S8192x256 .bf16) (tg : Vec Ideal S512x1 .i32)
    (st : St Ideal) (p : Fin 512) :
    (step (F := Ideal) i x E tg st).2.2 (ix2 p 0)
      = st.2.2 (ix2 p 0)
        + ∑ q : Fin 4096, if cls i q < 8000 ∧ cls i q = (relWord tg p).toNat then score i x E p q else 0 := by
  show k1_pay3 (F := Ideal) (k1_pay10 (F := Ideal) tg) (k1_pay11 (F := Ideal) x (tile (F := Ideal) i E)) (k1_pay12 i) (k1_pay13 i) st.2.2 (ix2 p 0) = _
  rw [pay3_apply]
  refine congrArg₂ (· + ·) rfl (Finset.sum_congr rfl fun q _ => ?_)
  have hiff : IntOp.andi (k1_pay13 i (ix2 p q)) (IntOp.cmpi .eq (k1_pay12 i (ix2 p q)) (k1_pay10 (F := Ideal) tg (ix2 p 0))) = 1
      ↔ cls i q < 8000 ∧ cls i q = (relWord tg p).toNat := by
    rw [andi_eq_one_iff, pay13_iff, cmpi_eq_iff, pay12_apply, pay10_apply]
    refine and_congr_right fun _ => ⟨fun h => ?_, fun h => ?_⟩
    · rw [← h, toNat_clsWord]
    · apply BitVec.eq_of_toNat_eq
      rw [toNat_clsWord, h]
  rw [select_of_iff _ _ hiff, pay11_apply, score_tile]

theorem reset_apply (j : S512x1.Idx) :
    (reset (F := Ideal)).1 j = (⊥ : EReal) ∧ (reset (F := Ideal)).2.1 j = (0 : EReal) ∧ (reset (F := Ideal)).2.2 j = (0 : EReal) :=
  ⟨pay5_apply j, pay6_apply j, pay7_apply j⟩

theorem fin_apply (tg : Vec Ideal S512x1 .i32) (st : St Ideal) (p : Fin 512) :
    fin (F := Ideal) tg st (ix2 p 0)
      = if 2000 ≤ (tg (ix2 p 0)).toInt ∧ (tg (ix2 p 0)).toInt < 10000 then
          st.2.2 (ix2 p 0) - (st.1 (ix2 p 0) + Ideal.log (max (st.2.1 (ix2 p 0)) ((1 / 1000000000000000000000000000000 : ℝ) : EReal)))
        else 0 := by
  show k1_pay4 (F := Ideal) (k1_pay9 (F := Ideal) tg) st.1 st.2.1 st.2.2 (ix2 p 0) = _
  rw [pay4_apply, select_of_iff _ _ (pay9_iff tg p)]

end Cert.KernelIdeal.R1

end
-- ==== Proof.SoftmaxOnline.lean ====
import proofs.«419215_j38122129719724_3_alg».proof.Proof.Softmax

noncomputable section

namespace Cert.Spec

open Idealize.ShloMosaic

/-- One tile folded into the running pair (maximum, sum of exponentials shifted by it): the old sum is rescaled to the new maximum. -/
def onlineStep {n : ℕ} (s : Fin n → EReal) (st : EReal × EReal) (T : Finset (Fin n)) : EReal × EReal :=
  (max st.1 (T.fold max ⊥ s),
    Ideal.exp (st.1 - max st.1 (T.fold max ⊥ s)) * st.2
      + ∑ k ∈ T, Ideal.exp (s k - max st.1 (T.fold max ⊥ s)))

/-- The running pair is that of the classes seen so far; before any class it is (-∞, 0). -/
def OnlineInv {n : ℕ} (s : Fin n → EReal) (S : Finset (Fin n)) (st : EReal × EReal) : Prop :=
  (S = ∅ ∧ st.1 = ⊥ ∧ st.2 = 0) ∨
    (S.Nonempty ∧ st.1 = S.fold max ⊥ s ∧ st.2 = ∑ k ∈ S, Ideal.exp (s k - st.1))

theorem sm_foldMax_union {n : ℕ} (s : Fin n → EReal) (S T : Finset (Fin n)) :
    (S ∪ T).fold max ⊥ s = max (S.fold max ⊥ s) (T.fold max ⊥ s) := by
  apply le_antisymm
  · rw [Finset.fold_max_le]
    refine ⟨bot_le, fun k hk => ?_⟩
    rcases Finset.mem_union.mp hk with h | h
    · exact le_max_of_le_left ((Finset.le_fold_max _).mpr (Or.inr ⟨k, h, le_rfl⟩))
    · exact le_max_of_le_right ((Finset.le_fold_max _).mpr (Or.inr ⟨k, h, le_rfl⟩))
  · apply max_le
    · rw [Finset.fold_max_le]
      exact ⟨bot_le, fun k hk =>
        (Finset.le_fold_max _).mpr (Or.inr ⟨k, Finset.mem_union_left _ hk, le_rfl⟩)⟩
    · rw [Finset.fold_max_le]
      exact ⟨bot_le, fun k hk =>
        (Finset.le_fold_max _).mpr (Or.inr ⟨k, Finset.mem_union_right _ hk, le_rfl⟩)⟩

theorem online_step {n : ℕ} (s : Fin n → EReal) (hs : ∀ k, ∃ x : ℝ, s k = x)
    (S T : Finset (Fin n)) (st : EReal × EReal) (hinv : OnlineInv s S st)
    (hT : T.Nonempty) (hd : Disjoint S T) :
    (S ∪ T).Nonempty ∧ (onlineStep s st T).1 = (S ∪ T).fold max ⊥ s ∧
      (onlineStep s st T).2 = ∑ k ∈ S ∪ T, Ideal.exp (s k - (onlineStep s st T).1) := by
  obtain ⟨x, rfl⟩ := sm_real_family s hs
  obtain ⟨m, l⟩ := st
  refine ⟨hT.mono Finset.subset_union_right, ?_⟩
  rcases hinv with ⟨hS, hm, hl⟩ | ⟨hS, hm, hl⟩
  ·
    simp only at hm hl
    subst hS hm hl
    have e : max (⊥ : EReal) (T.fold max ⊥ fun k => (x k : EReal)) = T.fold max ⊥ fun k => (x k : EReal) :=
      max_eq_right bot_le
    simp only [onlineStep, e, mul_zero, zero_add, Finset.empty_union, and_self]
  ·
    obtain ⟨M, hM, -, -⟩ := sm_foldMax_real x S hS
    obtain ⟨N, hN, -, -⟩ := sm_foldMax_real x T hT
    simp only at hm hl
    have hm' : m = (M : EReal) := hm.trans hM
    subst hm'
    rw [sm_sum_exp] at hl
    subst hl
    have hmax : max (M : EReal) (T.fold max ⊥ fun k => (x k : EReal)) = ((max M N : ℝ) : EReal) := by
      rw [hN]
      exact (EReal.coe_strictMono.monotone.map_max).symm
    simp only [onlineStep, hmax]
    refine ⟨?_, ?_⟩
    · rw [sm_foldMax_union, hM, hN]
      exact EReal.coe_strictMono.monotone.map_max
    · rw [sm_sum_exp, sm_sum_exp, ← EReal.coe_sub, Ideal.exp_coe, ← EReal.coe_mul, ← EReal.coe_add,
        Finset.sum_union hd, Finset.mul_sum]
      congr 2
      refine Finset.sum_congr rfl fun k _ => ?_
      rw [← Real.exp_add]
      congr 1
      ring

theorem sm_mem_foldr_union {n : ℕ} (Ts : List (Finset (Fin n))) (k : Fin n) :
    k ∈ Ts.foldr (· ∪ ·) ∅ ↔ ∃ T ∈ Ts, k ∈ T := by
  induction Ts with
  | nil => simp
  | cons T Ts ih => simp [ih]

theorem online_foldl {n : ℕ} (s : Fin n → EReal) (hs : ∀ k, ∃ x : ℝ, s k = x) :
    ∀ (Ts : List (Finset (Fin n))) (S : Finset (Fin n)) (st : EReal × EReal),
      OnlineInv s S st → (∀ T ∈ Ts, T.Nonempty) → (∀ T ∈ Ts, Disjoint S T) → Ts.Pairwise Disjoint →
      OnlineInv s (S ∪ Ts.foldr (· ∪ ·) ∅) (Ts.foldl (onlineStep s) st)
  | [], S, st, hinv, _, _, _ => by simpa using hinv
  | T :: Ts, S, st, hinv, hne, hdS, hpw => by
    have hstep := online_step s hs S T st hinv (hne T (by simp)) (hdS T (by simp))
    have hinv' : OnlineInv s (S ∪ T) (onlineStep s st T) := Or.inr hstep
    rw [List.pairwise_cons] at hpw
    have h := online_foldl s hs Ts (S ∪ T) (onlineStep s st T) hinv'
      (fun T' h' => hne T' (List.mem_cons_of_mem _ h'))
      (fun T' h' => Finset.disjoint_union_left.mpr ⟨hdS T' (List.mem_cons_of_mem _ h'), hpw.1 T' h'⟩)
      hpw.2
    simp only [List.foldr_cons, List.foldl_cons]
    rw [← Finset.union_assoc]
    exact h

/-- Disjoint nonempty tiles that together hold every class, folded in from (-∞, 0), end at the family's maximum and its shifted exponential sum. -/
theorem online_final {n : ℕ} (hn : 0 < n) (s : Fin n → EReal) (hs : ∀ k, ∃ x : ℝ, s k = x)
    (Ts : List (Finset (Fin n))) (hne : ∀ T ∈ Ts, T.Nonempty) (hpw : Ts.Pairwise Disjoint)
    (hcov : ∀ k, ∃ T ∈ Ts, k ∈ T) :
    Ts.foldl (onlineStep s) (⊥, 0) = (rowMax s, expSum s) := by
  have h := online_foldl s hs Ts ∅ (⊥, 0) (Or.inl ⟨rfl, rfl, rfl⟩) hne
    (fun T _ => Finset.disjoint_empty_left T) hpw
  have hU : ∅ ∪ Ts.foldr (· ∪ ·) ∅ = (Finset.univ : Finset (Fin n)) := by
    rw [Finset.empty_union]
    ext k
    simp only [sm_mem_foldr_union, Finset.mem_univ, iff_true]
    exact hcov k
  rw [hU] at h
  rcases h with ⟨h0, -, -⟩ | ⟨-, h1, h2⟩
  · haveI : Nonempty (Fin n) := ⟨⟨0, hn⟩⟩
    exact absurd h0 Finset.univ_nonempty.ne_empty
  · refine Prod.ext h1 ?_
    rw [h2, h1]
    rfl

theorem online_final_range {n : ℕ} (hn : 0 < n) (s : Fin n → EReal) (hs : ∀ k, ∃ x : ℝ, s k = x)
    (K : ℕ) (T : ℕ → Finset (Fin n)) (hne : ∀ i < K, (T i).Nonempty)
    (hdis : ∀ i < K, ∀ j < K, i ≠ j → Disjoint (T i) (T j)) (hcov : ∀ k, ∃ i < K, k ∈ T i) :
    ((List.range K).map T).foldl (onlineStep s) (⊥, 0) = (rowMax s, expSum s) := by
  apply online_final hn s hs
  · intro T' hT'
    obtain ⟨i, hi, rfl⟩ := List.mem_map.mp hT'
    exact hne i (List.mem_range.mp hi)
  · rw [List.pairwise_map]
    exact (List.nodup_range (n := K)).imp_of_mem fun {i j} hi hj hij =>
      hdis i (List.mem_range.mp hi) j (List.mem_range.mp hj) hij
  · intro k
    obtain ⟨i, hi, hk⟩ := hcov k
    exact ⟨T i, List.mem_map.mpr ⟨i, List.mem_range.mpr hi, rfl⟩, hk⟩

theorem online_final_two {n : ℕ} (hn : 0 < n) (s : Fin n → EReal) (hs : ∀ k, ∃ x : ℝ, s k = x)
    (T : ℕ → Finset (Fin n)) (hne : ∀ i < 2, (T i).Nonempty)
    (hdis : ∀ i < 2, ∀ j < 2, i ≠ j → Disjoint (T i) (T j)) (hcov : ∀ k, ∃ i < 2, k ∈ T i) :
    onlineStep s (onlineStep s (⊥, 0) (T 0)) (T 1) = (rowMax s, expSum s) :=
  online_final_range hn s hs 2 T hne hdis hcov

theorem online_final_ten {n : ℕ} (hn : 0 < n) (s : Fin n → EReal) (hs : ∀ k, ∃ x : ℝ, s k = x)
    (T : ℕ → Finset (Fin n)) (hne : ∀ i < 10, (T i).Nonempty)
    (hdis : ∀ i < 10, ∀ j < 10, i ≠ j → Disjoint (T i) (T j)) (hcov : ∀ k, ∃ i < 10, k ∈ T i) :
    onlineStep s (onlineStep s (onlineStep s (onlineStep s (onlineStep s (onlineStep s (onlineStep s
      (onlineStep s (onlineStep s (onlineStep s (⊥, 0) (T 0)) (T 1)) (T 2)) (T 3)) (T 4)) (T 5)) (T 6))
      (T 7)) (T 8)) (T 9) = (rowMax s, expSum s) :=
  online_final_range hn s hs 10 T hne hdis hcov

end Cert.Spec

end
-- ==== Proof.Tail1Value.lean ====
import proofs.«419215_j38122129719724_3_alg».proof.Proof.Tail1Step
import proofs.«419215_j38122129719724_3_alg».proof.Proof.Softmax
import proofs.«419215_j38122129719724_3_alg».proof.Proof.SoftmaxOnline
import proofs.«419215_j38122129719724_3_alg».proof.Proof.Gen.KernelIdeal.Points
import Idealize.ShloMosaic.Lib.Pipeline.Value

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat)

def tileSet (j : ℕ) : Finset (Fin 8000) := Finset.univ.filter fun k => k.val / 4096 = j

theorem mem_tileSet (j : ℕ) (k : Fin 8000) : k ∈ tileSet j ↔ k.val / 4096 = j := by
  unfold tileSet
  rw [Finset.mem_filter]
  exact ⟨fun h => h.2, fun h => ⟨Finset.mem_univ _, h⟩⟩

theorem tileSet_nonempty : ∀ j < 2, (tileSet j).Nonempty := by
  intro j hj
  refine ⟨⟨4096 * j, by omega⟩, (mem_tileSet j _).mpr ?_⟩
  show 4096 * j / 4096 = j
  omega

theorem tileSet_disjoint : ∀ i < 2, ∀ j < 2, i ≠ j → Disjoint (tileSet i) (tileSet j) := by
  intro i _ j _ hij
  rw [Finset.disjoint_left]
  intro k hi hj
  exact hij (((mem_tileSet i k).mp hi).symm.trans ((mem_tileSet j k).mp hj))

theorem tileSet_cover : ∀ k : Fin 8000, ∃ j < 2, k ∈ tileSet j := by
  intro k
  have := k.isLt
  exact ⟨k.val / 4096, by omega, (mem_tileSet _ k).mpr rfl⟩

def laneClass (j : ℕ) (q : Fin 4096) : Fin 8000 :=
  if h : 4096 * j + q.val < 8000 then ⟨4096 * j + q.val, h⟩ else ⟨0, by decide⟩

theorem laneClass_of_lt (j : ℕ) (q : Fin 4096) (h : 4096 * j + q.val < 8000) : laneClass j q = ⟨4096 * j + q.val, h⟩ :=
  dif_pos h

theorem lanes_sum (j : ℕ) (f : Fin 8000 → EReal) :
    ∑ q : Fin 4096, (if h : 4096 * j + q.val < 8000 then f ⟨4096 * j + q.val, h⟩ else 0) = ∑ k ∈ tileSet j, f k := by
  have h1 : ∑ q : Fin 4096, (if h : 4096 * j + q.val < 8000 then f ⟨4096 * j + q.val, h⟩ else 0)
      = ∑ q ∈ (Finset.univ.filter fun q : Fin 4096 => 4096 * j + q.val < 8000), f (laneClass j q) := by
    rw [Finset.sum_filter]
    refine Finset.sum_congr rfl fun q _ => ?_
    by_cases h : 4096 * j + q.val < 8000
    · rw [if_pos h, dif_pos h, laneClass_of_lt j q h]
    · rw [if_neg h, dif_neg h]
  rw [h1]
  refine Finset.sum_nbij' (laneClass j) (fun k => ⟨k.val % 4096, Nat.mod_lt _ (by decide)⟩) ?_ ?_ ?_ ?_ ?_
  · intro q hq
    have h := (Finset.mem_filter.mp hq).2
    rw [laneClass_of_lt j q h, mem_tileSet]
    show (4096 * j + q.val) / 4096 = j
    have := q.isLt
    omega
  · intro k hk
    have h := (mem_tileSet j k).mp hk
    refine Finset.mem_filter.mpr ⟨Finset.mem_univ _, ?_⟩
    show 4096 * j + k.val % 4096 < 8000
    have := k.isLt
    omega
  · intro q hq
    have h := (Finset.mem_filter.mp hq).2
    apply Fin.ext
    rw [laneClass_of_lt j q h]
    show (4096 * j + q.val) % 4096 = q.val
    have := q.isLt
    omega
  · intro k hk
    have h := (mem_tileSet j k).mp hk
    have h' : 4096 * j + k.val % 4096 < 8000 := by have := k.isLt; omega
    show laneClass j ⟨k.val % 4096, _⟩ = k
    rw [laneClass_of_lt j _ h']
    apply Fin.ext
    show 4096 * j + k.val % 4096 = k.val
    omega
  · intro q _
    rfl

theorem lanes_max (j : ℕ) (f : Fin 8000 → EReal) :
    (Finset.univ : Finset (Fin 4096)).fold max ⊥ (fun q => if h : 4096 * j + q.val < 8000 then f ⟨4096 * j + q.val, h⟩ else ⊥)
      = (tileSet j).fold max ⊥ f := by
  refine eq_of_forall_ge_iff fun c => ?_
  rw [Finset.fold_max_le, Finset.fold_max_le]
  refine and_congr_right fun _ => ⟨fun H k hk => ?_, fun H q _ => ?_⟩
  · have h := (mem_tileSet j k).mp hk
    have h' : 4096 * j + k.val % 4096 < 8000 := by have := k.isLt; omega
    have hq := H ⟨k.val % 4096, Nat.mod_lt _ (by decide)⟩ (Finset.mem_univ _)
    have e : (⟨4096 * j + k.val % 4096, h'⟩ : Fin 8000) = k := Fin.ext (by show 4096 * j + k.val % 4096 = k.val; omega)
    have hq' : f ⟨4096 * j + k.val % 4096, h'⟩ ≤ c := by
      have := hq
      simp only [dif_pos h'] at this
      exact this
    rwa [e] at hq'
  · by_cases h : 4096 * j + q.val < 8000
    · rw [dif_pos h]
      refine H _ ((mem_tileSet j _).mpr ?_)
      show (4096 * j + q.val) / 4096 = j
      have := q.isLt
      omega
    · rw [dif_neg h]
      exact bot_le

theorem sum_two_tiles (f : Fin 8000 → EReal) : ∑ k ∈ tileSet 0, f k + ∑ k ∈ tileSet 1, f k = ∑ k, f k := by
  have e : tileSet 1 = Finset.univ.filter fun k : Fin 8000 => ¬ k.val / 4096 = 0 := by
    ext k
    rw [mem_tileSet, Finset.mem_filter]
    have := k.isLt
    constructor
    · intro h; exact ⟨Finset.mem_univ _, by omega⟩
    · intro h; have := h.2; omega
  rw [e]
  exact Finset.sum_filter_add_sum_filter_not Finset.univ (fun k : Fin 8000 => k.val / 4096 = 0) f

theorem relWord_toNat (w : BitVec 32) (h0 : 0 ≤ w.toInt) (h1 : w.toInt < 50257) :
    (IntOp.minsi 7999#32 (IntOp.maxsi 0#32 (IntOp.subi w 2000#32))).toNat
      = (min (((8000 : ℕ) : ℤ) - 1) (max 0 (w.toInt - 2000))).toNat := by
  have c2000 : (2000#32 : BitVec 32).toInt = 2000 := by decide
  have c7999 : (7999#32 : BitVec 32).toInt = 7999 := by decide
  have c7999n : (7999#32 : BitVec 32).toNat = 7999 := by decide
  have e1 : (IntOp.subi w 2000#32).toInt = w.toInt - 2000 := by
    unfold IntOp.subi
    rw [WordArith.toInt_sub_of_bounds _ _ (by rw [c2000]; omega) (by rw [c2000]; omega), c2000]
  have e2 : (IntOp.maxsi 0#32 (IntOp.subi w 2000#32)).toInt = max 0 (w.toInt - 2000) := by
    rw [WordArith.toInt_maxsi_zero, e1]
  generalize IntOp.maxsi 0#32 (IntOp.subi w 2000#32) = y at e2 ⊢
  have hy := BitVec.toInt_eq_toNat_cond y
  have hyl := y.isLt
  unfold IntOp.minsi
  split
  · next hs =>
    rw [BitVec.slt_iff_toInt_lt, c7999] at hs
    rw [c7999n]
    omega
  · next hs =>
    rw [BitVec.slt_iff_toInt_lt, c7999] at hs
    split at hy <;> omega

variable (V : (c : Dev nD) → (b : Ref sig .tc) → Buf (Elt Ideal) ((c : Thread nD τ).loc b))

theorem pointFacts : ∀ t : Fin cfg1.N, (grid1.coords t 1).val = t.val % 2
    ∧ (win1_0.index t 0 = t.val / 2 ∧ win1_0.index t 1 = 0)
    ∧ (win1_1.index t 0 = 0 ∧ win1_1.index t 1 = 0)
    ∧ (win1_2.index t 0 = t.val / 2 ∧ win1_2.index t 1 = 0)
    ∧ (win1_3.index t 0 = t.val / 2 ∧ win1_3.index t 1 = 0) :=
  (by decide +kernel : ∀ t : Fin grid1.N, (grid1.coords t 1).val = t.val % 2
    ∧ (win1_0.index t 0 = t.val / 2 ∧ win1_0.index t 1 = 0)
    ∧ (win1_1.index t 0 = 0 ∧ win1_1.index t 1 = 0)
    ∧ (win1_2.index t 0 = t.val / 2 ∧ win1_2.index t 1 = 0)
    ∧ (win1_3.index t 0 = t.val / 2 ∧ win1_3.index t 1 = 0))

def rowOf (t : Fin cfg1.N) (p : Fin 512) : Fin 4096 :=
  ⟨512 * (t.val / 2) + p.val, by have := t.isLt; have hN : cfg1.N = 16 := N_1; have := p.isLt; omega⟩

abbrev xwA (c : Dev nD) : Vec Ideal S4096x256 .bf16 := V c main_v9_1
abbrev tbA (c : Dev nD) : Vec Ideal S8192x256 .bf16 := V c main_v5
abbrev tgA (c : Dev nD) : Vec Ideal S4096x1 .i32 := V c main_v0

theorem iblk0_apply (c : Dev nD) (t : Fin cfg1.N) (p : Fin 512) (d : Fin 256) :
    (iblk V c 0 t : Vec Ideal S512x256 .bf16) (ix2 p d) = xwA V c (ix2 (rowOf t p) d) := by
  unfold iblk
  rw [View.read_apply]
  show V c main_v9_1 _ = V c main_v9_1 _
  congr 1
  funext a
  apply Fin.ext
  match a with
  | ⟨0, _⟩ =>
    show win1_0.index t 0 * 512 + 1 * p.val = 512 * (t.val / 2) + p.val
    rw [(pointFacts t).2.1.1]; omega
  | ⟨1, _⟩ =>
    show win1_0.index t 1 * 256 + 1 * d.val = d.val
    rw [(pointFacts t).2.1.2]; omega

theorem iblk1_apply (c : Dev nD) (t : Fin cfg1.N) (k : Fin 8192) (d : Fin 256) :
    (iblk V c 1 t : Vec Ideal S8192x256 .bf16) (ix2 k d) = tbA V c (ix2 k d) := by
  unfold iblk
  rw [View.read_apply]
  show V c main_v5 _ = V c main_v5 _
  congr 1
  funext a
  apply Fin.ext
  match a with
  | ⟨0, _⟩ =>
    show win1_1.index t 0 * 8192 + 1 * k.val = k.val
    rw [(pointFacts t).2.2.1.1]; omega
  | ⟨1, _⟩ =>
    show win1_1.index t 1 * 256 + 1 * d.val = d.val
    rw [(pointFacts t).2.2.1.2]; omega

theorem iblk2_apply (c : Dev nD) (t : Fin cfg1.N) (p : Fin 512) :
    (iblk V c 2 t : Vec Ideal S512x1 .i32) (ix2 p 0) = tgA V c (ix2 (rowOf t p) 0) := by
  unfold iblk
  rw [View.read_apply]
  show V c main_v0 _ = V c main_v0 _
  congr 1
  funext a
  apply Fin.ext
  match a with
  | ⟨0, _⟩ =>
    show win1_2.index t 0 * 512 + 1 * p.val = 512 * (t.val / 2) + p.val
    rw [(pointFacts t).2.2.2.1.1]; omega
  | ⟨1, _⟩ =>
    show win1_2.index t 1 * 1 + 1 * 0 = 0
    rw [(pointFacts t).2.2.2.1.2]

def scores (c : Dev nD) (r : Fin 4096) : Fin 8000 → EReal := fun k =>
  ∑ d : Fin 256, xwA V c (ix2 r d) * tbA V c (ix2 ⟨k.val, by have := k.isLt; omega⟩ d)

theorem cls_point (t : Fin cfg1.N) (q : Fin 4096) : cls (grid1.coords t) q = 4096 * (t.val % 2) + q.val := by
  unfold cls
  rw [(pointFacts t).1]

theorem score_eq (c : Dev nD) (t : Fin cfg1.N) (p : Fin 512) (q : Fin 4096) (h : 4096 * (t.val % 2) + q.val < 8000) :
    score (grid1.coords t) (iblk V c 0 t) (iblk V c 1 t) p q = scores V c (rowOf t p) ⟨4096 * (t.val % 2) + q.val, h⟩ := by
  unfold score scores
  refine Finset.sum_congr rfl fun d _ => ?_
  rw [iblk0_apply, iblk1_apply]
  congr 2
  exact congrArg (fun k => ix2 k d) (Fin.ext (cls_point t q))

theorem relWord_iblk (c : Dev nD) (t : Fin cfg1.N) (p : Fin 512) :
    relWord (iblk V c 2 t) p = IntOp.minsi 7999#32 (IntOp.maxsi 0#32 (IntOp.subi (tgA V c (ix2 (rowOf t p) 0)) 2000#32)) := by
  unfold relWord
  rw [iblk2_apply]

theorem point_row (c : Dev nD) (t : Fin cfg1.N) (p : Fin 512) (st : St Ideal) :
    ((step (F := Ideal) (grid1.coords t) (iblk V c 0 t) (iblk V c 1 t) (iblk V c 2 t) st).1 (ix2 p 0),
      (step (F := Ideal) (grid1.coords t) (iblk V c 0 t) (iblk V c 1 t) (iblk V c 2 t) st).2.1 (ix2 p 0))
        = Cert.Spec.onlineStep (scores V c (rowOf t p)) (st.1 (ix2 p 0), st.2.1 (ix2 p 0)) (tileSet (t.val % 2))
    ∧ (step (F := Ideal) (grid1.coords t) (iblk V c 0 t) (iblk V c 1 t) (iblk V c 2 t) st).2.2 (ix2 p 0)
        = st.2.2 (ix2 p 0) + ∑ k ∈ tileSet (t.val % 2),
            if k.val = (relWord (iblk V c 2 t) p).toNat then scores V c (rowOf t p) k else 0 := by
  have hiff : ∀ q : Fin 4096, cls (grid1.coords t) q < 8000 ↔ 4096 * (t.val % 2) + q.val < 8000 := fun q => by
    rw [cls_point]
  have hmax : (Finset.univ : Finset (Fin 4096)).fold max ⊥
        (fun q => if cls (grid1.coords t) q < 8000 then score (grid1.coords t) (iblk V c 0 t) (iblk V c 1 t) p q else ⊥)
      = (tileSet (t.val % 2)).fold max ⊥ (scores V c (rowOf t p)) := by
    rw [← lanes_max (t.val % 2) (scores V c (rowOf t p))]
    refine congrArg (fun f : Fin 4096 → EReal => (Finset.univ : Finset (Fin 4096)).fold max ⊥ f) (funext fun q => ?_)
    by_cases h : 4096 * (t.val % 2) + q.val < 8000
    · rw [if_pos ((hiff q).mpr h), dif_pos h, score_eq V c t p q h]
    · rw [if_neg (fun h' => h ((hiff q).mp h')), dif_neg h]
  have hM := step_max (grid1.coords t) (iblk V c 0 t) (iblk V c 1 t) (iblk V c 2 t) st p
  rw [hmax] at hM
  refine ⟨?_, ?_⟩
  · unfold Cert.Spec.onlineStep
    refine Prod.ext hM ?_
    show (step (F := Ideal) (grid1.coords t) (iblk V c 0 t) (iblk V c 1 t) (iblk V c 2 t) st).2.1 (ix2 p 0) = _
    rw [step_sum, hM]
    refine congrArg₂ (· + ·) rfl ?_
    rw [← lanes_sum (t.val % 2) (fun k => Ideal.exp (scores V c (rowOf t p) k - max (st.1 (ix2 p 0)) ((tileSet (t.val % 2)).fold max ⊥ (scores V c (rowOf t p)))))]
    refine Finset.sum_congr rfl fun q _ => ?_
    by_cases h : 4096 * (t.val % 2) + q.val < 8000
    · rw [if_pos ((hiff q).mpr h), dif_pos h, score_eq V c t p q h]
    · rw [if_neg (fun h' => h ((hiff q).mp h')), dif_neg h]
  · rw [step_sel]
    refine congrArg₂ (· + ·) rfl ?_
    rw [← lanes_sum (t.val % 2) (fun k => if k.val = (relWord (iblk V c 2 t) p).toNat then scores V c (rowOf t p) k else 0)]
    refine Finset.sum_congr rfl fun q _ => ?_
    by_cases h : 4096 * (t.val % 2) + q.val < 8000
    · rw [dif_pos h]
      by_cases e : 4096 * (t.val % 2) + q.val = (relWord (iblk V c 2 t) p).toNat
      · rw [if_pos ⟨(hiff q).mpr h, (cls_point t q).trans e⟩, if_pos e, score_eq V c t p q h]
      · rw [if_neg (fun h' => e ((cls_point t q).symm.trans h'.2)), if_neg e]
    · rw [if_neg (fun h' => h ((hiff q).mp h'.1)), dif_neg h]

theorem coe_sum_real {ι : Type*} (S : Finset ι) (f : ι → ℝ) : ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

theorem scores_real (c : Dev nD) (hx : ∀ i, ∃ a : ℝ, xwA V c i = a) (hE : ∀ i, ∃ a : ℝ, tbA V c i = a)
    (r : Fin 4096) (k : Fin 8000) : ∃ a : ℝ, scores V c r k = a := by
  choose fx hfx using hx
  choose fE hfE using hE
  refine ⟨∑ d : Fin 256, fx (ix2 r d) * fE (ix2 ⟨k.val, by have := k.isLt; omega⟩ d), ?_⟩
  unfold scores
  rw [← coe_sum_real]
  refine Finset.sum_congr rfl fun d _ => ?_
  rw [hfx, hfE, EReal.coe_mul]

theorem stAt_congr (c : Dev nD) (n m : ℕ) (hn : n < cfg1.N) (hm : m < cfg1.N) (e : n = m) :
    stAt V c n hn = stAt V c m hm := by
  subst e
  rfl

theorem last_col (c : Dev nD) (t : Fin cfg1.N) (ht : t.val % 2 = 1) (p : Fin 512)
    (hs : ∀ k, ∃ a : ℝ, scores V c (rowOf t p) k = a) :
    (stAt V c t.val t.isLt).1 (ix2 p 0) = Cert.Spec.rowMax (scores V c (rowOf t p))
    ∧ (stAt V c t.val t.isLt).2.1 (ix2 p 0) = Cert.Spec.expSum (scores V c (rowOf t p))
    ∧ (stAt V c t.val t.isLt).2.2 (ix2 p 0)
        = Cert.Spec.pick (scores V c (rowOf t p)) (relWord (iblk V c 2 t) p).toNat := by
  obtain ⟨t0, ht0v⟩ : ∃ t0 : Fin cfg1.N, t0.val = t.val - 1 :=
    ⟨⟨t.val - 1, Nat.lt_of_le_of_lt (Nat.sub_le _ _) t.isLt⟩, rfl⟩
  have ht0 : t0.val % 2 = 0 := by omega
  have hrow : rowOf t0 p = rowOf t p :=
    Fin.ext (by show 512 * (t0.val / 2) + p.val = 512 * (t.val / 2) + p.val; omega)
  have hrel : relWord (iblk V c 2 t0) p = relWord (iblk V c 2 t) p := by
    rw [relWord_iblk, relWord_iblk, hrow]
  have e1 : stAt V c t.val t.isLt
      = step (grid1.coords t) (iblk V c 0 t) (iblk V c 1 t) (iblk V c 2 t) (stAt V c t0.val t0.isLt) := by
    rw [stAt_next V c t (by omega)]
    exact congrArg _ (stAt_congr V c _ _ _ _ ht0v.symm)
  have e0 : stAt V c t0.val t0.isLt
      = step (grid1.coords t0) (iblk V c 0 t0) (iblk V c 1 t0) (iblk V c 2 t0) reset :=
    stAt_first V c t0 ht0
  obtain ⟨a1, b1⟩ := point_row V c t p (stAt V c t0.val t0.isLt)
  obtain ⟨a0, b0⟩ := point_row V c t0 p (reset (F := Ideal))
  rw [← e1] at a1 b1
  rw [← e0] at a0 b0
  rw [hrow, ht0, (reset_apply (ix2 p 0)).1, (reset_apply (ix2 p 0)).2.1] at a0
  rw [hrow, ht0, hrel, (reset_apply (ix2 p 0)).2.2, zero_add] at b0
  rw [ht, a0, Cert.Spec.online_final_two (by decide : 0 < 8000) (scores V c (rowOf t p)) hs tileSet tileSet_nonempty
    tileSet_disjoint tileSet_cover] at a1
  rw [ht, b0] at b1
  refine ⟨congrArg Prod.fst a1, congrArg Prod.snd a1, ?_⟩
  rw [b1, sum_two_tiles, Cert.Spec.pick_onehot]

theorem tiny_le_one : ((1 / 1000000000000000000000000000000 : ℝ) : EReal) ≤ 1 := by
  rw [← EReal.coe_one]
  exact EReal.coe_le_coe_iff.mpr (by norm_num)

theorem fin_row (c : Dev nD) (t : Fin cfg1.N) (ht : t.val % 2 = 1) (p : Fin 512)
    (hs : ∀ k, ∃ a : ℝ, scores V c (rowOf t p) k = a)
    (htg : 0 ≤ (tgA V c (ix2 (rowOf t p) 0)).toInt ∧ (tgA V c (ix2 (rowOf t p) 0)).toInt < 50257) :
    fin (F := Ideal) (iblk V c 2 t) (stAt V c t.val t.isLt) (ix2 p 0)
      = Cert.Spec.tailTerm (scores V c (rowOf t p)) (tgA V c (ix2 (rowOf t p) 0)).toInt 2000 10000 := by
  obtain ⟨hm, hl, hc⟩ := last_col V c t ht p hs
  rw [fin_apply, hm, hl, hc, relWord_iblk, relWord_toNat _ htg.1 htg.2, iblk2_apply]
  unfold Cert.Spec.tailTerm
  by_cases hin : 2000 ≤ (tgA V c (ix2 (rowOf t p) 0)).toInt ∧ (tgA V c (ix2 (rowOf t p) 0)).toInt < 10000
  · rw [if_pos hin, if_pos hin]
    have hR : (min (((8000 : ℕ) : ℤ) - 1) (max 0 ((tgA V c (ix2 (rowOf t p) 0)).toInt - 2000))).toNat < 8000 := by omega
    unfold Cert.Spec.pick
    rw [dif_pos hR, dif_pos hR]
    unfold Cert.Spec.logProb
    exact Cert.Spec.logProb_of_clamped (by decide) _ hs _ tiny_le_one _ (hs _)
  · rw [if_neg hin, if_neg hin]

def outG (c : Dev nD) : Vec Ideal S4096x1 .f32 := fun i =>
  Cert.Spec.tailTerm (scores V c (i 0)) (tgA V c (ix2 (i 0) 0)).toInt 2000 10000

theorem block_ext (A B : Vec Ideal S512x1 .f32) (h : ∀ p : Fin 512, A (ix2 p 0) = B (ix2 p 0)) : A = B := by
  funext j
  obtain ⟨p, u, rfl⟩ : ∃ (p : Fin 512) (u : Fin 1), j = ix2 p u := ⟨j 0, j 1, eq_ix2 j⟩
  obtain rfl : u = 0 := Subsingleton.elim _ _
  exact h p

theorem flushed_eq (c : Dev nD) (hx : ∀ i, ∃ a : ℝ, xwA V c i = a) (hE : ∀ i, ∃ a : ℝ, tbA V c i = a)
    (htg : ∀ r : Fin 4096, 0 ≤ (tgA V c (ix2 r 0)).toInt ∧ (tgA V c (ix2 r 0)).toInt < 50257)
    (t : Fin cfg1.N) (hf : (cfg1.win 3).flush t = true) :
    (dat (F := Ideal) V c).flushed 3 t = ((cfg1.win 3).blk t).view.read (Elt Ideal) (outG V c) := by
  have hodd : t.val % 2 = 1 := (flush1_3 t).mp hf
  show (cfg1.win 3).cut (grid1.coords t) ((dat (F := Ideal) V c).after 3 t) = _
  rw [after3]
  refine block_ext _ _ fun p => ?_
  show fin (F := Ideal) (iblk V c 2 t) (stAt V c t.val t.isLt) (ix2 p 0)
    = outG V c (((cfg1.win 3).blk t).view.emb (ix2 p 0))
  have hemb : ((cfg1.win 3).blk t).view.emb (ix2 p 0) = ix2 (rowOf t p) 0 := by
    funext a
    apply Fin.ext
    match a with
    | ⟨0, _⟩ =>
      show win1_3.index t 0 * 512 + 1 * p.val = 512 * (t.val / 2) + p.val
      rw [(pointFacts t).2.2.2.2.1]; omega
    | ⟨1, _⟩ =>
      show win1_3.index t 1 * 1 + 1 * 0 = 0
      rw [(pointFacts t).2.2.2.2.2]
  rw [hemb, fin_row V c t hodd p (fun k => scores_real V c hx hE _ k) (htg _)]
  rfl

theorem mem_outBlk (t : Fin cfg1.N) (i : S4096x1.Idx) :
    i ∈ ((cfg1.win 3).blk t).view.set
      ↔ ∀ a : Fin 2, win1_3.index t a * S512x1.size a ≤ (i a).val ∧ (i a).val < win1_3.index t a * S512x1.size a + S512x1.size a := by
  show i ∈ ((View.whole main_v10).slice (win1_3.rect t)).set ↔ _
  rw [View.set_slice_whole, Rect.mem_set_unit]
  exact Iff.rfl

/-- Each row of the first tail's output array is the tail's term of the specification over the projected rows and the table. -/
theorem tail1_value (c : Dev nD) (hx : ∀ i, ∃ a : ℝ, xwA V c i = a) (hE : ∀ i, ∃ a : ℝ, tbA V c i = a)
    (htg : ∀ r : Fin 4096, 0 ≤ (tgA V c (ix2 r 0)).toInt ∧ (tgA V c (ix2 r 0)).toInt < 50257) (r : Fin 4096) :
    ((dat (F := Ideal) V c).arrAt 3 cfg1.N : Vec Ideal S4096x1 .f32) (ix2 r 0)
      = Cert.Spec.tailTerm
          (fun j : Fin 8000 => ∑ d : Fin 256, xwA V c (ix2 r d) * tbA V c (ix2 ⟨j.val, by have := j.isLt; omega⟩ d))
          (tgA V c (ix2 r 0)).toInt 2000 10000 := by
  obtain ⟨t, htv⟩ : ∃ t : Fin cfg1.N, t.val = 2 * (r.val / 512) + 1 :=
    ⟨⟨2 * (r.val / 512) + 1, by have := r.isLt; have hN : cfg1.N = 16 := N_1; omega⟩, rfl⟩
  have hf : (cfg1.win 3).flush t = true := (flush1_3 t).mpr (by omega)
  have hi : (ix2 r 0 : S4096x1.Idx) ∈ ((cfg1.win 3).blk t).view.set := by
    rw [mem_outBlk]
    intro a
    match a with
    | ⟨0, _⟩ =>
      show win1_3.index t 0 * 512 ≤ r.val ∧ r.val < win1_3.index t 0 * 512 + 512
      rw [(pointFacts t).2.2.2.2.1]; omega
    | ⟨1, _⟩ =>
      show win1_3.index t 1 * 1 ≤ 0 ∧ 0 < win1_3.index t 1 * 1 + 1
      rw [(pointFacts t).2.2.2.2.2]; omega
  exact Dat.arrAt_apply_of_mem (dat (F := Ideal) V c) 3 (outG V c) (flushed_eq V c hx hE htg) cfg1.N t (ix2 r 0) t.isLt hf hi

end Cert.KernelIdeal.R1

end
-- ==== Proof.Tail2Step.lean ====
import proofs.«419215_j38122129719724_3_alg».proof.Proof.Gen.KernelIdeal.Skeleton
import proofs.«419215_j38122129719724_3_alg».proof.Proof.R2Defs
import Idealize.ShloMosaic.PureOps.Ideal.Laws
import Idealize.ShloMosaic.PureOps.IdealRules
import Idealize.ShloMosaic.Lib.ValueIdx
import Idealize.ShloMosaic.Lib.Pipeline.Value
import Idealize.ShloMosaic.Lib.WordArith

noncomputable section

namespace Cert.KernelIdeal.R2

open Idealize.ShloMosaic Idealize.ShloMosaic.ValueIdx
open Cert.KernelIdeal Cert.KernelIdeal.Gen

theorem lhs_tile_0 (i : S512x4096.Idx) (q : dot_S512x64_S64x4096_S512x4096_1_0_0_1_n_n.contr.Idx) :
    (dot_S512x64_S64x4096_S512x4096_1_0_0_1_n_n.lhsIdx i q 0).val = (i 0).val := by
  unfold DotDims.lhsIdx
  rw [dif_neg (show ¬(0 : Fin S512x64.rank) ∈ dot_S512x64_S64x4096_S512x4096_1_0_0_1_n_n.lhsBatch by decide),
    dif_pos (show (0 : Fin S512x64.rank) ∈ dot_S512x64_S64x4096_S512x4096_1_0_0_1_n_n.lhsNonContracting by decide)]
  rfl

theorem lhs_tile_1 (i : S512x4096.Idx) (q : dot_S512x64_S64x4096_S512x4096_1_0_0_1_n_n.contr.Idx) :
    (dot_S512x64_S64x4096_S512x4096_1_0_0_1_n_n.lhsIdx i q 1).val = (q ⟨0, by decide⟩).val :=
  dot_S512x64_S64x4096_S512x4096_1_0_0_1_n_n.lhsIdx_val_of_single rfl i q

theorem rhs_tile_0 (i : S512x4096.Idx) (q : dot_S512x64_S64x4096_S512x4096_1_0_0_1_n_n.contr.Idx) :
    (dot_S512x64_S64x4096_S512x4096_1_0_0_1_n_n.rhsIdx i q 0).val = (q ⟨0, by decide⟩).val :=
  dot_S512x64_S64x4096_S512x4096_1_0_0_1_n_n.rhsIdx_val_of_single rfl i q

theorem rhs_tile_1 (i : S512x4096.Idx) (q : dot_S512x64_S64x4096_S512x4096_1_0_0_1_n_n.contr.Idx) :
    (dot_S512x64_S64x4096_S512x4096_1_0_0_1_n_n.rhsIdx i q 1).val = (i 1).val := by
  unfold DotDims.rhsIdx
  rw [dif_neg (show ¬(1 : Fin S64x4096.rank) ∈ dot_S512x64_S64x4096_S512x4096_1_0_0_1_n_n.rhsBatch by decide),
    dif_pos (show (1 : Fin S64x4096.rank) ∈ dot_S512x64_S64x4096_S512x4096_1_0_0_1_n_n.rhsNonContracting by decide)]
  rfl

theorem scores_at (x : FVec Ideal S512x64 .bf16) (w : FVec Ideal S64x4096 .bf16) (p : Fin 512) (q : Fin 4096) :
    k2_pay11 (F := Ideal) x w (ix2 p q) = ∑ d : Fin 64, x (ix2 p d) * w (ix2 d q) := by
  unfold k2_pay11
  simp only [shapeCast_self, matmul]
  refine (Ideal.matmul_constant_zero_apply dot_S512x64_S64x4096_S512x4096_1_0_0_1_n_n none x w (ix2 p q)).trans ?_
  rw [← Equiv.sum_comp (contrEquiv1 dot_S512x64_S64x4096_S512x4096_1_0_0_1_n_n 64 rfl rfl).symm]
  refine Finset.sum_congr rfl fun k _ => ?_
  have hk := contrEquiv1_symm_val dot_S512x64_S64x4096_S512x4096_1_0_0_1_n_n 64 rfl rfl k
  have el : dot_S512x64_S64x4096_S512x4096_1_0_0_1_n_n.lhsIdx (ix2 p q)
      ((contrEquiv1 dot_S512x64_S64x4096_S512x4096_1_0_0_1_n_n 64 rfl rfl).symm k) = ix2 p k :=
    funext fun a => Fin.ext (by
      match a with
      | ⟨0, _⟩ => exact lhs_tile_0 _ _
      | ⟨1, _⟩ => exact (lhs_tile_1 _ _).trans hk)
  have er : dot_S512x64_S64x4096_S512x4096_1_0_0_1_n_n.rhsIdx (ix2 p q)
      ((contrEquiv1 dot_S512x64_S64x4096_S512x4096_1_0_0_1_n_n 64 rfl rfl).symm k) = ix2 k q :=
    funext fun a => Fin.ext (by
      match a with
      | ⟨0, _⟩ => exact (rhs_tile_0 _ _).trans hk
      | ⟨1, _⟩ => exact rhs_tile_1 _ _)
  rw [el, er]

theorem lift_row (p : Fin 512) (q : Fin (S512x4096.size 1)) :
    reduces_S512x4096_S512.lift (ix1 p) q = ix2 p (q : Fin 4096) := by
  funext a
  apply Fin.ext
  match a with
  | ⟨0, _⟩ => rfl
  | ⟨1, _⟩ => rfl

theorem col_of_vec {α : Type} (v : S512.Idx → α) (p : Fin 512) :
    shapeCast S512x1 v shapeCasts_S512_S512x1 (ix2 p (0 : Fin 1)) = v (ix1 p) :=
  shapeCast_apply v shapeCasts_S512_S512x1 (ix2 p (0 : Fin 1)) (ix1 p) (by
    rw [Shape.rowMajor_val_two, Shape.rowMajor_val_one]
    show p.val = p.val * 1 + 0
    omega)

theorem lanes_of_col {α : Type} (v : S512x1.Idx → α) (p : Fin 512) (q : Fin 4096) :
    broadcastTo S512x4096 v broadcasts_S512x1_S512x4096 (ix2 p q) = v (ix2 p (0 : Fin 1)) :=
  broadcastTo_apply v broadcasts_S512x1_S512x4096 (ix2 p q) (ix2 p (0 : Fin 1)) (by
    intro a
    match a with
    | ⟨0, _⟩ => rfl
    | ⟨1, _⟩ => rfl)

theorem lane_sum_at (v : FVec Ideal S512x4096 .f32) (p : Fin 512) :
    shapeCast S512x1 (multiReduction (F := Ideal) .add [1] S512 v 0x00000000#32 reduces_S512x4096_S512 (.inl rfl) rfl)
      shapeCasts_S512_S512x1 (ix2 p (0 : Fin 1)) = ∑ q : Fin 4096, v (ix2 p q) := by
  refine (col_of_vec _ p).trans ?_
  refine (Ideal.multiReduction_add_single v 0x00000000#32 reduces_S512x4096_S512 (.inl rfl) rfl (ix1 p)).trans ?_
  exact Finset.sum_congr rfl fun q _ => congrArg v (lift_row p q)

theorem negInf_word : Ideal.ofBits .f32 0xFF800000#32 = ⊥ := by simp [Ideal.ofBits, Ideal.ieee]

theorem lane_max_at (v : FVec Ideal S512x4096 .f32) (p : Fin 512) :
    shapeCast S512x1 (multiReduction (F := Ideal) .maximumf [1] S512 v 0xFF800000#32 reduces_S512x4096_S512 (.inl rfl) rfl)
      shapeCasts_S512_S512x1 (ix2 p (0 : Fin 1)) = (Finset.univ : Finset (Fin 4096)).fold max ⊥ fun q => v (ix2 p q) := by
  refine (col_of_vec _ p).trans ?_
  refine (Ideal.multiReduction_maximumf_single v 0xFF800000#32 reduces_S512x4096_S512 (.inl rfl) rfl (ix1 p)).trans ?_
  show (Finset.univ : Finset (Fin 4096)).fold max (Ideal.ofBits .f32 0xFF800000#32) _ = _
  rw [negInf_word]
  exact Finset.fold_congr fun q _ => congrArg v (lift_row p q)

theorem class_at (i : grid2.Coords) (p : Fin 512) (q : Fin 4096) :
    k2_pay12 i (ix2 p q) = BitVec.ofNat 32 (4096 * (i 1).val + q.val) := by
  have h10 : (i 1).val < 10 := (i 1).isLt
  have hq : q.val < 4096 := q.isLt
  unfold k2_pay12
  show IntOp.addi (IntOp.muli (BitVec.ofNat 32 (i 1).val) 4096#32) (iota .tc S512x4096 32 [1] iota_S512x4096_d1_w32 (ix2 p q)) = _
  rw [iota_single_apply]
  show BitVec.ofNat 32 (i 1).val * 4096#32 + BitVec.ofNat 32 q.val = _
  apply BitVec.eq_of_toNat_eq
  simp only [BitVec.toNat_add, BitVec.toNat_mul, BitVec.toNat_ofNat]
  omega

theorem toInt_class (j q : ℕ) (hj : j < 10) (hq : q < 4096) :
    (BitVec.ofNat 32 (4096 * j + q)).toInt = ((4096 * j + q : ℕ) : ℤ) :=
  WordArith.toInt_ofNat_small _ (by omega)

theorem real_at (i : grid2.Coords) (p : Fin 512) (q : Fin 4096) :
    k2_pay13 i (ix2 p q) = if 4096 * (i 1).val + q.val < 40257 then 1#1 else 0#1 := by
  have h10 : (i 1).val < 10 := (i 1).isLt
  have hq : q.val < 4096 := q.isLt
  unfold k2_pay13
  show IntOp.cmpi .slt (k2_pay12 i (ix2 p q)) 40257#32 = _
  rw [class_at]
  show BitVec.ofBool (BitVec.slt _ _) = _
  have e : BitVec.slt (BitVec.ofNat 32 (4096 * (i 1).val + q.val)) 40257#32 = decide (4096 * (i 1).val + q.val < 40257) := by
    rw [Bool.eq_iff_iff, BitVec.slt_iff_toInt_lt, toInt_class _ _ h10 hq, decide_eq_true_iff]
    show ((4096 * (i 1).val + q.val : ℕ) : ℤ) < 40257 ↔ _
    omega
  rw [e]
  by_cases h : 4096 * (i 1).val + q.val < 40257
  · rw [if_pos h, decide_eq_true h]; rfl
  · rw [if_neg h, decide_eq_false h]; rfl

theorem ofNat_eq_iff (n : ℕ) (hn : n < 2 ^ 32) (w : BitVec 32) : BitVec.ofNat 32 n = w ↔ n = w.toNat := by
  constructor
  · intro h; rw [← h, BitVec.toNat_ofNat, Nat.mod_eq_of_lt hn]
  · intro h; apply BitVec.eq_of_toNat_eq; rw [BitVec.toNat_ofNat, Nat.mod_eq_of_lt hn, h]

theorem own_bit (i : grid2.Coords) (p : Fin 512) (q : Fin 4096) (r : BitVec 32) :
    IntOp.andi (k2_pay13 i (ix2 p q)) (IntOp.cmpi .eq (k2_pay12 i (ix2 p q)) r)
      = if 4096 * (i 1).val + q.val < 40257 ∧ 4096 * (i 1).val + q.val = r.toNat then 1#1 else 0#1 := by
  have h10 : (i 1).val < 10 := (i 1).isLt
  have hq : q.val < 4096 := q.isLt
  rw [real_at, class_at]
  show IntOp.andi _ (BitVec.ofBool (BitVec.ofNat 32 (4096 * (i 1).val + q.val) == r)) = _
  have e : (BitVec.ofNat 32 (4096 * (i 1).val + q.val) == r) = decide (4096 * (i 1).val + q.val = r.toNat) := by
    rw [Bool.eq_iff_iff, beq_iff_eq, decide_eq_true_iff]
    exact ofNat_eq_iff _ (by omega) r
  rw [e]
  by_cases h1 : 4096 * (i 1).val + q.val < 40257
  · by_cases h2 : 4096 * (i 1).val + q.val = r.toNat
    · rw [if_pos h1, if_pos ⟨h1, h2⟩, decide_eq_true h2]; rfl
    · rw [if_pos h1, if_neg (fun h => h2 h.2), decide_eq_false h2]; rfl
  · rw [if_neg h1, if_neg (fun h => h1 h.1)]
    cases decide (4096 * (i 1).val + q.val = r.toNat) <;> rfl

theorem toInt_10000 : (10000#32 : BitVec 32).toInt = 10000 := by decide
theorem toInt_50257 : (50257#32 : BitVec 32).toInt = 50257 := by decide
theorem toInt_40256 : (40256#32 : BitVec 32).toInt = 40256 := by decide

theorem inCluster_at (tg : Vec Ideal S512x1 .i32) (p : Fin 512) :
    k2_pay9 (F := Ideal) tg (ix2 p (0 : Fin 1))
      = if 10000 ≤ (tg (ix2 p (0 : Fin 1))).toInt ∧ (tg (ix2 p (0 : Fin 1))).toInt < 50257 then 1#1 else 0#1 := by
  unfold k2_pay9 k2_pay8
  simp only [shapeCast_self]
  show IntOp.andi (BitVec.ofBool (BitVec.sle 10000#32 (tg (ix2 p (0 : Fin 1))))) (BitVec.ofBool (BitVec.slt (tg (ix2 p (0 : Fin 1))) 50257#32)) = _
  generalize tg (ix2 p (0 : Fin 1)) = t
  have e1 : BitVec.sle 10000#32 t = decide (10000 ≤ t.toInt) := by
    rw [Bool.eq_iff_iff, BitVec.sle_iff_toInt_le, toInt_10000, decide_eq_true_iff]
  have e2 : BitVec.slt t 50257#32 = decide (t.toInt < 50257) := by
    rw [Bool.eq_iff_iff, BitVec.slt_iff_toInt_lt, toInt_50257, decide_eq_true_iff]
  rw [e1, e2, WordArith.andi_ofBool]
  by_cases h1 : 10000 ≤ t.toInt
  · by_cases h2 : t.toInt < 50257
    · rw [if_pos ⟨h1, h2⟩, decide_eq_true h1, decide_eq_true h2]; rfl
    · rw [if_neg (fun h => h2 h.2), decide_eq_true h1, decide_eq_false h2]; rfl
  · rw [if_neg (fun h => h1 h.1), decide_eq_false h1]
    cases decide (t.toInt < 50257) <;> rfl

theorem toInt_minsi (x y : BitVec 32) : (IntOp.minsi x y).toInt = min x.toInt y.toInt := by
  unfold IntOp.minsi
  by_cases h : x.slt y = true
  · rw [if_pos h]; have := BitVec.slt_iff_toInt_lt.mp h; omega
  · rw [if_neg h]; have : ¬ x.toInt < y.toInt := fun h' => h (BitVec.slt_iff_toInt_lt.mpr h'); omega

def relOf (tg : Vec Ideal S512x1 .i32) (p : Fin 512) : ℕ := (k2_pay10 (F := Ideal) tg (ix2 p (0 : Fin 1))).toNat

theorem relOf_eq (tg : Vec Ideal S512x1 .i32) (p : Fin 512) (h0 : 0 ≤ (tg (ix2 p (0 : Fin 1))).toInt)
    (h1 : (tg (ix2 p (0 : Fin 1))).toInt < 50257) :
    relOf tg p = (min 40256 (max 0 ((tg (ix2 p (0 : Fin 1))).toInt - 10000))).toNat := by
  unfold relOf k2_pay10 k2_pay8
  simp only [shapeCast_self]
  show (IntOp.minsi 40256#32 (IntOp.maxsi 0#32 (IntOp.subi (tg (ix2 p (0 : Fin 1))) 10000#32))).toNat = _
  generalize tg (ix2 p (0 : Fin 1)) = t at h0 h1 ⊢
  have hs : (IntOp.subi t 10000#32).toInt = t.toInt - 10000 := by
    have := WordArith.toInt_sub_of_bounds t 10000#32 (by rw [toInt_10000]; omega) (by rw [toInt_10000]; omega)
    rw [toInt_10000] at this; exact this
  have hm : (IntOp.maxsi 0#32 (IntOp.subi t 10000#32)).toInt = max 0 (t.toInt - 10000) := by
    rw [WordArith.toInt_maxsi_zero, hs]
  have hr : (IntOp.minsi 40256#32 (IntOp.maxsi 0#32 (IntOp.subi t 10000#32))).toInt = min 40256 (max 0 (t.toInt - 10000)) := by
    rw [toInt_minsi, hm, toInt_40256]
  generalize IntOp.minsi 40256#32 (IntOp.maxsi 0#32 (IntOp.subi t 10000#32)) = r at hr
  have e := BitVec.toInt_eq_toNat_cond r
  have := r.isLt
  omega

theorem negBig : Named.named (F := Ideal) κ "neg_big" (φ := .f32) 0xF149F2CA#32 = (⊥ : EReal) :=
  IdealRules.named_const.ideal_named_scalar _ _ _ _ rfl

theorem tiny : Named.named (F := Ideal) κ "inv_1000000000000000000000000000000" (φ := .f32) 0x0DA24260#32
    = ((1 / 1000000000000000000000000000000 : ℝ) : EReal) :=
  IdealRules.named_const.ideal_named_scalar _ _ _ _ rfl

theorem off1_0 (i : grid2.Coords) : k2_off1 i 0 = 0 := rfl

theorem off1_1 (i : grid2.Coords) : k2_off1 i 1 = 4096 * (i 1).val := by
  have h10 : (i 1).val < 10 := (i 1).isLt
  show (BitVec.ofNat 32 (i 1).val * 4096#32).toNat = _
  simp only [BitVec.toNat_mul, BitVec.toNat_ofNat]
  omega

theorem class_lt (i : grid2.Coords) (q : Fin 4096) : 4096 * (i 1).val + q.val < 40960 := by
  have h10 : (i 1).val < 10 := (i 1).isLt
  have := q.isLt
  omega

theorem tile_at (i : grid2.Coords) (E : Vec Ideal S64x40960 .bf16) (d : Fin 64) (q : Fin 4096) :
    tile (F := Ideal) i E (ix2 d q) = E (ix2 d ⟨4096 * (i 1).val + q.val, class_lt i q⟩) := by
  unfold tile
  show E ((Rect.unit (s := S64x40960) (k2_off1 i) S64x4096.size (Gen.k2_off1_inb i)).idx (ix2 d q)) = _
  refine congrArg E (funext fun a => Fin.ext ?_)
  match a with
  | ⟨0, _⟩ => show k2_off1 i 0 + 1 * d.val = d.val; rw [off1_0]; omega
  | ⟨1, _⟩ => show k2_off1 i 1 + 1 * q.val = 4096 * (i 1).val + q.val; rw [off1_1]; omega

def sc (i : grid2.Coords) (x : Vec Ideal S512x64 .bf16) (E : Vec Ideal S64x40960 .bf16) (p : Fin 512) (q : Fin 4096) : EReal :=
  ∑ d : Fin 64, (x (ix2 p d) : EReal) * (E (ix2 d ⟨4096 * (i 1).val + q.val, class_lt i q⟩) : EReal)

theorem masked_at (i : grid2.Coords) (x : Vec Ideal S512x64 .bf16) (E : Vec Ideal S64x40960 .bf16) (p : Fin 512) (q : Fin 4096) :
    k2_pay14 (F := Ideal) i x (tile (F := Ideal) i E) (ix2 p q)
      = if 4096 * (i 1).val + q.val < 40257 then sc i x E p q else ⊥ := by
  unfold k2_pay14
  show Scalar.select (k2_pay13 i (ix2 p q)) (k2_pay11 (F := Ideal) x (tile (F := Ideal) i E) (ix2 p q))
    (Named.named (F := Ideal) κ "neg_big" (φ := .f32) 0xF149F2CA#32) = _
  rw [real_at, negBig, scores_at]
  have e : (∑ d : Fin 64, x (ix2 p d) * tile (F := Ideal) i E (ix2 d q)) = sc i x E p q :=
    Finset.sum_congr rfl fun d _ => by rw [tile_at]
  rw [e]
  by_cases h : 4096 * (i 1).val + q.val < 40257
  · rw [if_pos h, if_pos h]; exact select_one _ _
  · rw [if_neg h, if_neg h]; exact select_zero _ _

theorem plain_at (i : grid2.Coords) (x : Vec Ideal S512x64 .bf16) (E : Vec Ideal S64x40960 .bf16) (p : Fin 512) (q : Fin 4096) :
    k2_pay11 (F := Ideal) x (tile (F := Ideal) i E) (ix2 p q) = sc i x E p q := by
  rw [scores_at]
  exact Finset.sum_congr rfl fun d _ => by rw [tile_at]

theorem newMax_at (i : grid2.Coords) (x : FVec Ideal S512x64 .bf16) (w : FVec Ideal S64x4096 .bf16) (m : FVec Ideal S512x1 .f32)
    (p : Fin 512) :
    k2_pay15 (F := Ideal) i x w m (ix2 p (0 : Fin 1))
      = max (m (ix2 p (0 : Fin 1))) ((Finset.univ : Finset (Fin 4096)).fold max ⊥ fun q => k2_pay14 (F := Ideal) i x w (ix2 p q)) := by
  unfold k2_pay15
  refine (maximumf_apply _ _ _).trans ?_
  exact congrArg (max (m (ix2 p (0 : Fin 1)))) (lane_max_at _ p)

theorem newSum_at (v28 : IVec S512x4096 1) (v30 : FVec Ideal S512x4096 .f32) (v34 v35 v43 : FVec Ideal S512x1 .f32) (p : Fin 512) :
    k2_pay1 (F := Ideal) v28 v30 v34 v35 v43 (ix2 p (0 : Fin 1))
      = Ideal.exp (v35 (ix2 p (0 : Fin 1)) - v34 (ix2 p (0 : Fin 1))) * v43 (ix2 p (0 : Fin 1))
        + ∑ q : Fin 4096, Scalar.select (v28 (ix2 p q)) (Ideal.exp (v30 (ix2 p q) - v34 (ix2 p (0 : Fin 1)))) 0 := by
  unfold k2_pay1
  simp only [shapeCast_self]
  refine (addf_apply _ _ _).trans ?_
  refine congrArg₂ (· + ·) rfl ?_
  refine (lane_sum_at _ p).trans ?_
  refine Finset.sum_congr rfl fun q _ => ?_
  show Scalar.select (v28 (ix2 p q)) (Ideal.exp (v30 (ix2 p q) - broadcastTo S512x4096 v34 broadcasts_S512x1_S512x4096 (ix2 p q)))
    (Ideal.ofBits .f32 0x00000000#32) = _
  rw [lanes_of_col, Ideal.ofBits_zero_f32]

theorem newPick_at (v15 : IVec S512x1 32) (v23 : FVec Ideal S512x4096 .f32) (v26 : IVec S512x4096 32) (v28 : IVec S512x4096 1)
    (v61 : FVec Ideal S512x1 .f32) (p : Fin 512) :
    k2_pay3 (F := Ideal) v15 v23 v26 v28 v61 (ix2 p (0 : Fin 1))
      = v61 (ix2 p (0 : Fin 1))
        + ∑ q : Fin 4096, Scalar.select (IntOp.andi (v28 (ix2 p q)) (IntOp.cmpi .eq (v26 (ix2 p q)) (v15 (ix2 p (0 : Fin 1))))) (v23 (ix2 p q)) 0 := by
  unfold k2_pay3
  simp only [shapeCast_self]
  refine (addf_apply _ _ _).trans ?_
  refine congrArg₂ (· + ·) rfl ?_
  refine (lane_sum_at _ p).trans ?_
  refine Finset.sum_congr rfl fun q _ => ?_
  show Scalar.select (IntOp.andi (v28 (ix2 p q)) (IntOp.cmpi .eq (v26 (ix2 p q)) (broadcastTo S512x4096 v15 broadcasts_S512x1_S512x4096 (ix2 p q))))
    (v23 (ix2 p q)) (Ideal.ofBits .f32 0x00000000#32) = _
  rw [lanes_of_col, Ideal.ofBits_zero_f32]

theorem write_at (v9 : IVec S512x1 1) (v69 v70 v75 : FVec Ideal S512x1 .f32) (p : Fin 512) :
    k2_pay4 (F := Ideal) v9 v69 v70 v75 (ix2 p (0 : Fin 1))
      = Scalar.select (v9 (ix2 p (0 : Fin 1)))
          (v75 (ix2 p (0 : Fin 1)) - (v69 (ix2 p (0 : Fin 1))
            + Ideal.log (max (v70 (ix2 p (0 : Fin 1))) ((1 / 1000000000000000000000000000000 : ℝ) : EReal)))) 0 := by
  unfold k2_pay4
  show Scalar.select (v9 (ix2 p (0 : Fin 1)))
    (v75 (ix2 p (0 : Fin 1)) - (v69 (ix2 p (0 : Fin 1)) + Ideal.log (max (v70 (ix2 p (0 : Fin 1)))
      (Named.named (F := Ideal) κ "inv_1000000000000000000000000000000" (φ := .f32) 0x0DA24260#32))))
    (Ideal.ofBits .f32 0x00000000#32) = _
  rw [tiny, Ideal.ofBits_zero_f32]

theorem step_max (i : grid2.Coords) (x : Vec Ideal S512x64 .bf16) (E : Vec Ideal S64x40960 .bf16) (tg : Vec Ideal S512x1 .i32)
    (st : St Ideal) (p : Fin 512) :
    (step (F := Ideal) i x E tg st).1 (ix2 p (0 : Fin 1))
      = max (st.1 (ix2 p (0 : Fin 1))) ((Finset.univ : Finset (Fin 4096)).fold max ⊥ fun q =>
          if 4096 * (i 1).val + q.val < 40257 then sc i x E p q else ⊥) := by
  show k2_pay2 (F := Ideal) (k2_pay15 (F := Ideal) i x (tile (F := Ideal) i E) st.1) (ix2 p (0 : Fin 1)) = _
  unfold k2_pay2
  rw [shapeCast_self, newMax_at]
  exact congrArg (max _) (Finset.fold_congr fun q _ => masked_at i x E p q)

theorem step_sum (i : grid2.Coords) (x : Vec Ideal S512x64 .bf16) (E : Vec Ideal S64x40960 .bf16) (tg : Vec Ideal S512x1 .i32)
    (st : St Ideal) (p : Fin 512) :
    (step (F := Ideal) i x E tg st).2.1 (ix2 p (0 : Fin 1))
      = Ideal.exp (st.1 (ix2 p (0 : Fin 1)) - (step (F := Ideal) i x E tg st).1 (ix2 p (0 : Fin 1))) * st.2.1 (ix2 p (0 : Fin 1))
        + ∑ q : Fin 4096, if 4096 * (i 1).val + q.val < 40257
            then Ideal.exp (sc i x E p q - (step (F := Ideal) i x E tg st).1 (ix2 p (0 : Fin 1))) else 0 := by
  have hM : (step (F := Ideal) i x E tg st).1 (ix2 p (0 : Fin 1))
      = k2_pay15 (F := Ideal) i x (tile (F := Ideal) i E) st.1 (ix2 p (0 : Fin 1)) := by
    show k2_pay2 (F := Ideal) (k2_pay15 (F := Ideal) i x (tile (F := Ideal) i E) st.1) (ix2 p (0 : Fin 1)) = _
    unfold k2_pay2
    rw [shapeCast_self]
  rw [hM]
  show k2_pay1 (F := Ideal) (k2_pay13 i) (k2_pay14 (F := Ideal) i x (tile (F := Ideal) i E))
    (k2_pay15 (F := Ideal) i x (tile (F := Ideal) i E) st.1) st.1 st.2.1 (ix2 p (0 : Fin 1)) = _
  rw [newSum_at]
  refine congrArg₂ (· + ·) rfl (Finset.sum_congr rfl fun q _ => ?_)
  rw [real_at, masked_at]
  by_cases h : 4096 * (i 1).val + q.val < 40257
  · simp only [if_pos h, select_one]
  · simp only [if_neg h, select_zero]

theorem step_pick (i : grid2.Coords) (x : Vec Ideal S512x64 .bf16) (E : Vec Ideal S64x40960 .bf16) (tg : Vec Ideal S512x1 .i32)
    (st : St Ideal) (p : Fin 512) :
    (step (F := Ideal) i x E tg st).2.2 (ix2 p (0 : Fin 1))
      = st.2.2 (ix2 p (0 : Fin 1))
        + ∑ q : Fin 4096, if 4096 * (i 1).val + q.val < 40257 ∧ 4096 * (i 1).val + q.val = relOf tg p
            then sc i x E p q else 0 := by
  show k2_pay3 (F := Ideal) (k2_pay10 (F := Ideal) tg) (k2_pay11 (F := Ideal) x (tile (F := Ideal) i E)) (k2_pay12 i) (k2_pay13 i)
    st.2.2 (ix2 p (0 : Fin 1)) = _
  rw [newPick_at]
  refine congrArg₂ (· + ·) rfl (Finset.sum_congr rfl fun q _ => ?_)
  rw [own_bit, plain_at]
  unfold relOf
  by_cases h : 4096 * (i 1).val + q.val < 40257 ∧ 4096 * (i 1).val + q.val = (k2_pay10 (F := Ideal) tg (ix2 p (0 : Fin 1))).toNat
  · simp only [if_pos h, select_one]
  · simp only [if_neg h, select_zero]

theorem reset_at (p : Fin 512) :
    (reset (F := Ideal)).1 (ix2 p (0 : Fin 1)) = (⊥ : EReal) ∧ (reset (F := Ideal)).2.1 (ix2 p (0 : Fin 1)) = (0 : EReal)
      ∧ (reset (F := Ideal)).2.2 (ix2 p (0 : Fin 1)) = (0 : EReal) := by
  refine ⟨?_, ?_, ?_⟩
  · show k2_pay5 (F := Ideal) (ix2 p (0 : Fin 1)) = _
    unfold k2_pay5
    rw [shapeCast_self]
    exact negBig
  · show k2_pay6 (F := Ideal) (ix2 p (0 : Fin 1)) = _
    unfold k2_pay6
    rw [shapeCast_self]
    exact Ideal.ofBits_zero_f32
  · show k2_pay7 (F := Ideal) (ix2 p (0 : Fin 1)) = _
    unfold k2_pay7
    rw [shapeCast_self]
    exact Ideal.ofBits_zero_f32

theorem fin_at (tg : Vec Ideal S512x1 .i32) (st : St Ideal) (p : Fin 512) :
    fin (F := Ideal) tg st (ix2 p (0 : Fin 1))
      = if 10000 ≤ (tg (ix2 p (0 : Fin 1))).toInt ∧ (tg (ix2 p (0 : Fin 1))).toInt < 50257
          then st.2.2 (ix2 p (0 : Fin 1)) - (st.1 (ix2 p (0 : Fin 1))
            + Ideal.log (max (st.2.1 (ix2 p (0 : Fin 1))) ((1 / 1000000000000000000000000000000 : ℝ) : EReal)))
          else 0 := by
  show k2_pay4 (F := Ideal) (k2_pay9 (F := Ideal) tg) st.1 st.2.1 st.2.2 (ix2 p (0 : Fin 1)) = _
  rw [write_at, inCluster_at]
  by_cases h : 10000 ≤ (tg (ix2 p (0 : Fin 1))).toInt ∧ (tg (ix2 p (0 : Fin 1))).toInt < 50257
  · simp only [if_pos h, select_one]
  · simp only [if_neg h, select_zero]

end Cert.KernelIdeal.R2

end
-- ==== Proof.Tail2Value.lean ====
import proofs.«419215_j38122129719724_3_alg».proof.Proof.Tail2Step
import proofs.«419215_j38122129719724_3_alg».proof.Proof.SpecArgs
import proofs.«419215_j38122129719724_3_alg».proof.Proof.SoftmaxOnline
import proofs.«419215_j38122129719724_3_alg».proof.Proof.Gen.KernelIdeal.Points
import proofs.«419215_j38122129719724_3_alg».proof.Proof.Gen.KernelIdeal.Launch
import Idealize.ShloMosaic.Lib.Pipeline.Value

noncomputable section

namespace Cert.KernelIdeal.R2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec

def tileSet (j : ℕ) : Finset (Fin 40257) := Finset.univ.filter fun k => 4096 * j ≤ k.val ∧ k.val < 4096 * (j + 1)

def seenSet (j : ℕ) : Finset (Fin 40257) := Finset.univ.filter fun k => k.val < 4096 * j

theorem mem_tileSet (j : ℕ) (k : Fin 40257) : k ∈ tileSet j ↔ 4096 * j ≤ k.val ∧ k.val < 4096 * (j + 1) := by
  unfold tileSet; rw [Finset.mem_filter]; exact ⟨fun h => h.2, fun h => ⟨Finset.mem_univ _, h⟩⟩

theorem mem_seenSet (j : ℕ) (k : Fin 40257) : k ∈ seenSet j ↔ k.val < 4096 * j := by
  unfold seenSet; rw [Finset.mem_filter]; exact ⟨fun h => h.2, fun h => ⟨Finset.mem_univ _, h⟩⟩

theorem seenSet_zero : seenSet 0 = ∅ := by
  ext k; rw [mem_seenSet]; simp

theorem seenSet_succ (j : ℕ) : seenSet (j + 1) = seenSet j ∪ tileSet j := by
  ext k; rw [Finset.mem_union, mem_seenSet, mem_seenSet, mem_tileSet]; omega

theorem seen_disjoint (j : ℕ) : Disjoint (seenSet j) (tileSet j) := by
  rw [Finset.disjoint_left]
  intro k h1 h2
  rw [mem_seenSet] at h1; rw [mem_tileSet] at h2; omega

theorem tileSet_nonempty (j : ℕ) (hj : j < 10) : (tileSet j).Nonempty :=
  ⟨⟨4096 * j, by omega⟩, by rw [mem_tileSet]; constructor <;> (simp only; omega)⟩

theorem seenSet_ten : seenSet 10 = Finset.univ := by
  ext k; rw [mem_seenSet]; have := k.isLt; simp only [Finset.mem_univ, iff_true]; omega

theorem fold_tile (g : ℕ → EReal) (j : ℕ) :
    (Finset.univ : Finset (Fin 4096)).fold max ⊥ (fun q => if 4096 * j + q.val < 40257 then g (4096 * j + q.val) else ⊥)
      = (tileSet j).fold max ⊥ fun k => g k.val := by
  apply le_antisymm
  · rw [Finset.fold_max_le]
    refine ⟨bot_le, fun q _ => ?_⟩
    by_cases h : 4096 * j + q.val < 40257
    · rw [if_pos h, Finset.le_fold_max]
      refine Or.inr ⟨⟨4096 * j + q.val, h⟩, ?_, le_rfl⟩
      rw [mem_tileSet]; have := q.isLt; constructor <;> (simp only; omega)
    · rw [if_neg h]; exact bot_le
  · rw [Finset.fold_max_le]
    refine ⟨bot_le, fun k hk => ?_⟩
    rw [mem_tileSet] at hk
    rw [Finset.le_fold_max]
    refine Or.inr ⟨⟨k.val - 4096 * j, by omega⟩, Finset.mem_univ _, ?_⟩
    have e : 4096 * j + (k.val - 4096 * j) = k.val := by omega
    show g k.val ≤ if 4096 * j + (k.val - 4096 * j) < 40257 then g (4096 * j + (k.val - 4096 * j)) else ⊥
    rw [e, if_pos k.isLt]

theorem sum_tile (f : ℕ → EReal) (j : ℕ) :
    (∑ q : Fin 4096, if 4096 * j + q.val < 40257 then f (4096 * j + q.val) else 0) = ∑ k ∈ tileSet j, f k.val := by
  rw [← Finset.sum_filter]
  refine Finset.sum_bij (fun q hq => (⟨4096 * j + q.val, (Finset.mem_filter.mp hq).2⟩ : Fin 40257)) ?_ ?_ ?_ ?_
  · intro q hq; rw [mem_tileSet]; have := q.isLt; constructor <;> (simp only; omega)
  · intro q1 h1 q2 h2 e
    apply Fin.ext
    have := congrArg Fin.val e
    simp only at this; omega
  · intro k hk
    rw [mem_tileSet] at hk
    refine ⟨⟨k.val - 4096 * j, by omega⟩, ?_, ?_⟩
    · rw [Finset.mem_filter]; exact ⟨Finset.mem_univ _, by have := k.isLt; simp only; omega⟩
    · apply Fin.ext; simp only; omega
  · intro q hq; rfl

theorem row_step (g : ℕ → EReal) (hg : ∀ n : Fin 40257, ∃ x : ℝ, g n.val = x) (rel j : ℕ) (hj : j < 10)
    (m l a m' l' a' : EReal)
    (hinv : OnlineInv (fun k : Fin 40257 => g k.val) (seenSet j) (m, l))
    (ha : a = ∑ k ∈ seenSet j, if k.val = rel then g k.val else 0)
    (hm : m' = max m ((Finset.univ : Finset (Fin 4096)).fold max ⊥ fun q =>
      if 4096 * j + q.val < 40257 then g (4096 * j + q.val) else ⊥))
    (hl : l' = Ideal.exp (m - m') * l
      + ∑ q : Fin 4096, if 4096 * j + q.val < 40257 then Ideal.exp (g (4096 * j + q.val) - m') else 0)
    (ha' : a' = a + ∑ q : Fin 4096, if 4096 * j + q.val < 40257 ∧ 4096 * j + q.val = rel then g (4096 * j + q.val) else 0) :
    OnlineInv (fun k : Fin 40257 => g k.val) (seenSet (j + 1)) (m', l')
      ∧ a' = ∑ k ∈ seenSet (j + 1), if k.val = rel then g k.val else 0 := by
  obtain ⟨hne, h1, h2⟩ := online_step (fun k : Fin 40257 => g k.val) hg (seenSet j) (tileSet j) (m, l) hinv
    (tileSet_nonempty j hj) (seen_disjoint j)
  have em : max m ((tileSet j).fold max ⊥ fun k : Fin 40257 => g k.val) = m' := by rw [hm, fold_tile]
  have em1 : (onlineStep (fun k : Fin 40257 => g k.val) (m, l) (tileSet j)).1 = m' := em
  have el : (onlineStep (fun k : Fin 40257 => g k.val) (m, l) (tileSet j)).2 = l' := by
    show Ideal.exp (m - max m ((tileSet j).fold max ⊥ fun k : Fin 40257 => g k.val)) * l
      + ∑ k ∈ tileSet j, Ideal.exp (g k.val - max m ((tileSet j).fold max ⊥ fun k : Fin 40257 => g k.val)) = l'
    rw [em, hl, sum_tile (fun n => Ideal.exp (g n - m')) j]
  rw [em1] at h1 h2
  rw [el] at h2
  rw [seenSet_succ]
  refine ⟨Or.inr ⟨hne, h1, h2⟩, ?_⟩
  rw [ha', ha, Finset.sum_union (seen_disjoint j)]
  refine congrArg (_ + ·) ?_
  rw [← sum_tile (fun n => if n = rel then g n else 0) j]
  exact Finset.sum_congr rfl fun q _ => ite_and _ _ _ _

theorem row_final (g : ℕ → EReal) (rel : ℕ) (m l a : EReal)
    (hinv : OnlineInv (fun k : Fin 40257 => g k.val) (seenSet 10) (m, l))
    (ha : a = ∑ k ∈ seenSet 10, if k.val = rel then g k.val else 0) :
    m = rowMax (fun k : Fin 40257 => g k.val) ∧ l = expSum (fun k : Fin 40257 => g k.val)
      ∧ a = pick (fun k : Fin 40257 => g k.val) rel := by
  rw [seenSet_ten] at hinv ha
  rcases hinv with ⟨he, -, -⟩ | ⟨-, h1, h2⟩
  · exact absurd he (Finset.univ_nonempty (α := Fin 40257)).ne_empty
  · have h1' : m = rowMax (fun k : Fin 40257 => g k.val) := h1
    refine ⟨h1', ?_, ?_⟩
    · have h2' : l = ∑ k : Fin 40257, Ideal.exp (g k.val - m) := h2
      rw [h2', h1']; rfl
    · rw [ha]; exact pick_onehot (fun k : Fin 40257 => g k.val) rel

theorem write_eq_tailTerm (s : Fin 40257 → EReal) (hs : ∀ k, ∃ x : ℝ, s k = x) (t : ℤ) (h0 : 0 ≤ t) (h1 : t < 50257)
    (rel : ℕ) (hrel : rel = (min 40256 (max 0 (t - 10000))).toNat) :
    (if 10000 ≤ t ∧ t < 50257
        then pick s rel - (rowMax s + Ideal.log (max (expSum s) ((1 / 1000000000000000000000000000000 : ℝ) : EReal)))
        else 0)
      = tailTerm s t 10000 50257 := by
  unfold tailTerm
  by_cases hin : 10000 ≤ t ∧ t < 50257
  · rw [if_pos hin, if_pos hin]
    have e : (min (((40257 : ℕ) : ℤ) - 1) (max 0 (t - 10000))).toNat = rel := by rw [hrel]; congr 1
    rw [e]
    have hlt : rel < 40257 := by rw [hrel]; omega
    unfold pick
    rw [dif_pos hlt, dif_pos hlt]
    unfold logProb
    refine logProb_of_clamped (by norm_num) s hs _ ?_ _ (hs _)
    rw [← EReal.coe_one]
    exact EReal.coe_le_coe_iff.mpr (by norm_num)
  · rw [if_neg hin, if_neg hin]

variable (V : (c : Dev nD) → (b : Ref sig .tc) → Buf (Elt Ideal) ((c : Thread nD τ).loc b))

abbrev xwArr (c : Dev nD) : Vec Ideal S4096x64 .bf16 := V c main_v9_2
abbrev tbArr (c : Dev nD) : Vec Ideal S64x40960 .bf16 := V c main_v8
abbrev tgArr (c : Dev nD) : Vec Ideal S4096x1 .i32 := V c main_v0

theorem idx_facts : ∀ t : Fin cfg2.N, win2_0.index t (0 : Fin 2) = t.val / 10 ∧ win2_0.index t (1 : Fin 2) = 0
    ∧ win2_1.index t (0 : Fin 2) = 0 ∧ win2_1.index t (1 : Fin 2) = 0
    ∧ win2_2.index t (0 : Fin 2) = t.val / 10 ∧ win2_2.index t (1 : Fin 2) = 0
    ∧ win2_3.index t (0 : Fin 2) = t.val / 10 ∧ win2_3.index t (1 : Fin 2) = 0
    ∧ ((grid2.coords t) 1).val = t.val % 10 :=
  (by decide +kernel : ∀ t : Fin grid2.N, _)

theorem iblk0_at (c : Dev nD) (t : Fin cfg2.N) (p : Fin 512) (d : Fin 64) (r : Fin 4096)
    (hr : r.val = 512 * (t.val / 10) + p.val) :
    (iblk V c 0 t : Vec Ideal S512x64 .bf16) (ix2 p d) = xwArr V c (ix2 r d) := by
  obtain ⟨e0, e1, -⟩ := idx_facts t
  unfold iblk
  rw [View.read_apply]
  show V c main_v9_2 _ = V c main_v9_2 _
  congr 1
  funext a
  apply Fin.ext
  match a with
  | ⟨0, _⟩ => show win2_0.index t 0 * 512 + 1 * p.val = r.val; rw [e0, hr]; omega
  | ⟨1, _⟩ => show win2_0.index t 1 * 64 + 1 * d.val = d.val; rw [e1]; omega

theorem iblk1_at (c : Dev nD) (t : Fin cfg2.N) (d : Fin 64) (n : Fin 40960) :
    (iblk V c 1 t : Vec Ideal S64x40960 .bf16) (ix2 d n) = tbArr V c (ix2 d n) := by
  obtain ⟨-, -, e0, e1, -⟩ := idx_facts t
  unfold iblk
  rw [View.read_apply]
  show V c main_v8 _ = V c main_v8 _
  congr 1
  funext a
  apply Fin.ext
  match a with
  | ⟨0, _⟩ => show win2_1.index t 0 * 64 + 1 * d.val = d.val; rw [e0]; omega
  | ⟨1, _⟩ => show win2_1.index t 1 * 40960 + 1 * n.val = n.val; rw [e1]; omega

theorem iblk2_at (c : Dev nD) (t : Fin cfg2.N) (p : Fin 512) (r : Fin 4096) (hr : r.val = 512 * (t.val / 10) + p.val) :
    (iblk V c 2 t : Vec Ideal S512x1 .i32) (ix2 p (0 : Fin 1)) = tgArr V c (ix2 r (0 : Fin 1)) := by
  obtain ⟨-, -, -, -, e0, e1, -⟩ := idx_facts t
  unfold iblk
  rw [View.read_apply]
  show V c main_v0 _ = V c main_v0 _
  congr 1
  funext a
  apply Fin.ext
  match a with
  | ⟨0, _⟩ => show win2_2.index t 0 * 512 + 1 * p.val = r.val; rw [e0, hr]; omega
  | ⟨1, _⟩ => show win2_2.index t 1 * 1 + 1 * 0 = 0; rw [e1]

def gRow (c : Dev nD) (r : Fin 4096) (n : ℕ) : EReal :=
  if h : n < 40960 then ∑ d : Fin 64, (xwArr V c (ix2 r d) : EReal) * (tbArr V c (ix2 d ⟨n, h⟩) : EReal) else 0

theorem gRow_real (c : Dev nD) (hxw : ∀ (r : Fin 4096) (d : Fin 64), ∃ x : ℝ, (xwArr V c (ix2 r d) : EReal) = x)
    (htb : ∀ (d : Fin 64) (n : Fin 40960), ∃ x : ℝ, (tbArr V c (ix2 d n) : EReal) = x) (r : Fin 4096) (n : Fin 40257) :
    ∃ x : ℝ, gRow V c r n.val = x := by
  have hn : n.val < 40960 := by have := n.isLt; omega
  unfold gRow
  rw [dif_pos hn]
  choose a ha using hxw r
  choose b hb using fun d => htb d ⟨n.val, hn⟩
  refine ⟨∑ d : Fin 64, a d * b d, ?_⟩
  rw [sm_coe_finsum]
  exact Finset.sum_congr rfl fun d _ => by rw [ha, hb, EReal.coe_mul]

theorem sc_blocks (c : Dev nD) (t : Fin cfg2.N) (p : Fin 512) (r : Fin 4096) (hr : r.val = 512 * (t.val / 10) + p.val)
    (q : Fin 4096) :
    sc (grid2.coords t) (iblk V c 0 t) (iblk V c 1 t) p q = gRow V c r (4096 * ((grid2.coords t) 1).val + q.val) := by
  unfold sc gRow
  rw [dif_pos (class_lt (grid2.coords t) q)]
  exact Finset.sum_congr rfl fun d _ => by rw [iblk0_at V c t p d r hr, iblk1_at V c t d _]

def relW (t : BitVec 32) : ℕ := (IntOp.minsi 40256#32 (IntOp.maxsi 0#32 (IntOp.subi t 10000#32))).toNat

theorem relOf_eq_relW (tg : Vec Ideal S512x1 .i32) (p : Fin 512) : relOf tg p = relW (tg (ix2 p (0 : Fin 1))) := by
  unfold relOf relW k2_pay10 k2_pay8
  simp only [shapeCast_self]
  rfl

theorem relW_eq (t : BitVec 32) (h0 : 0 ≤ t.toInt) (h1 : t.toInt < 50257) :
    relW t = (min 40256 (max 0 (t.toInt - 10000))).toNat := by
  have e := relOf_eq_relW (fun _ => t) (0 : Fin 512)
  rw [← e]
  exact relOf_eq (fun _ => t) (0 : Fin 512) h0 h1

def RowInv (c : Dev nD) (r : Fin 4096) (p : Fin 512) (J : ℕ) (st : St Ideal) : Prop :=
  OnlineInv (fun k : Fin 40257 => gRow V c r k.val) (seenSet J)
      ((st.1 (ix2 p (0 : Fin 1)) : EReal), (st.2.1 (ix2 p (0 : Fin 1)) : EReal))
    ∧ (st.2.2 (ix2 p (0 : Fin 1)) : EReal)
      = ∑ k ∈ seenSet J, if k.val = relW (tgArr V c (ix2 r (0 : Fin 1))) then gRow V c r k.val else 0

theorem rowInv_reset (c : Dev nD) (r : Fin 4096) (p : Fin 512) : RowInv V c r p 0 (reset (F := Ideal)) := by
  obtain ⟨e1, e2, e3⟩ := reset_at p
  unfold RowInv
  rw [seenSet_zero, Finset.sum_empty]
  exact ⟨Or.inl ⟨rfl, e1, e2⟩, e3⟩

theorem point_step (c : Dev nD) (hxw : ∀ (r : Fin 4096) (d : Fin 64), ∃ x : ℝ, (xwArr V c (ix2 r d) : EReal) = x)
    (htb : ∀ (d : Fin 64) (n : Fin 40960), ∃ x : ℝ, (tbArr V c (ix2 d n) : EReal) = x)
    (t : Fin cfg2.N) (p : Fin 512) (r : Fin 4096) (hr : r.val = 512 * (t.val / 10) + p.val) (st : St Ideal)
    (hinv : RowInv V c r p (t.val % 10) st) :
    RowInv V c r p (t.val % 10 + 1)
      (step (F := Ideal) (grid2.coords t) (iblk V c 0 t) (iblk V c 1 t) (iblk V c 2 t) st) := by
  obtain ⟨-, -, -, -, -, -, -, -, hcol⟩ := idx_facts t
  have hj : t.val % 10 < 10 := Nat.mod_lt _ (by decide)
  have hsc : ∀ q : Fin 4096, sc (grid2.coords t) (iblk V c 0 t) (iblk V c 1 t) p q
      = gRow V c r (4096 * (t.val % 10) + q.val) := fun q => by rw [sc_blocks V c t p r hr q, hcol]
  have hrel : relOf (iblk V c 2 t) p = relW (tgArr V c (ix2 r (0 : Fin 1))) := by
    rw [relOf_eq_relW, iblk2_at V c t p r hr]
  have hm := step_max (grid2.coords t) (iblk V c 0 t) (iblk V c 1 t) (iblk V c 2 t) st p
  have hl := step_sum (grid2.coords t) (iblk V c 0 t) (iblk V c 1 t) (iblk V c 2 t) st p
  have ha := step_pick (grid2.coords t) (iblk V c 0 t) (iblk V c 1 t) (iblk V c 2 t) st p
  rw [hcol] at hm hl ha
  rw [hrel] at ha
  simp only [hsc] at hm hl ha
  exact row_step (gRow V c r) (gRow_real V c hxw htb r) (relW (tgArr V c (ix2 r (0 : Fin 1)))) (t.val % 10) hj
    _ _ _ _ _ _ hinv.1 hinv.2 hm hl ha

theorem row_inv (c : Dev nD) (hxw : ∀ (r : Fin 4096) (d : Fin 64), ∃ x : ℝ, (xwArr V c (ix2 r d) : EReal) = x)
    (htb : ∀ (d : Fin 64) (n : Fin 40960), ∃ x : ℝ, (tbArr V c (ix2 d n) : EReal) = x) (p : Fin 512) (r : Fin 4096) :
    ∀ (n : ℕ) (hn : n < cfg2.N), r.val = 512 * (n / 10) + p.val → RowInv V c r p (n % 10 + 1) (stAt V c n hn) := by
  intro n
  induction n with
  | zero =>
    intro hn hr
    have e := stAt_first V c ⟨0, hn⟩ rfl
    rw [e]
    exact point_step V c hxw htb ⟨0, hn⟩ p r hr reset (rowInv_reset V c r p)
  | succ n ih =>
    intro hn hr
    by_cases h : (n + 1) % 10 = 0
    · have e := stAt_first V c ⟨n + 1, hn⟩ h
      rw [e]
      refine point_step V c hxw htb ⟨n + 1, hn⟩ p r hr reset ?_
      show RowInv V c r p ((n + 1) % 10) reset
      rw [h]
      exact rowInv_reset V c r p
    · have e := stAt_next V c ⟨n + 1, hn⟩ h
      rw [e]
      refine point_step V c hxw htb ⟨n + 1, hn⟩ p r hr _ ?_
      have hr' : r.val = 512 * (n / 10) + p.val := by omega
      have ih' := ih (Nat.lt_of_succ_lt hn) hr'
      have hJ : n % 10 + 1 = (n + 1) % 10 := by omega
      rw [hJ] at ih'
      exact ih'

theorem row_last (c : Dev nD) (hxw : ∀ (r : Fin 4096) (d : Fin 64), ∃ x : ℝ, (xwArr V c (ix2 r d) : EReal) = x)
    (htb : ∀ (d : Fin 64) (n : Fin 40960), ∃ x : ℝ, (tbArr V c (ix2 d n) : EReal) = x)
    (htg : ∀ r : Fin 4096, 0 ≤ (tgArr V c (ix2 r (0 : Fin 1))).toInt ∧ (tgArr V c (ix2 r (0 : Fin 1))).toInt < 50257)
    (t : Fin cfg2.N) (h9 : t.val % 10 = 9) (p : Fin 512) (r : Fin 4096) (hr : r.val = 512 * (t.val / 10) + p.val) :
    fin (F := Ideal) (iblk V c 2 t) (stAt V c t.val t.isLt) (ix2 p (0 : Fin 1))
      = tailTerm (fun k : Fin 40257 => gRow V c r k.val) ((tgArr V c (ix2 r (0 : Fin 1))).toInt) 10000 50257 := by
  have hinv := row_inv V c hxw htb p r t.val t.isLt hr
  rw [h9] at hinv
  obtain ⟨hm, hl, ha⟩ := row_final (gRow V c r) _ _ _ _ hinv.1 hinv.2
  refine (fin_at (iblk V c 2 t) (stAt V c t.val t.isLt) p).trans ?_
  rw [iblk2_at V c t p r hr, hm, hl, ha]
  exact write_eq_tailTerm _ (gRow_real V c hxw htb r) _ (htg r).1 (htg r).2 _ (relW_eq _ (htg r).1 (htg r).2)

def rowOf (i : S4096x1.Idx) : Fin 4096 := ⟨(i 0).val, idx2_lt0 i⟩

def tailArr (c : Dev nD) : Vec Ideal S4096x1 .f32 := fun i =>
  tailTerm (fun k : Fin 40257 => gRow V c (rowOf i) k.val) ((tgArr V c (ix2 (rowOf i) (0 : Fin 1))).toInt) 10000 50257

theorem flushed_eq (c : Dev nD) (hxw : ∀ (r : Fin 4096) (d : Fin 64), ∃ x : ℝ, (xwArr V c (ix2 r d) : EReal) = x)
    (htb : ∀ (d : Fin 64) (n : Fin 40960), ∃ x : ℝ, (tbArr V c (ix2 d n) : EReal) = x)
    (htg : ∀ r : Fin 4096, 0 ≤ (tgArr V c (ix2 r (0 : Fin 1))).toInt ∧ (tgArr V c (ix2 r (0 : Fin 1))).toInt < 50257)
    (t : Fin cfg2.N) (hf : (cfg2.win 3).flush t = true) :
    (dat V c).flushed 3 t = ((cfg2.win 3).blk t).view.read (Elt Ideal) (tailArr V c) := by
  have h9 : t.val % 10 = 9 := (flush2_3 t).mp hf
  obtain ⟨-, -, -, -, -, -, e0, e1, -⟩ := idx_facts t
  have hN : cfg2.N = 80 := N_2
  show (cfg2.win 3).cut (grid2.coords t) ((dat V c).after 3 t) = _
  rw [after3]
  funext j
  obtain ⟨p, z, rfl⟩ : ∃ (p : Fin 512) (z : Fin 1), j = ix2 p z := ⟨j 0, j 1, eq_ix2 j⟩
  obtain rfl : z = 0 := Subsingleton.elim _ _
  have hlt : 512 * (t.val / 10) + p.val < 4096 := by have := t.isLt; have := p.isLt; omega
  show fin (F := Ideal) (iblk V c 2 t) (stAt V c t.val t.isLt) (ix2 p (0 : Fin 1))
    = tailArr V c (((cfg2.win 3).blk t).view.emb (ix2 p (0 : Fin 1)))
  rw [row_last V c hxw htb htg t h9 p ⟨512 * (t.val / 10) + p.val, hlt⟩ rfl]
  unfold tailArr
  have er : rowOf (((cfg2.win 3).blk t).view.emb (ix2 p (0 : Fin 1))) = ⟨512 * (t.val / 10) + p.val, hlt⟩ :=
    Fin.ext (by show win2_3.index t 0 * 512 + 1 * p.val = 512 * (t.val / 10) + p.val; rw [e0]; omega)
  rw [er]

theorem mem_blk3 (t : Fin cfg2.N) (i : S4096x1.Idx) :
    i ∈ ((cfg2.win 3).blk t).view.set
      ↔ ∀ a : Fin 2, win2_3.index t a * S512x1.size a ≤ (i a).val ∧ (i a).val < win2_3.index t a * S512x1.size a + S512x1.size a := by
  show i ∈ ((View.whole main_v11).slice (win2_3.rect t)).set ↔ _
  rw [View.set_slice_whole, Rect.mem_set_unit]
  exact Iff.rfl

theorem covered (i : S4096x1.Idx) :
    ∃ t : Fin cfg2.N, (cfg2.win 3).flush t = true ∧ i ∈ ((cfg2.win 3).blk t).view.set := by
  have hi0 : (i 0).val < 4096 := idx2_lt0 i
  have hi1 : (i 1).val < 1 := idx2_lt1 i
  have hN : cfg2.N = 80 := N_2
  have hlt : 10 * ((i 0).val / 512) + 9 < cfg2.N := by rw [hN]; omega
  obtain ⟨-, -, -, -, -, -, e0, e1, -⟩ := idx_facts ⟨10 * ((i 0).val / 512) + 9, hlt⟩
  refine ⟨⟨10 * ((i 0).val / 512) + 9, hlt⟩, (flush2_3 _).mpr (by show (10 * ((i 0).val / 512) + 9) % 10 = 9; omega), ?_⟩
  rw [mem_blk3]
  intro a
  match a with
  | ⟨0, _⟩ =>
    show win2_3.index ⟨10 * ((i 0).val / 512) + 9, hlt⟩ 0 * 512 ≤ (i 0).val
      ∧ (i 0).val < win2_3.index ⟨10 * ((i 0).val / 512) + 9, hlt⟩ 0 * 512 + 512
    rw [e0]
    show (10 * ((i 0).val / 512) + 9) / 10 * 512 ≤ (i 0).val ∧ (i 0).val < (10 * ((i 0).val / 512) + 9) / 10 * 512 + 512
    omega
  | ⟨1, _⟩ =>
    show win2_3.index ⟨10 * ((i 0).val / 512) + 9, hlt⟩ 1 * 1 ≤ (i 1).val
      ∧ (i 1).val < win2_3.index ⟨10 * ((i 0).val / 512) + 9, hlt⟩ 1 * 1 + 1
    rw [e1]
    omega

theorem tail2_array (c : Dev nD) (hxw : ∀ (r : Fin 4096) (d : Fin 64), ∃ x : ℝ, (xwArr V c (ix2 r d) : EReal) = x)
    (htb : ∀ (d : Fin 64) (n : Fin 40960), ∃ x : ℝ, (tbArr V c (ix2 d n) : EReal) = x)
    (htg : ∀ r : Fin 4096, 0 ≤ (tgArr V c (ix2 r (0 : Fin 1))).toInt ∧ (tgArr V c (ix2 r (0 : Fin 1))).toInt < 50257) :
    (dat V c).arrAt 3 cfg2.N = tailArr V c :=
  (dat V c).arrAt_eq_of_cover 3 (tailArr V c) (fun t hf => flushed_eq V c hxw htb htg t hf) covered

/-- Each row of the second tail's output array is the tail's term of the specification over the projected rows and the table. -/
theorem tail2_value (c : Dev nD) (hxw : ∀ (r : Fin 4096) (d : Fin 64), ∃ x : ℝ, (xwArr V c (ix2 r d) : EReal) = x)
    (htb : ∀ (d : Fin 64) (n : Fin 40960), ∃ x : ℝ, (tbArr V c (ix2 d n) : EReal) = x)
    (htg : ∀ r : Fin 4096, 0 ≤ (tgArr V c (ix2 r (0 : Fin 1))).toInt ∧ (tgArr V c (ix2 r (0 : Fin 1))).toInt < 50257)
    (r : Fin 4096) :
    ((dat V c).arrAt 3 cfg2.N : Vec Ideal S4096x1 .f32) (ix2 r (0 : Fin 1))
      = tailTerm (fun j : Fin 40257 => ∑ d : Fin 64, (xwArr V c (ix2 r d) : EReal)
          * (tbArr V c (ix2 d ⟨j.val, Nat.lt_trans j.isLt (by decide)⟩) : EReal))
        ((tgArr V c (ix2 r (0 : Fin 1))).toInt) 10000 50257 := by
  rw [tail2_array V c hxw htb htg]
  unfold tailArr
  have er : rowOf (ix2 r (0 : Fin 1)) = r := Fin.ext rfl
  rw [er]
  refine congrArg (fun s => tailTerm s ((tgArr V c (ix2 r (0 : Fin 1))).toInt) 10000 50257) (funext fun k => ?_)
  unfold gRow
  rw [dif_pos (Nat.lt_trans k.isLt (by decide))]

end Cert.KernelIdeal.R2

end
-- ==== Proof.KValue.lean ====
import proofs.«419215_j38122129719724_3_alg».proof.Proof.KTail
import proofs.«419215_j38122129719724_3_alg».proof.Proof.KEntry
import proofs.«419215_j38122129719724_3_alg».proof.Proof.HeadArrays
import proofs.«419215_j38122129719724_3_alg».proof.Proof.SpecArgs
import proofs.«419215_j38122129719724_3_alg».proof.Proof.Softmax
import proofs.«419215_j38122129719724_3_alg».proof.Proof.Tail1Value
import proofs.«419215_j38122129719724_3_alg».proof.Proof.Tail2Value
import Idealize.ShloMosaic.Lib.Pipeline.Value

noncomputable section

namespace Cert.KernelIdeal.KValue

open Cert.KernelIdeal Cert.KernelIdeal.Gen Cert.KernelIdeal.KRun
open Idealize.ShloMosaic Idealize.ShloMosaic.TcCoe Idealize.ShloMosaic.ValueIdx Idealize.SL.Sem
open Cert.Spec

variable (m : (ℓ : Loc nD τ sig) → Buf (Elt Ideal) ℓ) (c : Dev nD)

def args : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem x_at (r : Fin 4096) (k : Fin 1024) : HeadArrays.xArr (atRefs (W5 m)) c (ix2 r k) = (args m c).X r k :=
  congrFun (KEntry.arg0_eq m c) (ix2 r k)
theorem w_at (q : Fin 2002) (k : Fin 1024) : HeadArrays.wArr (atRefs (W5 m)) c (ix2 q k) = (args m c).HW q k :=
  congrFun (KEntry.v1_eq m c) (ix2 q k)
theorem l0_at (k : Fin 1024) (d : Fin 256) : HeadArrays.l0Arr (atRefs (W5 m)) c (ix2 k d) = (args m c).L0 k d :=
  congrFun (KEntry.v2_eq m c) (ix2 k d)
theorem l1_at (k : Fin 1024) (d : Fin 64) : HeadArrays.l1Arr (atRefs (W5 m)) c (ix2 k d) = (args m c).L1 k d :=
  congrFun (KEntry.v3_eq m c) (ix2 k d)
theorem tg_at (r : Fin 4096) : (HeadArrays.tgArr (atRefs (W5 m)) c (ix2 r 0)).toInt = (args m c).tgt r :=
  congrArg BitVec.toInt (KEntry.v0_apply m c r)

theorem headOk (hok : (args m c).Ok) : HeadArrays.Ok (atRefs (W5 m)) c where
  x r k := by obtain ⟨a, ha⟩ := hok.X r k; exact ⟨a, (x_at m c r k).trans ha⟩
  w q k := by obtain ⟨a, ha⟩ := hok.HW q k; exact ⟨a, (w_at m c q k).trans ha⟩
  t r := by rw [tg_at]; exact hok.T r

theorem head_col (hok : (args m c).Ok) (r : Fin 4096) :
    (W8 m c (Proc.devRef .tc main_v9_0) : S4096x1.Idx → EReal) (ix2 r 0) = (args m c).headTerm r := by
  have e8 : W8 m c (Proc.devRef .tc main_v9_0) = (R0.dat (atRefs (W5 m)) c).arrAt 5 cfg0.N :=
    (W8_of_ne m c main_v9_0 (by decide)).trans ((W7_of_ne m c main_v9_0 (by decide)).trans (W6_arr m c 5))
  rw [e8]
  refine (HeadArrays.arr5_apply (atRefs (W5 m)) c (headOk m c hok) r).trans ?_
  rw [Args.headTerm_eq, tg_at]
  refine congrArg (fun s => headTermOf s ((args m c).tgt r)) ?_
  funext q
  exact Finset.sum_congr rfl fun k _ => by rw [x_at, w_at]

theorem proj0_at (r : Fin 4096) (d : Fin 256) :
    (W6 m c (Proc.devRef .tc main_v9_1) : S4096x256.Idx → EReal) (ix2 r d) = (args m c).xw0 r d := by
  have e : (W6 m c (Proc.devRef .tc main_v9_1) : S4096x256.Idx → EReal) = ((R0.dat (atRefs (W5 m)) c).arrAt 6 cfg0.N : Vec Ideal S4096x256 .bf16) :=
    W6_arr m c 6
  refine ((congrFun e (ix2 r d)).trans (HeadArrays.arr6_apply (atRefs (W5 m)) c r d)).trans ?_
  show (∑ k : Fin 1024, HeadArrays.xArr (atRefs (W5 m)) c (ix2 r k) * HeadArrays.l0Arr (atRefs (W5 m)) c (ix2 k d) : EReal)
    = ∑ k : Fin 1024, (args m c).X r k * (args m c).L0 k d
  exact Finset.sum_congr rfl fun k _ => by rw [x_at, l0_at]
theorem proj1_at (r : Fin 4096) (d : Fin 64) :
    (W6 m c (Proc.devRef .tc main_v9_2) : S4096x64.Idx → EReal) (ix2 r d) = (args m c).xw1 r d := by
  have e : (W6 m c (Proc.devRef .tc main_v9_2) : S4096x64.Idx → EReal) = ((R0.dat (atRefs (W5 m)) c).arrAt 7 cfg0.N : Vec Ideal S4096x64 .bf16) :=
    W6_arr m c 7
  refine ((congrFun e (ix2 r d)).trans (HeadArrays.arr7_apply (atRefs (W5 m)) c r d)).trans ?_
  show (∑ k : Fin 1024, HeadArrays.xArr (atRefs (W5 m)) c (ix2 r k) * HeadArrays.l1Arr (atRefs (W5 m)) c (ix2 k d) : EReal)
    = ∑ k : Fin 1024, (args m c).X r k * (args m c).L1 k d
  exact Finset.sum_congr rfl fun k _ => by rw [x_at, l1_at]

theorem tg6_at (r : Fin 4096) :
    ((W6 m c (Proc.devRef .tc main_v0) : S4096x1.Idx → BitVec 32) (ix2 r 0)).toInt = (args m c).tgt r := by
  have e : W6 m c (Proc.devRef .tc main_v0) = W5 m c (Proc.devRef .tc main_v0) :=
    (W6_arr m c 4).trans (((R0.dat (atRefs (W5 m)) c).arrAt_in 4 rfl _).trans (R0.A_eq (atRefs (W5 m)) c 4))
  rw [e]; exact tg_at m c r

theorem real_dot {n : ℕ} (f g : Fin n → EReal) (hf : ∀ k, ∃ x : ℝ, f k = x) (hg : ∀ k, ∃ x : ℝ, g k = x) :
    ∃ x : ℝ, ∑ k : Fin n, f k * g k = x := by
  choose xf hxf using hf
  choose xg hxg using hg
  refine ⟨∑ k : Fin n, xf k * xg k, ?_⟩
  rw [sm_coe_finsum]
  exact Finset.sum_congr rfl fun k _ => by rw [hxf, hxg, EReal.coe_mul]

theorem xw0_real (hok : (args m c).Ok) (r : Fin 4096) (d : Fin 256) : ∃ x : ℝ, (args m c).xw0 r d = x :=
  real_dot _ _ (fun k => hok.X r k) (fun k => hok.L0 k d)
theorem xw1_real (hok : (args m c).Ok) (r : Fin 4096) (d : Fin 64) : ∃ x : ℝ, (args m c).xw1 r d = x :=
  real_dot _ _ (fun k => hok.X r k) (fun k => hok.L1 k d)

theorem tb0_at (j : Fin 8192) (d : Fin 256) :
    (W6 m c (Proc.devRef .tc main_v5) : S8192x256.Idx → EReal) (ix2 j d)
      = if hj : j.val < 8000 then (args m c).E0 ⟨j.val, hj⟩ d else 0 := by
  rw [show W6 m c (Proc.devRef .tc main_v5) = W5 m c (Proc.devRef .tc main_v5) from W6_of_ne m c main_v5 (by decide)]
  exact KEntry.v5_apply m c j d

theorem tail0_col (hok : (args m c).Ok) (r : Fin 4096) :
    (W8 m c (Proc.devRef .tc main_v10) : S4096x1.Idx → EReal) (ix2 r 0) = (args m c).tail0Term r := by
  have e8 : (W8 m c (Proc.devRef .tc main_v10) : S4096x1.Idx → EReal) = ((R1.dat (atRefs (W6 m)) c).arrAt 3 cfg1.N : Vec Ideal S4096x1 .f32) :=
    (W8_of_ne m c main_v10 (by decide)).trans (W7_arr m c 3)
  have hx : ∀ i, ∃ a : ℝ, R1.xwA (atRefs (W6 m)) c i = a := fun i => by
    obtain ⟨p, q, rfl⟩ : ∃ (p : Fin 4096) (q : Fin 256), i = ix2 p q := ⟨i 0, i 1, eq_ix2 i⟩
    obtain ⟨x, hx⟩ := xw0_real m c hok p q; exact ⟨x, (proj0_at m c p q).trans hx⟩
  have hE : ∀ i, ∃ a : ℝ, R1.tbA (atRefs (W6 m)) c i = a := fun i => by
    obtain ⟨p, q, rfl⟩ : ∃ (p : Fin 8192) (q : Fin 256), i = ix2 p q := ⟨i 0, i 1, eq_ix2 i⟩
    have h := tb0_at m c p q
    by_cases hp : p.val < 8000
    · rw [dif_pos hp] at h; obtain ⟨a, ha⟩ := hok.E0 ⟨p.val, hp⟩ q; exact ⟨a, h.trans ha⟩
    · rw [dif_neg hp] at h; exact ⟨0, h.trans EReal.coe_zero.symm⟩
  have htg : ∀ r : Fin 4096, 0 ≤ (R1.tgA (atRefs (W6 m)) c (ix2 r 0)).toInt ∧ (R1.tgA (atRefs (W6 m)) c (ix2 r 0)).toInt < 50257 := fun r => by
    rw [show (R1.tgA (atRefs (W6 m)) c (ix2 r 0)).toInt = (args m c).tgt r from tg6_at m c r]; exact hok.T r
  refine ((congrFun e8 (ix2 r 0)).trans (R1.tail1_value (atRefs (W6 m)) c hx hE htg r)).trans ?_
  rw [Args.tail0Term_eq, show (R1.tgA (atRefs (W6 m)) c (ix2 r 0)).toInt = (args m c).tgt r from tg6_at m c r]
  refine congrArg (fun s => tailTerm s ((args m c).tgt r) 2000 10000) ?_
  funext j
  show (∑ d : Fin 256, R1.xwA (atRefs (W6 m)) c (ix2 r d) * R1.tbA (atRefs (W6 m)) c (ix2 ⟨j.val, by have := j.isLt; omega⟩ d) : EReal)
    = ∑ d : Fin 256, (args m c).xw0 r d * (args m c).E0 j d
  refine Finset.sum_congr rfl fun d _ => ?_
  rw [show R1.xwA (atRefs (W6 m)) c (ix2 r d) = (args m c).xw0 r d from proj0_at m c r d,
    show R1.tbA (atRefs (W6 m)) c (ix2 ⟨j.val, by have := j.isLt; omega⟩ d) = (args m c).E0 j d from by
      have h := tb0_at m c ⟨j.val, by have := j.isLt; omega⟩ d
      rw [dif_pos (show (⟨j.val, by have := j.isLt; omega⟩ : Fin 8192).val < 8000 from j.isLt)] at h
      exact h]

theorem tb1_at (d : Fin 64) (j : Fin 40960) :
    (W7 m c (Proc.devRef .tc main_v8) : S64x40960.Idx → EReal) (ix2 d j)
      = if hj : j.val < 40257 then (args m c).E1 ⟨j.val, hj⟩ d else 0 := by
  rw [show W7 m c (Proc.devRef .tc main_v8) = W5 m c (Proc.devRef .tc main_v8) from
    (W7_of_ne m c main_v8 (by decide)).trans (W6_of_ne m c main_v8 (by decide))]
  exact KEntry.v8_apply m c d j

theorem proj1_at7 (r : Fin 4096) (d : Fin 64) :
    (W7 m c (Proc.devRef .tc main_v9_2) : S4096x64.Idx → EReal) (ix2 r d) = (args m c).xw1 r d := by
  rw [show W7 m c (Proc.devRef .tc main_v9_2) = W6 m c (Proc.devRef .tc main_v9_2) from W7_of_ne m c main_v9_2 (by decide)]
  exact proj1_at m c r d

theorem tg7_at (r : Fin 4096) :
    ((W7 m c (Proc.devRef .tc main_v0) : S4096x1.Idx → BitVec 32) (ix2 r 0)).toInt = (args m c).tgt r := by
  have e : W7 m c (Proc.devRef .tc main_v0) = W6 m c (Proc.devRef .tc main_v0) :=
    (W7_arr m c 2).trans (((R1.dat (atRefs (W6 m)) c).arrAt_in 2 rfl _).trans (R1.A_eq (atRefs (W6 m)) c 2))
  rw [e]; exact tg6_at m c r

theorem tail1_col (hok : (args m c).Ok) (r : Fin 4096) :
    (W8 m c (Proc.devRef .tc main_v11) : S4096x1.Idx → EReal) (ix2 r 0) = (args m c).tail1Term r := by
  have e8 : (W8 m c (Proc.devRef .tc main_v11) : S4096x1.Idx → EReal) = ((R2.dat (atRefs (W7 m)) c).arrAt 3 cfg2.N : Vec Ideal S4096x1 .f32) :=
    W8_arr m c 3
  have hxw : ∀ (r : Fin 4096) (d : Fin 64), ∃ x : ℝ, (R2.xwArr (atRefs (W7 m)) c (ix2 r d) : EReal) = x := fun r d => by
    obtain ⟨x, hx⟩ := xw1_real m c hok r d; exact ⟨x, (proj1_at7 m c r d).trans hx⟩
  have htb : ∀ (d : Fin 64) (n : Fin 40960), ∃ x : ℝ, (R2.tbArr (atRefs (W7 m)) c (ix2 d n) : EReal) = x := fun d n => by
    have h := tb1_at m c d n
    by_cases hn : n.val < 40257
    · rw [dif_pos hn] at h; obtain ⟨a, ha⟩ := hok.E1 ⟨n.val, hn⟩ d; exact ⟨a, h.trans ha⟩
    · rw [dif_neg hn] at h; exact ⟨0, h.trans EReal.coe_zero.symm⟩
  have htg : ∀ r : Fin 4096, 0 ≤ (R2.tgArr (atRefs (W7 m)) c (ix2 r (0 : Fin 1))).toInt ∧ (R2.tgArr (atRefs (W7 m)) c (ix2 r (0 : Fin 1))).toInt < 50257 := fun r => by
    rw [show (R2.tgArr (atRefs (W7 m)) c (ix2 r (0 : Fin 1))).toInt = (args m c).tgt r from tg7_at m c r]; exact hok.T r
  refine ((congrFun e8 (ix2 r 0)).trans (R2.tail2_value (atRefs (W7 m)) c hxw htb htg r)).trans ?_
  rw [Args.tail1Term_eq, show (R2.tgArr (atRefs (W7 m)) c (ix2 r (0 : Fin 1))).toInt = (args m c).tgt r from tg7_at m c r]
  refine congrArg (fun s => tailTerm s ((args m c).tgt r) 10000 50257) ?_
  funext j
  show (∑ d : Fin 64, (R2.xwArr (atRefs (W7 m)) c (ix2 r d) : EReal) * (R2.tbArr (atRefs (W7 m)) c (ix2 d ⟨j.val, Nat.lt_trans j.isLt (by decide)⟩) : EReal))
    = ∑ d : Fin 64, (args m c).xw1 r d * (args m c).E1 j d
  refine Finset.sum_congr rfl fun d _ => ?_
  rw [show (R2.xwArr (atRefs (W7 m)) c (ix2 r d) : EReal) = (args m c).xw1 r d from proj1_at7 m c r d,
    show (R2.tbArr (atRefs (W7 m)) c (ix2 d ⟨j.val, Nat.lt_trans j.isLt (by decide)⟩) : EReal) = (args m c).E1 j d from by
      have h := tb1_at m c d ⟨j.val, Nat.lt_trans j.isLt (by decide)⟩
      rw [dif_pos (show (⟨j.val, Nat.lt_trans j.isLt (by decide)⟩ : Fin 40960).val < 40257 from j.isLt)] at h
      exact h]

/-- The kernel program's first result is the specification's log-probability, row by row. -/
theorem out_eq (hok : (args m c).Ok) (r : Fin 4096) :
    (W9 m c (Proc.devRef .tc main_v14) : S4096.Idx → EReal) (ix1 r) = (args m c).out r := by
  refine (congrFun (W9_v14 m c) (ix1 r)).trans ?_
  refine (shapeCast_apply _ shapeCasts_S4096x1_S4096 (ix1 r) (ix2 r (0 : Fin 1))
    (by rw [Shape.rowMajor_val_two, Shape.rowMajor_val_one]; show r.val * 1 + 0 = r.val; omega)).trans ?_
  have key : ∀ (A B C : FVec Ideal S4096x1 .f32),
      addf (addf A B) C (ix2 r (0 : Fin 1)) = (A (ix2 r 0) + B (ix2 r 0)) + C (ix2 r 0) := fun _ _ _ => rfl
  refine (key _ _ _).trans ?_
  exact congrArg₂ (· + ·) (congrArg₂ (· + ·) (head_col m c hok r) (tail0_col m c hok r)) (tail1_col m c hok r)

end Cert.KernelIdeal.KValue

end
-- ==== Proof.PreFacts.lean ====
import proofs.«419215_j38122129719724_3_alg».proof.Pre_finite_inputs
import proofs.«419215_j38122129719724_3_alg».proof.Proof.SpecArgs
import Idealize.ShloMosaic.Lib.ReduceAll
import Idealize.ShloMosaic.Lib.StableHlo.Predicate
import Idealize.ShloMosaic.PureOps.Ideal

noncomputable section

namespace Cert.PreFacts

open Idealize.ShloMosaic Idealize.ShloMosaic.ValueIdx Cert.Pre_finite_inputs

instance subsingleton_scalarIdx : Subsingleton S_.Idx := ⟨fun a b => funext fun d => d.elim0⟩

theorem inf_bits : Ideal.ofBits .f32 0x7F800000#32 = (⊤ : EReal) := by
  simp [Ideal.ofBits, Ideal.ieee]

theorem real_of_abs_lt_top (x : EReal) (h : max x (-x) < ⊤) : ∃ r : ℝ, x = r := by
  induction x using EReal.rec with
  | bot => simp at h
  | coe r => exact ⟨r, rfl⟩
  | top => simp at h

theorem entry_real {s : Shape} (hb : S_.BroadcastsInDim s (![] : Fin 0 → Fin s.rank)) (v : FVec Ideal s .f32) (i : s.Idx)
    (h : cmpf .olt (Host.absf v) (broadcastInDim s ![] hb (constant S_ .f32 0x7F800000#32)) i = 1#1) :
    ∃ r : ℝ, v i = r := by
  have h' : Ideal.cmp .olt (max (v i) (-(v i))) (Ideal.ofBits .f32 0x7F800000#32) = 1#1 := h
  rw [inf_bits] at h'
  simp only [Ideal.cmp, StableHlo.Predicate.ofBool_eq_one_iff, decide_eq_true_eq] at h'
  exact real_of_abs_lt_top _ h'

theorem array_real {s : Shape} {axes : List (Fin s.rank)} (hb : S_.BroadcastsInDim s (![] : Fin 0 → Fin s.rank))
    (hr : s.ReducesTo axes S_) (h0 : 0 < S_.numel) (v : FVec Ideal s .f32)
    (h : Host.reduce IntOp.andi (cmpf .olt (Host.absf v) (broadcastInDim s ![] hb (constant S_ .f32 0x7F800000#32)))
      (constantI S_ 1 1#1) hr h0 ix0 = 1#1) (i : s.Idx) : ∃ r : ℝ, v i = r :=
  entry_real hb v i (Host.reduce_andi_all _ _ hr h0 ix0 h i)

theorem and_split (a b : IVec S_ 1) (h : andi a b ix0 = 1#1) : a ix0 = 1#1 ∧ b ix0 = 1#1 :=
  IntOp.andi_eq_one.1 h

theorem targets_nonneg {s : Shape} {axes : List (Fin s.rank)} (hb : S_.BroadcastsInDim s (![] : Fin 0 → Fin s.rank))
    (hr : s.ReducesTo axes S_) (h0 : 0 < S_.numel) (t : IVec s 32)
    (h : Host.reduce IntOp.andi (cmpi .sge t (broadcastInDim s ![] hb (constantI S_ 32 0#32)))
      (constantI S_ 1 1#1) hr h0 ix0 = 1#1) (i : s.Idx) : 0 ≤ (t i).toInt := by
  have hi : IntOp.cmpi .sge (t i) 0#32 = 1#1 := Host.reduce_andi_all _ _ hr h0 ix0 h i
  have := IntOp.cmpi_sge.1 hi
  rwa [show (0#32 : BitVec 32).toInt = 0 from by decide] at this

theorem targets_lt {s : Shape} {axes : List (Fin s.rank)} (hb : S_.BroadcastsInDim s (![] : Fin 0 → Fin s.rank))
    (hr : s.ReducesTo axes S_) (h0 : 0 < S_.numel) (t : IVec s 32)
    (h : Host.reduce IntOp.andi (cmpi .slt t (broadcastInDim s ![] hb (constantI S_ 32 50257#32)))
      (constantI S_ 1 1#1) hr h0 ix0 = 1#1) (i : s.Idx) : (t i).toInt < 50257 := by
  have hi : IntOp.cmpi .slt (t i) 50257#32 = 1#1 := Host.reduce_andi_all _ _ hr h0 ix0 h i
  have := IntOp.cmpi_slt.1 hi
  rwa [show (50257#32 : BitVec 32).toInt = 50257 from by decide] at this

theorem ok_of_pre [Cert.Pre_finite_inputs.Facts] (x : Vec Ideal S4096x1024 .f32) (t : Vec Ideal S4096 .i32)
    (hw : Vec Ideal S2002x1024 .f32) (e0 : Vec Ideal S8000x256 .f32) (l0 : Vec Ideal S1024x256 .f32)
    (e1 : Vec Ideal S40257x64 .f32) (l1 : Vec Ideal S1024x64 .f32)
    (h : Cert.Pre_finite_inputs.fn (F := Ideal) x t hw e0 l0 e1 l1 = fun _ => 1#1) :
    (Cert.Spec.argsOf x t hw e0 l0 e1 l1).Ok := by
  have h0 := congrFun h ix0
  dsimp only [fn, fn_part1, fn_part2] at h0
  obtain ⟨h0, hT1⟩ := and_split _ _ h0
  obtain ⟨h0, hT0⟩ := and_split _ _ h0
  obtain ⟨h0, hL1⟩ := and_split _ _ h0
  obtain ⟨h0, hE1⟩ := and_split _ _ h0
  obtain ⟨h0, hL0⟩ := and_split _ _ h0
  obtain ⟨h0, hE0⟩ := and_split _ _ h0
  obtain ⟨hX, hHW⟩ := and_split _ _ h0
  exact {
    X := fun r k => array_real _ _ _ x hX (ix2 r k)
    HW := fun c k => array_real _ _ _ hw hHW (ix2 c k)
    E0 := fun j d => array_real _ _ _ e0 hE0 (ix2 j d)
    L0 := fun k d => array_real _ _ _ l0 hL0 (ix2 k d)
    E1 := fun j d => array_real _ _ _ e1 hE1 (ix2 j d)
    L1 := fun k d => array_real _ _ _ l1 hL1 (ix2 k d)
    T := fun r => ⟨targets_nonneg _ _ _ t hT0 (ix1 r), targets_lt _ _ _ t hT1 (ix1 r)⟩ }

end Cert.PreFacts

end
-- ==== Proof.LibStraightLine.lean ====
import Idealize.ShloMosaic.Lib.StableHlo.Run
import Idealize.ShloMosaic.Lib.Pipeline.Frame

namespace Idealize.ShloMosaic.StableHlo

open Idealize.ShloMosaic.TcCoe

variable {τ : Topo} {sig : RefSig} {Val : EltTy → Type}

/-- `W` names, in order, the one buffer each operation of `l` writes. -/
def WritesAre (l : List (HloOp τ sig Val)) (W : List (Ref sig .tc)) : Prop :=
  l.map HloOp.writes = W.map fun w => {Proc.devRef (τ := τ) .tc w}

variable {l : List (HloOp τ sig Val)} {W : List (Ref sig .tc)} (h : WritesAre l W) (k : Nat) (V : Valuation τ sig Val)
include h

/-- A buffer that no operation from position `k` on writes holds, after the whole line, what the first `k` left. -/
theorem after_take {r : Ref sig .tc} (hr : r ∉ W.drop k) : after (l.take k) V r = after l V r := by
  conv_rhs => rw [← List.take_append_drop k l, after_append]
  refine (after_of_forall_not_mem _ _ fun op hop hb => ?_).symm
  have hm : op.writes ∈ (W.drop k).map fun w => ({Proc.devRef (τ := τ) .tc w} : Finset (DevRef τ sig)) := by
    rw [List.map_drop, ← show l.map HloOp.writes = _ from h, ← List.map_drop]; exact List.mem_map_of_mem hop
  obtain ⟨w, hw, e⟩ := List.mem_map.mp hm
  rw [← e, Finset.mem_singleton] at hb
  exact hr (Proc.devRef_injective _ hb ▸ hw)

/-- A buffer the line never writes keeps its contents. -/
theorem after_keep {r : Ref sig .tc} (hr : r ∉ W) : after l V r = V r :=
  (after_take h 0 V hr).symm

/-- In a line that writes each buffer once, a buffer holds at the end what its own operation, the `k`-th, put there. -/
theorem after_at {op : HloOp τ sig Val} (hk : l[k]? = some op) {r : Ref sig .tc} (hr : r ∉ W.drop (k + 1)) :
    after l V r = op.result (after (l.take k) V) r := by
  rw [← after_take h (k + 1) V hr, List.take_succ, hk, after_append]
  rfl

/-! The same for each kind of operation, with its operands read at the end of the line as well: an operand is not written from
    position `k` on, so the end of the line finds it as the operation did. -/

variable {x a b c y : Ref sig .tc}

theorem after_nullary {v : y.ty.Contents Val} {hy} (hk : l[k]? = some (nullary y v hy)) (hr : y ∉ W.drop (k + 1)) :
    after l V y = v := by
  rw [after_at h k V hk hr, nullary_result]

theorem after_unary {f : x.ty.Contents Val → y.ty.Contents Val} {hx hy} (hk : l[k]? = some (unary x y f hx hy))
    (hr : y ∉ W.drop (k + 1) ∧ x ∉ W.drop k) : after l V y = f (after l V x) := by
  rw [after_at h k V hk hr.1, unary_result, after_take h k V hr.2]

theorem after_binary {f : a.ty.Contents Val → b.ty.Contents Val → y.ty.Contents Val} {ha hb hy}
    (hk : l[k]? = some (binary a b y f ha hb hy)) (hr : y ∉ W.drop (k + 1) ∧ a ∉ W.drop k ∧ b ∉ W.drop k) :
    after l V y = f (after l V a) (after l V b) := by
  rw [after_at h k V hk hr.1, binary_result]
  simp only [after_take h k V hr.2.1, after_take h k V hr.2.2]

theorem after_ternary {f : c.ty.Contents Val → a.ty.Contents Val → b.ty.Contents Val → y.ty.Contents Val} {hc ha hb hy}
    (hk : l[k]? = some (ternary c a b y f hc ha hb hy))
    (hr : y ∉ W.drop (k + 1) ∧ c ∉ W.drop k ∧ a ∉ W.drop k ∧ b ∉ W.drop k) :
    after l V y = f (after l V c) (after l V a) (after l V b) := by
  rw [after_at h k V hk hr.1, ternary_result]
  simp only [after_take h k V hr.2.1, after_take h k V hr.2.2.1, after_take h k V hr.2.2.2]

theorem after_reshape {he hn hx hy} (hk : l[k]? = some (reshape x y he hn hx hy))
    (hr : y ∉ W.drop (k + 1) ∧ x ∉ W.drop k) :
    after l V y = fun i => he ▸ shapeCast y.ty.shape (after l V x) hn i := by
  rw [after_at h k V hk hr.1, reshape_result, after_take h k V hr.2]

end Idealize.ShloMosaic.StableHlo
-- ==== Proof.RefChain.lean ====
import proofs.«419215_j38122129719724_3_alg».proof.Proof.RefRead
import proofs.«419215_j38122129719724_3_alg».proof.Proof.LibStraightLine

noncomputable section

namespace Cert.ReferenceIdeal.RefChain

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F] (V0 : Valuation τ sig (Elt F))

abbrev W : List (Ref sig .tc) := [main_c, main_v0, main_v1, main_c_0, main_v2, main_v3, main_v4, main_c_1, main_call0_v0, main_call0_v1, main_v5, main_c_2, main_v6, main_v7, main_c_3, main_v8, main_v9, main_v10, main_c_4, main_call1_v0, main_call1_v1, main_v11, main_v12, main_v13, main_call2_cst, main_call2_v0, main_call2_cst_0, main_call2_v1, main_call2_v2, main_call2_v3, main_call2_v4, main_call2_v5, main_call2_v6, main_call2_cst_1, main_call2_v7, main_call2_v8, main_call2_v9, main_call2_v10, main_v14, main_v15, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v16, main_v17, main_v18, main_v19, main_v20, main_call4_cst, main_call4_v0, main_call4_cst_0, main_call4_v1, main_call4_v2, main_call4_v3, main_call4_v4, main_call4_v5, main_call4_v6, main_call4_cst_1, main_call4_v7, main_call4_v8, main_call4_v9, main_call4_v10, main_v21, main_c_5, main_v22, main_v23, main_c_6, main_c_7, main_call5_v0, main_call5_v1, main_call5_v2, main_call5_v3, main_call5_v4, main_v24, main_v25, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v26, main_v27, main_cst, main_call7_v0, main_call7_v1, main_v28, main_v29, main_v30, main_v31, main_v32, main_call8_cst, main_call8_v0, main_call8_cst_0, main_call8_v1, main_call8_v2, main_call8_v3, main_call8_v4, main_call8_v5, main_call8_v6, main_call8_cst_1, main_call8_v7, main_call8_v8, main_call8_v9, main_call8_v10, main_v33, main_c_8, main_v34, main_v35, main_c_9, main_c_10, main_call9_v0, main_call9_v1, main_call9_v2, main_call9_v3, main_call9_v4, main_v36, main_v37, main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v38, main_v39, main_cst_11, main_call11_v0, main_call11_v1, main_v40, main_v41, main_v42, main_cst_12, main_v43, main_cst_13, main_v44]

/-- Each operation writes exactly the buffer named at its position in `W`. -/
theorem hW : WritesAre (ops : List (HloOp τ sig (Elt F))) W := by
  simp only [WritesAre, ops, List.map_cons, List.map_nil, nullary_writes, unary_writes, binary_writes, ternary_writes, reshape_writes]

theorem at_main_arg0 : after ops V0 main_arg0 = V0 main_arg0 := after_keep hW V0 (by decide)
theorem at_main_arg1 : after ops V0 main_arg1 = V0 main_arg1 := after_keep hW V0 (by decide)
theorem at_main_arg2 : after ops V0 main_arg2 = V0 main_arg2 := after_keep hW V0 (by decide)
theorem at_main_arg3 : after ops V0 main_arg3 = V0 main_arg3 := after_keep hW V0 (by decide)
theorem at_main_arg4 : after ops V0 main_arg4 = V0 main_arg4 := after_keep hW V0 (by decide)
theorem at_main_arg5 : after ops V0 main_arg5 = V0 main_arg5 := after_keep hW V0 (by decide)
theorem at_main_arg6 : after ops V0 main_arg6 = V0 main_arg6 := after_keep hW V0 (by decide)

/-! Each buffer the program writes holds at the end its stage function of the arguments: the operation that writes it is applied to its operands' contents at the end, which are their own stage functions. -/
theorem at_main_c : after ops V0 main_c = ReadP.val_main_c (F := F) :=
  (after_nullary hW 0 V0 rfl (by decide)).trans rfl
theorem at_main_v0 : after ops V0 main_v0 = ReadP.val_main_v0 (F := F) :=
  (after_unary hW 1 V0 rfl (by decide)).trans (by rw [at_main_c]; rfl)
theorem at_main_v1 : after ops V0 main_v1 = ReadP.val_main_v1 (V0 main_arg1) :=
  (after_binary hW 2 V0 rfl (by decide)).trans (by rw [at_main_arg1, at_main_v0]; rfl)
theorem at_main_c_0 : after ops V0 main_c_0 = ReadP.val_main_c_0 (F := F) :=
  (after_nullary hW 3 V0 rfl (by decide)).trans rfl
theorem at_main_v2 : after ops V0 main_v2 = ReadP.val_main_v2 (F := F) :=
  (after_unary hW 4 V0 rfl (by decide)).trans (by rw [at_main_c_0]; rfl)
theorem at_main_v3 : after ops V0 main_v3 = ReadP.val_main_v3 (V0 main_arg1) :=
  (after_binary hW 5 V0 rfl (by decide)).trans (by rw [at_main_arg1, at_main_v2]; rfl)
theorem at_main_v4 : after ops V0 main_v4 = ReadP.val_main_v4 (V0 main_arg1) :=
  (after_binary hW 6 V0 rfl (by decide)).trans (by rw [at_main_v1, at_main_v3]; rfl)
theorem at_main_c_1 : after ops V0 main_c_1 = ReadP.val_main_c_1 (F := F) :=
  (after_nullary hW 7 V0 rfl (by decide)).trans rfl
theorem at_main_call0_v0 : after ops V0 main_call0_v0 = ReadP.val_main_call0_v0 (F := F) :=
  (after_unary hW 8 V0 rfl (by decide)).trans (by simp only [TRef.ofBuf, TRef.toBuf, cast_eq]; rw [at_main_c_1]; rfl)
theorem at_main_call0_v1 : after ops V0 main_call0_v1 = ReadP.val_main_call0_v1 (F := F) :=
  (after_unary hW 9 V0 rfl (by decide)).trans (by simp only [TRef.ofBuf, TRef.toBuf, cast_eq]; rw [at_main_call0_v0]; rfl)
theorem at_main_v5 : after ops V0 main_v5 = ReadP.val_main_v5 (V0 main_arg1) :=
  (after_ternary hW 10 V0 rfl (by decide)).trans (by simp only [TRef.ofBuf, TRef.toBuf, cast_eq]; rw [at_main_v4, at_main_call0_v1, at_main_arg1]; rfl)
theorem at_main_c_2 : after ops V0 main_c_2 = ReadP.val_main_c_2 (F := F) :=
  (after_nullary hW 11 V0 rfl (by decide)).trans rfl
theorem at_main_v6 : after ops V0 main_v6 = ReadP.val_main_v6 (F := F) :=
  (after_unary hW 12 V0 rfl (by decide)).trans (by rw [at_main_c_2]; rfl)
theorem at_main_v7 : after ops V0 main_v7 = ReadP.val_main_v7 (V0 main_arg1) :=
  (after_binary hW 13 V0 rfl (by decide)).trans (by rw [at_main_arg1, at_main_v6]; rfl)
theorem at_main_c_3 : after ops V0 main_c_3 = ReadP.val_main_c_3 (F := F) :=
  (after_nullary hW 14 V0 rfl (by decide)).trans rfl
theorem at_main_v8 : after ops V0 main_v8 = ReadP.val_main_v8 (F := F) :=
  (after_unary hW 15 V0 rfl (by decide)).trans (by rw [at_main_c_3]; rfl)
theorem at_main_v9 : after ops V0 main_v9 = ReadP.val_main_v9 (V0 main_arg1) :=
  (after_binary hW 16 V0 rfl (by decide)).trans (by rw [at_main_arg1, at_main_v8]; rfl)
theorem at_main_v10 : after ops V0 main_v10 = ReadP.val_main_v10 (V0 main_arg1) :=
  (after_binary hW 17 V0 rfl (by decide)).trans (by rw [at_main_v7, at_main_v9]; rfl)
theorem at_main_c_4 : after ops V0 main_c_4 = ReadP.val_main_c_4 (F := F) :=
  (after_nullary hW 18 V0 rfl (by decide)).trans rfl
theorem at_main_call1_v0 : after ops V0 main_call1_v0 = ReadP.val_main_call1_v0 (F := F) :=
  (after_unary hW 19 V0 rfl (by decide)).trans (by simp only [TRef.ofBuf, TRef.toBuf, cast_eq]; rw [at_main_c_4]; rfl)
theorem at_main_call1_v1 : after ops V0 main_call1_v1 = ReadP.val_main_call1_v1 (F := F) :=
  (after_unary hW 20 V0 rfl (by decide)).trans (by simp only [TRef.ofBuf, TRef.toBuf, cast_eq]; rw [at_main_call1_v0]; rfl)
theorem at_main_v11 : after ops V0 main_v11 = ReadP.val_main_v11 (V0 main_arg1) :=
  (after_ternary hW 21 V0 rfl (by decide)).trans (by simp only [TRef.ofBuf, TRef.toBuf, cast_eq]; rw [at_main_v10, at_main_call1_v1, at_main_v5]; rfl)
theorem at_main_v12 : after ops V0 main_v12 = ReadP.val_main_v12 (V0 main_arg2) :=
  (after_unary hW 22 V0 rfl (by decide)).trans (by rw [at_main_arg2]; rfl)
theorem at_main_v13 : after ops V0 main_v13 = ReadP.val_main_v13 (V0 main_arg0) (V0 main_arg2) :=
  (after_binary hW 23 V0 rfl (by decide)).trans (by rw [at_main_arg0, at_main_v12]; rfl)
theorem at_main_call2_cst : after ops V0 main_call2_cst = ReadP.val_main_call2_cst (F := F) :=
  (after_nullary hW 24 V0 rfl (by decide)).trans (by simp only [TRef.ofBuf, TRef.toBuf, cast_eq]; rfl)
theorem at_main_call2_v0 : after ops V0 main_call2_v0 = ReadP.val_main_call2_v0 (V0 main_arg0) (V0 main_arg2) :=
  (after_binary hW 25 V0 rfl (by decide)).trans (by simp only [TRef.ofBuf, TRef.toBuf, cast_eq]; rw [at_main_v13, at_main_call2_cst]; rfl)
theorem at_main_call2_cst_0 : after ops V0 main_call2_cst_0 = ReadP.val_main_call2_cst_0 (F := F) :=
  (after_nullary hW 26 V0 rfl (by decide)).trans (by simp only [TRef.ofBuf, TRef.toBuf, cast_eq]; rfl)
theorem at_main_call2_v1 : after ops V0 main_call2_v1 = ReadP.val_main_call2_v1 (F := F) :=
  (after_unary hW 27 V0 rfl (by decide)).trans (by simp only [TRef.ofBuf, TRef.toBuf, cast_eq]; rw [at_main_call2_cst_0]; rfl)
theorem at_main_call2_v2 : after ops V0 main_call2_v2 = ReadP.val_main_call2_v2 (V0 main_arg0) (V0 main_arg2) :=
  (after_binary hW 28 V0 rfl (by decide)).trans (by simp only [TRef.ofBuf, TRef.toBuf, cast_eq]; rw [at_main_call2_v1, at_main_call2_v0]; rfl)
theorem at_main_call2_v3 : after ops V0 main_call2_v3 = ReadP.val_main_call2_v3 (V0 main_arg0) (V0 main_arg2) :=
  (after_unary hW 29 V0 rfl (by decide)).trans (by simp only [TRef.ofBuf, TRef.toBuf, cast_eq]; rw [at_main_call2_v2]; rfl)
theorem at_main_call2_v4 : after ops V0 main_call2_v4 = ReadP.val_main_call2_v4 (V0 main_arg0) (V0 main_arg2) :=
  (after_unary hW 30 V0 rfl (by decide)).trans (by simp only [TRef.ofBuf, TRef.toBuf, cast_eq]; rw [at_main_call2_v3]; rfl)
theorem at_main_call2_v5 : after ops V0 main_call2_v5 = ReadP.val_main_call2_v5 (V0 main_arg0) (V0 main_arg2) :=
  (after_binary hW 31 V0 rfl (by decide)).trans (by simp only [TRef.ofBuf, TRef.toBuf, cast_eq]; rw [at_main_v13, at_main_call2_v4]; rfl)
theorem at_main_call2_v6 : after ops V0 main_call2_v6 = ReadP.val_main_call2_v6 (V0 main_arg0) (V0 main_arg2) :=
  (after_unary hW 32 V0 rfl (by decide)).trans (by simp only [TRef.ofBuf, TRef.toBuf, cast_eq]; rw [at_main_call2_v5]; rfl)
theorem at_main_call2_cst_1 : after ops V0 main_call2_cst_1 = ReadP.val_main_call2_cst_1 (F := F) :=
  (after_nullary hW 33 V0 rfl (by decide)).trans (by simp only [TRef.ofBuf, TRef.toBuf, cast_eq]; rfl)
theorem at_main_call2_v7 : after ops V0 main_call2_v7 = ReadP.val_main_call2_v7 (V0 main_arg0) (V0 main_arg2) :=
  (after_binary hW 34 V0 rfl (by decide)).trans (by simp only [TRef.ofBuf, TRef.toBuf, cast_eq]; rw [at_main_call2_v6, at_main_call2_cst_1]; rfl)
theorem at_main_call2_v8 : after ops V0 main_call2_v8 = ReadP.val_main_call2_v8 (V0 main_arg0) (V0 main_arg2) :=
  (after_unary hW 35 V0 rfl (by decide)).trans (by simp only [TRef.ofBuf, TRef.toBuf, cast_eq]; rw [at_main_call2_v7]; rfl)
theorem at_main_call2_v9 : after ops V0 main_call2_v9 = ReadP.val_main_call2_v9 (V0 main_arg0) (V0 main_arg2) :=
  (after_unary hW 36 V0 rfl (by decide)).trans (by simp only [TRef.ofBuf, TRef.toBuf, cast_eq]; rw [at_main_call2_v8]; rfl)
theorem at_main_call2_v10 : after ops V0 main_call2_v10 = ReadP.val_main_call2_v10 (V0 main_arg0) (V0 main_arg2) :=
  (after_unary hW 37 V0 rfl (by decide)).trans (by simp only [TRef.ofBuf, TRef.toBuf, cast_eq]; rw [at_main_call2_v9]; rfl)
theorem at_main_v14 : after ops V0 main_v14 = ReadP.val_main_v14 (V0 main_arg0) (V0 main_arg2) :=
  (after_binary hW 38 V0 rfl (by decide)).trans (by simp only [TRef.ofBuf, TRef.toBuf, cast_eq]; rw [at_main_call2_v5, at_main_call2_v10]; rfl)
theorem at_main_v15 : after ops V0 main_v15 = ReadP.val_main_v15 (V0 main_arg1) :=
  (after_unary hW 39 V0 rfl (by decide)).trans (by rw [at_main_v11]; rfl)
theorem at_main_call3_c : after ops V0 main_call3_c = ReadP.val_main_call3_c (F := F) :=
  (after_nullary hW 40 V0 rfl (by decide)).trans (by simp only [TRef.ofBuf, TRef.toBuf, cast_eq]; rfl)
theorem at_main_call3_v0 : after ops V0 main_call3_v0 = ReadP.val_main_call3_v0 (F := F) :=
  (after_unary hW 41 V0 rfl (by decide)).trans (by simp only [TRef.ofBuf, TRef.toBuf, cast_eq]; rw [at_main_call3_c]; rfl)
theorem at_main_call3_v1 : after ops V0 main_call3_v1 = ReadP.val_main_call3_v1 (V0 main_arg1) :=
  (after_binary hW 42 V0 rfl (by decide)).trans (by simp only [TRef.ofBuf, TRef.toBuf, cast_eq]; rw [at_main_v15, at_main_call3_v0]; rfl)
theorem at_main_call3_c_0 : after ops V0 main_call3_c_0 = ReadP.val_main_call3_c_0 (F := F) :=
  (after_nullary hW 43 V0 rfl (by decide)).trans (by simp only [TRef.ofBuf, TRef.toBuf, cast_eq]; rfl)
theorem at_main_call3_v2 : after ops V0 main_call3_v2 = ReadP.val_main_call3_v2 (F := F) :=
  (after_unary hW 44 V0 rfl (by decide)).trans (by simp only [TRef.ofBuf, TRef.toBuf, cast_eq]; rw [at_main_call3_c_0]; rfl)
theorem at_main_call3_v3 : after ops V0 main_call3_v3 = ReadP.val_main_call3_v3 (V0 main_arg1) :=
  (after_binary hW 45 V0 rfl (by decide)).trans (by simp only [TRef.ofBuf, TRef.toBuf, cast_eq]; rw [at_main_v15, at_main_call3_v2]; rfl)
theorem at_main_call3_v4 : after ops V0 main_call3_v4 = ReadP.val_main_call3_v4 (V0 main_arg1) :=
  (after_ternary hW 46 V0 rfl (by decide)).trans (by simp only [TRef.ofBuf, TRef.toBuf, cast_eq]; rw [at_main_call3_v1, at_main_call3_v3, at_main_v15]; rfl)
theorem at_main_call3_v5 : after ops V0 main_call3_v5 = ReadP.val_main_call3_v5 (V0 main_arg1) :=
  (after_reshape hW 47 V0 rfl (by decide)).trans (by simp only [TRef.ofBuf, TRef.toBuf, cast_eq]; rw [at_main_call3_v4]; rfl)
theorem at_main_call3_c_1 : after ops V0 main_call3_c_1 = ReadP.val_main_call3_c_1 (F := F) :=
  (after_nullary hW 48 V0 rfl (by decide)).trans (by simp only [TRef.ofBuf, TRef.toBuf, cast_eq]; rfl)
theorem at_main_call3_c_2 : after ops V0 main_call3_c_2 = ReadP.val_main_call3_c_2 (F := F) :=
  (after_nullary hW 49 V0 rfl (by decide)).trans (by simp only [TRef.ofBuf, TRef.toBuf, cast_eq]; rfl)
theorem at_main_call3_v6 : after ops V0 main_call3_v6 = ReadP.val_main_call3_v6 (F := F) :=
  (after_unary hW 50 V0 rfl (by decide)).trans (by simp only [TRef.ofBuf, TRef.toBuf, cast_eq]; rw [at_main_call3_c_2]; rfl)
theorem at_main_call3_v7 : after ops V0 main_call3_v7 = ReadP.val_main_call3_v7 (V0 main_arg1) :=
  (after_binary hW 51 V0 rfl (by decide)).trans (by simp only [TRef.ofBuf, TRef.toBuf, cast_eq]; rw [at_main_call3_v5, at_main_call3_v6]; rfl)
theorem at_main_call3_v8 : after ops V0 main_call3_v8 = ReadP.val_main_call3_v8 (F := F) :=
  (after_unary hW 52 V0 rfl (by decide)).trans (by simp only [TRef.ofBuf, TRef.toBuf, cast_eq]; rw [at_main_call3_c_1]; rfl)
theorem at_main_call3_v9 : after ops V0 main_call3_v9 = ReadP.val_main_call3_v9 (F := F) :=
  (after_unary hW 53 V0 rfl (by decide)).trans (by simp only [TRef.ofBuf, TRef.toBuf, cast_eq]; rw [at_main_call3_v8]; rfl)
theorem at_main_call3_v10 : after ops V0 main_call3_v10 = ReadP.val_main_call3_v10 (V0 main_arg1) :=
  (after_binary hW 54 V0 rfl (by decide)).trans (by simp only [TRef.ofBuf, TRef.toBuf, cast_eq]; rw [at_main_call3_v5, at_main_call3_v9]; rfl)
theorem at_main_call3_v11 : after ops V0 main_call3_v11 = ReadP.val_main_call3_v11 (V0 main_arg1) :=
  (after_binary hW 55 V0 rfl (by decide)).trans (by simp only [TRef.ofBuf, TRef.toBuf, cast_eq]; rw [at_main_call3_v7, at_main_call3_v10]; rfl)
theorem at_main_call3_c_3 : after ops V0 main_call3_c_3 = ReadP.val_main_call3_c_3 (F := F) :=
  (after_nullary hW 56 V0 rfl (by decide)).trans (by simp only [TRef.ofBuf, TRef.toBuf, cast_eq]; rfl)
theorem at_main_call3_v12 : after ops V0 main_call3_v12 = ReadP.val_main_call3_v12 (V0 main_arg1) :=
  (after_binary hW 57 V0 rfl (by decide)).trans (by simp only [TRef.ofBuf, TRef.toBuf, cast_eq]; rw [at_main_call3_v11, at_main_call3_c_3]; rfl)
theorem at_main_call3_v13 : after ops V0 main_call3_v13 = ReadP.val_main_call3_v13 (V0 main_arg0) (V0 main_arg1) (V0 main_arg2) :=
  (after_binary hW 58 V0 rfl (by decide)).trans (by simp only [TRef.ofBuf, TRef.toBuf, cast_eq]; rw [at_main_v14, at_main_call3_v5]; rfl)
theorem at_main_call3_cst : after ops V0 main_call3_cst = ReadP.val_main_call3_cst (F := F) :=
  (after_nullary hW 59 V0 rfl (by decide)).trans (by simp only [TRef.ofBuf, TRef.toBuf, cast_eq]; rfl)
theorem at_main_call3_v14 : after ops V0 main_call3_v14 = ReadP.val_main_call3_v14 (F := F) :=
  (after_unary hW 60 V0 rfl (by decide)).trans (by simp only [TRef.ofBuf, TRef.toBuf, cast_eq]; rw [at_main_call3_cst]; rfl)
theorem at_main_v16 : after ops V0 main_v16 = ReadP.val_main_v16 (V0 main_arg0) (V0 main_arg1) (V0 main_arg2) :=
  (after_ternary hW 61 V0 rfl (by decide)).trans (by simp only [TRef.ofBuf, TRef.toBuf, cast_eq]; rw [at_main_call3_v12, at_main_call3_v13, at_main_call3_v14]; rfl)
theorem at_main_v17 : after ops V0 main_v17 = ReadP.val_main_v17 (V0 main_arg0) (V0 main_arg1) (V0 main_arg2) :=
  (after_reshape hW 62 V0 rfl (by decide)).trans (by rw [at_main_v16]; rfl)
theorem at_main_v18 : after ops V0 main_v18 = ReadP.val_main_v18 (V0 main_arg0) (V0 main_arg4) :=
  (after_binary hW 63 V0 rfl (by decide)).trans (by rw [at_main_arg0, at_main_arg4]; rfl)
theorem at_main_v19 : after ops V0 main_v19 = ReadP.val_main_v19 (V0 main_arg3) :=
  (after_unary hW 64 V0 rfl (by decide)).trans (by rw [at_main_arg3]; rfl)
theorem at_main_v20 : after ops V0 main_v20 = ReadP.val_main_v20 (V0 main_arg0) (V0 main_arg3) (V0 main_arg4) :=
  (after_binary hW 65 V0 rfl (by decide)).trans (by rw [at_main_v18, at_main_v19]; rfl)
theorem at_main_call4_cst : after ops V0 main_call4_cst = ReadP.val_main_call4_cst (F := F) :=
  (after_nullary hW 66 V0 rfl (by decide)).trans (by simp only [TRef.ofBuf, TRef.toBuf, cast_eq]; rfl)
theorem at_main_call4_v0 : after ops V0 main_call4_v0 = ReadP.val_main_call4_v0 (V0 main_arg0) (V0 main_arg3) (V0 main_arg4) :=
  (after_binary hW 67 V0 rfl (by decide)).trans (by simp only [TRef.ofBuf, TRef.toBuf, cast_eq]; rw [at_main_v20, at_main_call4_cst]; rfl)
theorem at_main_call4_cst_0 : after ops V0 main_call4_cst_0 = ReadP.val_main_call4_cst_0 (F := F) :=
  (after_nullary hW 68 V0 rfl (by decide)).trans (by simp only [TRef.ofBuf, TRef.toBuf, cast_eq]; rfl)
theorem at_main_call4_v1 : after ops V0 main_call4_v1 = ReadP.val_main_call4_v1 (F := F) :=
  (after_unary hW 69 V0 rfl (by decide)).trans (by simp only [TRef.ofBuf, TRef.toBuf, cast_eq]; rw [at_main_call4_cst_0]; rfl)
theorem at_main_call4_v2 : after ops V0 main_call4_v2 = ReadP.val_main_call4_v2 (V0 main_arg0) (V0 main_arg3) (V0 main_arg4) :=
  (after_binary hW 70 V0 rfl (by decide)).trans (by simp only [TRef.ofBuf, TRef.toBuf, cast_eq]; rw [at_main_call4_v1, at_main_call4_v0]; rfl)
theorem at_main_call4_v3 : after ops V0 main_call4_v3 = ReadP.val_main_call4_v3 (V0 main_arg0) (V0 main_arg3) (V0 main_arg4) :=
  (after_unary hW 71 V0 rfl (by decide)).trans (by simp only [TRef.ofBuf, TRef.toBuf, cast_eq]; rw [at_main_call4_v2]; rfl)
theorem at_main_call4_v4 : after ops V0 main_call4_v4 = ReadP.val_main_call4_v4 (V0 main_arg0) (V0 main_arg3) (V0 main_arg4) :=
  (after_unary hW 72 V0 rfl (by decide)).trans (by simp only [TRef.ofBuf, TRef.toBuf, cast_eq]; rw [at_main_call4_v3]; rfl)
theorem at_main_call4_v5 : after ops V0 main_call4_v5 = ReadP.val_main_call4_v5 (V0 main_arg0) (V0 main_arg3) (V0 main_arg4) :=
  (after_binary hW 73 V0 rfl (by decide)).trans (by simp only [TRef.ofBuf, TRef.toBuf, cast_eq]; rw [at_main_v20, at_main_call4_v4]; rfl)
theorem at_main_call4_v6 : after ops V0 main_call4_v6 = ReadP.val_main_call4_v6 (V0 main_arg0) (V0 main_arg3) (V0 main_arg4) :=
  (after_unary hW 74 V0 rfl (by decide)).trans (by simp only [TRef.ofBuf, TRef.toBuf, cast_eq]; rw [at_main_call4_v5]; rfl)
theorem at_main_call4_cst_1 : after ops V0 main_call4_cst_1 = ReadP.val_main_call4_cst_1 (F := F) :=
  (after_nullary hW 75 V0 rfl (by decide)).trans (by simp only [TRef.ofBuf, TRef.toBuf, cast_eq]; rfl)
theorem at_main_call4_v7 : after ops V0 main_call4_v7 = ReadP.val_main_call4_v7 (V0 main_arg0) (V0 main_arg3) (V0 main_arg4) :=
  (after_binary hW 76 V0 rfl (by decide)).trans (by simp only [TRef.ofBuf, TRef.toBuf, cast_eq]; rw [at_main_call4_v6, at_main_call4_cst_1]; rfl)
theorem at_main_call4_v8 : after ops V0 main_call4_v8 = ReadP.val_main_call4_v8 (V0 main_arg0) (V0 main_arg3) (V0 main_arg4) :=
  (after_unary hW 77 V0 rfl (by decide)).trans (by simp only [TRef.ofBuf, TRef.toBuf, cast_eq]; rw [at_main_call4_v7]; rfl)
theorem at_main_call4_v9 : after ops V0 main_call4_v9 = ReadP.val_main_call4_v9 (V0 main_arg0) (V0 main_arg3) (V0 main_arg4) :=
  (after_unary hW 78 V0 rfl (by decide)).trans (by simp only [TRef.ofBuf, TRef.toBuf, cast_eq]; rw [at_main_call4_v8]; rfl)
theorem at_main_call4_v10 : after ops V0 main_call4_v10 = ReadP.val_main_call4_v10 (V0 main_arg0) (V0 main_arg3) (V0 main_arg4) :=
  (after_unary hW 79 V0 rfl (by decide)).trans (by simp only [TRef.ofBuf, TRef.toBuf, cast_eq]; rw [at_main_call4_v9]; rfl)
theorem at_main_v21 : after ops V0 main_v21 = ReadP.val_main_v21 (V0 main_arg0) (V0 main_arg3) (V0 main_arg4) :=
  (after_binary hW 80 V0 rfl (by decide)).trans (by simp only [TRef.ofBuf, TRef.toBuf, cast_eq]; rw [at_main_call4_v5, at_main_call4_v10]; rfl)
theorem at_main_c_5 : after ops V0 main_c_5 = ReadP.val_main_c_5 (F := F) :=
  (after_nullary hW 81 V0 rfl (by decide)).trans rfl
theorem at_main_v22 : after ops V0 main_v22 = ReadP.val_main_v22 (F := F) :=
  (after_unary hW 82 V0 rfl (by decide)).trans (by rw [at_main_c_5]; rfl)
theorem at_main_v23 : after ops V0 main_v23 = ReadP.val_main_v23 (V0 main_arg1) :=
  (after_binary hW 83 V0 rfl (by decide)).trans (by rw [at_main_arg1, at_main_v22]; rfl)
theorem at_main_c_6 : after ops V0 main_c_6 = ReadP.val_main_c_6 (F := F) :=
  (after_nullary hW 84 V0 rfl (by decide)).trans rfl
theorem at_main_c_7 : after ops V0 main_c_7 = ReadP.val_main_c_7 (F := F) :=
  (after_nullary hW 85 V0 rfl (by decide)).trans rfl
theorem at_main_call5_v0 : after ops V0 main_call5_v0 = ReadP.val_main_call5_v0 (F := F) :=
  (after_unary hW 86 V0 rfl (by decide)).trans (by simp only [TRef.ofBuf, TRef.toBuf, cast_eq]; rw [at_main_c_6]; rfl)
theorem at_main_call5_v1 : after ops V0 main_call5_v1 = ReadP.val_main_call5_v1 (F := F) :=
  (after_unary hW 87 V0 rfl (by decide)).trans (by simp only [TRef.ofBuf, TRef.toBuf, cast_eq]; rw [at_main_call5_v0]; rfl)
theorem at_main_call5_v2 : after ops V0 main_call5_v2 = ReadP.val_main_call5_v2 (V0 main_arg1) :=
  (after_binary hW 88 V0 rfl (by decide)).trans (by simp only [TRef.ofBuf, TRef.toBuf, cast_eq]; rw [at_main_call5_v1, at_main_v23]; rfl)
theorem at_main_call5_v3 : after ops V0 main_call5_v3 = ReadP.val_main_call5_v3 (F := F) :=
  (after_unary hW 89 V0 rfl (by decide)).trans (by simp only [TRef.ofBuf, TRef.toBuf, cast_eq]; rw [at_main_c_7]; rfl)
theorem at_main_call5_v4 : after ops V0 main_call5_v4 = ReadP.val_main_call5_v4 (F := F) :=
  (after_unary hW 90 V0 rfl (by decide)).trans (by simp only [TRef.ofBuf, TRef.toBuf, cast_eq]; rw [at_main_call5_v3]; rfl)
theorem at_main_v24 : after ops V0 main_v24 = ReadP.val_main_v24 (V0 main_arg1) :=
  (after_binary hW 91 V0 rfl (by decide)).trans (by simp only [TRef.ofBuf, TRef.toBuf, cast_eq]; rw [at_main_call5_v4, at_main_call5_v2]; rfl)
theorem at_main_v25 : after ops V0 main_v25 = ReadP.val_main_v25 (V0 main_arg1) :=
  (after_unary hW 92 V0 rfl (by decide)).trans (by rw [at_main_v24]; rfl)
theorem at_main_call6_c : after ops V0 main_call6_c = ReadP.val_main_call6_c (F := F) :=
  (after_nullary hW 93 V0 rfl (by decide)).trans (by simp only [TRef.ofBuf, TRef.toBuf, cast_eq]; rfl)
theorem at_main_call6_v0 : after ops V0 main_call6_v0 = ReadP.val_main_call6_v0 (F := F) :=
  (after_unary hW 94 V0 rfl (by decide)).trans (by simp only [TRef.ofBuf, TRef.toBuf, cast_eq]; rw [at_main_call6_c]; rfl)
theorem at_main_call6_v1 : after ops V0 main_call6_v1 = ReadP.val_main_call6_v1 (V0 main_arg1) :=
  (after_binary hW 95 V0 rfl (by decide)).trans (by simp only [TRef.ofBuf, TRef.toBuf, cast_eq]; rw [at_main_v25, at_main_call6_v0]; rfl)
theorem at_main_call6_c_0 : after ops V0 main_call6_c_0 = ReadP.val_main_call6_c_0 (F := F) :=
  (after_nullary hW 96 V0 rfl (by decide)).trans (by simp only [TRef.ofBuf, TRef.toBuf, cast_eq]; rfl)
theorem at_main_call6_v2 : after ops V0 main_call6_v2 = ReadP.val_main_call6_v2 (F := F) :=
  (after_unary hW 97 V0 rfl (by decide)).trans (by simp only [TRef.ofBuf, TRef.toBuf, cast_eq]; rw [at_main_call6_c_0]; rfl)
theorem at_main_call6_v3 : after ops V0 main_call6_v3 = ReadP.val_main_call6_v3 (V0 main_arg1) :=
  (after_binary hW 98 V0 rfl (by decide)).trans (by simp only [TRef.ofBuf, TRef.toBuf, cast_eq]; rw [at_main_v25, at_main_call6_v2]; rfl)
theorem at_main_call6_v4 : after ops V0 main_call6_v4 = ReadP.val_main_call6_v4 (V0 main_arg1) :=
  (after_ternary hW 99 V0 rfl (by decide)).trans (by simp only [TRef.ofBuf, TRef.toBuf, cast_eq]; rw [at_main_call6_v1, at_main_call6_v3, at_main_v25]; rfl)
theorem at_main_call6_v5 : after ops V0 main_call6_v5 = ReadP.val_main_call6_v5 (V0 main_arg1) :=
  (after_reshape hW 100 V0 rfl (by decide)).trans (by simp only [TRef.ofBuf, TRef.toBuf, cast_eq]; rw [at_main_call6_v4]; rfl)
theorem at_main_call6_c_1 : after ops V0 main_call6_c_1 = ReadP.val_main_call6_c_1 (F := F) :=
  (after_nullary hW 101 V0 rfl (by decide)).trans (by simp only [TRef.ofBuf, TRef.toBuf, cast_eq]; rfl)
theorem at_main_call6_c_2 : after ops V0 main_call6_c_2 = ReadP.val_main_call6_c_2 (F := F) :=
  (after_nullary hW 102 V0 rfl (by decide)).trans (by simp only [TRef.ofBuf, TRef.toBuf, cast_eq]; rfl)
theorem at_main_call6_v6 : after ops V0 main_call6_v6 = ReadP.val_main_call6_v6 (F := F) :=
  (after_unary hW 103 V0 rfl (by decide)).trans (by simp only [TRef.ofBuf, TRef.toBuf, cast_eq]; rw [at_main_call6_c_2]; rfl)
theorem at_main_call6_v7 : after ops V0 main_call6_v7 = ReadP.val_main_call6_v7 (V0 main_arg1) :=
  (after_binary hW 104 V0 rfl (by decide)).trans (by simp only [TRef.ofBuf, TRef.toBuf, cast_eq]; rw [at_main_call6_v5, at_main_call6_v6]; rfl)
theorem at_main_call6_v8 : after ops V0 main_call6_v8 = ReadP.val_main_call6_v8 (F := F) :=
  (after_unary hW 105 V0 rfl (by decide)).trans (by simp only [TRef.ofBuf, TRef.toBuf, cast_eq]; rw [at_main_call6_c_1]; rfl)
theorem at_main_call6_v9 : after ops V0 main_call6_v9 = ReadP.val_main_call6_v9 (F := F) :=
  (after_unary hW 106 V0 rfl (by decide)).trans (by simp only [TRef.ofBuf, TRef.toBuf, cast_eq]; rw [at_main_call6_v8]; rfl)
theorem at_main_call6_v10 : after ops V0 main_call6_v10 = ReadP.val_main_call6_v10 (V0 main_arg1) :=
  (after_binary hW 107 V0 rfl (by decide)).trans (by simp only [TRef.ofBuf, TRef.toBuf, cast_eq]; rw [at_main_call6_v5, at_main_call6_v9]; rfl)
theorem at_main_call6_v11 : after ops V0 main_call6_v11 = ReadP.val_main_call6_v11 (V0 main_arg1) :=
  (after_binary hW 108 V0 rfl (by decide)).trans (by simp only [TRef.ofBuf, TRef.toBuf, cast_eq]; rw [at_main_call6_v7, at_main_call6_v10]; rfl)
theorem at_main_call6_c_3 : after ops V0 main_call6_c_3 = ReadP.val_main_call6_c_3 (F := F) :=
  (after_nullary hW 109 V0 rfl (by decide)).trans (by simp only [TRef.ofBuf, TRef.toBuf, cast_eq]; rfl)
theorem at_main_call6_v12 : after ops V0 main_call6_v12 = ReadP.val_main_call6_v12 (V0 main_arg1) :=
  (after_binary hW 110 V0 rfl (by decide)).trans (by simp only [TRef.ofBuf, TRef.toBuf, cast_eq]; rw [at_main_call6_v11, at_main_call6_c_3]; rfl)
theorem at_main_call6_v13 : after ops V0 main_call6_v13 = ReadP.val_main_call6_v13 (V0 main_arg0) (V0 main_arg1) (V0 main_arg3) (V0 main_arg4) :=
  (after_binary hW 111 V0 rfl (by decide)).trans (by simp only [TRef.ofBuf, TRef.toBuf, cast_eq]; rw [at_main_v21, at_main_call6_v5]; rfl)
theorem at_main_call6_cst : after ops V0 main_call6_cst = ReadP.val_main_call6_cst (F := F) :=
  (after_nullary hW 112 V0 rfl (by decide)).trans (by simp only [TRef.ofBuf, TRef.toBuf, cast_eq]; rfl)
theorem at_main_call6_v14 : after ops V0 main_call6_v14 = ReadP.val_main_call6_v14 (F := F) :=
  (after_unary hW 113 V0 rfl (by decide)).trans (by simp only [TRef.ofBuf, TRef.toBuf, cast_eq]; rw [at_main_call6_cst]; rfl)
theorem at_main_v26 : after ops V0 main_v26 = ReadP.val_main_v26 (V0 main_arg0) (V0 main_arg1) (V0 main_arg3) (V0 main_arg4) :=
  (after_ternary hW 114 V0 rfl (by decide)).trans (by simp only [TRef.ofBuf, TRef.toBuf, cast_eq]; rw [at_main_call6_v12, at_main_call6_v13, at_main_call6_v14]; rfl)
theorem at_main_v27 : after ops V0 main_v27 = ReadP.val_main_v27 (V0 main_arg0) (V0 main_arg1) (V0 main_arg3) (V0 main_arg4) :=
  (after_reshape hW 115 V0 rfl (by decide)).trans (by rw [at_main_v26]; rfl)
theorem at_main_cst : after ops V0 main_cst = ReadP.val_main_cst (F := F) :=
  (after_nullary hW 116 V0 rfl (by decide)).trans rfl
theorem at_main_call7_v0 : after ops V0 main_call7_v0 = ReadP.val_main_call7_v0 (F := F) :=
  (after_unary hW 117 V0 rfl (by decide)).trans (by simp only [TRef.ofBuf, TRef.toBuf, cast_eq]; rw [at_main_cst]; rfl)
theorem at_main_call7_v1 : after ops V0 main_call7_v1 = ReadP.val_main_call7_v1 (F := F) :=
  (after_unary hW 118 V0 rfl (by decide)).trans (by simp only [TRef.ofBuf, TRef.toBuf, cast_eq]; rw [at_main_call7_v0]; rfl)
theorem at_main_v28 : after ops V0 main_v28 = ReadP.val_main_v28 (V0 main_arg0) (V0 main_arg1) (V0 main_arg3) (V0 main_arg4) :=
  (after_ternary hW 119 V0 rfl (by decide)).trans (by simp only [TRef.ofBuf, TRef.toBuf, cast_eq]; rw [at_main_v4, at_main_v27, at_main_call7_v1]; rfl)
theorem at_main_v29 : after ops V0 main_v29 = ReadP.val_main_v29 (V0 main_arg0) (V0 main_arg1) (V0 main_arg2) (V0 main_arg3) (V0 main_arg4) :=
  (after_binary hW 120 V0 rfl (by decide)).trans (by rw [at_main_v17, at_main_v28]; rfl)
theorem at_main_v30 : after ops V0 main_v30 = ReadP.val_main_v30 (V0 main_arg0) (V0 main_arg6) :=
  (after_binary hW 121 V0 rfl (by decide)).trans (by rw [at_main_arg0, at_main_arg6]; rfl)
theorem at_main_v31 : after ops V0 main_v31 = ReadP.val_main_v31 (V0 main_arg5) :=
  (after_unary hW 122 V0 rfl (by decide)).trans (by rw [at_main_arg5]; rfl)
theorem at_main_v32 : after ops V0 main_v32 = ReadP.val_main_v32 (V0 main_arg0) (V0 main_arg5) (V0 main_arg6) :=
  (after_binary hW 123 V0 rfl (by decide)).trans (by rw [at_main_v30, at_main_v31]; rfl)
theorem at_main_call8_cst : after ops V0 main_call8_cst = ReadP.val_main_call8_cst (F := F) :=
  (after_nullary hW 124 V0 rfl (by decide)).trans (by simp only [TRef.ofBuf, TRef.toBuf, cast_eq]; rfl)
theorem at_main_call8_v0 : after ops V0 main_call8_v0 = ReadP.val_main_call8_v0 (V0 main_arg0) (V0 main_arg5) (V0 main_arg6) :=
  (after_binary hW 125 V0 rfl (by decide)).trans (by simp only [TRef.ofBuf, TRef.toBuf, cast_eq]; rw [at_main_v32, at_main_call8_cst]; rfl)
theorem at_main_call8_cst_0 : after ops V0 main_call8_cst_0 = ReadP.val_main_call8_cst_0 (F := F) :=
  (after_nullary hW 126 V0 rfl (by decide)).trans (by simp only [TRef.ofBuf, TRef.toBuf, cast_eq]; rfl)
theorem at_main_call8_v1 : after ops V0 main_call8_v1 = ReadP.val_main_call8_v1 (F := F) :=
  (after_unary hW 127 V0 rfl (by decide)).trans (by simp only [TRef.ofBuf, TRef.toBuf, cast_eq]; rw [at_main_call8_cst_0]; rfl)
theorem at_main_call8_v2 : after ops V0 main_call8_v2 = ReadP.val_main_call8_v2 (V0 main_arg0) (V0 main_arg5) (V0 main_arg6) :=
  (after_binary hW 128 V0 rfl (by decide)).trans (by simp only [TRef.ofBuf, TRef.toBuf, cast_eq]; rw [at_main_call8_v1, at_main_call8_v0]; rfl)
theorem at_main_call8_v3 : after ops V0 main_call8_v3 = ReadP.val_main_call8_v3 (V0 main_arg0) (V0 main_arg5) (V0 main_arg6) :=
  (after_unary hW 129 V0 rfl (by decide)).trans (by simp only [TRef.ofBuf, TRef.toBuf, cast_eq]; rw [at_main_call8_v2]; rfl)
theorem at_main_call8_v4 : after ops V0 main_call8_v4 = ReadP.val_main_call8_v4 (V0 main_arg0) (V0 main_arg5) (V0 main_arg6) :=
  (after_unary hW 130 V0 rfl (by decide)).trans (by simp only [TRef.ofBuf, TRef.toBuf, cast_eq]; rw [at_main_call8_v3]; rfl)
theorem at_main_call8_v5 : after ops V0 main_call8_v5 = ReadP.val_main_call8_v5 (V0 main_arg0) (V0 main_arg5) (V0 main_arg6) :=
  (after_binary hW 131 V0 rfl (by decide)).trans (by simp only [TRef.ofBuf, TRef.toBuf, cast_eq]; rw [at_main_v32, at_main_call8_v4]; rfl)
theorem at_main_call8_v6 : after ops V0 main_call8_v6 = ReadP.val_main_call8_v6 (V0 main_arg0) (V0 main_arg5) (V0 main_arg6) :=
  (after_unary hW 132 V0 rfl (by decide)).trans (by simp only [TRef.ofBuf, TRef.toBuf, cast_eq]; rw [at_main_call8_v5]; rfl)
theorem at_main_call8_cst_1 : after ops V0 main_call8_cst_1 = ReadP.val_main_call8_cst_1 (F := F) :=
  (after_nullary hW 133 V0 rfl (by decide)).trans (by simp only [TRef.ofBuf, TRef.toBuf, cast_eq]; rfl)
theorem at_main_call8_v7 : after ops V0 main_call8_v7 = ReadP.val_main_call8_v7 (V0 main_arg0) (V0 main_arg5) (V0 main_arg6) :=
  (after_binary hW 134 V0 rfl (by decide)).trans (by simp only [TRef.ofBuf, TRef.toBuf, cast_eq]; rw [at_main_call8_v6, at_main_call8_cst_1]; rfl)
theorem at_main_call8_v8 : after ops V0 main_call8_v8 = ReadP.val_main_call8_v8 (V0 main_arg0) (V0 main_arg5) (V0 main_arg6) :=
  (after_unary hW 135 V0 rfl (by decide)).trans (by simp only [TRef.ofBuf, TRef.toBuf, cast_eq]; rw [at_main_call8_v7]; rfl)
theorem at_main_call8_v9 : after ops V0 main_call8_v9 = ReadP.val_main_call8_v9 (V0 main_arg0) (V0 main_arg5) (V0 main_arg6) :=
  (after_unary hW 136 V0 rfl (by decide)).trans (by simp only [TRef.ofBuf, TRef.toBuf, cast_eq]; rw [at_main_call8_v8]; rfl)
theorem at_main_call8_v10 : after ops V0 main_call8_v10 = ReadP.val_main_call8_v10 (V0 main_arg0) (V0 main_arg5) (V0 main_arg6) :=
  (after_unary hW 137 V0 rfl (by decide)).trans (by simp only [TRef.ofBuf, TRef.toBuf, cast_eq]; rw [at_main_call8_v9]; rfl)
theorem at_main_v33 : after ops V0 main_v33 = ReadP.val_main_v33 (V0 main_arg0) (V0 main_arg5) (V0 main_arg6) :=
  (after_binary hW 138 V0 rfl (by decide)).trans (by simp only [TRef.ofBuf, TRef.toBuf, cast_eq]; rw [at_main_call8_v5, at_main_call8_v10]; rfl)
theorem at_main_c_8 : after ops V0 main_c_8 = ReadP.val_main_c_8 (F := F) :=
  (after_nullary hW 139 V0 rfl (by decide)).trans rfl
theorem at_main_v34 : after ops V0 main_v34 = ReadP.val_main_v34 (F := F) :=
  (after_unary hW 140 V0 rfl (by decide)).trans (by rw [at_main_c_8]; rfl)
theorem at_main_v35 : after ops V0 main_v35 = ReadP.val_main_v35 (V0 main_arg1) :=
  (after_binary hW 141 V0 rfl (by decide)).trans (by rw [at_main_arg1, at_main_v34]; rfl)
theorem at_main_c_9 : after ops V0 main_c_9 = ReadP.val_main_c_9 (F := F) :=
  (after_nullary hW 142 V0 rfl (by decide)).trans rfl
theorem at_main_c_10 : after ops V0 main_c_10 = ReadP.val_main_c_10 (F := F) :=
  (after_nullary hW 143 V0 rfl (by decide)).trans rfl
theorem at_main_call9_v0 : after ops V0 main_call9_v0 = ReadP.val_main_call9_v0 (F := F) :=
  (after_unary hW 144 V0 rfl (by decide)).trans (by simp only [TRef.ofBuf, TRef.toBuf, cast_eq]; rw [at_main_c_9]; rfl)
theorem at_main_call9_v1 : after ops V0 main_call9_v1 = ReadP.val_main_call9_v1 (F := F) :=
  (after_unary hW 145 V0 rfl (by decide)).trans (by simp only [TRef.ofBuf, TRef.toBuf, cast_eq]; rw [at_main_call9_v0]; rfl)
theorem at_main_call9_v2 : after ops V0 main_call9_v2 = ReadP.val_main_call9_v2 (V0 main_arg1) :=
  (after_binary hW 146 V0 rfl (by decide)).trans (by simp only [TRef.ofBuf, TRef.toBuf, cast_eq]; rw [at_main_call9_v1, at_main_v35]; rfl)
theorem at_main_call9_v3 : after ops V0 main_call9_v3 = ReadP.val_main_call9_v3 (F := F) :=
  (after_unary hW 147 V0 rfl (by decide)).trans (by simp only [TRef.ofBuf, TRef.toBuf, cast_eq]; rw [at_main_c_10]; rfl)
theorem at_main_call9_v4 : after ops V0 main_call9_v4 = ReadP.val_main_call9_v4 (F := F) :=
  (after_unary hW 148 V0 rfl (by decide)).trans (by simp only [TRef.ofBuf, TRef.toBuf, cast_eq]; rw [at_main_call9_v3]; rfl)
theorem at_main_v36 : after ops V0 main_v36 = ReadP.val_main_v36 (V0 main_arg1) :=
  (after_binary hW 149 V0 rfl (by decide)).trans (by simp only [TRef.ofBuf, TRef.toBuf, cast_eq]; rw [at_main_call9_v4, at_main_call9_v2]; rfl)
theorem at_main_v37 : after ops V0 main_v37 = ReadP.val_main_v37 (V0 main_arg1) :=
  (after_unary hW 150 V0 rfl (by decide)).trans (by rw [at_main_v36]; rfl)
theorem at_main_call10_c : after ops V0 main_call10_c = ReadP.val_main_call10_c (F := F) :=
  (after_nullary hW 151 V0 rfl (by decide)).trans (by simp only [TRef.ofBuf, TRef.toBuf, cast_eq]; rfl)
theorem at_main_call10_v0 : after ops V0 main_call10_v0 = ReadP.val_main_call10_v0 (F := F) :=
  (after_unary hW 152 V0 rfl (by decide)).trans (by simp only [TRef.ofBuf, TRef.toBuf, cast_eq]; rw [at_main_call10_c]; rfl)
theorem at_main_call10_v1 : after ops V0 main_call10_v1 = ReadP.val_main_call10_v1 (V0 main_arg1) :=
  (after_binary hW 153 V0 rfl (by decide)).trans (by simp only [TRef.ofBuf, TRef.toBuf, cast_eq]; rw [at_main_v37, at_main_call10_v0]; rfl)
theorem at_main_call10_c_0 : after ops V0 main_call10_c_0 = ReadP.val_main_call10_c_0 (F := F) :=
  (after_nullary hW 154 V0 rfl (by decide)).trans (by simp only [TRef.ofBuf, TRef.toBuf, cast_eq]; rfl)
theorem at_main_call10_v2 : after ops V0 main_call10_v2 = ReadP.val_main_call10_v2 (F := F) :=
  (after_unary hW 155 V0 rfl (by decide)).trans (by simp only [TRef.ofBuf, TRef.toBuf, cast_eq]; rw [at_main_call10_c_0]; rfl)
theorem at_main_call10_v3 : after ops V0 main_call10_v3 = ReadP.val_main_call10_v3 (V0 main_arg1) :=
  (after_binary hW 156 V0 rfl (by decide)).trans (by simp only [TRef.ofBuf, TRef.toBuf, cast_eq]; rw [at_main_v37, at_main_call10_v2]; rfl)
theorem at_main_call10_v4 : after ops V0 main_call10_v4 = ReadP.val_main_call10_v4 (V0 main_arg1) :=
  (after_ternary hW 157 V0 rfl (by decide)).trans (by simp only [TRef.ofBuf, TRef.toBuf, cast_eq]; rw [at_main_call10_v1, at_main_call10_v3, at_main_v37]; rfl)
theorem at_main_call10_v5 : after ops V0 main_call10_v5 = ReadP.val_main_call10_v5 (V0 main_arg1) :=
  (after_reshape hW 158 V0 rfl (by decide)).trans (by simp only [TRef.ofBuf, TRef.toBuf, cast_eq]; rw [at_main_call10_v4]; rfl)
theorem at_main_call10_c_1 : after ops V0 main_call10_c_1 = ReadP.val_main_call10_c_1 (F := F) :=
  (after_nullary hW 159 V0 rfl (by decide)).trans (by simp only [TRef.ofBuf, TRef.toBuf, cast_eq]; rfl)
theorem at_main_call10_c_2 : after ops V0 main_call10_c_2 = ReadP.val_main_call10_c_2 (F := F) :=
  (after_nullary hW 160 V0 rfl (by decide)).trans (by simp only [TRef.ofBuf, TRef.toBuf, cast_eq]; rfl)
theorem at_main_call10_v6 : after ops V0 main_call10_v6 = ReadP.val_main_call10_v6 (F := F) :=
  (after_unary hW 161 V0 rfl (by decide)).trans (by simp only [TRef.ofBuf, TRef.toBuf, cast_eq]; rw [at_main_call10_c_2]; rfl)
theorem at_main_call10_v7 : after ops V0 main_call10_v7 = ReadP.val_main_call10_v7 (V0 main_arg1) :=
  (after_binary hW 162 V0 rfl (by decide)).trans (by simp only [TRef.ofBuf, TRef.toBuf, cast_eq]; rw [at_main_call10_v5, at_main_call10_v6]; rfl)
theorem at_main_call10_v8 : after ops V0 main_call10_v8 = ReadP.val_main_call10_v8 (F := F) :=
  (after_unary hW 163 V0 rfl (by decide)).trans (by simp only [TRef.ofBuf, TRef.toBuf, cast_eq]; rw [at_main_call10_c_1]; rfl)
theorem at_main_call10_v9 : after ops V0 main_call10_v9 = ReadP.val_main_call10_v9 (F := F) :=
  (after_unary hW 164 V0 rfl (by decide)).trans (by simp only [TRef.ofBuf, TRef.toBuf, cast_eq]; rw [at_main_call10_v8]; rfl)
theorem at_main_call10_v10 : after ops V0 main_call10_v10 = ReadP.val_main_call10_v10 (V0 main_arg1) :=
  (after_binary hW 165 V0 rfl (by decide)).trans (by simp only [TRef.ofBuf, TRef.toBuf, cast_eq]; rw [at_main_call10_v5, at_main_call10_v9]; rfl)
theorem at_main_call10_v11 : after ops V0 main_call10_v11 = ReadP.val_main_call10_v11 (V0 main_arg1) :=
  (after_binary hW 166 V0 rfl (by decide)).trans (by simp only [TRef.ofBuf, TRef.toBuf, cast_eq]; rw [at_main_call10_v7, at_main_call10_v10]; rfl)
theorem at_main_call10_c_3 : after ops V0 main_call10_c_3 = ReadP.val_main_call10_c_3 (F := F) :=
  (after_nullary hW 167 V0 rfl (by decide)).trans (by simp only [TRef.ofBuf, TRef.toBuf, cast_eq]; rfl)
theorem at_main_call10_v12 : after ops V0 main_call10_v12 = ReadP.val_main_call10_v12 (V0 main_arg1) :=
  (after_binary hW 168 V0 rfl (by decide)).trans (by simp only [TRef.ofBuf, TRef.toBuf, cast_eq]; rw [at_main_call10_v11, at_main_call10_c_3]; rfl)
theorem at_main_call10_v13 : after ops V0 main_call10_v13 = ReadP.val_main_call10_v13 (V0 main_arg0) (V0 main_arg1) (V0 main_arg5) (V0 main_arg6) :=
  (after_binary hW 169 V0 rfl (by decide)).trans (by simp only [TRef.ofBuf, TRef.toBuf, cast_eq]; rw [at_main_v33, at_main_call10_v5]; rfl)
theorem at_main_call10_cst : after ops V0 main_call10_cst = ReadP.val_main_call10_cst (F := F) :=
  (after_nullary hW 170 V0 rfl (by decide)).trans (by simp only [TRef.ofBuf, TRef.toBuf, cast_eq]; rfl)
theorem at_main_call10_v14 : after ops V0 main_call10_v14 = ReadP.val_main_call10_v14 (F := F) :=
  (after_unary hW 171 V0 rfl (by decide)).trans (by simp only [TRef.ofBuf, TRef.toBuf, cast_eq]; rw [at_main_call10_cst]; rfl)
theorem at_main_v38 : after ops V0 main_v38 = ReadP.val_main_v38 (V0 main_arg0) (V0 main_arg1) (V0 main_arg5) (V0 main_arg6) :=
  (after_ternary hW 172 V0 rfl (by decide)).trans (by simp only [TRef.ofBuf, TRef.toBuf, cast_eq]; rw [at_main_call10_v12, at_main_call10_v13, at_main_call10_v14]; rfl)
theorem at_main_v39 : after ops V0 main_v39 = ReadP.val_main_v39 (V0 main_arg0) (V0 main_arg1) (V0 main_arg5) (V0 main_arg6) :=
  (after_reshape hW 173 V0 rfl (by decide)).trans (by rw [at_main_v38]; rfl)
theorem at_main_cst_11 : after ops V0 main_cst_11 = ReadP.val_main_cst_11 (F := F) :=
  (after_nullary hW 174 V0 rfl (by decide)).trans rfl
theorem at_main_call11_v0 : after ops V0 main_call11_v0 = ReadP.val_main_call11_v0 (F := F) :=
  (after_unary hW 175 V0 rfl (by decide)).trans (by simp only [TRef.ofBuf, TRef.toBuf, cast_eq]; rw [at_main_cst_11]; rfl)
theorem at_main_call11_v1 : after ops V0 main_call11_v1 = ReadP.val_main_call11_v1 (F := F) :=
  (after_unary hW 176 V0 rfl (by decide)).trans (by simp only [TRef.ofBuf, TRef.toBuf, cast_eq]; rw [at_main_call11_v0]; rfl)
theorem at_main_v40 : after ops V0 main_v40 = ReadP.val_main_v40 (V0 main_arg0) (V0 main_arg1) (V0 main_arg5) (V0 main_arg6) :=
  (after_ternary hW 177 V0 rfl (by decide)).trans (by simp only [TRef.ofBuf, TRef.toBuf, cast_eq]; rw [at_main_v10, at_main_v39, at_main_call11_v1]; rfl)
theorem at_main_v41 : after ops V0 main_v41 = ReadP.val_main_v41 (V0 main_arg0) (V0 main_arg1) (V0 main_arg2) (V0 main_arg3) (V0 main_arg4) (V0 main_arg5) (V0 main_arg6) :=
  (after_binary hW 178 V0 rfl (by decide)).trans (by rw [at_main_v29, at_main_v40]; rfl)
theorem at_main_v42 : after ops V0 main_v42 = ReadP.val_main_v42 (V0 main_arg0) (V0 main_arg1) (V0 main_arg2) (V0 main_arg3) (V0 main_arg4) (V0 main_arg5) (V0 main_arg6) :=
  (after_unary hW 179 V0 rfl (by decide)).trans (by rw [at_main_v41]; rfl)
theorem at_main_cst_12 : after ops V0 main_cst_12 = ReadP.val_main_cst_12 (F := F) :=
  (after_nullary hW 180 V0 rfl (by decide)).trans rfl
theorem at_main_v43 : after ops V0 main_v43 = ReadP.val_main_v43 (V0 main_arg0) (V0 main_arg1) (V0 main_arg2) (V0 main_arg3) (V0 main_arg4) (V0 main_arg5) (V0 main_arg6) :=
  (after_binary hW 181 V0 rfl (by decide)).trans (by rw [at_main_v42, at_main_cst_12]; rfl)
theorem at_main_cst_13 : after ops V0 main_cst_13 = ReadP.val_main_cst_13 (F := F) :=
  (after_nullary hW 182 V0 rfl (by decide)).trans rfl
theorem at_main_v44 : after ops V0 main_v44 = ReadP.val_main_v44 (V0 main_arg0) (V0 main_arg1) (V0 main_arg2) (V0 main_arg3) (V0 main_arg4) (V0 main_arg5) (V0 main_arg6) :=
  (after_binary hW 183 V0 rfl (by decide)).trans (by rw [at_main_v43, at_main_cst_13]; rfl)

theorem run' (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = ReadP.val_main_v41 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v44) = ReadP.val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v41).trans (at_main_v41 (launchContents m c)),
      (h c main_v44).trans (at_main_v44 (launchContents m c)),
      (h c main_arg0).trans (at_main_arg0 (launchContents m c)),
      (h c main_arg1).trans (at_main_arg1 (launchContents m c)),
      (h c main_arg2).trans (at_main_arg2 (launchContents m c)),
      (h c main_arg3).trans (at_main_arg3 (launchContents m c)),
      (h c main_arg4).trans (at_main_arg4 (launchContents m c)),
      (h c main_arg5).trans (at_main_arg5 (launchContents m c)),
      (h c main_arg6).trans (at_main_arg6 (launchContents m c))⟩)
    (run_seq scopedRefs_eq scopedSems_eq defs main (fun _ => ops) main_eq (fun _ => ops_sub) m ρ)

end Cert.ReferenceIdeal.RefChain

end
-- ==== Proof.RefValueLsm.lean ====
import proofs.«419215_j38122129719724_3_alg».proof.Proof.Spec
import Idealize.ShloMosaic.Lib.ValueIdx
import Idealize.ShloMosaic.Lib.IdealHost
import Idealize.ShloMosaic.Lib.StableHlo.Predicate
import Idealize.ShloMosaic.PureOps.Ideal.Laws

noncomputable section

namespace Cert.ReferenceIdeal.RefValue

open Idealize.ShloMosaic Idealize.ShloMosaic.ValueIdx Idealize.ShloMosaic.StableHlo.Predicate Cert.Spec

theorem negInf_word : Ideal.ofBits .f32 0xFF800000#32 = (⊥ : EReal) := by simp [Ideal.ofBits, Ideal.ieee]

theorem logProb_of_row {n : ℕ} (s : Fin n → EReal) (j : Fin n) :
    (s j - max ⊥ ((Finset.univ : Finset (Fin n)).fold max ⊥ s))
        - Ideal.log (0 + ∑ k : Fin n, Ideal.exp (s k - max ⊥ ((Finset.univ : Finset (Fin n)).fold max ⊥ s)))
      = logProb s j := by
  unfold logProb expSum rowMax
  rw [max_eq_right bot_le, zero_add]

theorem lift_row {N n : ℕ} (hr : (⟨2, ![N, n]⟩ : Shape).Reduces [1] ⟨1, ![N]⟩) (r : Fin N) (k : Fin n) :
    hr.lift (ix1 r) k = ix2 r k := by
  funext a
  match a with
  | ⟨0, _⟩ => exact Fin.ext rfl
  | ⟨1, _⟩ => exact Fin.ext rfl

theorem rowMax_entry {N n : ℕ} (s : FVec Ideal ⟨2, ![N, n]⟩ .f32)
    (hr' : (⟨2, ![N, n]⟩ : Shape).ReducesTo [1] ⟨1, ![N]⟩) (hr : (⟨2, ![N, n]⟩ : Shape).Reduces [1] ⟨1, ![N]⟩)
    (hu : 0 < (⟨0, ![]⟩ : Shape).numel) (b0 : (⟨0, ![]⟩ : Shape).BroadcastsInDim ⟨1, ![N]⟩ ![]) (r : Fin N) :
    maximumf (broadcastInDim ⟨1, ![N]⟩ ![] b0 (constant (F := Ideal) ⟨0, ![]⟩ .f32 0xFF800000#32))
        (Host.reduce FloatOps.maximumf s (constant (F := Ideal) ⟨0, ![]⟩ .f32 0xFF800000#32) hr' hu) (ix1 r)
      = max ⊥ ((Finset.univ : Finset (Fin n)).fold max ⊥ (fun k => s (ix2 r k))) := by
  rw [maximumf_apply, broadcastInDim_scalar_apply, constant_apply, negInf_word,
    Host.reduce_eq_fold_single FloatOps.maximumf s _ hr' hr hu (ix1 r), constant_apply, negInf_word]
  refine congrArg (fun f => max ⊥ ((Finset.univ : Finset (Fin n)).fold max ⊥ f)) ?_
  funext k
  exact congrArg s (lift_row hr r k)

theorem ofFin_eq_ix1 {N : ℕ} (r : Fin N) : (Shape.Idx.ofFin r : (⟨1, ![N]⟩ : Shape).Idx) = ix1 r := by
  funext a
  match a with
  | ⟨0, _⟩ => exact Fin.ext rfl

theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

theorem logSoftmax_entry {N n : ℕ} (s : FVec Ideal ⟨2, ![N, n]⟩ .f32)
    (hr' : (⟨2, ![N, n]⟩ : Shape).ReducesTo [1] ⟨1, ![N]⟩) (hr : (⟨2, ![N, n]⟩ : Shape).Reduces [1] ⟨1, ![N]⟩)
    (hu : 0 < (⟨0, ![]⟩ : Shape).numel) (b0 : (⟨0, ![]⟩ : Shape).BroadcastsInDim ⟨1, ![N]⟩ ![])
    (b1 : (⟨1, ![N]⟩ : Shape).BroadcastsInDim ⟨2, ![N, 1]⟩ ![0])
    (b2 : (⟨2, ![N, 1]⟩ : Shape).BroadcastsInDim ⟨2, ![N, n]⟩ ![0, 1]) (r : Fin N) (j : Fin n) :
    subf
        (subf s (broadcastInDim ⟨2, ![N, n]⟩ ![0, 1] b2 (broadcastInDim ⟨2, ![N, 1]⟩ ![0] b1
          (maximumf (broadcastInDim ⟨1, ![N]⟩ ![] b0 (constant (F := Ideal) ⟨0, ![]⟩ .f32 0xFF800000#32))
            (Host.reduce FloatOps.maximumf s (constant (F := Ideal) ⟨0, ![]⟩ .f32 0xFF800000#32) hr' hu)))))
        (broadcastInDim ⟨2, ![N, n]⟩ ![0, 1] b2 (Host.log (broadcastInDim ⟨2, ![N, 1]⟩ ![0] b1
          (Host.reduceAdd
            (Host.exp (subf s (broadcastInDim ⟨2, ![N, n]⟩ ![0, 1] b2 (broadcastInDim ⟨2, ![N, 1]⟩ ![0] b1
              (maximumf (broadcastInDim ⟨1, ![N]⟩ ![] b0 (constant (F := Ideal) ⟨0, ![]⟩ .f32 0xFF800000#32))
                (Host.reduce FloatOps.maximumf s (constant (F := Ideal) ⟨0, ![]⟩ .f32 0xFF800000#32) hr' hu))))))
            (constant (F := Ideal) ⟨0, ![]⟩ .f32 0x00000000#32) hr' hu))))
        (ix2 r j)
      = logProb (fun c => s (ix2 r c)) j := by
  have hm := rowMax_entry s hr' hr hu b0 r
  rw [subf_apply, subf_apply]
  rw [show (ix2 r j : (⟨2, ![N, n]⟩ : Shape).Idx) = ij r j from rfl, bcast_rows b1 b2, bcast_of_col b2]
  rw [hostLog_apply, bcast_col1 b1, hostReduceAdd_apply, Ideal.hostReduceAdd_single hr' hr, constant_apply, Ideal.ofBits_zero_f32]
  rw [ofFin_eq_ix1, hm]
  refine Eq.trans ?_ (logProb_of_row (fun c => s (ix2 r c)) j)
  refine congrArg (fun S => (s (ix2 r j) - max ⊥ ((Finset.univ : Finset (Fin n)).fold max ⊥ fun k => s (ix2 r k))) - Ideal.log (0 + S)) ?_
  refine Finset.sum_congr rfl fun (k : Fin n) _ => ?_
  rw [hostExp_apply, subf_apply, lift_row hr r k, show (ix2 r k : (⟨2, ![N, n]⟩ : Shape).Idx) = ij r k from rfl, bcast_rows b1 b2]
  rw [ofFin_eq_ix1, hm]

end Cert.ReferenceIdeal.RefValue

end
-- ==== Proof.LibGatherRows.lean ====
import Idealize.ShloMosaic.PureOps.Ideal
import Idealize.ShloMosaic.PureOps.ShapeOps
import Idealize.ShloMosaic.PureOps.Contract
import Idealize.ShloMosaic.Lib.ValueIdx

noncomputable section

namespace Cert.LibGatherRows

open Idealize.ShloMosaic Idealize.ShloMosaic.ValueIdx

variable {α : Type} {N C w : Nat}

theorem gather_rows_clamp (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (b : Fin N) (u : Fin 1) (hC : 0 < C) :
    Host.gather d x idx (ix2 b u)
      = x (ix2 b ⟨min (idx (ix3 b u (0 : Fin 1))).toInt.toNat (C - 1), by omega⟩) := by
  have hsl : d.sliceSizes 1 = 1 := d.slice_collapsed 1 (by rw [hcoll]; exact List.mem_singleton.mpr rfl)
  unfold Host.gather
  refine congrArg x ?_
  cases d with
  | mk od cd ob sb sm iv ss wf =>
    obtain rfl : od = [] := hoff
    obtain rfl : cd = [1] := hcoll
    obtain rfl : ob = [0] := hob
    obtain rfl : sb = [0] := hsb
    obtain rfl : sm = [1] := hsim
    obtain rfl : iv = 2 := hivd
    replace hsl : ss 1 = 1 := hsl
    funext a
    match a with
    | ⟨0, _⟩ =>
      apply Fin.ext
      show GatherDims.start _ (ix2 b u) idx 0 + GatherDims.batchCoord _ (ix2 b u) 0 + GatherDims.offCoord _ (ix2 b u) 0
        = b.val
      rw [GatherDims.offCoord_eq_zero _ _ _ (by decide : (0 : Fin 2) ∉ (List.finRange 2).filter (· ∉ [1] ++ [0]))]
      unfold GatherDims.start
      rw [dif_neg (by decide : (0 : Fin 2) ∉ [1]), Nat.zero_add, Nat.add_zero]
      unfold GatherDims.batchCoord
      rw [dif_pos (List.mem_singleton.mpr rfl)]
      rfl
    | ⟨1, _⟩ =>
      apply Fin.ext
      show GatherDims.start _ (ix2 b u) idx 1 + GatherDims.batchCoord _ (ix2 b u) 1 + GatherDims.offCoord _ (ix2 b u) 1
        = min (idx (ix3 b u (0 : Fin 1))).toInt.toNat (C - 1)
      rw [GatherDims.batchCoord_eq_zero _ _ _ (by decide : (1 : Fin 2) ∉ [0]),
        GatherDims.offCoord_eq_zero _ _ _ (by decide : (1 : Fin 2) ∉ (List.finRange 2).filter (· ∉ [1] ++ [0]))]
      simp only [Nat.add_zero]
      unfold GatherDims.start
      rw [dif_pos (List.mem_singleton.mpr rfl)]
      show min (idx _).toInt.toNat (C - ss 1) = _
      rw [hsl]
      refine congrArg (fun k => min (idx k).toInt.toNat (C - 1)) ?_
      funext e
      match e with
      | ⟨0, _⟩ => exact Fin.ext rfl
      | ⟨1, _⟩ => exact Fin.ext rfl
      | ⟨2, _⟩ => exact Fin.ext rfl

theorem gather_rows (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (b : Fin N) (u : Fin 1)
    (hC : 2 * C ≤ 2 ^ w) (h : (idx (ix3 b u (0 : Fin 1))).toNat < C) :
    Host.gather d x idx (ix2 b u) = x (ix2 b ⟨(idx (ix3 b u (0 : Fin 1))).toNat, h⟩) := by
  have hC0 : 0 < C := by omega
  rw [gather_rows_clamp d hoff hcoll hob hsb hsim hivd x idx b u hC0]
  refine congrArg x (congrArg (fun r => ix2 b r) (Fin.ext ?_))
  show min (idx (ix3 b u (0 : Fin 1))).toInt.toNat (C - 1) = (idx (ix3 b u (0 : Fin 1))).toNat
  rw [BitVec.toInt_eq_toNat_of_lt (by omega), Int.toNat_natCast]
  omega

end Cert.LibGatherRows

end
-- ==== Proof.RefValueTake.lean ====
import proofs.«419215_j38122129719724_3_alg».proof.Proof.SpecArgs
import proofs.«419215_j38122129719724_3_alg».proof.Proof.LibGatherRows
import Idealize.ShloMosaic.Lib.StableHlo.Predicate
import Idealize.ShloMosaic.Lib.Pipeline.Value
import Idealize.ShloMosaic.Lib.ValueIdx
import Idealize.ShloMosaic.PureOps.Reduce

noncomputable section

namespace Cert.ReferenceIdeal.RefValue

open Idealize.ShloMosaic Idealize.ShloMosaic.ValueIdx Idealize.ShloMosaic.StableHlo.Predicate Cert.Spec

theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

theorem sge_iff_toInt (a b : BitVec 32) : IntOp.cmpi .sge a b = 1#1 ↔ b.toInt ≤ a.toInt := by
  simp only [IntOp.cmpi, ofBool_eq_one_iff, BitVec.sle, decide_eq_true_eq]
theorem sle_iff_toInt (a b : BitVec 32) : IntOp.cmpi .sle a b = 1#1 ↔ a.toInt ≤ b.toInt := by
  simp only [IntOp.cmpi, ofBool_eq_one_iff, BitVec.sle, decide_eq_true_eq]
theorem slt_iff_toInt (a b : BitVec 32) : IntOp.cmpi .slt a b = 1#1 ↔ a.toInt < b.toInt := by
  simp only [IntOp.cmpi, ofBool_eq_one_iff, BitVec.slt, decide_eq_true_eq]

theorem rangeMask_eq_one_iff (t lo hi : BitVec 32) :
    IntOp.andi (IntOp.cmpi .sge t lo) (IntOp.cmpi .slt t hi) = 1#1 ↔ lo.toInt ≤ t.toInt ∧ t.toInt < hi.toInt := by
  rw [andi_eq_one_iff, sge_iff_toInt, slt_iff_toInt]

theorem toInt_maxsi (a b : BitVec 32) : (IntOp.maxsi a b).toInt = max a.toInt b.toInt := by
  unfold IntOp.maxsi
  by_cases h : b.slt a = true
  · rw [if_pos h]; simp only [BitVec.slt, decide_eq_true_eq] at h; omega
  · rw [if_neg h]; simp only [BitVec.slt, decide_eq_true_eq] at h; omega
theorem toInt_minsi (a b : BitVec 32) : (IntOp.minsi a b).toInt = min a.toInt b.toInt := by
  unfold IntOp.minsi
  by_cases h : a.slt b = true
  · rw [if_pos h]; simp only [BitVec.slt, decide_eq_true_eq] at h; omega
  · rw [if_neg h]; simp only [BitVec.slt, decide_eq_true_eq] at h; omega

theorem toInt_subi (a b : BitVec 32) (h1 : -2147483648 ≤ a.toInt - b.toInt) (h2 : a.toInt - b.toInt < 2147483648) :
    (IntOp.subi a b).toInt = a.toInt - b.toInt := by
  unfold IntOp.subi
  rw [BitVec.toInt_sub]
  exact Int.bmod_eq_of_le (by omega) (by omega)

theorem toNat_of_toInt_nonneg (w : BitVec 32) (h : 0 ≤ w.toInt) : w.toNat = w.toInt.toNat := by
  have hw := w.isLt
  rw [BitVec.toInt_eq_toNat_cond] at h ⊢
  by_cases hc : 2 * w.toNat < 2 ^ 32
  · rw [if_pos hc]; omega
  · rw [if_neg hc] at h; omega

def headWord (t : BitVec 32) : BitVec 32 :=
  Scalar.select (IntOp.andi (IntOp.cmpi .sge t 10000#32) (IntOp.cmpi .slt t 50257#32)) 2001#32
    (Scalar.select (IntOp.andi (IntOp.cmpi .sge t 2000#32) (IntOp.cmpi .slt t 10000#32)) 2000#32 t)

def relWord (lo hi t : BitVec 32) : BitVec 32 := IntOp.minsi hi (IntOp.maxsi 0#32 (IntOp.subi t lo))

theorem select_of_one {α : Type} {c : BitVec 1} (h : c = 1#1) (a b : α) : Scalar.select c a b = a := by
  rw [h]; exact select_one a b
theorem select_of_ne_one {α : Type} {c : BitVec 1} (h : ¬c = 1#1) (a b : α) : Scalar.select c a b = b := by
  rw [eq_zero_of_ne_one h]; exact select_zero a b

theorem headWord_toInt (t : BitVec 32) (h0 : 0 ≤ t.toInt) :
    (headWord t).toInt
      = if 10000 ≤ t.toInt ∧ t.toInt < 50257 then 2001 else if 2000 ≤ t.toInt ∧ t.toInt < 10000 then 2000 else t.toInt := by
  unfold headWord
  have e1 := rangeMask_eq_one_iff t 10000#32 50257#32
  have e0 := rangeMask_eq_one_iff t 2000#32 10000#32
  rw [show (10000#32 : BitVec 32).toInt = 10000 from by decide, show (50257#32 : BitVec 32).toInt = 50257 from by decide] at e1
  rw [show (2000#32 : BitVec 32).toInt = 2000 from by decide, show (10000#32 : BitVec 32).toInt = 10000 from by decide] at e0
  by_cases c1 : 10000 ≤ t.toInt ∧ t.toInt < 50257
  · rw [select_of_one (e1.mpr c1), if_pos c1]; decide
  · rw [select_of_ne_one (fun h => c1 (e1.mp h)), if_neg c1]
    by_cases c0 : 2000 ≤ t.toInt ∧ t.toInt < 10000
    · rw [select_of_one (e0.mpr c0), if_pos c0]; decide
    · rw [select_of_ne_one (fun h => c0 (e0.mp h)), if_neg c0]

theorem relWord_toInt (lo hi t : BitVec 32) (h0 : 0 ≤ t.toInt) (h1 : t.toInt < 50257) (l0 : 0 ≤ lo.toInt)
    (l1 : lo.toInt ≤ 50257) : (relWord lo hi t).toInt = min hi.toInt (max 0 (t.toInt - lo.toInt)) := by
  unfold relWord
  rw [toInt_minsi, toInt_maxsi, toInt_subi _ _ (by omega) (by omega)]
  rfl

theorem foldl_andi_of_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl =>
    foldl_andi_of_all_one f l _ (show IntOp.andi init (f a) = 1#1 by rw [h, hl a (List.mem_cons_self ..)]; decide) (fun n hn => hl n (List.mem_cons_of_mem _ hn))

theorem reduce_andi_of_all_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, h.drop i = j → x i = 1#1) : Host.reduce IntOp.andi x init h hu j = 1#1 := by
  rw [Host.reduce_eq_foldl]
  refine foldl_andi_of_all_one x _ _ hi fun i hmem => hx i ?_
  have := (List.mem_filter.1 hmem).2
  simpa using this

theorem shapeCast_col_apply {α : Type} {N : ℕ} (x : (⟨2, ![N, 1]⟩ : Shape).Idx → α)
    (h : (⟨2, ![N, 1]⟩ : Shape).ShapeCasts ⟨3, ![N, 1, 1]⟩) (r : Fin N) (u v : Fin 1) :
    shapeCast ⟨3, ![N, 1, 1]⟩ x h (ix3 r u v) = x (ix2 r u) :=
  shapeCast_apply x h _ _ (by
    rw [Shape.rowMajor_val_three, Shape.rowMajor_val_two]
    show r.val * 1 + u.val = (r.val * 1 + u.val) * 1 + v.val
    omega)

theorem eq_of_drop_col {N : ℕ} (hr' : (⟨3, ![N, 1, 1]⟩ : Shape).ReducesTo [2] ⟨2, ![N, 1]⟩) (r : Fin N)
    (i : (⟨3, ![N, 1, 1]⟩ : Shape).Idx) (hi : hr'.drop i = ix2 r (0 : Fin 1)) : i = ix3 r (0 : Fin 1) (0 : Fin 1) := by
  obtain ⟨a, u, v, rfl⟩ : ∃ (a : Fin N) (u v : Fin 1), i = ix3 a u v := ⟨i 0, i 1, i 2, eq_ix3 i⟩
  obtain rfl : u = 0 := Subsingleton.elim _ _
  obtain rfl : v = 0 := Subsingleton.elim _ _
  have h0 := congrArg (fun (k : (⟨2, ![N, 1]⟩ : Shape).Idx) => (k 0).val) hi
  have : a = r := Fin.ext h0
  rw [this]

theorem take_entry {α : Type} {N C : ℕ} (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (hr' : (⟨3, ![N, 1, 1]⟩ : Shape).ReducesTo [2] ⟨2, ![N, 1]⟩) (hu : 0 < (⟨0, ![]⟩ : Shape).numel)
    (sc : (⟨2, ![N, 1]⟩ : Shape).ShapeCasts ⟨3, ![N, 1, 1]⟩)
    (tbl : (⟨2, ![N, C]⟩ : Shape).Idx → α) (iw zero0 size2 : IVec ⟨2, ![N, 1]⟩ 32) (zero6 hi9 : IVec ⟨3, ![N, 1, 1]⟩ 32)
    (one : IVec ⟨0, ![]⟩ 1) (junk : (⟨2, ![N, 1]⟩ : Shape).Idx → α) (r : Fin N) (hi : BitVec 32)
    (h0 : zero0 (ix2 r (0 : Fin 1)) = 0#32) (h6 : zero6 (ix3 r (0 : Fin 1) (0 : Fin 1)) = 0#32)
    (h9 : hi9 (ix3 r (0 : Fin 1) (0 : Fin 1)) = hi) (h1 : one (Shape.Idx.first hu) = 1#1)
    (hC : 2 * C ≤ 2 ^ 32) (hn : 0 ≤ (iw (ix2 r (0 : Fin 1))).toInt) (hhi : (iw (ix2 r (0 : Fin 1))).toInt ≤ hi.toInt)
    (hw : (iw (ix2 r (0 : Fin 1))).toNat < C) :
    select
        (Host.reduce IntOp.andi
          (andi (cmpi .sge (shapeCast ⟨3, ![N, 1, 1]⟩ (select (cmpi .slt iw zero0) (addi iw size2) iw) sc) zero6)
            (cmpi .sle (shapeCast ⟨3, ![N, 1, 1]⟩ (select (cmpi .slt iw zero0) (addi iw size2) iw) sc) hi9))
          one hr' hu)
        (Host.gather d tbl (shapeCast ⟨3, ![N, 1, 1]⟩ (select (cmpi .slt iw zero0) (addi iw size2) iw) sc)) junk
        (ix2 r (0 : Fin 1))
      = tbl (ix2 r ⟨(iw (ix2 r (0 : Fin 1))).toNat, hw⟩) := by
  have hsel : shapeCast ⟨3, ![N, 1, 1]⟩ (select (cmpi .slt iw zero0) (addi iw size2) iw) sc (ix3 r (0 : Fin 1) (0 : Fin 1))
      = iw (ix2 r (0 : Fin 1)) := by
    rw [shapeCast_col_apply, select_apply]
    refine select_of_ne_one (fun hc => ?_) _ _
    have hc' : IntOp.cmpi .slt (iw (ix2 r (0 : Fin 1))) (zero0 (ix2 r (0 : Fin 1))) = 1#1 := hc
    rw [h0, slt_iff_toInt, show (0#32 : BitVec 32).toInt = 0 from by decide] at hc'
    omega
  have hmask : Host.reduce IntOp.andi
      (andi (cmpi .sge (shapeCast ⟨3, ![N, 1, 1]⟩ (select (cmpi .slt iw zero0) (addi iw size2) iw) sc) zero6)
        (cmpi .sle (shapeCast ⟨3, ![N, 1, 1]⟩ (select (cmpi .slt iw zero0) (addi iw size2) iw) sc) hi9))
      one hr' hu (ix2 r (0 : Fin 1)) = 1#1 := by
    refine reduce_andi_of_all_one _ _ hr' hu _ h1 fun i hi' => ?_
    rw [eq_of_drop_col hr' r i hi']
    show IntOp.andi
        (IntOp.cmpi .sge (shapeCast ⟨3, ![N, 1, 1]⟩ (select (cmpi .slt iw zero0) (addi iw size2) iw) sc (ix3 r (0 : Fin 1) (0 : Fin 1)))
          (zero6 (ix3 r (0 : Fin 1) (0 : Fin 1))))
        (IntOp.cmpi .sle (shapeCast ⟨3, ![N, 1, 1]⟩ (select (cmpi .slt iw zero0) (addi iw size2) iw) sc (ix3 r (0 : Fin 1) (0 : Fin 1)))
          (hi9 (ix3 r (0 : Fin 1) (0 : Fin 1)))) = 1#1
    rw [hsel, h6, h9, andi_eq_one_iff, sge_iff_toInt, sle_iff_toInt, show (0#32 : BitVec 32).toInt = 0 from by decide]
    exact ⟨hn, hhi⟩
  rw [select_apply, hmask, select_one,
    Cert.LibGatherRows.gather_rows d hoff hcoll hob hsb hsim hivd tbl _ r (0 : Fin 1) hC (by rw [hsel]; exact hw)]
  exact congrArg tbl (congrArg (fun q => ix2 r q) (Fin.ext (congrArg BitVec.toNat hsel)))

theorem pick_of_lt {n : ℕ} (f : Fin n → EReal) (k : ℕ) (h : k < n) : pick f k = f ⟨k, h⟩ := dif_pos h

end Cert.ReferenceIdeal.RefValue

end
-- ==== Proof.RefValueHead.lean ====
import proofs.«419215_j38122129719724_3_alg».proof.Proof.RefRead
import proofs.«419215_j38122129719724_3_alg».proof.Proof.RefValueLsm
import proofs.«419215_j38122129719724_3_alg».proof.Proof.RefValueTake

noncomputable section

namespace Cert.ReferenceIdeal.RefValue

open Cert.ReferenceIdeal Cert.ReferenceIdeal.Gen Cert.ReferenceIdeal.ReadP Idealize.ShloMosaic Idealize.ShloMosaic.ValueIdx Cert.Spec

variable (x0 : (⟨S4096x1024, .f32⟩ : BufTy).Contents (Elt Ideal)) (x1 : (⟨S4096, .i32⟩ : BufTy).Contents (Elt Ideal))
  (x2 : (⟨S2002x1024, .f32⟩ : BufTy).Contents (Elt Ideal))

theorem scoresH_entry (r : Fin 4096) (c : Fin 2002) :
    val_main_v13 (F := Ideal) x0 x2 (ix2 r c) = ∑ k : Fin 1024, x0 (ix2 r k) * x2 (ix2 c k) := by
  rw [val_main_v13_apply]
  refine Finset.sum_congr rfl fun k _ => ?_
  rw [val_main_v12_apply]
  have e1 : lidx_main_v13 (ix2 r c) k = ix2 r k :=
    funext fun a => Fin.ext (by match a with | ⟨0, _⟩ => rfl | ⟨1, _⟩ => rfl)
  have e2 : idx_main_v12 (ridx_main_v13 (ix2 r c) k) = ix2 c k :=
    funext fun a => Fin.ext (by match a with | ⟨0, _⟩ => rfl | ⟨1, _⟩ => rfl)
  rw [e1, e2]

theorem lsmH_entry (r : Fin 4096) (j : Fin 2002) :
    val_main_v14 (F := Ideal) x0 x2 (ix2 r j)
      = logProb (fun c => ∑ k : Fin 1024, x0 (ix2 r k) * x2 (ix2 c k)) j := by
  unfold val_main_v14 val_main_call2_v10 val_main_call2_v9 val_main_call2_v8 val_main_call2_v7 val_main_call2_v6
    val_main_call2_v5 val_main_call2_v4 val_main_call2_v3 val_main_call2_v2 val_main_call2_v1 val_main_call2_v0
    val_main_call2_cst val_main_call2_cst_0 val_main_call2_cst_1
  refine (logSoftmax_entry (val_main_v13 (F := Ideal) x0 x2) reducesTo_S4096x2002_S4096_d1 (by decide) h_S_ bcast_S_S4096
    bcast_S4096_S4096x1_0 bcast_S4096x1_S4096x2002_0_1 r j).trans ?_
  exact congrArg (fun s => logProb s j) (funext fun c => scoresH_entry x0 x2 r c)

theorem headIdx_entry (r : Fin 4096) :
    val_main_v15 (F := Ideal) x1 (ix2 r (0 : Fin 1)) = headWord (x1 (ix1 r)) := by
  rw [val_main_v15_apply,
    show idx_main_v15 (ix2 r (0 : Fin 1)) = ix1 r from funext fun a => Fin.ext (by match a with | ⟨0, _⟩ => rfl)]
  rw [val_main_v11_apply, val_main_v10_apply, val_main_v7_apply, val_main_v6_apply, val_main_c_2_apply, val_main_v9_apply,
    val_main_v8_apply, val_main_c_3_apply, val_main_call1_v1_apply, val_main_call1_v0_apply, val_main_c_4_apply,
    val_main_v5_apply, val_main_v4_apply, val_main_v1_apply, val_main_v0_apply, val_main_c_apply, val_main_v3_apply,
    val_main_v2_apply, val_main_c_0_apply, val_main_call0_v1_apply, val_main_call0_v0_apply, val_main_c_1_apply]
  rfl

theorem head_entry (r : Fin 4096) (h0 : 0 ≤ (x1 (ix1 r)).toInt) (h1 : (x1 (ix1 r)).toInt < 50257) :
    val_main_v17 (F := Ideal) x0 x1 x2 (ix1 r)
      = headTermOf (fun c => ∑ k : Fin 1024, x0 (ix2 r k) * x2 (ix2 c k)) (x1 (ix1 r)).toInt := by
  have ew := headIdx_entry x1 r
  have hT := headWord_toInt (x1 (ix1 r)) h0
  have hn : 0 ≤ (headWord (x1 (ix1 r))).toInt := by rw [hT]; split_ifs <;> omega
  have hle : (headWord (x1 (ix1 r))).toInt ≤ (2001#32 : BitVec 32).toInt := by
    rw [hT, show (2001#32 : BitVec 32).toInt = 2001 from by decide]; split_ifs <;> omega
  have hk : (val_main_v15 (F := Ideal) x1 (ix2 r (0 : Fin 1))).toNat
      = (if 10000 ≤ (x1 (ix1 r)).toInt ∧ (x1 (ix1 r)).toInt < 50257 then 2001
          else if 2000 ≤ (x1 (ix1 r)).toInt ∧ (x1 (ix1 r)).toInt < 10000 then 2000 else (x1 (ix1 r)).toInt.toNat) := by
    rw [ew, toNat_of_toInt_nonneg _ hn, hT]; split_ifs <;> rfl
  have hw : (val_main_v15 (F := Ideal) x1 (ix2 r (0 : Fin 1))).toNat < 2002 := by
    rw [hk]; split_ifs <;> omega
  rw [val_main_v17_apply,
    show idx_main_v17 (ix1 r) = ix2 r (0 : Fin 1) from
      funext fun a => Fin.ext (by match a with | ⟨0, _⟩ => exact Nat.div_one _ | ⟨1, _⟩ => rfl)]
  unfold val_main_v16 val_main_call3_v12 val_main_call3_v13 val_main_call3_v11 val_main_call3_v10 val_main_call3_v7
    val_main_call3_v5 val_main_call3_v4 val_main_call3_v3 val_main_call3_v1
  refine (take_entry gather_S4096x2002_S4096x1x1_S4096x1_n_1_0_0_1_2_11 rfl rfl rfl rfl rfl rfl
    reducesTo_S4096x1x1_S4096x1_d2 h_S_ shapeCasts_S4096x1_S4096x1x1 (val_main_v14 (F := Ideal) x0 x2)
    (val_main_v15 (F := Ideal) x1) val_main_call3_v0 val_main_call3_v2 val_main_call3_v6 val_main_call3_v9
    val_main_call3_c_3 val_main_call3_v14 r 2001#32
    (by rw [val_main_call3_v0_apply, val_main_call3_c_apply])
    (by rw [val_main_call3_v6_apply, val_main_call3_c_2_apply])
    (by rw [val_main_call3_v9_apply, val_main_call3_v8_apply, val_main_call3_c_1_apply])
    (by rw [val_main_call3_c_3_apply]) (by norm_num) (by rw [ew]; exact hn) (by rw [ew]; exact hle) hw).trans ?_
  rw [lsmH_entry]
  unfold headTermOf
  rw [pick_of_lt _ _ (hk ▸ hw)]
  exact congrArg (logProb fun c => ∑ k : Fin 1024, x0 (ix2 r k) * x2 (ix2 c k)) (Fin.ext hk)

end Cert.ReferenceIdeal.RefValue

end
-- ==== Proof.RefValueTail0.lean ====
import proofs.«419215_j38122129719724_3_alg».proof.Proof.RefRead
import proofs.«419215_j38122129719724_3_alg».proof.Proof.RefValueLsm
import proofs.«419215_j38122129719724_3_alg».proof.Proof.RefValueTake

noncomputable section

namespace Cert.ReferenceIdeal.RefValue

open Cert.ReferenceIdeal Cert.ReferenceIdeal.Gen Cert.ReferenceIdeal.ReadP Idealize.ShloMosaic Idealize.ShloMosaic.ValueIdx Cert.Spec

variable (x0 : (⟨S4096x1024, .f32⟩ : BufTy).Contents (Elt Ideal)) (x1 : (⟨S4096, .i32⟩ : BufTy).Contents (Elt Ideal))
  (x3 : (⟨S8000x256, .f32⟩ : BufTy).Contents (Elt Ideal)) (x4 : (⟨S1024x256, .f32⟩ : BufTy).Contents (Elt Ideal))

theorem scores0_entry (r : Fin 4096) (j : Fin 8000) :
    val_main_v20 (F := Ideal) x0 x3 x4 (ix2 r j)
      = ∑ d : Fin 256, (∑ k : Fin 1024, x0 (ix2 r k) * x4 (ix2 k d)) * x3 (ix2 j d) := by
  rw [val_main_v20_apply]
  refine Finset.sum_congr rfl fun d _ => ?_
  rw [val_main_v19_apply, val_main_v18_apply]
  have e2 : idx_main_v19 (ridx_main_v20 (ix2 r j) d) = ix2 j d :=
    funext fun a => Fin.ext (by match a with | ⟨0, _⟩ => rfl | ⟨1, _⟩ => rfl)
  rw [e2]
  refine congrArg (fun S => S * x3 (ix2 j d)) (Finset.sum_congr rfl fun k _ => ?_)
  have e3 : lidx_main_v18 (lidx_main_v20 (ix2 r j) d) k = ix2 r k :=
    funext fun a => Fin.ext (by match a with | ⟨0, _⟩ => rfl | ⟨1, _⟩ => rfl)
  have e4 : ridx_main_v18 (lidx_main_v20 (ix2 r j) d) k = ix2 k d :=
    funext fun a => Fin.ext (by match a with | ⟨0, _⟩ => rfl | ⟨1, _⟩ => rfl)
  rw [e3, e4]

theorem lsm0_entry (r : Fin 4096) (j : Fin 8000) :
    val_main_v21 (F := Ideal) x0 x3 x4 (ix2 r j)
      = logProb (fun c => ∑ d : Fin 256, (∑ k : Fin 1024, x0 (ix2 r k) * x4 (ix2 k d)) * x3 (ix2 c d)) j := by
  unfold val_main_v21 val_main_call4_v10 val_main_call4_v9 val_main_call4_v8 val_main_call4_v7 val_main_call4_v6
    val_main_call4_v5 val_main_call4_v4 val_main_call4_v3 val_main_call4_v2 val_main_call4_v1 val_main_call4_v0
    val_main_call4_cst val_main_call4_cst_0 val_main_call4_cst_1
  refine (logSoftmax_entry (val_main_v20 (F := Ideal) x0 x3 x4) reducesTo_S4096x8000_S4096_d1 (by decide) h_S_ bcast_S_S4096
    bcast_S4096_S4096x1_0 bcast_S4096x1_S4096x8000_0_1 r j).trans ?_
  exact congrArg (fun s => logProb s j) (funext fun c => scores0_entry x0 x3 x4 r c)

theorem rel0Idx_entry (r : Fin 4096) :
    val_main_v25 (F := Ideal) x1 (ix2 r (0 : Fin 1)) = relWord 2000#32 7999#32 (x1 (ix1 r)) := by
  rw [val_main_v25_apply,
    show idx_main_v25 (ix2 r (0 : Fin 1)) = ix1 r from funext fun a => Fin.ext (by match a with | ⟨0, _⟩ => rfl)]
  rw [val_main_v24_apply, val_main_call5_v4_apply, val_main_call5_v3_apply, val_main_c_7_apply, val_main_call5_v2_apply,
    val_main_call5_v1_apply, val_main_call5_v0_apply, val_main_c_6_apply, val_main_v23_apply, val_main_v22_apply,
    val_main_c_5_apply]
  rfl

theorem mask0_entry (r : Fin 4096) :
    val_main_v4 (F := Ideal) x1 (ix1 r)
      = IntOp.andi (IntOp.cmpi .sge (x1 (ix1 r)) 2000#32) (IntOp.cmpi .slt (x1 (ix1 r)) 10000#32) := by
  rw [val_main_v4_apply, val_main_v1_apply, val_main_v0_apply, val_main_c_apply, val_main_v3_apply, val_main_v2_apply,
    val_main_c_0_apply]

theorem tail0_entry (r : Fin 4096) (h0 : 0 ≤ (x1 (ix1 r)).toInt) (h1 : (x1 (ix1 r)).toInt < 50257) :
    val_main_v28 (F := Ideal) x0 x1 x3 x4 (ix1 r)
      = tailTerm (fun c => ∑ d : Fin 256, (∑ k : Fin 1024, x0 (ix2 r k) * x4 (ix2 k d)) * x3 (ix2 c d))
          (x1 (ix1 r)).toInt 2000 10000 := by
  have em := rangeMask_eq_one_iff (x1 (ix1 r)) 2000#32 10000#32
  rw [show (2000#32 : BitVec 32).toInt = 2000 from by decide, show (10000#32 : BitVec 32).toInt = 10000 from by decide] at em
  rw [val_main_v28_apply, mask0_entry]
  unfold tailTerm
  by_cases c : 2000 ≤ (x1 (ix1 r)).toInt ∧ (x1 (ix1 r)).toInt < 10000
  · rw [select_of_one (em.mpr c), if_pos c]
    have ew := rel0Idx_entry x1 r
    have hT := relWord_toInt 2000#32 7999#32 (x1 (ix1 r)) h0 h1 (by decide) (by decide)
    rw [show (2000#32 : BitVec 32).toInt = 2000 from by decide, show (7999#32 : BitVec 32).toInt = 7999 from by decide] at hT
    have hn : 0 ≤ (relWord 2000#32 7999#32 (x1 (ix1 r))).toInt := by rw [hT]; omega
    have hle : (relWord 2000#32 7999#32 (x1 (ix1 r))).toInt ≤ (7999#32 : BitVec 32).toInt := by
      rw [hT, show (7999#32 : BitVec 32).toInt = 7999 from by decide]; omega
    have hk : (val_main_v25 (F := Ideal) x1 (ix2 r (0 : Fin 1))).toNat
        = (min (((8000 : ℕ) : ℤ) - 1) (max 0 ((x1 (ix1 r)).toInt - 2000))).toNat := by
      rw [ew, toNat_of_toInt_nonneg _ hn, hT]; norm_num
    have hw : (val_main_v25 (F := Ideal) x1 (ix2 r (0 : Fin 1))).toNat < 8000 := by
      rw [ew, toNat_of_toInt_nonneg _ hn, hT]; omega
    rw [val_main_v27_apply,
      show idx_main_v27 (ix1 r) = ix2 r (0 : Fin 1) from
        funext fun a => Fin.ext (by match a with | ⟨0, _⟩ => exact Nat.div_one _ | ⟨1, _⟩ => rfl)]
    unfold val_main_v26 val_main_call6_v12 val_main_call6_v13 val_main_call6_v11 val_main_call6_v10 val_main_call6_v7
      val_main_call6_v5 val_main_call6_v4 val_main_call6_v3 val_main_call6_v1
    refine (take_entry gather_S4096x8000_S4096x1x1_S4096x1_n_1_0_0_1_2_11 rfl rfl rfl rfl rfl rfl
      reducesTo_S4096x1x1_S4096x1_d2 h_S_ shapeCasts_S4096x1_S4096x1x1 (val_main_v21 (F := Ideal) x0 x3 x4)
      (val_main_v25 (F := Ideal) x1) val_main_call6_v0 val_main_call6_v2 val_main_call6_v6 val_main_call6_v9
      val_main_call6_c_3 val_main_call6_v14 r 7999#32
      (by rw [val_main_call6_v0_apply, val_main_call6_c_apply])
      (by rw [val_main_call6_v6_apply, val_main_call6_c_2_apply])
      (by rw [val_main_call6_v9_apply, val_main_call6_v8_apply, val_main_call6_c_1_apply])
      (by rw [val_main_call6_c_3_apply]) (by norm_num) (by rw [ew]; exact hn) (by rw [ew]; exact hle) hw).trans ?_
    rw [lsm0_entry, pick_of_lt _ _ (hk ▸ hw)]
    exact congrArg (logProb fun c => ∑ d : Fin 256, (∑ k : Fin 1024, x0 (ix2 r k) * x4 (ix2 k d)) * x3 (ix2 c d))
      (Fin.ext hk)
  · rw [select_of_ne_one (fun h => c (em.mp h)), if_neg c, val_main_call7_v1_apply, val_main_call7_v0_apply,
      val_main_cst_apply]
    exact Ideal.ofBits_zero_f32

end Cert.ReferenceIdeal.RefValue

end
-- ==== Proof.RefValueTail1.lean ====
import proofs.«419215_j38122129719724_3_alg».proof.Proof.RefRead
import proofs.«419215_j38122129719724_3_alg».proof.Proof.RefValueLsm
import proofs.«419215_j38122129719724_3_alg».proof.Proof.RefValueTake

noncomputable section

namespace Cert.ReferenceIdeal.RefValue

open Cert.ReferenceIdeal Cert.ReferenceIdeal.Gen Cert.ReferenceIdeal.ReadP Idealize.ShloMosaic Idealize.ShloMosaic.ValueIdx Cert.Spec

variable (x0 : (⟨S4096x1024, .f32⟩ : BufTy).Contents (Elt Ideal)) (x1 : (⟨S4096, .i32⟩ : BufTy).Contents (Elt Ideal))
  (x5 : (⟨S40257x64, .f32⟩ : BufTy).Contents (Elt Ideal)) (x6 : (⟨S1024x64, .f32⟩ : BufTy).Contents (Elt Ideal))

theorem scores1_entry (r : Fin 4096) (j : Fin 40257) :
    val_main_v32 (F := Ideal) x0 x5 x6 (ix2 r j)
      = ∑ d : Fin 64, (∑ k : Fin 1024, x0 (ix2 r k) * x6 (ix2 k d)) * x5 (ix2 j d) := by
  rw [val_main_v32_apply]
  refine Finset.sum_congr rfl fun d _ => ?_
  rw [val_main_v31_apply, val_main_v30_apply]
  have e2 : idx_main_v31 (ridx_main_v32 (ix2 r j) d) = ix2 j d :=
    funext fun a => Fin.ext (by match a with | ⟨0, _⟩ => rfl | ⟨1, _⟩ => rfl)
  rw [e2]
  refine congrArg (fun S => S * x5 (ix2 j d)) (Finset.sum_congr rfl fun k _ => ?_)
  have e3 : lidx_main_v30 (lidx_main_v32 (ix2 r j) d) k = ix2 r k :=
    funext fun a => Fin.ext (by match a with | ⟨0, _⟩ => rfl | ⟨1, _⟩ => rfl)
  have e4 : ridx_main_v30 (lidx_main_v32 (ix2 r j) d) k = ix2 k d :=
    funext fun a => Fin.ext (by match a with | ⟨0, _⟩ => rfl | ⟨1, _⟩ => rfl)
  rw [e3, e4]

theorem lsm1_entry (r : Fin 4096) (j : Fin 40257) :
    val_main_v33 (F := Ideal) x0 x5 x6 (ix2 r j)
      = logProb (fun c => ∑ d : Fin 64, (∑ k : Fin 1024, x0 (ix2 r k) * x6 (ix2 k d)) * x5 (ix2 c d)) j := by
  unfold val_main_v33 val_main_call8_v10 val_main_call8_v9 val_main_call8_v8 val_main_call8_v7 val_main_call8_v6
    val_main_call8_v5 val_main_call8_v4 val_main_call8_v3 val_main_call8_v2 val_main_call8_v1 val_main_call8_v0
    val_main_call8_cst val_main_call8_cst_0 val_main_call8_cst_1
  refine (logSoftmax_entry (val_main_v32 (F := Ideal) x0 x5 x6) reducesTo_S4096x40257_S4096_d1 (by decide) h_S_ bcast_S_S4096
    bcast_S4096_S4096x1_0 bcast_S4096x1_S4096x40257_0_1 r j).trans ?_
  exact congrArg (fun s => logProb s j) (funext fun c => scores1_entry x0 x5 x6 r c)

theorem rel1Idx_entry (r : Fin 4096) :
    val_main_v37 (F := Ideal) x1 (ix2 r (0 : Fin 1)) = relWord 10000#32 40256#32 (x1 (ix1 r)) := by
  rw [val_main_v37_apply,
    show idx_main_v37 (ix2 r (0 : Fin 1)) = ix1 r from funext fun a => Fin.ext (by match a with | ⟨0, _⟩ => rfl)]
  rw [val_main_v36_apply, val_main_call9_v4_apply, val_main_call9_v3_apply, val_main_c_10_apply, val_main_call9_v2_apply,
    val_main_call9_v1_apply, val_main_call9_v0_apply, val_main_c_9_apply, val_main_v35_apply, val_main_v34_apply,
    val_main_c_8_apply]
  rfl

theorem mask1_entry (r : Fin 4096) :
    val_main_v10 (F := Ideal) x1 (ix1 r)
      = IntOp.andi (IntOp.cmpi .sge (x1 (ix1 r)) 10000#32) (IntOp.cmpi .slt (x1 (ix1 r)) 50257#32) := by
  rw [val_main_v10_apply, val_main_v7_apply, val_main_v6_apply, val_main_c_2_apply, val_main_v9_apply, val_main_v8_apply,
    val_main_c_3_apply]

theorem tail1_entry (r : Fin 4096) (h0 : 0 ≤ (x1 (ix1 r)).toInt) (h1 : (x1 (ix1 r)).toInt < 50257) :
    val_main_v40 (F := Ideal) x0 x1 x5 x6 (ix1 r)
      = tailTerm (fun c => ∑ d : Fin 64, (∑ k : Fin 1024, x0 (ix2 r k) * x6 (ix2 k d)) * x5 (ix2 c d))
          (x1 (ix1 r)).toInt 10000 50257 := by
  have em := rangeMask_eq_one_iff (x1 (ix1 r)) 10000#32 50257#32
  rw [show (10000#32 : BitVec 32).toInt = 10000 from by decide, show (50257#32 : BitVec 32).toInt = 50257 from by decide] at em
  rw [val_main_v40_apply, mask1_entry]
  unfold tailTerm
  by_cases c : 10000 ≤ (x1 (ix1 r)).toInt ∧ (x1 (ix1 r)).toInt < 50257
  · rw [select_of_one (em.mpr c), if_pos c]
    have ew := rel1Idx_entry x1 r
    have hT := relWord_toInt 10000#32 40256#32 (x1 (ix1 r)) h0 h1 (by decide) (by decide)
    rw [show (10000#32 : BitVec 32).toInt = 10000 from by decide, show (40256#32 : BitVec 32).toInt = 40256 from by decide] at hT
    have hn : 0 ≤ (relWord 10000#32 40256#32 (x1 (ix1 r))).toInt := by rw [hT]; omega
    have hle : (relWord 10000#32 40256#32 (x1 (ix1 r))).toInt ≤ (40256#32 : BitVec 32).toInt := by
      rw [hT, show (40256#32 : BitVec 32).toInt = 40256 from by decide]; omega
    have hk : (val_main_v37 (F := Ideal) x1 (ix2 r (0 : Fin 1))).toNat
        = (min (((40257 : ℕ) : ℤ) - 1) (max 0 ((x1 (ix1 r)).toInt - 10000))).toNat := by
      rw [ew, toNat_of_toInt_nonneg _ hn, hT]; norm_num
    have hw : (val_main_v37 (F := Ideal) x1 (ix2 r (0 : Fin 1))).toNat < 40257 := by
      rw [ew, toNat_of_toInt_nonneg _ hn, hT]; omega
    rw [val_main_v39_apply,
      show idx_main_v39 (ix1 r) = ix2 r (0 : Fin 1) from
        funext fun a => Fin.ext (by match a with | ⟨0, _⟩ => exact Nat.div_one _ | ⟨1, _⟩ => rfl)]
    unfold val_main_v38 val_main_call10_v12 val_main_call10_v13 val_main_call10_v11 val_main_call10_v10 val_main_call10_v7
      val_main_call10_v5 val_main_call10_v4 val_main_call10_v3 val_main_call10_v1
    refine (take_entry gather_S4096x40257_S4096x1x1_S4096x1_n_1_0_0_1_2_11 rfl rfl rfl rfl rfl rfl
      reducesTo_S4096x1x1_S4096x1_d2 h_S_ shapeCasts_S4096x1_S4096x1x1 (val_main_v33 (F := Ideal) x0 x5 x6)
      (val_main_v37 (F := Ideal) x1) val_main_call10_v0 val_main_call10_v2 val_main_call10_v6 val_main_call10_v9
      val_main_call10_c_3 val_main_call10_v14 r 40256#32
      (by rw [val_main_call10_v0_apply, val_main_call10_c_apply])
      (by rw [val_main_call10_v6_apply, val_main_call10_c_2_apply])
      (by rw [val_main_call10_v9_apply, val_main_call10_v8_apply, val_main_call10_c_1_apply])
      (by rw [val_main_call10_c_3_apply]) (by norm_num) (by rw [ew]; exact hn) (by rw [ew]; exact hle) hw).trans ?_
    rw [lsm1_entry, pick_of_lt _ _ (hk ▸ hw)]
    exact congrArg (logProb fun c => ∑ d : Fin 64, (∑ k : Fin 1024, x0 (ix2 r k) * x6 (ix2 k d)) * x5 (ix2 c d))
      (Fin.ext hk)
  · rw [select_of_ne_one (fun h => c (em.mp h)), if_neg c, val_main_call11_v1_apply, val_main_call11_v0_apply,
      val_main_cst_11_apply]
    exact Ideal.ofBits_zero_f32

end Cert.ReferenceIdeal.RefValue

end
-- ==== Proof.RefValueOut.lean ====
import proofs.«419215_j38122129719724_3_alg».proof.Proof.RefRead
import proofs.«419215_j38122129719724_3_alg».proof.Proof.RefValueHead
import proofs.«419215_j38122129719724_3_alg».proof.Proof.RefValueTail0
import proofs.«419215_j38122129719724_3_alg».proof.Proof.RefValueTail1

noncomputable section

namespace Cert.ReferenceIdeal.RefValue

open Cert.ReferenceIdeal Cert.ReferenceIdeal.Gen Cert.ReferenceIdeal.ReadP Idealize.ShloMosaic Idealize.ShloMosaic.ValueIdx Cert.Spec

theorem out_entry (x0 : (⟨S4096x1024, .f32⟩ : BufTy).Contents (Elt Ideal)) (x1 : (⟨S4096, .i32⟩ : BufTy).Contents (Elt Ideal))
    (x2 : (⟨S2002x1024, .f32⟩ : BufTy).Contents (Elt Ideal)) (x3 : (⟨S8000x256, .f32⟩ : BufTy).Contents (Elt Ideal))
    (x4 : (⟨S1024x256, .f32⟩ : BufTy).Contents (Elt Ideal)) (x5 : (⟨S40257x64, .f32⟩ : BufTy).Contents (Elt Ideal))
    (x6 : (⟨S1024x64, .f32⟩ : BufTy).Contents (Elt Ideal)) (hok : (argsOf x0 x1 x2 x3 x4 x5 x6).Ok) (r : Fin 4096) :
    val_main_v41 (F := Ideal) x0 x1 x2 x3 x4 x5 x6 (ix1 r) = (argsOf x0 x1 x2 x3 x4 x5 x6).out r := by
  have h0 : 0 ≤ (x1 (ix1 r)).toInt := (hok.T r).1
  have h1 : (x1 (ix1 r)).toInt < 50257 := (hok.T r).2
  rw [val_main_v41_apply, val_main_v29_apply, head_entry x0 x1 x2 r h0 h1, tail0_entry x0 x1 x3 x4 r h0 h1,
    tail1_entry x0 x1 x5 x6 r h0 h1]
  unfold Args.out
  rw [Args.headTerm_eq, Args.tail0Term_eq, Args.tail1Term_eq]
  rfl

/-- The reference's first result is the specification's log-probability, row by row. -/
theorem out_eq (x0 : (⟨S4096x1024, .f32⟩ : BufTy).Contents (Elt Ideal)) (x1 : (⟨S4096, .i32⟩ : BufTy).Contents (Elt Ideal))
    (x2 : (⟨S2002x1024, .f32⟩ : BufTy).Contents (Elt Ideal)) (x3 : (⟨S8000x256, .f32⟩ : BufTy).Contents (Elt Ideal))
    (x4 : (⟨S1024x256, .f32⟩ : BufTy).Contents (Elt Ideal)) (x5 : (⟨S40257x64, .f32⟩ : BufTy).Contents (Elt Ideal))
    (x6 : (⟨S1024x64, .f32⟩ : BufTy).Contents (Elt Ideal)) (hok : (argsOf x0 x1 x2 x3 x4 x5 x6).Ok) :
    val_main_v41 (F := Ideal) x0 x1 x2 x3 x4 x5 x6 = fun i => (argsOf x0 x1 x2 x3 x4 x5 x6).out (i 0) := by
  funext i
  obtain ⟨r, rfl⟩ : ∃ r : Fin 4096, i = ix1 r := ⟨i 0, eq_ix1 i⟩
  exact out_entry x0 x1 x2 x3 x4 x5 x6 hok r

end Cert.ReferenceIdeal.RefValue

end
-- ==== Proof.RefValueLossOf.lean ====
import Idealize.ShloMosaic.PureOps

noncomputable section

namespace Cert.ReferenceIdeal.RefValue

open Idealize.ShloMosaic

def lossOf {F : FTy → Type} [FloatOps F] (y : Vec F ⟨1, ![4096]⟩ .f32) : Vec F ⟨0, ![]⟩ .f32 :=
  Host.divf
    (Host.reduceAdd (Host.negf y) (constant ⟨0, ![]⟩ .f32 0x00000000#32)
      (by decide : (⟨1, ![4096]⟩ : Shape).ReducesTo [0] ⟨0, ![]⟩) (by decide : 0 < (⟨0, ![]⟩ : Shape).numel))
    (constant ⟨0, ![]⟩ .f32 0x45800000#32)

end Cert.ReferenceIdeal.RefValue

end
-- ==== Proof.RefValueLoss.lean ====
import proofs.«419215_j38122129719724_3_alg».proof.Proof.RefRead
import proofs.«419215_j38122129719724_3_alg».proof.Proof.RefValueLossOf

noncomputable section

namespace Cert.ReferenceIdeal.RefValue

open Cert.ReferenceIdeal Cert.ReferenceIdeal.Gen Cert.ReferenceIdeal.ReadP Idealize.ShloMosaic

/-- The second result is the mean of the negated entries of the first. -/
theorem loss_eq {F : FTy → Type} [FloatOps F] (x0 : (⟨S4096x1024, .f32⟩ : BufTy).Contents (Elt F))
    (x1 : (⟨S4096, .i32⟩ : BufTy).Contents (Elt F)) (x2 : (⟨S2002x1024, .f32⟩ : BufTy).Contents (Elt F))
    (x3 : (⟨S8000x256, .f32⟩ : BufTy).Contents (Elt F)) (x4 : (⟨S1024x256, .f32⟩ : BufTy).Contents (Elt F))
    (x5 : (⟨S40257x64, .f32⟩ : BufTy).Contents (Elt F)) (x6 : (⟨S1024x64, .f32⟩ : BufTy).Contents (Elt F)) :
    val_main_v44 (F := F) x0 x1 x2 x3 x4 x5 x6 = lossOf (val_main_v41 (F := F) x0 x1 x2 x3 x4 x5 x6) := by
  unfold val_main_v44 val_main_v43 val_main_v42 val_main_cst_12 val_main_cst_13 lossOf
  rfl

end Cert.ReferenceIdeal.RefValue

end
-- ==== Proof.lean ====
import proofs.«419215_j38122129719724_3_alg».proof.Defs
import proofs.«419215_j38122129719724_3_alg».proof.Proof.Gen.Kernel
import proofs.«419215_j38122129719724_3_alg».proof.Proof.Gen.KernelIdeal
import proofs.«419215_j38122129719724_3_alg».proof.Proof.Gen.ReferenceIdeal
import proofs.«419215_j38122129719724_3_alg».proof.Proof.Gen.Pre_finite_inputs
import proofs.«419215_j38122129719724_3_alg».proof.Proof.Bits.KFrame
import proofs.«419215_j38122129719724_3_alg».proof.Proof.KFrame
import proofs.«419215_j38122129719724_3_alg».proof.Proof.KValue
import proofs.«419215_j38122129719724_3_alg».proof.Proof.PreFacts
import proofs.«419215_j38122129719724_3_alg».proof.Proof.RefChain
import proofs.«419215_j38122129719724_3_alg».proof.Proof.RefValueOut
import proofs.«419215_j38122129719724_3_alg».proof.Proof.RefValueLoss
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.KRun.frame (F := Bits) m ρ
theorem frame_ki : Cert.frame_KernelIdeal := fun m ρ _ => Cert.KernelIdeal.KRun.frame (F := Ideal) m ρ
theorem frame_ri : Cert.frame_ReferenceIdeal := fun m ρ _ =>
  (θ_run Cert.ReferenceIdeal.defs _ _).mono (fun _ h c => (h c).2.2) (Cert.ReferenceIdeal.RefChain.run' (F := Ideal) m ρ)

theorem preserves : Cert.preserves_Kernel_KernelIdeal :=
  ⟨IdealRules.named_const.statement Cert.KernelIdeal.κ "inv_1000000000000000000000000000000" .f32 0x0DA24260#32 ((1 / 1000000000000000000000000000000 : ℝ) : EReal) rfl,
   IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "inv_1000000000000000000000000000000" .f32 0x0DA24260#32 ((1 / 1000000000000000000000000000000 : ℝ) : EReal) rfl,
   IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "inv_1000000000000000000000000000000" .f32 0x0DA24260#32 ((1 / 1000000000000000000000000000000 : ℝ) : EReal) rfl⟩

open Cert.KernelIdeal Cert.KernelIdeal.Gen Cert.KernelIdeal.KRun in

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = W9 m c (Proc.devRef .tc main_v14)
      ∧ r.2.mem ((c.tc : Thread nD τ).loc main_v17) = W9 m c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v14 (by decide)), h c _ (mem_uc main_v17 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c)⟩) (run_all m ρ)

theorem first_result_eq
    (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = fun _ => 1#1) :
    Cert.ReferenceIdeal.ReadP.val_main_v41 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      = Cert.KernelIdeal.KRun.W9 m c (Proc.devRef .tc Cert.KernelIdeal.main_v14) := by
  have hok := Cert.PreFacts.ok_of_pre _ _ _ _ _ _ _ hpre
  funext i
  rw [eq_ix1 i]
  exact (Cert.ReferenceIdeal.RefValue.out_entry _ _ _ _ _ _ _ hok (i 0)).trans (Cert.KernelIdeal.KValue.out_eq m c hok (i 0)).symm

theorem algebraic : Cert.algebraic_KernelIdeal_ReferenceIdeal := by
  intro m ρ m' ρ' hpre hagree
  refine ⟨fun c => Cert.KernelIdeal.KRun.W9 m c (Proc.devRef .tc Cert.KernelIdeal.main_v14),
    fun c => Cert.KernelIdeal.KRun.W9 m c (Proc.devRef .tc Cert.KernelIdeal.main_v17), kernel_run m ρ, ?_⟩
  refine (θ_run Cert.ReferenceIdeal.defs _ _).mono (fun r h c => ?_) (Cert.ReferenceIdeal.RefChain.run' (F := Ideal) m' ρ')
  obtain ⟨h0, h1, h2, h3, h4, h5, h6⟩ := hagree c
  have e41 : Cert.ReferenceIdeal.ReadP.val_main_v41 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      = Cert.KernelIdeal.KRun.W9 m c (Proc.devRef .tc Cert.KernelIdeal.main_v14) := by
    rw [h0, h1, h2, h3, h4, h5, h6]; exact first_result_eq m c (hpre c)
  refine ⟨(h c).1.trans e41, (h c).2.1.trans ?_, (h c).2.2⟩

  rw [Cert.ReferenceIdeal.RefValue.loss_eq, e41]
  exact Eq.trans rfl (Cert.KernelIdeal.KRun.W9_v17 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
